-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v157)) (v1 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_v146) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_v267) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S200000x128 : Shape := ⟨2, ![200000, 128]⟩
abbrev S20000x128 : Shape := ⟨2, ![20000, 128]⟩
abbrev S128x64 : Shape := ⟨2, ![128, 64]⟩
abbrev S128 : Shape := ⟨1, ![128]⟩
abbrev S2x4x128x128 : Shape := ⟨4, ![2, 4, 128, 128]⟩
abbrev S2x4x128 : Shape := ⟨3, ![2, 4, 128]⟩
abbrev S800000 : Shape := ⟨1, ![800000]⟩
abbrev S400000 : Shape := ⟨1, ![400000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S20000x128 : S_.BroadcastsInDim S20000x128 (![] : Fin 0 → Fin S20000x128.rank)
  reducesTo_S20000x128_S_d0_1 : S20000x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_
  bcast_S_S800000 : S_.BroadcastsInDim S800000 (![] : Fin 0 → Fin S800000.rank)
  reducesTo_S800000_S_d0 : S800000.ReducesTo [0] S_
  bcast_S_S400000 : S_.BroadcastsInDim S400000 (![] : Fin 0 → Fin S400000.rank)
  reducesTo_S400000_S_d0 : S400000.ReducesTo [0] S_

variable [Facts]

def fn_part4 {F : FTy → Type} [FloatOps F] (main_arg11 : IVec S400000 32) (main_v62 : IVec S_ 1) (main_v65 : IVec S_ 1) : IVec S_ 1 :=
  let main_v66 : IVec S_ 1 := andi main_v62 main_v65
  let main_c_28 : IVec S_ 32 := constantI S_ 32 20000#32
  let main_v67 : IVec S400000 32 := broadcastInDim S400000 ![] bcast_S_S400000 main_c_28
  let main_v68 : IVec S400000 1 := cmpi .slt main_arg11 main_v67
  let main_c_29 : IVec S_ 1 := constantI S_ 1 1#1
  let main_v69 : IVec S_ 1 := (fun x v => Host.reduce IntOp.andi x v reducesTo_S400000_S_d0 h_S_) main_v68 main_c_29
  let main_v70 : IVec S_ 1 := andi main_v66 main_v69
  main_v70

def fn_part3 {F : FTy → Type} [FloatOps F] (main_arg9 : IVec S800000 32) (main_arg10 : IVec S400000 32) (main_arg11 : IVec S400000 32) (main_v46 : IVec S_ 1) (main_v49 : IVec S_ 1) : IVec S_ 1 :=
  let main_v50 : IVec S_ 1 := andi main_v46 main_v49
  let main_c_20 : IVec S_ 32 := constantI S_ 32 50000#32
  let main_v51 : IVec S800000 32 := broadcastInDim S800000 ![] bcast_S_S800000 main_c_20
  let main_v52 : IVec S800000 1 := cmpi .slt main_arg9 main_v51
  let main_c_21 : IVec S_ 1 := constantI S_ 1 1#1
  let main_v53 : IVec S_ 1 := (fun x v => Host.reduce IntOp.andi x v reducesTo_S800000_S_d0 h_S_) main_v52 main_c_21
  let main_v54 : IVec S_ 1 := andi main_v50 main_v53
  let main_c_22 : IVec S_ 32 := constantI S_ 32 0#32
  let main_v55 : IVec S400000 32 := broadcastInDim S400000 ![] bcast_S_S400000 main_c_22
  let main_v56 : IVec S400000 1 := cmpi .sge main_arg10 main_v55
  let main_c_23 : IVec S_ 1 := constantI S_ 1 1#1
  let main_v57 : IVec S_ 1 := (fun x v => Host.reduce IntOp.andi x v reducesTo_S400000_S_d0 h_S_) main_v56 main_c_23
  let main_v58 : IVec S_ 1 := andi main_v54 main_v57
  let main_c_24 : IVec S_ 32 := constantI S_ 32 50000#32
  let main_v59 : IVec S400000 32 := broadcastInDim S400000 ![] bcast_S_S400000 main_c_24
  let main_v60 : IVec S400000 1 := cmpi .slt main_arg10 main_v59
  let main_c_25 : IVec S_ 1 := constantI S_ 1 1#1
  let main_v61 : IVec S_ 1 := (fun x v => Host.reduce IntOp.andi x v reducesTo_S400000_S_d0 h_S_) main_v60 main_c_25
  let main_v62 : IVec S_ 1 := andi main_v58 main_v61
  let main_c_26 : IVec S_ 32 := constantI S_ 32 0#32
  let main_v63 : IVec S400000 32 := broadcastInDim S400000 ![] bcast_S_S400000 main_c_26
  let main_v64 : IVec S400000 1 := cmpi .sge main_arg11 main_v63
  let main_c_27 : IVec S_ 1 := constantI S_ 1 1#1
  let main_v65 : IVec S_ 1 := (fun x v => Host.reduce IntOp.andi x v reducesTo_S400000_S_d0 h_S_) main_v64 main_c_27
  fn_part4 (F := F) main_arg11 main_v62 main_v65

def fn_part2 {F : FTy → Type} [FloatOps F] (main_arg7 : FVec F S2x4x128 .f32) (main_arg8 : IVec S800000 32) (main_arg9 : IVec S800000 32) (main_arg10 : IVec S400000 32) (main_arg11 : IVec S400000 32) (main_v33 : IVec S_ 1) : IVec S_ 1 :=
  let main_v34 : FVec F S2x4x128 .f32 := Host.absf main_arg7
  let main_cst_12 : FVec F S_ .f32 := constant S_ .f32 0x7F800000#32
  let main_v35 : FVec F S2x4x128 .f32 := broadcastInDim S2x4x128 ![] bcast_S_S2x4x128 main_cst_12
  let main_v36 : IVec S2x4x128 1 := cmpf .olt main_v34 main_v35
  let main_c_13 : IVec S_ 1 := constantI S_ 1 1#1
  let main_v37 : IVec S_ 1 := (fun x v => Host.reduce IntOp.andi x v reducesTo_S2x4x128_S_d0_1_2 h_S_) main_v36 main_c_13
  let main_v38 : IVec S_ 1 := andi main_v33 main_v37
  let main_c_14 : IVec S_ 32 := constantI S_ 32 0#32
  let main_v39 : IVec S800000 32 := broadcastInDim S800000 ![] bcast_S_S800000 main_c_14
  let main_v40 : IVec S800000 1 := cmpi .sge main_arg8 main_v39
  let main_c_15 : IVec S_ 1 := constantI S_ 1 1#1
  let main_v41 : IVec S_ 1 := (fun x v => Host.reduce IntOp.andi x v reducesTo_S800000_S_d0 h_S_) main_v40 main_c_15
  let main_v42 : IVec S_ 1 := andi main_v38 main_v41
  let main_c_16 : IVec S_ 32 := constantI S_ 32 200000#32
  let main_v43 : IVec S800000 32 := broadcastInDim S800000 ![] bcast_S_S800000 main_c_16
  let main_v44 : IVec S800000 1 := cmpi .slt main_arg8 main_v43
  let main_c_17 : IVec S_ 1 := constantI S_ 1 1#1
  let main_v45 : IVec S_ 1 := (fun x v => Host.reduce IntOp.andi x v reducesTo_S800000_S_d0 h_S_) main_v44 main_c_17
  let main_v46 : IVec S_ 1 := andi main_v42 main_v45
  let main_c_18 : IVec S_ 32 := constantI S_ 32 0#32
  let main_v47 : IVec S800000 32 := broadcastInDim S800000 ![] bcast_S_S800000 main_c_18
  let main_v48 : IVec S800000 1 := cmpi .sge main_arg9 main_v47
  let main_c_19 : IVec S_ 1 := constantI S_ 1 1#1
  let main_v49 : IVec S_ 1 := (fun x v => Host.reduce IntOp.andi x v reducesTo_S800000_S_d0 h_S_) main_v48 main_c_19
  fn_part3 (F := F) main_arg9 main_arg10 main_arg11 main_v46 main_v49

def fn_part1 {F : FTy → Type} [FloatOps F] (main_arg4 : FVec F S128 .f32) (main_arg5 : FVec F S2x4x128x128 .f32) (main_arg6 : FVec F S2x4x128x128 .f32) (main_arg7 : FVec F S2x4x128 .f32) (main_arg8 : IVec S800000 32) (main_arg9 : IVec S800000 32) (main_arg10 : IVec S400000 32) (main_arg11 : IVec S400000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x4x128x128 .f32 := Host.absf main_arg5
  let main_cst_8 : FVec F S_ .f32 := constant S_ .f32 0x7F800000#32
  let main_v25 : FVec F S2x4x128x128 .f32 := broadcastInDim S2x4x128x128 ![] bcast_S_S2x4x128x128 main_cst_8
  let main_v26 : IVec S2x4x128x128 1 := cmpf .olt main_v24 main_v25
  let main_c_9 : IVec S_ 1 := constantI S_ 1 1#1
  let main_v27 : IVec S_ 1 := (fun x v => Host.reduce IntOp.andi x v reducesTo_S2x4x128x128_S_d0_1_2_3 h_S_) main_v26 main_c_9
  let main_v28 : IVec S_ 1 := andi main_v23 main_v27
  let main_v29 : FVec F S2x4x128x128 .f32 := Host.absf main_arg6
  let main_cst_10 : FVec F S_ .f32 := constant S_ .f32 0x7F800000#32
  let main_v30 : FVec F S2x4x128x128 .f32 := broadcastInDim S2x4x128x128 ![] bcast_S_S2x4x128x128 main_cst_10
  let main_v31 : IVec S2x4x128x128 1 := cmpf .olt main_v29 main_v30
  let main_c_11 : IVec S_ 1 := constantI S_ 1 1#1
  let main_v32 : IVec S_ 1 := (fun x v => Host.reduce IntOp.andi x v reducesTo_S2x4x128x128_S_d0_1_2_3 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x64 .f32) (main_arg1 : FVec F S200000x128 .f32) (main_arg2 : FVec F S20000x128 .f32) (main_arg3 : FVec F S128x64 .f32) (main_arg4 : FVec F S128 .f32) (main_arg5 : FVec F S2x4x128x128 .f32) (main_arg6 : FVec F S2x4x128x128 .f32) (main_arg7 : FVec F S2x4x128 .f32) (main_arg8 : IVec S800000 32) (main_arg9 : IVec S800000 32) (main_arg10 : IVec S400000 32) (main_arg11 : IVec S400000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S20000x128 .f32 := Host.absf main_arg2
  let main_cst_2 : FVec F S_ .f32 := constant S_ .f32 0x7F800000#32
  let main_v10 : FVec F S20000x128 .f32 := broadcastInDim S20000x128 ![] bcast_S_S20000x128 main_cst_2
  let main_v11 : IVec S20000x128 1 := cmpf .olt main_v9 main_v10
  let main_c_3 : IVec S_ 1 := constantI S_ 1 1#1
  let main_v12 : IVec S_ 1 := (fun x v => Host.reduce IntOp.andi x v reducesTo_S20000x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_v13 main_v16
-- ==== Kernel.lean ====
abbrev S50000x64 : Shape := ⟨2, ![50000, 64]⟩
abbrev S200000x128 : Shape := ⟨2, ![200000, 128]⟩
abbrev S20000x128 : Shape := ⟨2, ![20000, 128]⟩
abbrev S128x64 : Shape := ⟨2, ![128, 64]⟩
abbrev S128 : Shape := ⟨1, ![128]⟩
abbrev S2x4x128x128 : Shape := ⟨4, ![2, 4, 128, 128]⟩
abbrev S2x4x128 : Shape := ⟨3, ![2, 4, 128]⟩
abbrev S800000 : Shape := ⟨1, ![800000]⟩
abbrev S400000 : Shape := ⟨1, ![400000]⟩
abbrev S64x128 : Shape := ⟨2, ![64, 128]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S2x4x1x128 : Shape := ⟨4, ![2, 4, 1, 128]⟩
abbrev S_ : Shape := ⟨0, ![]⟩
abbrev S800000x1 : Shape := ⟨2, ![800000, 1]⟩
abbrev S50000x1 : Shape := ⟨2, ![50000, 1]⟩
abbrev S200000x1 : Shape := ⟨2, ![200000, 1]⟩
abbrev S400000x1 : Shape := ⟨2, ![400000, 1]⟩
abbrev S20000x1 : Shape := ⟨2, ![20000, 1]⟩
abbrev S1x50000x1 : Shape := ⟨3, ![1, 50000, 1]⟩
abbrev S2x50000x1 : Shape := ⟨3, ![2, 50000, 1]⟩
abbrev S1x200000x1 : Shape := ⟨3, ![1, 200000, 1]⟩
abbrev S1x20000x1 : Shape := ⟨3, ![1, 20000, 1]⟩
abbrev S1 : Shape := ⟨1, ![1]⟩
abbrev S1x1 : Shape := ⟨2, ![1, 1]⟩
abbrev S800000x128 : Shape := ⟨2, ![800000, 128]⟩
abbrev S400000x128 : Shape := ⟨2, ![400000, 128]⟩
abbrev S1x50000x128 : Shape := ⟨3, ![1, 50000, 128]⟩
abbrev S2x50000x128 : Shape := ⟨3, ![2, 50000, 128]⟩
abbrev S1x1x128x128 : Shape := ⟨4, ![1, 1, 128, 128]⟩
abbrev S128x128 : Shape := ⟨2, ![128, 128]⟩
abbrev S1x128x128 : Shape := ⟨3, ![1, 128, 128]⟩
abbrev S2x128x128 : Shape := ⟨3, ![2, 128, 128]⟩
abbrev S1x1x1x128 : Shape := ⟨4, ![1, 1, 1, 128]⟩
abbrev S1x1x128 : Shape := ⟨3, ![1, 1, 128]⟩
abbrev S2x1x128 : Shape := ⟨3, ![2, 1, 128]⟩
abbrev S2x5000x128 : Shape := ⟨3, ![2, 5000, 128]⟩
abbrev S2x5000x1 : Shape := ⟨3, ![2, 5000, 1]⟩
abbrev S1x5000x128 : Shape := ⟨3, ![1, 5000, 128]⟩
abbrev S1x5000x1 : Shape := ⟨3, ![1, 5000, 1]⟩
abbrev S5000x1 : Shape := ⟨2, ![5000, 1]⟩
abbrev S1x200000x128 : Shape := ⟨3, ![1, 200000, 128]⟩
abbrev S4000x128 : Shape := ⟨2, ![4000, 128]⟩
abbrev S1x4000x128 : Shape := ⟨3, ![1, 4000, 128]⟩
abbrev S1x4000x1 : Shape := ⟨3, ![1, 4000, 1]⟩
abbrev S4000x1 : Shape := ⟨2, ![4000, 1]⟩
abbrev S1x20000x128 : Shape := ⟨3, ![1, 20000, 128]⟩
abbrev S2000x128 : Shape := ⟨2, ![2000, 128]⟩
abbrev S1x2000x128 : Shape := ⟨3, ![1, 2000, 128]⟩
abbrev S1x2000x1 : Shape := ⟨3, ![1, 2000, 1]⟩
abbrev S2000x1 : Shape := ⟨2, ![2000, 1]⟩

abbrev nBuf : Space → Nat
  | .hbm => 381
  | .vmem => 72
  | .smem => 0
  | _ => 0

abbrev hbmTy0_0 (i : Nat) : BufTy := match i % 128 with
  | 0 => ⟨S50000x64, .f32⟩
  | 1 => ⟨S200000x128, .f32⟩
  | 2 => ⟨S20000x128, .f32⟩
  | 3 => ⟨S128x64, .f32⟩
  | 4 => ⟨S128, .f32⟩
  | 5 => ⟨S2x4x128x128, .f32⟩
  | 6 => ⟨S2x4x128x128, .f32⟩
  | 7 => ⟨S2x4x128, .f32⟩
  | 8 => ⟨S800000, .i32⟩
  | 9 => ⟨S800000, .i32⟩
  | 10 => ⟨S400000, .i32⟩
  | 11 => ⟨S400000, .i32⟩
  | 12 => ⟨S64x128, .f32⟩
  | 13 => ⟨S1x128, .f32⟩
  | 14 => ⟨S50000x128, .f32⟩
  | 15 => ⟨S2x4x128x128, .f32⟩
  | 16 => ⟨S2x4x128x128, .f32⟩
  | 17 => ⟨S2x4x1x128, .f32⟩
  | 18 => ⟨S_, .f32⟩
  | 19 => ⟨S800000x1, .f32⟩
  | 20 => ⟨S_, .f32⟩
  | 21 => ⟨S50000x1, .f32⟩
  | 22 => ⟨S800000x1, .i32⟩
  | 23 => ⟨S50000x1, .f32⟩
  | 24 => ⟨S_, .f32⟩
  | 25 => ⟨S50000x1, .f32⟩
  | 26 => ⟨S50000x1, .f32⟩
  | 27 => ⟨S_, .f32⟩
  | 28 => ⟨S50000x1, .f32⟩
  | 29 => ⟨S50000x1, .f32⟩
  | 30 => ⟨S_, .f32⟩
  | 31 => ⟨S800000x1, .f32⟩
  | 32 => ⟨S_, .f32⟩
  | 33 => ⟨S200000x1, .f32⟩
  | 34 => ⟨S800000x1, .i32⟩
  | 35 => ⟨S200000x1, .f32⟩
  | 36 => ⟨S_, .f32⟩
  | 37 => ⟨S200000x1, .f32⟩
  | 38 => ⟨S200000x1, .f32⟩
  | 39 => ⟨S_, .f32⟩
  | 40 => ⟨S200000x1, .f32⟩
  | 41 => ⟨S200000x1, .f32⟩
  | 42 => ⟨S_, .f32⟩
  | 43 => ⟨S400000x1, .f32⟩
  | 44 => ⟨S_, .f32⟩
  | 45 => ⟨S20000x1, .f32⟩
  | 46 => ⟨S400000x1, .i32⟩
  | 47 => ⟨S20000x1, .f32⟩
  | 48 => ⟨S_, .f32⟩
  | 49 => ⟨S20000x1, .f32⟩
  | 50 => ⟨S20000x1, .f32⟩
  | 51 => ⟨S_, .f32⟩
  | 52 => ⟨S20000x1, .f32⟩
  | 53 => ⟨S20000x1, .f32⟩
  | 54 => ⟨S_, .f32⟩
  | 55 => ⟨S400000x1, .f32⟩
  | 56 => ⟨S_, .f32⟩
  | 57 => ⟨S50000x1, .f32⟩
  | 58 => ⟨S400000x1, .i32⟩
  | 59 => ⟨S50000x1, .f32⟩
  | 60 => ⟨S_, .f32⟩
  | 61 => ⟨S50000x1, .f32⟩
  | 62 => ⟨S50000x1, .f32⟩
  | 63 => ⟨S_, .f32⟩
  | 64 => ⟨S50000x1, .f32⟩
  | 65 => ⟨S50000x1, .f32⟩
  | 66 => ⟨S1x50000x1, .f32⟩
  | 67 => ⟨S1x50000x1, .f32⟩
  | 68 => ⟨S2x50000x1, .f32⟩
  | 69 => ⟨S1x200000x1, .f32⟩
  | 70 => ⟨S1x20000x1, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S1, .i32⟩
  | 80 => ⟨S_, .i32⟩
  | 81 => ⟨S800000x1, .i32⟩
  | 82 => ⟨S800000x1, .i1⟩
  | 83 => ⟨S1x1, .i32⟩
  | 84 => ⟨S800000x1, .i32⟩
  | 85 => ⟨S800000x1, .i1⟩
  | 86 => ⟨S800000x1, .i1⟩
  | 87 => ⟨S_, .i1⟩
  | 88 => ⟨S800000, .i1⟩
  | 89 => ⟨S800000x128, .f32⟩
  | 90 => ⟨S800000x128, .i1⟩
  | 91 => ⟨S_, .f32⟩
  | 92 => ⟨S800000x128, .f32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S1, .i32⟩
  | 107 => ⟨S_, .i32⟩
  | 108 => ⟨S400000x1, .i32⟩
  | 109 => ⟨S400000x1, .i1⟩
  | 110 => ⟨S1x1, .i32⟩
  | 111 => ⟨S400000x1, .i32⟩
  | 112 => ⟨S400000x1, .i1⟩
  | 113 => ⟨S400000x1, .i1⟩
  | 114 => ⟨S_, .i1⟩
  | 115 => ⟨S400000, .i1⟩
  | 116 => ⟨S400000x128, .f32⟩
  | 117 => ⟨S400000x128, .i1⟩
  | 118 => ⟨S_, .f32⟩
  | 119 => ⟨S400000x128, .f32⟩
  | 120 => ⟨S400000x128, .f32⟩
  | 121 => ⟨S_, .f32⟩
  | 122 => ⟨S50000x128, .f32⟩
  | 123 => ⟨S400000x1, .i32⟩
  | 124 => ⟨S50000x128, .f32⟩
  | 125 => ⟨S_, .i32⟩
  | 126 => ⟨S800000, .i32⟩
  | 127 => ⟨S800000, .i1⟩
  | _ => ⟨S50000x64, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S1, .i32⟩
  | 6 => ⟨S_, .i32⟩
  | 7 => ⟨S800000x1, .i32⟩
  | 8 => ⟨S800000x1, .i1⟩
  | 9 => ⟨S1x1, .i32⟩
  | 10 => ⟨S800000x1, .i32⟩
  | 11 => ⟨S800000x1, .i1⟩
  | 12 => ⟨S800000x1, .i1⟩
  | 13 => ⟨S_, .i1⟩
  | 14 => ⟨S800000, .i1⟩
  | 15 => ⟨S800000x128, .f32⟩
  | 16 => ⟨S800000x128, .i1⟩
  | 17 => ⟨S_, .f32⟩
  | 18 => ⟨S800000x128, .f32⟩
  | 19 => ⟨S800000x128, .f32⟩
  | 20 => ⟨S_, .f32⟩
  | 21 => ⟨S200000x128, .f32⟩
  | 22 => ⟨S800000x1, .i32⟩
  | 23 => ⟨S200000x128, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S1, .i32⟩
  | 33 => ⟨S_, .i32⟩
  | 34 => ⟨S400000x1, .i32⟩
  | 35 => ⟨S400000x1, .i1⟩
  | 36 => ⟨S1x1, .i32⟩
  | 37 => ⟨S400000x1, .i32⟩
  | 38 => ⟨S400000x1, .i1⟩
  | 39 => ⟨S400000x1, .i1⟩
  | 40 => ⟨S_, .i1⟩
  | 41 => ⟨S400000, .i1⟩
  | 42 => ⟨S400000x128, .f32⟩
  | 43 => ⟨S400000x128, .i1⟩
  | 44 => ⟨S_, .f32⟩
  | 45 => ⟨S400000x128, .f32⟩
  | 46 => ⟨S400000x128, .f32⟩
  | 47 => ⟨S_, .f32⟩
  | 48 => ⟨S20000x128, .f32⟩
  | 49 => ⟨S400000x1, .i32⟩
  | 50 => ⟨S20000x128, .f32⟩
  | 51 => ⟨S1x50000x128, .f32⟩
  | 52 => ⟨S1x50000x128, .f32⟩
  | 53 => ⟨S2x50000x128, .f32⟩
  | 54 => ⟨S1x1x128x128, .f32⟩
  | 55 => ⟨S128x128, .f32⟩
  | 56 => ⟨S1x1x128x128, .f32⟩
  | 57 => ⟨S128x128, .f32⟩
  | 58 => ⟨S1x128x128, .f32⟩
  | 59 => ⟨S1x128x128, .f32⟩
  | 60 => ⟨S2x128x128, .f32⟩
  | 61 => ⟨S1x1x1x128, .f32⟩
  | 62 => ⟨S1x128, .f32⟩
  | 63 => ⟨S1x1x1x128, .f32⟩
  | 64 => ⟨S1x128, .f32⟩
  | 65 => ⟨S1x1x128, .f32⟩
  | 66 => ⟨S1x1x128, .f32⟩
  | 67 => ⟨S2x1x128, .f32⟩
  | 68 => ⟨S1x1x128x128, .f32⟩
  | 69 => ⟨S128x128, .f32⟩
  | 70 => ⟨S1x1x128x128, .f32⟩
  | 71 => ⟨S128x128, .f32⟩
  | 72 => ⟨S1x128x128, .f32⟩
  | 73 => ⟨S1x128x128, .f32⟩
  | 74 => ⟨S2x128x128, .f32⟩
  | 75 => ⟨S50000x128, .f32⟩
  | 76 => ⟨S1x200000x128, .f32⟩
  | 77 => ⟨S1x1x128x128, .f32⟩
  | 78 => ⟨S128x128, .f32⟩
  | 79 => ⟨S1x128x128, .f32⟩
  | 80 => ⟨S1x1x1x128, .f32⟩
  | 81 => ⟨S1x128, .f32⟩
  | 82 => ⟨S1x1x128, .f32⟩
  | 83 => ⟨S1x1x128x128, .f32⟩
  | 84 => ⟨S128x128, .f32⟩
  | 85 => ⟨S1x128x128, .f32⟩
  | 86 => ⟨S200000x128, .f32⟩
  | 87 => ⟨S1x20000x128, .f32⟩
  | 88 => ⟨S1x1x128x128, .f32⟩
  | 89 => ⟨S128x128, .f32⟩
  | 90 => ⟨S1x128x128, .f32⟩
  | 91 => ⟨S1x1x1x128, .f32⟩
  | 92 => ⟨S1x128, .f32⟩
  | 93 => ⟨S1x1x128, .f32⟩
  | 94 => ⟨S1x1x128x128, .f32⟩
  | 95 => ⟨S128x128, .f32⟩
  | 96 => ⟨S1x128x128, .f32⟩
  | 97 => ⟨S20000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S1, .i32⟩
  | 107 => ⟨S_, .i32⟩
  | 108 => ⟨S800000x1, .i32⟩
  | 109 => ⟨S800000x1, .i1⟩
  | 110 => ⟨S1x1, .i32⟩
  | 111 => ⟨S800000x1, .i32⟩
  | 112 => ⟨S800000x1, .i1⟩
  | 113 => ⟨S800000x1, .i1⟩
  | 114 => ⟨S_, .i1⟩
  | 115 => ⟨S800000, .i1⟩
  | 116 => ⟨S800000x128, .f32⟩
  | 117 => ⟨S800000x128, .i1⟩
  | 118 => ⟨S_, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S_, .i32⟩
  | 126 => ⟨S400000, .i32⟩
  | 127 => ⟨S400000, .i1⟩
  | _ => ⟨S50000x64, .f32⟩

abbrev hbmTy0_2 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S1, .i32⟩
  | 6 => ⟨S_, .i32⟩
  | 7 => ⟨S400000x1, .i32⟩
  | 8 => ⟨S400000x1, .i1⟩
  | 9 => ⟨S1x1, .i32⟩
  | 10 => ⟨S400000x1, .i32⟩
  | 11 => ⟨S400000x1, .i1⟩
  | 12 => ⟨S400000x1, .i1⟩
  | 13 => ⟨S_, .i1⟩
  | 14 => ⟨S400000, .i1⟩
  | 15 => ⟨S400000x128, .f32⟩
  | 16 => ⟨S400000x128, .i1⟩
  | 17 => ⟨S_, .f32⟩
  | 18 => ⟨S400000x128, .f32⟩
  | 19 => ⟨S400000x128, .f32⟩
  | 20 => ⟨S_, .f32⟩
  | 21 => ⟨S50000x128, .f32⟩
  | 22 => ⟨S400000x1, .i32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x128, .f32⟩
  | 43 => ⟨S800000x128, .i1⟩
  | 44 => ⟨S_, .f32⟩
  | 45 => ⟨S800000x128, .f32⟩
  | 46 => ⟨S800000x128, .f32⟩
  | 47 => ⟨S_, .f32⟩
  | 48 => ⟨S200000x128, .f32⟩
  | 49 => ⟨S800000x1, .i32⟩
  | 50 => ⟨S200000x128, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S1, .i32⟩
  | 60 => ⟨S_, .i32⟩
  | 61 => ⟨S400000x1, .i32⟩
  | 62 => ⟨S400000x1, .i1⟩
  | 63 => ⟨S1x1, .i32⟩
  | 64 => ⟨S400000x1, .i32⟩
  | 65 => ⟨S400000x1, .i1⟩
  | 66 => ⟨S400000x1, .i1⟩
  | 67 => ⟨S_, .i1⟩
  | 68 => ⟨S400000, .i1⟩
  | 69 => ⟨S400000x128, .f32⟩
  | 70 => ⟨S400000x128, .i1⟩
  | 71 => ⟨S_, .f32⟩
  | 72 => ⟨S400000x128, .f32⟩
  | 73 => ⟨S400000x128, .f32⟩
  | 74 => ⟨S_, .f32⟩
  | 75 => ⟨S20000x128, .f32⟩
  | 76 => ⟨S400000x1, .i32⟩
  | 77 => ⟨S20000x128, .f32⟩
  | 78 => ⟨S1x50000x128, .f32⟩
  | 79 => ⟨S1x50000x128, .f32⟩
  | 80 => ⟨S2x50000x128, .f32⟩
  | 81 => ⟨S1x1x128x128, .f32⟩
  | 82 => ⟨S128x128, .f32⟩
  | 83 => ⟨S1x1x128x128, .f32⟩
  | 84 => ⟨S128x128, .f32⟩
  | 85 => ⟨S1x128x128, .f32⟩
  | 86 => ⟨S1x128x128, .f32⟩
  | 87 => ⟨S2x128x128, .f32⟩
  | 88 => ⟨S1x1x1x128, .f32⟩
  | 89 => ⟨S1x128, .f32⟩
  | 90 => ⟨S1x1x1x128, .f32⟩
  | 91 => ⟨S1x128, .f32⟩
  | 92 => ⟨S1x1x128, .f32⟩
  | 93 => ⟨S1x1x128, .f32⟩
  | 94 => ⟨S2x1x128, .f32⟩
  | 95 => ⟨S1x1x128x128, .f32⟩
  | 96 => ⟨S128x128, .f32⟩
  | 97 => ⟨S1x1x128x128, .f32⟩
  | 98 => ⟨S128x128, .f32⟩
  | 99 => ⟨S1x128x128, .f32⟩
  | 100 => ⟨S1x128x128, .f32⟩
  | 101 => ⟨S2x128x128, .f32⟩
  | 102 => ⟨S50000x128, .f32⟩
  | 103 => ⟨S1x200000x128, .f32⟩
  | 104 => ⟨S1x1x128x128, .f32⟩
  | 105 => ⟨S128x128, .f32⟩
  | 106 => ⟨S1x128x128, .f32⟩
  | 107 => ⟨S1x1x1x128, .f32⟩
  | 108 => ⟨S1x128, .f32⟩
  | 109 => ⟨S1x1x128, .f32⟩
  | 110 => ⟨S1x1x128x128, .f32⟩
  | 111 => ⟨S128x128, .f32⟩
  | 112 => ⟨S1x128x128, .f32⟩
  | 113 => ⟨S200000x128, .f32⟩
  | 114 => ⟨S1x20000x128, .f32⟩
  | 115 => ⟨S1x1x128x128, .f32⟩
  | 116 => ⟨S128x128, .f32⟩
  | 117 => ⟨S1x128x128, .f32⟩
  | 118 => ⟨S1x1x1x128, .f32⟩
  | 119 => ⟨S1x128, .f32⟩
  | 120 => ⟨S1x1x128, .f32⟩
  | 121 => ⟨S1x1x128x128, .f32⟩
  | 122 => ⟨S128x128, .f32⟩
  | 123 => ⟨S1x128x128, .f32⟩
  | 124 => ⟨S20000x128, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S2x128x128, .f32⟩
  | .local _ .vmem, ⟨9, _⟩ => ⟨S2x1x128, .f32⟩
  | .local _ .vmem, ⟨10, _⟩ => ⟨S2x128x128, .f32⟩
  | .local _ .vmem, ⟨11, _⟩ => ⟨S2x5000x128, .f32⟩
  | .local _ .vmem, ⟨12, _⟩ => ⟨S2x5000x128, .f32⟩
  | .local _ .vmem, ⟨13, _⟩ => ⟨S2x5000x1, .f32⟩
  | .local _ .vmem, ⟨14, _⟩ => ⟨S2x5000x1, .f32⟩
  | .local _ .vmem, ⟨15, _⟩ => ⟨S5000x128, .f32⟩
  | .local _ .vmem, ⟨16, _⟩ => ⟨S5000x128, .f32⟩
  | .local _ .vmem, ⟨17, _⟩ => ⟨S4000x128, .f32⟩
  | .local _ .vmem, ⟨18, _⟩ => ⟨S4000x128, .f32⟩
  | .local _ .vmem, ⟨19, _⟩ => ⟨S1x128x128, .f32⟩
  | .local _ .vmem, ⟨20, _⟩ => ⟨S1x1x128, .f32⟩
  | .local _ .vmem, ⟨21, _⟩ => ⟨S1x128x128, .f32⟩
  | .local _ .vmem, ⟨22, _⟩ => ⟨S1x4000x128, .f32⟩
  | .local _ .vmem, ⟨23, _⟩ => ⟨S1x4000x128, .f32⟩
  | .local _ .vmem, ⟨24, _⟩ => ⟨S1x4000x1, .f32⟩
  | .local _ .vmem, ⟨25, _⟩ => ⟨S1x4000x1, .f32⟩
  | .local _ .vmem, ⟨26, _⟩ => ⟨S4000x128, .f32⟩
  | .local _ .vmem, ⟨27, _⟩ => ⟨S4000x128, .f32⟩
  | .local _ .vmem, ⟨28, _⟩ => ⟨S2000x128, .f32⟩
  | .local _ .vmem, ⟨29, _⟩ => ⟨S2000x128, .f32⟩
  | .local _ .vmem, ⟨30, _⟩ => ⟨S1x128x128, .f32⟩
  | .local _ .vmem, ⟨31, _⟩ => ⟨S1x1x128, .f32⟩
  | .local _ .vmem, ⟨32, _⟩ => ⟨S1x128x128, .f32⟩
  | .local _ .vmem, ⟨33, _⟩ => ⟨S1x2000x128, .f32⟩
  | .local _ .vmem, ⟨34, _⟩ => ⟨S1x2000x128, .f32⟩
  | .local _ .vmem, ⟨35, _⟩ => ⟨S1x2000x1, .f32⟩
  | .local _ .vmem, ⟨36, _⟩ => ⟨S1x2000x1, .f32⟩
  | .local _ .vmem, ⟨37, _⟩ => ⟨S2000x128, .f32⟩
  | .local _ .vmem, ⟨38, _⟩ => ⟨S2000x128, .f32⟩
  | .local _ .vmem, ⟨39, _⟩ => ⟨S5000x128, .f32⟩
  | .local _ .vmem, ⟨40, _⟩ => ⟨S5000x128, .f32⟩
  | .local _ .vmem, ⟨41, _⟩ => ⟨S2x128x128, .f32⟩
  | .local _ .vmem, ⟨42, _⟩ => ⟨S2x1x128, .f32⟩
  | .local _ .vmem, ⟨43, _⟩ => ⟨S2x128x128, .f32⟩
  | .local _ .vmem, ⟨44, _⟩ => ⟨S2x5000x128, .f32⟩
  | .local _ .vmem, ⟨45, _⟩ => ⟨S2x5000x128, .f32⟩
  | .local _ .vmem, ⟨46, _⟩ => ⟨S2x5000x1, .f32⟩
  | .local _ .vmem, ⟨47, _⟩ => ⟨S2x5000x1, .f32⟩
  | .local _ .vmem, ⟨48, _⟩ => ⟨S5000x128, .f32⟩
  | .local _ .vmem, ⟨49, _⟩ => ⟨S5000x128, .f32⟩
  | .local _ .vmem, ⟨50, _⟩ => ⟨S4000x128, .f32⟩
  | .local _ .vmem, ⟨51, _⟩ => ⟨S4000x128, .f32⟩
  | .local _ .vmem, ⟨52, _⟩ => ⟨S1x128x128, .f32⟩
  | .local _ .vmem, ⟨53, _⟩ => ⟨S1x1x128, .f32⟩
  | .local _ .vmem, ⟨54, _⟩ => ⟨S1x128x128, .f32⟩
  | .local _ .vmem, ⟨55, _⟩ => ⟨S1x4000x128, .f32⟩
  | .local _ .vmem, ⟨56, _⟩ => ⟨S1x4000x128, .f32⟩
  | .local _ .vmem, ⟨57, _⟩ => ⟨S1x4000x1, .f32⟩
  | .local _ .vmem, ⟨58, _⟩ => ⟨S1x4000x1, .f32⟩
  | .local _ .vmem, ⟨59, _⟩ => ⟨S4000x128, .f32⟩
  | .local _ .vmem, ⟨60, _⟩ => ⟨S4000x128, .f32⟩
  | .local _ .vmem, ⟨61, _⟩ => ⟨S2000x128, .f32⟩
  | .local _ .vmem, ⟨62, _⟩ => ⟨S2000x128, .f32⟩
  | .local _ .vmem, ⟨63, _⟩ => ⟨S1x128x128, .f32⟩
  | .local _ .vmem, ⟨64, _⟩ => ⟨S1x1x128, .f32⟩
  | .local _ .vmem, ⟨65, _⟩ => ⟨S1x128x128, .f32⟩
  | .local _ .vmem, ⟨66, _⟩ => ⟨S1x2000x128, .f32⟩
  | .local _ .vmem, ⟨67, _⟩ => ⟨S1x2000x128, .f32⟩
  | .local _ .vmem, ⟨68, _⟩ => ⟨S1x2000x1, .f32⟩
  | .local _ .vmem, ⟨69, _⟩ => ⟨S1x2000x1, .f32⟩
  | .local _ .vmem, ⟨70, _⟩ => ⟨S2000x128, .f32⟩
  | .local _ .vmem, ⟨71, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_cst_10 : Ref sig .tc := ⟨.hbm, 51, rfl⟩
abbrev main_v28 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_cst_12 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_13 : Ref sig .tc := ⟨.hbm, 60, rfl⟩
abbrev main_v34 : Ref sig .tc := ⟨.hbm, 61, rfl⟩
abbrev main_v35 : Ref sig .tc := ⟨.hbm, 62, rfl⟩
abbrev main_cst_14 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call0_c : Ref sig .tc := ⟨.hbm, 71, rfl⟩
abbrev main_call0_v0 : Ref sig .tc := ⟨.hbm, 72, rfl⟩
abbrev main_call0_v1 : Ref sig .tc := ⟨.hbm, 73, rfl⟩
abbrev main_call0_c_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_c_1 : Ref sig .tc := ⟨.hbm, 79, rfl⟩
abbrev main_call0_c_2 : Ref sig .tc := ⟨.hbm, 80, rfl⟩
abbrev main_call0_v6 : Ref sig .tc := ⟨.hbm, 81, rfl⟩
abbrev main_call0_v7 : Ref sig .tc := ⟨.hbm, 82, rfl⟩
abbrev main_call0_v8 : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_c_3 : Ref sig .tc := ⟨.hbm, 87, rfl⟩
abbrev main_call0_v12 : Ref sig .tc := ⟨.hbm, 88, rfl⟩
abbrev main_call0_v13 : Ref sig .tc := ⟨.hbm, 89, rfl⟩
abbrev main_call0_v14 : Ref sig .tc := ⟨.hbm, 90, rfl⟩
abbrev main_call0_cst : Ref sig .tc := ⟨.hbm, 91, rfl⟩
abbrev main_call0_v15 : Ref sig .tc := ⟨.hbm, 92, rfl⟩
abbrev main_v43 : Ref sig .tc := ⟨.hbm, 93, rfl⟩
abbrev main_cst_15 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_call1_c : Ref sig .tc := ⟨.hbm, 98, rfl⟩
abbrev main_call1_v0 : Ref sig .tc := ⟨.hbm, 99, rfl⟩
abbrev main_call1_v1 : Ref sig .tc := ⟨.hbm, 100, rfl⟩
abbrev main_call1_c_0 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_c_1 : Ref sig .tc := ⟨.hbm, 106, rfl⟩
abbrev main_call1_c_2 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_c_3 : Ref sig .tc := ⟨.hbm, 114, rfl⟩
abbrev main_call1_v12 : Ref sig .tc := ⟨.hbm, 115, rfl⟩
abbrev main_call1_v13 : Ref sig .tc := ⟨.hbm, 116, rfl⟩
abbrev main_call1_v14 : Ref sig .tc := ⟨.hbm, 117, rfl⟩
abbrev main_call1_cst : Ref sig .tc := ⟨.hbm, 118, rfl⟩
abbrev main_call1_v15 : Ref sig .tc := ⟨.hbm, 119, rfl⟩
abbrev main_v47 : Ref sig .tc := ⟨.hbm, 120, rfl⟩
abbrev main_cst_16 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_call2_c : Ref sig .tc := ⟨.hbm, 125, rfl⟩
abbrev main_call2_v0 : Ref sig .tc := ⟨.hbm, 126, rfl⟩
abbrev main_call2_v1 : Ref sig .tc := ⟨.hbm, 127, rfl⟩
abbrev main_call2_c_0 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_call2_v5 : Ref sig .tc := ⟨.hbm, 132, rfl⟩
abbrev main_call2_c_1 : Ref sig .tc := ⟨.hbm, 133, rfl⟩
abbrev main_call2_c_2 : Ref sig .tc := ⟨.hbm, 134, rfl⟩
abbrev main_call2_v6 : Ref sig .tc := ⟨.hbm, 135, rfl⟩
abbrev main_call2_v7 : Ref sig .tc := ⟨.hbm, 136, rfl⟩
abbrev main_call2_v8 : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_call2_c_3 : Ref sig .tc := ⟨.hbm, 141, rfl⟩
abbrev main_call2_v12 : Ref sig .tc := ⟨.hbm, 142, rfl⟩
abbrev main_call2_v13 : Ref sig .tc := ⟨.hbm, 143, rfl⟩
abbrev main_call2_v14 : Ref sig .tc := ⟨.hbm, 144, rfl⟩
abbrev main_call2_cst : Ref sig .tc := ⟨.hbm, 145, rfl⟩
abbrev main_call2_v15 : Ref sig .tc := ⟨.hbm, 146, rfl⟩
abbrev main_v51 : Ref sig .tc := ⟨.hbm, 147, rfl⟩
abbrev main_cst_17 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_call3_c : Ref sig .tc := ⟨.hbm, 152, rfl⟩
abbrev main_call3_v0 : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_c_1 : Ref sig .tc := ⟨.hbm, 160, rfl⟩
abbrev main_call3_c_2 : Ref sig .tc := ⟨.hbm, 161, rfl⟩
abbrev main_call3_v6 : Ref sig .tc := ⟨.hbm, 162, rfl⟩
abbrev main_call3_v7 : Ref sig .tc := ⟨.hbm, 163, rfl⟩
abbrev main_call3_v8 : Ref sig .tc := ⟨.hbm, 164, rfl⟩
abbrev main_call3_v9 : Ref sig .tc := ⟨.hbm, 165, rfl⟩
abbrev main_call3_v10 : Ref sig .tc := ⟨.hbm, 166, rfl⟩
abbrev main_call3_v11 : Ref sig .tc := ⟨.hbm, 167, rfl⟩
abbrev main_call3_c_3 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_call3_cst : Ref sig .tc := ⟨.hbm, 172, rfl⟩
abbrev main_call3_v15 : Ref sig .tc := ⟨.hbm, 173, rfl⟩
abbrev main_v55 : Ref sig .tc := ⟨.hbm, 174, rfl⟩
abbrev main_cst_18 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_v94 : Ref sig .tc := ⟨.hbm, 214, rfl⟩
abbrev main_v95 : Ref sig .tc := ⟨.hbm, 215, rfl⟩
abbrev main_v96 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_v105 : Ref sig .tc := ⟨.hbm, 225, rfl⟩
abbrev main_call4_c : Ref sig .tc := ⟨.hbm, 226, rfl⟩
abbrev main_call4_v0 : Ref sig .tc := ⟨.hbm, 227, rfl⟩
abbrev main_call4_v1 : Ref sig .tc := ⟨.hbm, 228, rfl⟩
abbrev main_call4_c_0 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_c_1 : Ref sig .tc := ⟨.hbm, 234, rfl⟩
abbrev main_call4_c_2 : Ref sig .tc := ⟨.hbm, 235, rfl⟩
abbrev main_call4_v6 : Ref sig .tc := ⟨.hbm, 236, rfl⟩
abbrev main_call4_v7 : Ref sig .tc := ⟨.hbm, 237, rfl⟩
abbrev main_call4_v8 : Ref sig .tc := ⟨.hbm, 238, rfl⟩
abbrev main_call4_v9 : Ref sig .tc := ⟨.hbm, 239, rfl⟩
abbrev main_call4_v10 : Ref sig .tc := ⟨.hbm, 240, rfl⟩
abbrev main_call4_v11 : Ref sig .tc := ⟨.hbm, 241, rfl⟩
abbrev main_call4_c_3 : Ref sig .tc := ⟨.hbm, 242, rfl⟩
abbrev main_call4_v12 : Ref sig .tc := ⟨.hbm, 243, rfl⟩
abbrev main_call4_v13 : Ref sig .tc := ⟨.hbm, 244, rfl⟩
abbrev main_call4_v14 : Ref sig .tc := ⟨.hbm, 245, rfl⟩
abbrev main_call4_cst : Ref sig .tc := ⟨.hbm, 246, rfl⟩
abbrev main_call4_v15 : Ref sig .tc := ⟨.hbm, 247, rfl⟩
abbrev main_v106 : Ref sig .tc := ⟨.hbm, 248, rfl⟩
abbrev main_cst_19 : Ref sig .tc := ⟨.hbm, 249, rfl⟩
abbrev main_v107 : Ref sig .tc := ⟨.hbm, 250, rfl⟩
abbrev main_v108 : Ref sig .tc := ⟨.hbm, 251, rfl⟩
abbrev main_v109 : Ref sig .tc := ⟨.hbm, 252, rfl⟩
abbrev main_call5_c : Ref sig .tc := ⟨.hbm, 253, rfl⟩
abbrev main_call5_v0 : Ref sig .tc := ⟨.hbm, 254, rfl⟩
abbrev main_call5_v1 : Ref sig .tc := ⟨.hbm, 255, rfl⟩
abbrev main_call5_c_0 : Ref sig .tc := ⟨.hbm, 256, rfl⟩
abbrev main_call5_v2 : Ref sig .tc := ⟨.hbm, 257, rfl⟩
abbrev main_call5_v3 : Ref sig .tc := ⟨.hbm, 258, rfl⟩
abbrev main_call5_v4 : Ref sig .tc := ⟨.hbm, 259, rfl⟩
abbrev main_call5_v5 : Ref sig .tc := ⟨.hbm, 260, rfl⟩
abbrev main_call5_c_1 : Ref sig .tc := ⟨.hbm, 261, rfl⟩
abbrev main_call5_c_2 : Ref sig .tc := ⟨.hbm, 262, rfl⟩
abbrev main_call5_v6 : Ref sig .tc := ⟨.hbm, 263, rfl⟩
abbrev main_call5_v7 : Ref sig .tc := ⟨.hbm, 264, rfl⟩
abbrev main_call5_v8 : Ref sig .tc := ⟨.hbm, 265, rfl⟩
abbrev main_call5_v9 : Ref sig .tc := ⟨.hbm, 266, rfl⟩
abbrev main_call5_v10 : Ref sig .tc := ⟨.hbm, 267, rfl⟩
abbrev main_call5_v11 : Ref sig .tc := ⟨.hbm, 268, rfl⟩
abbrev main_call5_c_3 : Ref sig .tc := ⟨.hbm, 269, rfl⟩
abbrev main_call5_v12 : Ref sig .tc := ⟨.hbm, 270, rfl⟩
abbrev main_call5_v13 : Ref sig .tc := ⟨.hbm, 271, rfl⟩
abbrev main_call5_v14 : Ref sig .tc := ⟨.hbm, 272, rfl⟩
abbrev main_call5_cst : Ref sig .tc := ⟨.hbm, 273, rfl⟩
abbrev main_call5_v15 : Ref sig .tc := ⟨.hbm, 274, rfl⟩
abbrev main_v110 : Ref sig .tc := ⟨.hbm, 275, rfl⟩
abbrev main_cst_20 : Ref sig .tc := ⟨.hbm, 276, rfl⟩
abbrev main_v111 : Ref sig .tc := ⟨.hbm, 277, rfl⟩
abbrev main_v112 : Ref sig .tc := ⟨.hbm, 278, rfl⟩
abbrev main_v113 : Ref sig .tc := ⟨.hbm, 279, rfl⟩
abbrev main_call6_c : Ref sig .tc := ⟨.hbm, 280, rfl⟩
abbrev main_call6_v0 : Ref sig .tc := ⟨.hbm, 281, rfl⟩
abbrev main_call6_v1 : Ref sig .tc := ⟨.hbm, 282, rfl⟩
abbrev main_call6_c_0 : Ref sig .tc := ⟨.hbm, 283, rfl⟩
abbrev main_call6_v2 : Ref sig .tc := ⟨.hbm, 284, rfl⟩
abbrev main_call6_v3 : Ref sig .tc := ⟨.hbm, 285, rfl⟩
abbrev main_call6_v4 : Ref sig .tc := ⟨.hbm, 286, rfl⟩
abbrev main_call6_v5 : Ref sig .tc := ⟨.hbm, 287, rfl⟩
abbrev main_call6_c_1 : Ref sig .tc := ⟨.hbm, 288, rfl⟩
abbrev main_call6_c_2 : Ref sig .tc := ⟨.hbm, 289, rfl⟩
abbrev main_call6_v6 : Ref sig .tc := ⟨.hbm, 290, rfl⟩
abbrev main_call6_v7 : Ref sig .tc := ⟨.hbm, 291, rfl⟩
abbrev main_call6_v8 : Ref sig .tc := ⟨.hbm, 292, rfl⟩
abbrev main_call6_v9 : Ref sig .tc := ⟨.hbm, 293, rfl⟩
abbrev main_call6_v10 : Ref sig .tc := ⟨.hbm, 294, rfl⟩
abbrev main_call6_v11 : Ref sig .tc := ⟨.hbm, 295, rfl⟩
abbrev main_call6_c_3 : Ref sig .tc := ⟨.hbm, 296, rfl⟩
abbrev main_call6_v12 : Ref sig .tc := ⟨.hbm, 297, rfl⟩
abbrev main_call6_v13 : Ref sig .tc := ⟨.hbm, 298, rfl⟩
abbrev main_call6_v14 : Ref sig .tc := ⟨.hbm, 299, rfl⟩
abbrev main_call6_cst : Ref sig .tc := ⟨.hbm, 300, rfl⟩
abbrev main_call6_v15 : Ref sig .tc := ⟨.hbm, 301, rfl⟩
abbrev main_v114 : Ref sig .tc := ⟨.hbm, 302, rfl⟩
abbrev main_cst_21 : Ref sig .tc := ⟨.hbm, 303, rfl⟩
abbrev main_v115 : Ref sig .tc := ⟨.hbm, 304, rfl⟩
abbrev main_v116 : Ref sig .tc := ⟨.hbm, 305, rfl⟩
abbrev main_v117 : Ref sig .tc := ⟨.hbm, 306, rfl⟩
abbrev main_call7_c : Ref sig .tc := ⟨.hbm, 307, rfl⟩
abbrev main_call7_v0 : Ref sig .tc := ⟨.hbm, 308, rfl⟩
abbrev main_call7_v1 : Ref sig .tc := ⟨.hbm, 309, rfl⟩
abbrev main_call7_c_0 : Ref sig .tc := ⟨.hbm, 310, rfl⟩
abbrev main_call7_v2 : Ref sig .tc := ⟨.hbm, 311, rfl⟩
abbrev main_call7_v3 : Ref sig .tc := ⟨.hbm, 312, rfl⟩
abbrev main_call7_v4 : Ref sig .tc := ⟨.hbm, 313, rfl⟩
abbrev main_call7_v5 : Ref sig .tc := ⟨.hbm, 314, rfl⟩
abbrev main_call7_c_1 : Ref sig .tc := ⟨.hbm, 315, rfl⟩
abbrev main_call7_c_2 : Ref sig .tc := ⟨.hbm, 316, rfl⟩
abbrev main_call7_v6 : Ref sig .tc := ⟨.hbm, 317, rfl⟩
abbrev main_call7_v7 : Ref sig .tc := ⟨.hbm, 318, rfl⟩
abbrev main_call7_v8 : Ref sig .tc := ⟨.hbm, 319, rfl⟩
abbrev main_call7_v9 : Ref sig .tc := ⟨.hbm, 320, rfl⟩
abbrev main_call7_v10 : Ref sig .tc := ⟨.hbm, 321, rfl⟩
abbrev main_call7_v11 : Ref sig .tc := ⟨.hbm, 322, rfl⟩
abbrev main_call7_c_3 : Ref sig .tc := ⟨.hbm, 323, rfl⟩
abbrev main_call7_v12 : Ref sig .tc := ⟨.hbm, 324, rfl⟩
abbrev main_call7_v13 : Ref sig .tc := ⟨.hbm, 325, rfl⟩
abbrev main_call7_v14 : Ref sig .tc := ⟨.hbm, 326, rfl⟩
abbrev main_call7_cst : Ref sig .tc := ⟨.hbm, 327, rfl⟩
abbrev main_call7_v15 : Ref sig .tc := ⟨.hbm, 328, rfl⟩
abbrev main_v118 : Ref sig .tc := ⟨.hbm, 329, rfl⟩
abbrev main_cst_22 : Ref sig .tc := ⟨.hbm, 330, rfl⟩
abbrev main_v119 : Ref sig .tc := ⟨.hbm, 331, rfl⟩
abbrev main_v120 : Ref sig .tc := ⟨.hbm, 332, rfl⟩
abbrev main_v121 : Ref sig .tc := ⟨.hbm, 333, rfl⟩
abbrev main_v122 : Ref sig .tc := ⟨.hbm, 334, rfl⟩
abbrev main_v123 : Ref sig .tc := ⟨.hbm, 335, rfl⟩
abbrev main_v124 : Ref sig .tc := ⟨.hbm, 336, rfl⟩
abbrev main_v125 : Ref sig .tc := ⟨.hbm, 337, rfl⟩
abbrev main_v126 : Ref sig .tc := ⟨.hbm, 338, rfl⟩
abbrev main_v127 : Ref sig .tc := ⟨.hbm, 339, rfl⟩
abbrev main_v128 : Ref sig .tc := ⟨.hbm, 340, rfl⟩
abbrev main_v129 : Ref sig .tc := ⟨.hbm, 341, rfl⟩
abbrev main_v130 : Ref sig .tc := ⟨.hbm, 342, rfl⟩
abbrev main_v131 : Ref sig .tc := ⟨.hbm, 343, rfl⟩
abbrev main_v132 : Ref sig .tc := ⟨.hbm, 344, rfl⟩
abbrev main_v133 : Ref sig .tc := ⟨.hbm, 345, rfl⟩
abbrev main_v134 : Ref sig .tc := ⟨.hbm, 346, rfl⟩
abbrev main_v135 : Ref sig .tc := ⟨.hbm, 347, rfl⟩
abbrev main_v136 : Ref sig .tc := ⟨.hbm, 348, rfl⟩
abbrev main_v137 : Ref sig .tc := ⟨.hbm, 349, rfl⟩
abbrev main_v138 : Ref sig .tc := ⟨.hbm, 350, rfl⟩
abbrev main_v139 : Ref sig .tc := ⟨.hbm, 351, rfl⟩
abbrev main_v140 : Ref sig .tc := ⟨.hbm, 352, rfl⟩
abbrev main_v141 : Ref sig .tc := ⟨.hbm, 353, rfl⟩
abbrev main_v142 : Ref sig .tc := ⟨.hbm, 354, rfl⟩
abbrev main_v143 : Ref sig .tc := ⟨.hbm, 355, rfl⟩
abbrev main_v144 : Ref sig .tc := ⟨.hbm, 356, rfl⟩
abbrev main_v145 : Ref sig .tc := ⟨.hbm, 357, rfl⟩
abbrev main_v146 : Ref sig .tc := ⟨.hbm, 358, rfl⟩
abbrev main_v147 : Ref sig .tc := ⟨.hbm, 359, rfl⟩
abbrev main_v148 : Ref sig .tc := ⟨.hbm, 360, rfl⟩
abbrev main_v149 : Ref sig .tc := ⟨.hbm, 361, rfl⟩
abbrev main_v150 : Ref sig .tc := ⟨.hbm, 362, rfl⟩
abbrev main_v151 : Ref sig .tc := ⟨.hbm, 363, rfl⟩
abbrev main_v152 : Ref sig .tc := ⟨.hbm, 364, rfl⟩
abbrev main_v153 : Ref sig .tc := ⟨.hbm, 365, rfl⟩
abbrev main_v154 : Ref sig .tc := ⟨.hbm, 366, rfl⟩
abbrev main_v155 : Ref sig .tc := ⟨.hbm, 367, rfl⟩
abbrev main_v156 : Ref sig .tc := ⟨.hbm, 368, rfl⟩
abbrev main_v157 : Ref sig .tc := ⟨.hbm, 369, rfl⟩
abbrev main_v158 : Ref sig .tc := ⟨.hbm, 370, rfl⟩
abbrev main_v159 : Ref sig .tc := ⟨.hbm, 371, rfl⟩
abbrev main_v160 : Ref sig .tc := ⟨.hbm, 372, rfl⟩
abbrev main_v161 : Ref sig .tc := ⟨.hbm, 373, rfl⟩
abbrev main_v162 : Ref sig .tc := ⟨.hbm, 374, rfl⟩
abbrev main_v163 : Ref sig .tc := ⟨.hbm, 375, rfl⟩
abbrev main_v164 : Ref sig .tc := ⟨.hbm, 376, rfl⟩
abbrev main_v165 : Ref sig .tc := ⟨.hbm, 377, rfl⟩
abbrev main_v166 : Ref sig .tc := ⟨.hbm, 378, rfl⟩
abbrev main_v167 : Ref sig .tc := ⟨.hbm, 379, rfl⟩
abbrev main_v168 : Ref sig .tc := ⟨.hbm, 380, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg4_1 : Ref sig .tc := ⟨.vmem, 45, rfl⟩
abbrev cc4_stg5_0 : Ref sig .tc := ⟨.vmem, 46, rfl⟩
abbrev cc4_stg5_1 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg4_1 : Ref sig .tc := ⟨.vmem, 56, rfl⟩
abbrev cc5_stg5_0 : Ref sig .tc := ⟨.vmem, 57, rfl⟩
abbrev cc5_stg5_1 : Ref sig .tc := ⟨.vmem, 58, rfl⟩
abbrev cc5_stg6_0 : Ref sig .tc := ⟨.vmem, 59, rfl⟩
abbrev cc5_stg6_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg5_1 : Ref sig .tc := ⟨.vmem, 69, rfl⟩
abbrev cc6_stg6_0 : Ref sig .tc := ⟨.vmem, 70, rfl⟩
abbrev cc6_stg6_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem4_1 : DmaSem sig := 34
abbrev cc3_sem5_0 : DmaSem sig := 35
abbrev cc3_sem5_1 : DmaSem sig := 36
abbrev cc3_sem6_0 : DmaSem sig := 37
abbrev cc3_sem6_1 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem4_1 : DmaSem sig := 45
abbrev cc4_sem5_0 : DmaSem sig := 46
abbrev cc4_sem5_1 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem4_1 : DmaSem sig := 56
abbrev cc5_sem5_0 : DmaSem sig := 57
abbrev cc5_sem5_1 : DmaSem sig := 58
abbrev cc5_sem6_0 : DmaSem sig := 59
abbrev cc5_sem6_1 : DmaSem sig := 60
abbrev cc6_sem0_0 : DmaSem sig := 61
abbrev cc6_sem0_1 : DmaSem sig := 62
abbrev cc6_sem1_0 : DmaSem sig := 63
abbrev cc6_sem2_0 : DmaSem sig := 64
abbrev cc6_sem3_0 : DmaSem sig := 65
abbrev cc6_sem4_0 : DmaSem sig := 66
abbrev cc6_sem4_1 : DmaSem sig := 67
abbrev cc6_sem5_0 : DmaSem sig := 68
abbrev cc6_sem5_1 : DmaSem sig := 69
abbrev cc6_sem6_0 : DmaSem sig := 70
abbrev cc6_sem6_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2x1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2x5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2x5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x4000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1x2000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S1x2000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  transposes_S128x64_S64x128_1_0 : S128x64.Transposes [1, 0] S64x128
  bcast_S128_S1x128_1 : S128.BroadcastsInDim S1x128 (![1] : Fin 1 → Fin S1x128.rank)
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  transposes_S2x4x128x128_S2x4x128x128_0_1_3_2 : S2x4x128x128.Transposes [0, 1, 3, 2] S2x4x128x128
  bcast_S2x4x128_S2x4x1x128_0_1_3 : S2x4x128.BroadcastsInDim S2x4x1x128 (![0, 1, 3] : Fin 3 → Fin S2x4x1x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S200000x1 : S_.BroadcastsInDim S200000x1 (![] : Fin 0 → Fin S200000x1.rank)
  bcast_S_S400000x1 : S_.BroadcastsInDim S400000x1 (![] : Fin 0 → Fin S400000x1.rank)
  bcast_S_S20000x1 : S_.BroadcastsInDim S20000x1 (![] : Fin 0 → Fin S20000x1.rank)
  bcast_S400000_S400000x1_0 : S400000.BroadcastsInDim S400000x1 (![0] : Fin 1 → Fin S400000x1.rank)
  bcast_S50000x1_S1x50000x1_1_2 : S50000x1.BroadcastsInDim S1x50000x1 (![1, 2] : Fin 2 → Fin S1x50000x1.rank)
  concatenates_S1x50000x1_S1x50000x1_S2x50000x1_d0 : Shape.Concatenates [S1x50000x1, S1x50000x1] S2x50000x1 0
  bcast_S200000x1_S1x200000x1_1_2 : S200000x1.BroadcastsInDim S1x200000x1 (![1, 2] : Fin 2 → Fin S1x200000x1.rank)
  bcast_S20000x1_S1x20000x1_1_2 : S20000x1.BroadcastsInDim S1x20000x1 (![1, 2] : Fin 2 → Fin S1x20000x1.rank)
  bcast_S_S800000 : S_.BroadcastsInDim S800000 (![] : Fin 0 → Fin S800000.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S400000 : S_.BroadcastsInDim S400000 (![] : Fin 0 → Fin S400000.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x128_0 : S400000.BroadcastsInDim S400000x128 (![0] : Fin 1 → Fin S400000x128.rank)
  bcast_S_S400000x128 : S_.BroadcastsInDim S400000x128 (![] : Fin 0 → Fin S400000x128.rank)
  bcast_S_S200000x128 : S_.BroadcastsInDim S200000x128 (![] : Fin 0 → Fin S200000x128.rank)
  bcast_S_S20000x128 : S_.BroadcastsInDim S20000x128 (![] : Fin 0 → Fin S20000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  slices_S2x4x128x128_S1x1x128x128_0_0_0_0 : S2x4x128x128.Slices ![0, 0, 0, 0] S1x1x128x128
  shapeCasts_S1x1x128x128_S128x128 : S1x1x128x128.ShapeCasts S128x128
  slices_S2x4x128x128_S1x1x128x128_0_3_0_0 : S2x4x128x128.Slices ![0, 3, 0, 0] S1x1x128x128
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  slices_S2x4x1x128_S1x1x1x128_0_0_0_0 : S2x4x1x128.Slices ![0, 0, 0, 0] S1x1x1x128
  shapeCasts_S1x1x1x128_S1x128 : S1x1x1x128.ShapeCasts S1x128
  slices_S2x4x1x128_S1x1x1x128_0_3_0_0 : S2x4x1x128.Slices ![0, 3, 0, 0] S1x1x1x128
  bcast_S1x128_S1x1x128_1_2 : S1x128.BroadcastsInDim S1x1x128 (![1, 2] : Fin 2 → Fin S1x1x128.rank)
  concatenates_S1x1x128_S1x1x128_S2x1x128_d0 : Shape.Concatenates [S1x1x128, S1x1x128] S2x1x128 0
  shapeCasts_S5000x128_S5000x128 : S5000x128.ShapeCasts S5000x128
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x1x128_S1x1x128_0_0_0 : ∀ a, (![0, 0, 0] : Fin 3 → Nat) a + S1x1x128.size a ≤ S2x1x128.size a
  h_S1x1x128 : 0 < S1x1x128.numel
  shapeCasts_S1x1x128_S1x128 : S1x1x128.ShapeCasts S1x128
  inb_S2x5000x128_S1x5000x128_0_0_0 : ∀ a, (![0, 0, 0] : Fin 3 → Nat) a + S1x5000x128.size a ≤ S2x5000x128.size a
  h_S1x5000x128 : 0 < S1x5000x128.numel
  shapeCasts_S1x5000x128_S5000x128 : S1x5000x128.ShapeCasts S5000x128
  inb_S2x5000x1_S1x5000x1_0_0_0 : ∀ a, (![0, 0, 0] : Fin 3 → Nat) a + S1x5000x1.size a ≤ S2x5000x1.size a
  h_S1x5000x1 : 0 < S1x5000x1.numel
  shapeCasts_S1x5000x1_S5000x1 : S1x5000x1.ShapeCasts S5000x1
  broadcasts_S5000x1_S5000x128 : S5000x1.Broadcasts S5000x128
  inb_S2x128x128_S1x128x128_1_0_0 : ∀ a, (![1, 0, 0] : Fin 3 → Nat) a + S1x128x128.size a ≤ S2x128x128.size a
  inb_S2x1x128_S1x1x128_1_0_0 : ∀ a, (![1, 0, 0] : Fin 3 → Nat) a + S1x1x128.size a ≤ S2x1x128.size a
  inb_S2x5000x128_S1x5000x128_1_0_0 : ∀ a, (![1, 0, 0] : Fin 3 → Nat) a + S1x5000x128.size a ≤ S2x5000x128.size a
  inb_S2x5000x1_S1x5000x1_1_0_0 : ∀ a, (![1, 0, 0] : Fin 3 → Nat) a + S1x5000x1.size a ≤ S2x5000x1.size a
  bcast_S200000x128_S1x200000x128_1_2 : S200000x128.BroadcastsInDim S1x200000x128 (![1, 2] : Fin 2 → Fin S1x200000x128.rank)
  slices_S2x4x128x128_S1x1x128x128_0_1_0_0 : S2x4x128x128.Slices ![0, 1, 0, 0] S1x1x128x128
  slices_S2x4x1x128_S1x1x1x128_0_1_0_0 : S2x4x1x128.Slices ![0, 1, 0, 0] S1x1x1x128
  inb_S4000x128_S4000x128_0_0 : ∀ a, (![0, 0] : Fin 2 → Nat) a + S4000x128.size a ≤ S4000x128.size a
  h_S4000x128 : 0 < S4000x128.numel
  inb_S1x128x128_S1x128x128_0_0_0 : ∀ a, (![0, 0, 0] : Fin 3 → Nat) a + S1x128x128.size a ≤ S1x128x128.size a
  inb_S1x1x128_S1x1x128_0_0_0 : ∀ a, (![0, 0, 0] : Fin 3 → Nat) a + S1x1x128.size a ≤ S1x1x128.size a
  inb_S1x4000x128_S1x4000x128_0_0_0 : ∀ a, (![0, 0, 0] : Fin 3 → Nat) a + S1x4000x128.size a ≤ S1x4000x128.size a
  h_S1x4000x128 : 0 < S1x4000x128.numel
  shapeCasts_S1x4000x128_S4000x128 : S1x4000x128.ShapeCasts S4000x128
  inb_S1x4000x1_S1x4000x1_0_0_0 : ∀ a, (![0, 0, 0] : Fin 3 → Nat) a + S1x4000x1.size a ≤ S1x4000x1.size a
  h_S1x4000x1 : 0 < S1x4000x1.numel
  shapeCasts_S1x4000x1_S4000x1 : S1x4000x1.ShapeCasts S4000x1
  broadcasts_S4000x1_S4000x128 : S4000x1.Broadcasts S4000x128
  broadcasts_S1x128_S4000x128 : S1x128.Broadcasts S4000x128
  bcast_S20000x128_S1x20000x128_1_2 : S20000x128.BroadcastsInDim S1x20000x128 (![1, 2] : Fin 2 → Fin S1x20000x128.rank)
  slices_S2x4x128x128_S1x1x128x128_0_2_0_0 : S2x4x128x128.Slices ![0, 2, 0, 0] S1x1x128x128
  slices_S2x4x1x128_S1x1x1x128_0_2_0_0 : S2x4x1x128.Slices ![0, 2, 0, 0] S1x1x1x128
  inb_S2000x128_S2000x128_0_0 : ∀ a, (![0, 0] : Fin 2 → Nat) a + S2000x128.size a ≤ S2000x128.size a
  h_S2000x128 : 0 < S2000x128.numel
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  inb_S1x2000x1_S1x2000x1_0_0_0 : ∀ a, (![0, 0, 0] : Fin 3 → Nat) a + S1x2000x1.size a ≤ S1x2000x1.size a
  h_S1x2000x1 : 0 < S1x2000x1.numel
  shapeCasts_S1x2000x1_S2000x1 : S1x2000x1.ShapeCasts S2000x1
  broadcasts_S2000x1_S2000x128 : S2000x1.Broadcasts S2000x128
  broadcasts_S1x128_S2000x128 : S1x128.Broadcasts S2000x128
  slices_S2x4x128x128_S1x1x128x128_1_0_0_0 : S2x4x128x128.Slices ![1, 0, 0, 0] S1x1x128x128
  slices_S2x4x128x128_S1x1x128x128_1_3_0_0 : S2x4x128x128.Slices ![1, 3, 0, 0] S1x1x128x128
  slices_S2x4x1x128_S1x1x1x128_1_0_0_0 : S2x4x1x128.Slices ![1, 0, 0, 0] S1x1x1x128
  slices_S2x4x1x128_S1x1x1x128_1_3_0_0 : S2x4x1x128.Slices ![1, 3, 0, 0] S1x1x1x128
  slices_S2x4x128x128_S1x1x128x128_1_1_0_0 : S2x4x128x128.Slices ![1, 1, 0, 0] S1x1x128x128
  slices_S2x4x1x128_S1x1x1x128_1_1_0_0 : S2x4x1x128.Slices ![1, 1, 0, 0] S1x1x1x128
  shapeCasts_S4000x128_S4000x128 : S4000x128.ShapeCasts S4000x128
  slices_S2x4x128x128_S1x1x128x128_1_2_0_0 : S2x4x128x128.Slices ![1, 2, 0, 0] S1x1x128x128
  slices_S2x4x1x128_S1x1x1x128_1_2_0_0 : S2x4x1x128.Slices ![1, 2, 0, 0] S1x1x1x128
  shapeCasts_S2000x128_S2000x128 : S2000x128.ShapeCasts S2000x128
  dot_S5000x64_S64x128_S5000x128_1_0_0_1_n_n_wf : DotDims.WF S5000x64 S64x128 S5000x128 [1] [0] [0] [1] [] []
  scatter_S50000x1_S800000x1_S800000x1_1_0_0_1_wf : ScatterDims.WF S50000x1 S800000x1 S800000x1 [1] [0] [0] 1
  scatter_S200000x1_S800000x1_S800000x1_1_0_0_1_wf : ScatterDims.WF S200000x1 S800000x1 S800000x1 [1] [0] [0] 1
  scatter_S20000x1_S400000x1_S400000x1_1_0_0_1_wf : ScatterDims.WF S20000x1 S400000x1 S400000x1 [1] [0] [0] 1
  scatter_S50000x1_S400000x1_S400000x1_1_0_0_1_wf : ScatterDims.WF S50000x1 S400000x1 S400000x1 [1] [0] [0] 1
  gather_S200000x128_S800000x1_S800000x128_1_0_n_n_0_1_1128_wf : GatherDims.WF S200000x128 S800000x1 S800000x128 [1] [0] [] [0] [] 1 ![1, 128]
  scatter_S50000x128_S800000x1_S800000x128_1_0_0_1_wf : ScatterDims.WF S50000x128 S800000x1 S800000x128 [1] [0] [0] 1
  gather_S20000x128_S400000x1_S400000x128_1_0_n_n_0_1_1128_wf : GatherDims.WF S20000x128 S400000x1 S400000x128 [1] [0] [] [0] [] 1 ![1, 128]
  scatter_S50000x128_S400000x1_S400000x128_1_0_0_1_wf : ScatterDims.WF S50000x128 S400000x1 S400000x128 [1] [0] [0] 1
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  gather_S50000x128_S400000x1_S400000x128_1_0_n_n_0_1_1128_wf : GatherDims.WF S50000x128 S400000x1 S400000x128 [1] [0] [] [0] [] 1 ![1, 128]
  scatter_S20000x128_S400000x1_S400000x128_1_0_0_1_wf : ScatterDims.WF S20000x128 S400000x1 S400000x128 [1] [0] [0] 1
  dot_S5000x128_S128x128_S5000x128_1_0_0_1_n_n_wf : DotDims.WF S5000x128 S128x128 S5000x128 [1] [0] [0] [1] [] []
  dot_S4000x128_S128x128_S4000x128_1_0_0_1_n_n_wf : DotDims.WF S4000x128 S128x128 S4000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128x128.size a ≤ S2x128x128.size a
  hwx1_1 : ∀ i : grid1.Coords, EltTy.bits .f32 = 32 ∨ (Rect.block (s := S2x128x128) S2x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1x128.size a ≤ S2x1x128.size a
  hwx1_2 : ∀ i : grid1.Coords, EltTy.bits .f32 = 32 ∨ (Rect.block (s := S2x1x128) S2x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128x128.size a ≤ S2x128x128.size a
  hwx1_3 : ∀ i : grid1.Coords, EltTy.bits .f32 = 32 ∨ (Rect.block (s := S2x128x128) S2x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x5000x128.size a ≤ S2x50000x128.size a
  hwx1_4 : ∀ i : grid1.Coords, EltTy.bits .f32 = 32 ∨ (Rect.block (s := S2x50000x128) S2x5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x5000x1.size a ≤ S2x50000x1.size a
  hwx1_5 : ∀ i : grid1.Coords, EltTy.bits .f32 = 32 ∨ (Rect.block (s := S2x50000x1) S2x5000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S1x128x128.size a
  hwx2_1 : ∀ i : grid2.Coords, EltTy.bits .f32 = 32 ∨ (Rect.block (s := S1x128x128) S1x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1x128.size a ≤ S1x1x128.size a
  hwx2_2 : ∀ i : grid2.Coords, EltTy.bits .f32 = 32 ∨ (Rect.block (s := S1x1x128) S1x1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128x128.size a ≤ S1x128x128.size a
  hwx2_3 : ∀ i : grid2.Coords, EltTy.bits .f32 = 32 ∨ (Rect.block (s := S1x128x128) S1x128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x4000x128.size a ≤ S1x200000x128.size a
  hwx2_4 : ∀ i : grid2.Coords, EltTy.bits .f32 = 32 ∨ (Rect.block (s := S1x200000x128) S1x4000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x4000x1.size a ≤ S1x200000x1.size a
  hwx2_5 : ∀ i : grid2.Coords, EltTy.bits .f32 = 32 ∨ (Rect.block (s := S1x200000x1) S1x4000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S200000x128.size a
  hwx2_6 : ∀ i : grid2.Coords, EltTy.bits .f32 = 32 ∨ (Rect.block (s := S200000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128x128.size a ≤ S1x128x128.size a
  hwx3_1 : ∀ i : grid3.Coords, EltTy.bits .f32 = 32 ∨ (Rect.block (s := S1x128x128) S1x128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1x128.size a ≤ S1x1x128.size a
  hwx3_2 : ∀ i : grid3.Coords, EltTy.bits .f32 = 32 ∨ (Rect.block (s := S1x1x128) S1x1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128x128.size a ≤ S1x128x128.size a
  hwx3_3 : ∀ i : grid3.Coords, EltTy.bits .f32 = 32 ∨ (Rect.block (s := S1x128x128) S1x128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2000x128.size a ≤ S1x20000x128.size a
  hwx3_4 : ∀ i : grid3.Coords, EltTy.bits .f32 = 32 ∨ (Rect.block (s := S1x20000x128) S1x2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x2000x1.size a ≤ S1x20000x1.size a
  hwx3_5 : ∀ i : grid3.Coords, EltTy.bits .f32 = 32 ∨ (Rect.block (s := S1x20000x1) S1x2000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S20000x128.size a
  hwx3_6 : ∀ i : grid3.Coords, EltTy.bits .f32 = 32 ∨ (Rect.block (s := S20000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x128x128.size a ≤ S2x128x128.size a
  hwx4_1 : ∀ i : grid4.Coords, EltTy.bits .f32 = 32 ∨ (Rect.block (s := S2x128x128) S2x128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x1x128.size a ≤ S2x1x128.size a
  hwx4_2 : ∀ i : grid4.Coords, EltTy.bits .f32 = 32 ∨ (Rect.block (s := S2x1x128) S2x1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2x128x128.size a ≤ S2x128x128.size a
  hwx4_3 : ∀ i : grid4.Coords, EltTy.bits .f32 = 32 ∨ (Rect.block (s := S2x128x128) S2x128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2x5000x128.size a ≤ S2x50000x128.size a
  hwx4_4 : ∀ i : grid4.Coords, EltTy.bits .f32 = 32 ∨ (Rect.block (s := S2x50000x128) S2x5000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2x5000x1.size a ≤ S2x50000x1.size a
  hwx4_5 : ∀ i : grid4.Coords, EltTy.bits .f32 = 32 ∨ (Rect.block (s := S2x50000x1) S2x5000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S200000x128.size a
  hwx5_0 : ∀ i : grid5.Coords, EltTy.bits .f32 = 32 ∨ (Rect.block (s := S200000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128x128.size a ≤ S1x128x128.size a
  hwx5_1 : ∀ i : grid5.Coords, EltTy.bits .f32 = 32 ∨ (Rect.block (s := S1x128x128) S1x128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1x128.size a ≤ S1x1x128.size a
  hwx5_2 : ∀ i : grid5.Coords, EltTy.bits .f32 = 32 ∨ (Rect.block (s := S1x1x128) S1x1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128x128.size a ≤ S1x128x128.size a
  hwx5_3 : ∀ i : grid5.Coords, EltTy.bits .f32 = 32 ∨ (Rect.block (s := S1x128x128) S1x128x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x4000x128.size a ≤ S1x200000x128.size a
  hwx5_4 : ∀ i : grid5.Coords, EltTy.bits .f32 = 32 ∨ (Rect.block (s := S1x200000x128) S1x4000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x4000x1.size a ≤ S1x200000x1.size a
  hwx5_5 : ∀ i : grid5.Coords, EltTy.bits .f32 = 32 ∨ (Rect.block (s := S1x200000x1) S1x4000x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S200000x128.size a
  hwx5_6 : ∀ i : grid5.Coords, EltTy.bits .f32 = 32 ∨ (Rect.block (s := S200000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S20000x128.size a
  hwx6_0 : ∀ i : grid6.Coords, EltTy.bits .f32 = 32 ∨ (Rect.block (s := S20000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128x128.size a ≤ S1x128x128.size a
  hwx6_1 : ∀ i : grid6.Coords, EltTy.bits .f32 = 32 ∨ (Rect.block (s := S1x128x128) S1x128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1x128.size a ≤ S1x1x128.size a
  hwx6_2 : ∀ i : grid6.Coords, EltTy.bits .f32 = 32 ∨ (Rect.block (s := S1x1x128) S1x1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128x128.size a ≤ S1x128x128.size a
  hwx6_3 : ∀ i : grid6.Coords, EltTy.bits .f32 = 32 ∨ (Rect.block (s := S1x128x128) S1x128x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1x2000x128.size a ≤ S1x20000x128.size a
  hwx6_4 : ∀ i : grid6.Coords, EltTy.bits .f32 = 32 ∨ (Rect.block (s := S1x20000x128) S1x2000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x2000x1.size a ≤ S1x20000x1.size a
  hwx6_5 : ∀ i : grid6.Coords, EltTy.bits .f32 = 32 ∨ (Rect.block (s := S1x20000x1) S1x2000x1.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S20000x128.size a
  hwx6_6 : ∀ i : grid6.Coords, EltTy.bits .f32 = 32 ∨ (Rect.block (s := S20000x128) S2000x128.size (cc6_transform_6 i) (hinb6_6 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S200000x1_S800000x1_S800000x1_1_0_0_1 : ScatterDims S200000x1 S800000x1 S800000x1 where
  updateWindowDims := [1]
  insertedWindowDims := [0]
  scatterDimsToOperandDims := [0]
  indexVectorDim := 1
  wf := scatter_S200000x1_S800000x1_S800000x1_1_0_0_1_wf
def scatter_S20000x1_S400000x1_S400000x1_1_0_0_1 : ScatterDims S20000x1 S400000x1 S400000x1 where
  updateWindowDims := [1]
  insertedWindowDims := [0]
  scatterDimsToOperandDims := [0]
  indexVectorDim := 1
  wf := scatter_S20000x1_S400000x1_S400000x1_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S2x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v75) S2x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v82) S2x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S2x5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2x5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v83) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S1x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v90) S1x1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v93) S1x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S1x4000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x4000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v94) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg2) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v98) S1x128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v101) S1x1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v104) S1x128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v42) S1x2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v105) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v83) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v131) S2x128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v138) S2x1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v145) S2x128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v124) S2x5000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v40) S2x5000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v146) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v94) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v150) S1x128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v153) S1x1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v156) S1x128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v147) S1x4000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v41) S1x4000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v157) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v105) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v161) S1x128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v164) S1x1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v167) S1x128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v158) S1x2000x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v42) S1x2000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v168) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x64 : Shape := ⟨2, ![50000, 64]⟩
abbrev S200000x128 : Shape := ⟨2, ![200000, 128]⟩
abbrev S20000x128 : Shape := ⟨2, ![20000, 128]⟩
abbrev S128x64 : Shape := ⟨2, ![128, 64]⟩
abbrev S128 : Shape := ⟨1, ![128]⟩
abbrev S2x4x128x128 : Shape := ⟨4, ![2, 4, 128, 128]⟩
abbrev S2x4x128 : Shape := ⟨3, ![2, 4, 128]⟩
abbrev S800000 : Shape := ⟨1, ![800000]⟩
abbrev S400000 : Shape := ⟨1, ![400000]⟩
abbrev S64x128 : Shape := ⟨2, ![64, 128]⟩
abbrev S50000x128 : Shape := ⟨2, ![50000, 128]⟩
abbrev S1x128 : Shape := ⟨2, ![1, 128]⟩
abbrev S1x1x128x128 : Shape := ⟨4, ![1, 1, 128, 128]⟩
abbrev S128x128 : Shape := ⟨2, ![128, 128]⟩
abbrev S1x1x128 : Shape := ⟨3, ![1, 1, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S400000x1 : Shape := ⟨2, ![400000, 1]⟩
abbrev S400000x128 : Shape := ⟨2, ![400000, 128]⟩
abbrev S200000x1 : Shape := ⟨2, ![200000, 1]⟩
abbrev S20000x1 : Shape := ⟨2, ![20000, 1]⟩

abbrev nBuf : Space → Nat
  | .hbm => 371
  | .vmem => 0
  | .smem => 0
  | _ => 0

abbrev hbmTy0_0 (i : Nat) : BufTy := match i % 128 with
  | 0 => ⟨S50000x64, .f32⟩
  | 1 => ⟨S200000x128, .f32⟩
  | 2 => ⟨S20000x128, .f32⟩
  | 3 => ⟨S128x64, .f32⟩
  | 4 => ⟨S128, .f32⟩
  | 5 => ⟨S2x4x128x128, .f32⟩
  | 6 => ⟨S2x4x128x128, .f32⟩
  | 7 => ⟨S2x4x128, .f32⟩
  | 8 => ⟨S800000, .i32⟩
  | 9 => ⟨S800000, .i32⟩
  | 10 => ⟨S400000, .i32⟩
  | 11 => ⟨S400000, .i32⟩
  | 12 => ⟨S64x128, .f32⟩
  | 13 => ⟨S50000x128, .f32⟩
  | 14 => ⟨S1x128, .f32⟩
  | 15 => ⟨S50000x128, .f32⟩
  | 16 => ⟨S50000x128, .f32⟩
  | 17 => ⟨S1x1x128x128, .f32⟩
  | 18 => ⟨S128x128, .f32⟩
  | 19 => ⟨S1x1x128x128, .f32⟩
  | 20 => ⟨S128x128, .f32⟩
  | 21 => ⟨S1x1x128, .f32⟩
  | 22 => ⟨S128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S_, .f32⟩
  | 37 => ⟨S800000x1, .f32⟩
  | 38 => ⟨S_, .f32⟩
  | 39 => ⟨S50000x1, .f32⟩
  | 40 => ⟨S800000x1, .i32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S128x128, .f32⟩
  | 48 => ⟨S50000x128, .f32⟩
  | 49 => ⟨S1x128, .f32⟩
  | 50 => ⟨S50000x128, .f32⟩
  | 51 => ⟨S50000x128, .f32⟩
  | 52 => ⟨S128x128, .f32⟩
  | 53 => ⟨S50000x128, .f32⟩
  | 54 => ⟨S50000x128, .f32⟩
  | 55 => ⟨S1x1x128x128, .f32⟩
  | 56 => ⟨S128x128, .f32⟩
  | 57 => ⟨S1x1x128x128, .f32⟩
  | 58 => ⟨S128x128, .f32⟩
  | 59 => ⟨S1x1x128, .f32⟩
  | 60 => ⟨S128, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x128, .f32⟩
  | 70 => ⟨S_, .f32⟩
  | 71 => ⟨S50000x128, .f32⟩
  | 72 => ⟨S400000x1, .i32⟩
  | 73 => ⟨S50000x128, .f32⟩
  | 74 => ⟨S_, .f32⟩
  | 75 => ⟨S400000x1, .f32⟩
  | 76 => ⟨S_, .f32⟩
  | 77 => ⟨S50000x1, .f32⟩
  | 78 => ⟨S400000x1, .i32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S128x128, .f32⟩
  | 86 => ⟨S50000x128, .f32⟩
  | 87 => ⟨S1x128, .f32⟩
  | 88 => ⟨S50000x128, .f32⟩
  | 89 => ⟨S50000x128, .f32⟩
  | 90 => ⟨S128x128, .f32⟩
  | 91 => ⟨S50000x128, .f32⟩
  | 92 => ⟨S50000x128, .f32⟩
  | 93 => ⟨S50000x128, .f32⟩
  | 94 => ⟨S1x1x128x128, .f32⟩
  | 95 => ⟨S128x128, .f32⟩
  | 96 => ⟨S1x1x128x128, .f32⟩
  | 97 => ⟨S128x128, .f32⟩
  | 98 => ⟨S1x1x128, .f32⟩
  | 99 => ⟨S128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S200000x128, .f32⟩
  | 111 => ⟨S800000x1, .i32⟩
  | 112 => ⟨S200000x128, .f32⟩
  | 113 => ⟨S_, .f32⟩
  | 114 => ⟨S800000x1, .f32⟩
  | 115 => ⟨S_, .f32⟩
  | 116 => ⟨S200000x1, .f32⟩
  | 117 => ⟨S800000x1, .i32⟩
  | 118 => ⟨S200000x1, .f32⟩
  | 119 => ⟨S_, .f32⟩
  | 120 => ⟨S200000x1, .f32⟩
  | 121 => ⟨S200000x1, .f32⟩
  | 122 => ⟨S200000x128, .f32⟩
  | 123 => ⟨S200000x128, .f32⟩
  | 124 => ⟨S128x128, .f32⟩
  | 125 => ⟨S200000x128, .f32⟩
  | 126 => ⟨S1x128, .f32⟩
  | 127 => ⟨S200000x128, .f32⟩
  | _ => ⟨S50000x64, .f32⟩

abbrev hbmTy0_1 (i : Nat) : BufTy := match i % 128 with
  | 0 => ⟨S200000x128, .f32⟩
  | 1 => ⟨S128x128, .f32⟩
  | 2 => ⟨S200000x128, .f32⟩
  | 3 => ⟨S200000x128, .f32⟩
  | 4 => ⟨S1x1x128x128, .f32⟩
  | 5 => ⟨S128x128, .f32⟩
  | 6 => ⟨S1x1x128x128, .f32⟩
  | 7 => ⟨S128x128, .f32⟩
  | 8 => ⟨S1x1x128, .f32⟩
  | 9 => ⟨S128, .f32⟩
  | 10 => ⟨S_, .i32⟩
  | 11 => ⟨S400000, .i32⟩
  | 12 => ⟨S400000, .i1⟩
  | 13 => ⟨S_, .i32⟩
  | 14 => ⟨S400000, .i32⟩
  | 15 => ⟨S400000, .i32⟩
  | 16 => ⟨S400000, .i32⟩
  | 17 => ⟨S400000x1, .i32⟩
  | 18 => ⟨S400000x128, .f32⟩
  | 19 => ⟨S_, .f32⟩
  | 20 => ⟨S20000x128, .f32⟩
  | 21 => ⟨S400000x1, .i32⟩
  | 22 => ⟨S20000x128, .f32⟩
  | 23 => ⟨S_, .f32⟩
  | 24 => ⟨S400000x1, .f32⟩
  | 25 => ⟨S_, .f32⟩
  | 26 => ⟨S20000x1, .f32⟩
  | 27 => ⟨S400000x1, .i32⟩
  | 28 => ⟨S20000x1, .f32⟩
  | 29 => ⟨S_, .f32⟩
  | 30 => ⟨S20000x1, .f32⟩
  | 31 => ⟨S20000x1, .f32⟩
  | 32 => ⟨S20000x128, .f32⟩
  | 33 => ⟨S20000x128, .f32⟩
  | 34 => ⟨S128x128, .f32⟩
  | 35 => ⟨S20000x128, .f32⟩
  | 36 => ⟨S1x128, .f32⟩
  | 37 => ⟨S20000x128, .f32⟩
  | 38 => ⟨S20000x128, .f32⟩
  | 39 => ⟨S128x128, .f32⟩
  | 40 => ⟨S20000x128, .f32⟩
  | 41 => ⟨S20000x128, .f32⟩
  | 42 => ⟨S_, .f32⟩
  | 43 => ⟨S_, .f32⟩
  | 44 => ⟨S200000x128, .f32⟩
  | 45 => ⟨S200000x128, .i1⟩
  | 46 => ⟨S_, .f32⟩
  | 47 => ⟨S200000x128, .f32⟩
  | 48 => ⟨S200000x128, .f32⟩
  | 49 => ⟨S200000x128, .f32⟩
  | 50 => ⟨S_, .f32⟩
  | 51 => ⟨S_, .f32⟩
  | 52 => ⟨S50000x128, .f32⟩
  | 53 => ⟨S50000x128, .i1⟩
  | 54 => ⟨S_, .f32⟩
  | 55 => ⟨S50000x128, .f32⟩
  | 56 => ⟨S50000x128, .f32⟩
  | 57 => ⟨S50000x128, .f32⟩
  | 58 => ⟨S_, .f32⟩
  | 59 => ⟨S_, .f32⟩
  | 60 => ⟨S20000x128, .f32⟩
  | 61 => ⟨S20000x128, .i1⟩
  | 62 => ⟨S_, .f32⟩
  | 63 => ⟨S20000x128, .f32⟩
  | 64 => ⟨S20000x128, .f32⟩
  | 65 => ⟨S20000x128, .f32⟩
  | 66 => ⟨S1x1x128x128, .f32⟩
  | 67 => ⟨S128x128, .f32⟩
  | 68 => ⟨S1x1x128x128, .f32⟩
  | 69 => ⟨S128x128, .f32⟩
  | 70 => ⟨S1x1x128, .f32⟩
  | 71 => ⟨S128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S_, .f32⟩
  | 86 => ⟨S800000x1, .f32⟩
  | 87 => ⟨S_, .f32⟩
  | 88 => ⟨S50000x1, .f32⟩
  | 89 => ⟨S800000x1, .i32⟩
  | 90 => ⟨S50000x1, .f32⟩
  | 91 => ⟨S_, .f32⟩
  | 92 => ⟨S50000x1, .f32⟩
  | 93 => ⟨S50000x1, .f32⟩
  | 94 => ⟨S50000x128, .f32⟩
  | 95 => ⟨S50000x128, .f32⟩
  | 96 => ⟨S128x128, .f32⟩
  | 97 => ⟨S50000x128, .f32⟩
  | 98 => ⟨S1x128, .f32⟩
  | 99 => ⟨S50000x128, .f32⟩
  | 100 => ⟨S50000x128, .f32⟩
  | 101 => ⟨S128x128, .f32⟩
  | 102 => ⟨S50000x128, .f32⟩
  | 103 => ⟨S50000x128, .f32⟩
  | 104 => ⟨S1x1x128x128, .f32⟩
  | 105 => ⟨S128x128, .f32⟩
  | 106 => ⟨S1x1x128x128, .f32⟩
  | 107 => ⟨S128x128, .f32⟩
  | 108 => ⟨S1x1x128, .f32⟩
  | 109 => ⟨S128, .f32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000x128, .f32⟩
  | 119 => ⟨S_, .f32⟩
  | 120 => ⟨S50000x128, .f32⟩
  | 121 => ⟨S400000x1, .i32⟩
  | 122 => ⟨S50000x128, .f32⟩
  | 123 => ⟨S_, .f32⟩
  | 124 => ⟨S400000x1, .f32⟩
  | 125 => ⟨S_, .f32⟩
  | 126 => ⟨S50000x1, .f32⟩
  | 127 => ⟨S400000x1, .i32⟩
  | _ => ⟨S50000x64, .f32⟩

abbrev hbmTy0_2 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x128, .f32⟩
  | 5 => ⟨S50000x128, .f32⟩
  | 6 => ⟨S128x128, .f32⟩
  | 7 => ⟨S50000x128, .f32⟩
  | 8 => ⟨S1x128, .f32⟩
  | 9 => ⟨S50000x128, .f32⟩
  | 10 => ⟨S50000x128, .f32⟩
  | 11 => ⟨S128x128, .f32⟩
  | 12 => ⟨S50000x128, .f32⟩
  | 13 => ⟨S50000x128, .f32⟩
  | 14 => ⟨S50000x128, .f32⟩
  | 15 => ⟨S1x1x128x128, .f32⟩
  | 16 => ⟨S128x128, .f32⟩
  | 17 => ⟨S1x1x128x128, .f32⟩
  | 18 => ⟨S128x128, .f32⟩
  | 19 => ⟨S1x1x128, .f32⟩
  | 20 => ⟨S128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S200000x128, .f32⟩
  | 32 => ⟨S800000x1, .i32⟩
  | 33 => ⟨S200000x128, .f32⟩
  | 34 => ⟨S_, .f32⟩
  | 35 => ⟨S800000x1, .f32⟩
  | 36 => ⟨S_, .f32⟩
  | 37 => ⟨S200000x1, .f32⟩
  | 38 => ⟨S800000x1, .i32⟩
  | 39 => ⟨S200000x1, .f32⟩
  | 40 => ⟨S_, .f32⟩
  | 41 => ⟨S200000x1, .f32⟩
  | 42 => ⟨S200000x1, .f32⟩
  | 43 => ⟨S200000x128, .f32⟩
  | 44 => ⟨S200000x128, .f32⟩
  | 45 => ⟨S128x128, .f32⟩
  | 46 => ⟨S200000x128, .f32⟩
  | 47 => ⟨S1x128, .f32⟩
  | 48 => ⟨S200000x128, .f32⟩
  | 49 => ⟨S200000x128, .f32⟩
  | 50 => ⟨S128x128, .f32⟩
  | 51 => ⟨S200000x128, .f32⟩
  | 52 => ⟨S200000x128, .f32⟩
  | 53 => ⟨S1x1x128x128, .f32⟩
  | 54 => ⟨S128x128, .f32⟩
  | 55 => ⟨S1x1x128x128, .f32⟩
  | 56 => ⟨S128x128, .f32⟩
  | 57 => ⟨S1x1x128, .f32⟩
  | 58 => ⟨S128, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x128, .f32⟩
  | 68 => ⟨S_, .f32⟩
  | 69 => ⟨S20000x128, .f32⟩
  | 70 => ⟨S400000x1, .i32⟩
  | 71 => ⟨S20000x128, .f32⟩
  | 72 => ⟨S_, .f32⟩
  | 73 => ⟨S400000x1, .f32⟩
  | 74 => ⟨S_, .f32⟩
  | 75 => ⟨S20000x1, .f32⟩
  | 76 => ⟨S400000x1, .i32⟩
  | 77 => ⟨S20000x1, .f32⟩
  | 78 => ⟨S_, .f32⟩
  | 79 => ⟨S20000x1, .f32⟩
  | 80 => ⟨S20000x1, .f32⟩
  | 81 => ⟨S20000x128, .f32⟩
  | 82 => ⟨S20000x128, .f32⟩
  | 83 => ⟨S128x128, .f32⟩
  | 84 => ⟨S20000x128, .f32⟩
  | 85 => ⟨S1x128, .f32⟩
  | 86 => ⟨S20000x128, .f32⟩
  | 87 => ⟨S20000x128, .f32⟩
  | 88 => ⟨S128x128, .f32⟩
  | 89 => ⟨S20000x128, .f32⟩
  | 90 => ⟨S20000x128, .f32⟩
  | 91 => ⟨S_, .f32⟩
  | 92 => ⟨S_, .f32⟩
  | 93 => ⟨S200000x128, .f32⟩
  | 94 => ⟨S200000x128, .i1⟩
  | 95 => ⟨S_, .f32⟩
  | 96 => ⟨S200000x128, .f32⟩
  | 97 => ⟨S200000x128, .f32⟩
  | 98 => ⟨S200000x128, .f32⟩
  | 99 => ⟨S_, .f32⟩
  | 100 => ⟨S_, .f32⟩
  | 101 => ⟨S50000x128, .f32⟩
  | 102 => ⟨S50000x128, .i1⟩
  | 103 => ⟨S_, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S20000x128, .f32⟩
  | 110 => ⟨S20000x128, .i1⟩
  | 111 => ⟨S_, .f32⟩
  | 112 => ⟨S20000x128, .f32⟩
  | 113 => ⟨S20000x128, .f32⟩
  | 114 => ⟨S20000x128, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_4 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_v76 : Ref sig .tc := ⟨.hbm, 101, rfl⟩
abbrev main_v77 : Ref sig .tc := ⟨.hbm, 102, rfl⟩
abbrev main_c_11 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_cst_14 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_15 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_16 : Ref sig .tc := ⟨.hbm, 138, rfl⟩
abbrev main_v108 : Ref sig .tc := ⟨.hbm, 139, rfl⟩
abbrev main_v109 : Ref sig .tc := ⟨.hbm, 140, rfl⟩
abbrev main_c_17 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_18 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_19 : Ref sig .tc := ⟨.hbm, 151, rfl⟩
abbrev main_v118 : Ref sig .tc := ⟨.hbm, 152, rfl⟩
abbrev main_cst_20 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_21 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_22 : Ref sig .tc := ⟨.hbm, 170, rfl⟩
abbrev main_call0_cst : Ref sig .tc := ⟨.hbm, 171, rfl⟩
abbrev main_call0_v0 : Ref sig .tc := ⟨.hbm, 172, rfl⟩
abbrev main_call0_v1 : Ref sig .tc := ⟨.hbm, 173, rfl⟩
abbrev main_call0_v2 : Ref sig .tc := ⟨.hbm, 174, rfl⟩
abbrev main_call0_v3 : Ref sig .tc := ⟨.hbm, 175, rfl⟩
abbrev main_call0_v4 : Ref sig .tc := ⟨.hbm, 176, rfl⟩
abbrev main_v134 : Ref sig .tc := ⟨.hbm, 177, rfl⟩
abbrev main_cst_23 : Ref sig .tc := ⟨.hbm, 178, rfl⟩
abbrev main_call1_cst : Ref sig .tc := ⟨.hbm, 179, rfl⟩
abbrev main_call1_v0 : Ref sig .tc := ⟨.hbm, 180, rfl⟩
abbrev main_call1_v1 : Ref sig .tc := ⟨.hbm, 181, rfl⟩
abbrev main_call1_v2 : Ref sig .tc := ⟨.hbm, 182, rfl⟩
abbrev main_call1_v3 : Ref sig .tc := ⟨.hbm, 183, rfl⟩
abbrev main_call1_v4 : Ref sig .tc := ⟨.hbm, 184, rfl⟩
abbrev main_v135 : Ref sig .tc := ⟨.hbm, 185, rfl⟩
abbrev main_cst_24 : Ref sig .tc := ⟨.hbm, 186, rfl⟩
abbrev main_call2_cst : Ref sig .tc := ⟨.hbm, 187, rfl⟩
abbrev main_call2_v0 : Ref sig .tc := ⟨.hbm, 188, rfl⟩
abbrev main_call2_v1 : Ref sig .tc := ⟨.hbm, 189, rfl⟩
abbrev main_call2_v2 : Ref sig .tc := ⟨.hbm, 190, rfl⟩
abbrev main_call2_v3 : Ref sig .tc := ⟨.hbm, 191, rfl⟩
abbrev main_call2_v4 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_c_25 : Ref sig .tc := ⟨.hbm, 200, rfl⟩
abbrev main_v143 : Ref sig .tc := ⟨.hbm, 201, rfl⟩
abbrev main_v144 : Ref sig .tc := ⟨.hbm, 202, rfl⟩
abbrev main_c_26 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_27 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_28 : Ref sig .tc := ⟨.hbm, 213, rfl⟩
abbrev main_v153 : Ref sig .tc := ⟨.hbm, 214, rfl⟩
abbrev main_cst_29 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_30 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_c_31 : Ref sig .tc := ⟨.hbm, 238, rfl⟩
abbrev main_v175 : Ref sig .tc := ⟨.hbm, 239, rfl⟩
abbrev main_v176 : Ref sig .tc := ⟨.hbm, 240, rfl⟩
abbrev main_c_32 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_33 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_cst_34 : Ref sig .tc := ⟨.hbm, 251, rfl⟩
abbrev main_v185 : Ref sig .tc := ⟨.hbm, 252, rfl⟩
abbrev main_cst_35 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_36 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_c_37 : Ref sig .tc := ⟨.hbm, 277, rfl⟩
abbrev main_v208 : Ref sig .tc := ⟨.hbm, 278, rfl⟩
abbrev main_v209 : Ref sig .tc := ⟨.hbm, 279, rfl⟩
abbrev main_c_38 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_cst_39 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_cst_40 : Ref sig .tc := ⟨.hbm, 290, rfl⟩
abbrev main_v218 : Ref sig .tc := ⟨.hbm, 291, rfl⟩
abbrev main_cst_41 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_cst_42 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_c_43 : Ref sig .tc := ⟨.hbm, 315, rfl⟩
abbrev main_v240 : Ref sig .tc := ⟨.hbm, 316, rfl⟩
abbrev main_v241 : Ref sig .tc := ⟨.hbm, 317, rfl⟩
abbrev main_c_44 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_cst_45 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_cst_46 : Ref sig .tc := ⟨.hbm, 328, rfl⟩
abbrev main_v250 : Ref sig .tc := ⟨.hbm, 329, rfl⟩
abbrev main_cst_47 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_cst_48 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_cst_49 : Ref sig .tc := ⟨.hbm, 347, rfl⟩
abbrev main_call3_cst : Ref sig .tc := ⟨.hbm, 348, rfl⟩
abbrev main_call3_v0 : Ref sig .tc := ⟨.hbm, 349, rfl⟩
abbrev main_call3_v1 : Ref sig .tc := ⟨.hbm, 350, rfl⟩
abbrev main_call3_v2 : Ref sig .tc := ⟨.hbm, 351, rfl⟩
abbrev main_call3_v3 : Ref sig .tc := ⟨.hbm, 352, rfl⟩
abbrev main_call3_v4 : Ref sig .tc := ⟨.hbm, 353, rfl⟩
abbrev main_v266 : Ref sig .tc := ⟨.hbm, 354, rfl⟩
abbrev main_cst_50 : Ref sig .tc := ⟨.hbm, 355, rfl⟩
abbrev main_call4_cst : Ref sig .tc := ⟨.hbm, 356, rfl⟩
abbrev main_call4_v0 : Ref sig .tc := ⟨.hbm, 357, rfl⟩
abbrev main_call4_v1 : Ref sig .tc := ⟨.hbm, 358, rfl⟩
abbrev main_call4_v2 : Ref sig .tc := ⟨.hbm, 359, rfl⟩
abbrev main_call4_v3 : Ref sig .tc := ⟨.hbm, 360, rfl⟩
abbrev main_call4_v4 : Ref sig .tc := ⟨.hbm, 361, rfl⟩
abbrev main_v267 : Ref sig .tc := ⟨.hbm, 362, rfl⟩
abbrev main_cst_51 : Ref sig .tc := ⟨.hbm, 363, rfl⟩
abbrev main_call5_cst : Ref sig .tc := ⟨.hbm, 364, rfl⟩
abbrev main_call5_v0 : Ref sig .tc := ⟨.hbm, 365, rfl⟩
abbrev main_call5_v1 : Ref sig .tc := ⟨.hbm, 366, rfl⟩
abbrev main_call5_v2 : Ref sig .tc := ⟨.hbm, 367, rfl⟩
abbrev main_call5_v3 : Ref sig .tc := ⟨.hbm, 368, rfl⟩
abbrev main_call5_v4 : Ref sig .tc := ⟨.hbm, 369, rfl⟩
abbrev main_v268 : Ref sig .tc := ⟨.hbm, 370, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x4x128x128_S1x1x128x128_0_0_0_0 : S2x4x128x128.Slices ![0, 0, 0, 0] S1x1x128x128
  shapeCasts_S1x1x128x128_S128x128 : S1x1x128x128.ShapeCasts S128x128
  slices_S2x4x128_S1x1x128_0_0_0 : S2x4x128.Slices ![0, 0, 0] S1x1x128
  shapeCasts_S1x1x128_S128 : S1x1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  slices_S2x4x128x128_S1x1x128x128_0_3_0_0 : S2x4x128x128.Slices ![0, 3, 0, 0] S1x1x128x128
  slices_S2x4x128_S1x1x128_0_3_0 : S2x4x128.Slices ![0, 3, 0] S1x1x128
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  slices_S2x4x128x128_S1x1x128x128_0_1_0_0 : S2x4x128x128.Slices ![0, 1, 0, 0] S1x1x128x128
  slices_S2x4x128_S1x1x128_0_1_0 : S2x4x128.Slices ![0, 1, 0] S1x1x128
  bcast_S_S200000x128 : S_.BroadcastsInDim S200000x128 (![] : Fin 0 → Fin S200000x128.rank)
  bcast_S_S200000x1 : S_.BroadcastsInDim S200000x1 (![] : Fin 0 → Fin S200000x1.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  slices_S2x4x128x128_S1x1x128x128_0_2_0_0 : S2x4x128x128.Slices ![0, 2, 0, 0] S1x1x128x128
  slices_S2x4x128_S1x1x128_0_2_0 : S2x4x128.Slices ![0, 2, 0] S1x1x128
  bcast_S_S20000x128 : S_.BroadcastsInDim S20000x128 (![] : Fin 0 → Fin S20000x128.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  dot_S50000x64_S64x128_S50000x128_1_0_0_1_n_n_wf : DotDims.WF S50000x64 S64x128 S50000x128 [1] [0] [0] [1] [] []
  gather_S200000x128_S800000x1_S800000x128_1_0_n_n_0_1_1128_wf : GatherDims.WF S200000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  gather_S20000x128_S400000x1_S400000x128_1_0_n_n_0_1_1128_wf : GatherDims.WF S20000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  scatter_S200000x1_S800000x1_S800000x1_1_0_0_1_wf : ScatterDims.WF S200000x1 S800000x1 S800000x1 [1] [0] [0] 1
  dot_S200000x128_S128x128_S200000x128_1_0_0_1_n_n_wf : DotDims.WF S200000x128 S128x128 S200000x128 [1] [0] [0] [1] [] []
  gather_S50000x128_S400000x1_S400000x128_1_0_n_n_0_1_1128_wf : GatherDims.WF S50000x128 S400000x1 S400000x128 [1] [0] [] [0] [] 1 ![1, 128]
  scatter_S20000x128_S400000x1_S400000x128_1_0_0_1_wf : ScatterDims.WF S20000x128 S400000x1 S400000x128 [1] [0] [0] 1
  scatter_S20000x1_S400000x1_S400000x1_1_0_0_1_wf : ScatterDims.WF S20000x1 S400000x1 S400000x1 [1] [0] [0] 1
  dot_S20000x128_S128x128_S20000x128_1_0_0_1_n_n_wf : DotDims.WF S20000x128 S128x128 S20000x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S20000x128_S400000x1_S400000x128_1_0_n_n_0_1_1128 : GatherDims S20000x128 S400000x1 S400000x128 where
  offsetDims := [1]
  collapsedSliceDims := [0]
  operandBatchingDims := []
  startIndicesBatchingDims := []
  startIndexMap := [0]
  indexVectorDim := 1
  sliceSizes := ![1, 128]
  wf := gather_S20000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def scatter_S200000x1_S800000x1_S800000x1_1_0_0_1 : ScatterDims S200000x1 S800000x1 S800000x1 where
  updateWindowDims := [1]
  insertedWindowDims := [0]
  scatterDimsToOperandDims := [0]
  indexVectorDim := 1
  wf := scatter_S200000x1_S800000x1_S800000x1_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S20000x128_S400000x1_S400000x128_1_0_0_1 : ScatterDims S20000x128 S400000x1 S400000x128 where
  updateWindowDims := [1]
  insertedWindowDims := [0]
  scatterDimsToOperandDims := [0]
  indexVectorDim := 1
  wf := scatter_S20000x128_S400000x1_S400000x128_1_0_0_1_wf
def scatter_S20000x1_S400000x1_S400000x1_1_0_0_1 : ScatterDims S20000x1 S400000x1 S400000x1 where
  updateWindowDims := [1]
  insertedWindowDims := [0]
  scatterDimsToOperandDims := [0]
  indexVectorDim := 1
  wf := scatter_S20000x1_S400000x1_S400000x1_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.Spec.lean ====
-- The mathematics both programs compute, stated once over the extended reals: the projection, the SAGE term, the three node updates, and the same terms as the tiled kernel receives them.
import Idealize.ShloMosaic.PureOps
import Idealize.ShloMosaic.PureOps.Ideal
import Idealize.ShloMosaic.Lib.ValueIdx
import Idealize.ShloMosaic.Lib.IdealHost

noncomputable section

open scoped BigOperators

namespace Sage

open Idealize.ShloMosaic Idealize.ShloMosaic.ValueIdx

abbrev Sc : Shape := ⟨0, ![]⟩
abbrev V1 (a : Nat) : Shape := ⟨1, ![a]⟩
abbrev M2 (a b : Nat) : Shape := ⟨2, ![a, b]⟩
abbrev T3 (a b c : Nat) : Shape := ⟨3, ![a, b, c]⟩
abbrev T4 (a b c d : Nat) : Shape := ⟨4, ![a, b, c, d]⟩

abbrev Arr (s : Shape) := FVec Ideal s .f32

abbrev Ids (e : Nat) := IVec (V1 e) 32

def InRange {e : Nat} (n : Nat) (idx : Ids e) : Prop := ∀ i, (idx i).toNat < n

def leaky (x : EReal) : EReal :=
  Scalar.select (FloatOps.cmpf (F := Ideal) (φ := .f32) .oge x (Ideal.ofBits .f32 0x00000000#32)) x
    (Ideal.ofBits .f32 0x3DCCCCCD#32 * x)

def hm0 (G : Arr (M2 50000 64)) (MW : Arr (M2 128 64)) (mb : Arr (V1 128)) : Arr (M2 50000 128) := fun i =>
  (∑ f : Fin 64, G (ix2 (i 0) f) * MW (ix2 (i 1) f)) + mb (ix1 (i 1))

def gatherRows (n e : Nat)
    (wf : GatherDims.WF (M2 n 128) (M2 e 1) (M2 e 128) [1] [0] [] [0] [] 1 ![1, 128]) :
    GatherDims (M2 n 128) (M2 e 1) (M2 e 128) where
  offsetDims := [1]
  collapsedSliceDims := [0]
  operandBatchingDims := []
  startIndicesBatchingDims := []
  startIndexMap := [0]
  indexVectorDim := 1
  sliceSizes := ![1, 128]
  wf := wf

def scatterRows (n e w : Nat) (wf : ScatterDims.WF (M2 n w) (M2 e 1) (M2 e w) [1] [0] [0] 1) :
    ScatterDims (M2 n w) (M2 e 1) (M2 e w) where
  updateWindowDims := [1]
  insertedWindowDims := [0]
  scatterDimsToOperandDims := [0]
  indexVectorDim := 1
  wf := wf

def col {e : Nat} (hb : (V1 e).BroadcastsInDim (M2 e 1) ![0]) (idx : Ids e) : IVec (M2 e 1) 32 :=
  broadcastInDim (M2 e 1) ![0] hb idx

def zeros (s : Shape) (hb : Sc.BroadcastsInDim s (![] : Fin 0 → Fin s.rank)) : Arr s :=
  broadcastInDim s ![] hb (constant (F := Ideal) Sc .f32 0x00000000#32)

def ones (s : Shape) (hb : Sc.BroadcastsInDim s (![] : Fin 0 → Fin s.rank)) : Arr s :=
  broadcastInDim s ![] hb (constant (F := Ideal) Sc .f32 0x3F800000#32)

def edgeSum (n e d : Nat)
    (wg : GatherDims.WF (M2 n 128) (M2 e 1) (M2 e 128) [1] [0] [] [0] [] 1 ![1, 128])
    (ws : ScatterDims.WF (M2 d 128) (M2 e 1) (M2 e 128) [1] [0] [0] 1)
    (hb : (V1 e).BroadcastsInDim (M2 e 1) ![0]) (hz : Sc.BroadcastsInDim (M2 d 128) (![] : Fin 0 → Fin 2))
    (x : Arr (M2 n 128)) (src dst : Ids e) : Arr (M2 d 128) :=
  Host.scatterAdd (scatterRows d e 128 ws) (zeros (M2 d 128) hz) (col hb dst)
    (Host.gather (gatherRows n e wg) x (col hb src))

def degree (e d : Nat) (ws : ScatterDims.WF (M2 d 1) (M2 e 1) (M2 e 1) [1] [0] [0] 1)
    (hb : (V1 e).BroadcastsInDim (M2 e 1) ![0]) (hz : Sc.BroadcastsInDim (M2 d 1) (![] : Fin 0 → Fin 2))
    (ho : Sc.BroadcastsInDim (M2 e 1) (![] : Fin 0 → Fin 2)) (dst : Ids e) : Arr (M2 d 1) :=
  Host.scatterAdd (scatterRows d e 1 ws) (zeros (M2 d 1) hz) (col hb dst) (ones (M2 e 1) ho)

def sumUM (x : Arr (M2 200000 128)) (src dst : Ids 800000) : Arr (M2 50000 128) :=
  edgeSum 200000 800000 50000 (by decide) (by decide) (by decide) (by decide) x src dst

def sumTM (x : Arr (M2 20000 128)) (src dst : Ids 400000) : Arr (M2 50000 128) :=
  edgeSum 20000 400000 50000 (by decide) (by decide) (by decide) (by decide) x src dst

def sumMU (x : Arr (M2 50000 128)) (src dst : Ids 800000) : Arr (M2 200000 128) :=
  edgeSum 50000 800000 200000 (by decide) (by decide) (by decide) (by decide) x src dst

def sumMT (x : Arr (M2 50000 128)) (src dst : Ids 400000) : Arr (M2 20000 128) :=
  edgeSum 50000 400000 20000 (by decide) (by decide) (by decide) (by decide) x src dst

def degM1 (dst : Ids 800000) : Arr (M2 50000 1) := degree 800000 50000 (by decide) (by decide) (by decide) (by decide) dst

def degM2 (dst : Ids 400000) : Arr (M2 50000 1) := degree 400000 50000 (by decide) (by decide) (by decide) (by decide) dst

def degU (dst : Ids 800000) : Arr (M2 200000 1) := degree 800000 200000 (by decide) (by decide) (by decide) (by decide) dst

def degT (dst : Ids 400000) : Arr (M2 20000 1) := degree 400000 20000 (by decide) (by decide) (by decide) (by decide) dst

def conv {n : Nat} (h : Arr (M2 n 128)) (Ws Wn : Arr (T4 2 4 128 128)) (bs : Arr (T3 2 4 128)) (l : Fin 2) (k : Fin 4)
    (ssum : Arr (M2 n 128)) (cnt : Arr (M2 n 1)) : Arr (M2 n 128) := fun i =>
  (∑ j : Fin 128, h (ix2 (i 0) j) * Ws (ix4 l k (i 1) j)) + bs (ix3 l k (i 1))
    + ∑ j : Fin 128, Ideal.div (ssum (ix2 (i 0) j)) (max (cnt (ix2 (i 0) (0 : Fin 1))) 1) * Wn (ix4 l k (i 1) j)

def layerU (l : Fin 2) (hu : Arr (M2 200000 128)) (hm : Arr (M2 50000 128))
    (Wn Ws : Arr (T4 2 4 128 128)) (bs : Arr (T3 2 4 128)) (ru rm : Ids 800000) : Arr (M2 200000 128) := fun i =>
  leaky (conv hu Ws Wn bs l 1 (sumMU hm rm ru) (degU ru) i)

def layerM (l : Fin 2) (hu : Arr (M2 200000 128)) (hm : Arr (M2 50000 128)) (ht : Arr (M2 20000 128))
    (Wn Ws : Arr (T4 2 4 128 128)) (bs : Arr (T3 2 4 128)) (ru rm : Ids 800000) (tm tt : Ids 400000) :
    Arr (M2 50000 128) := fun i =>
  leaky (conv hm Ws Wn bs l 0 (sumUM hu ru rm) (degM1 rm) i + conv hm Ws Wn bs l 3 (sumTM ht tt tm) (degM2 tm) i)

def layerT (l : Fin 2) (hm : Arr (M2 50000 128)) (ht : Arr (M2 20000 128))
    (Wn Ws : Arr (T4 2 4 128 128)) (bs : Arr (T3 2 4 128)) (tm tt : Ids 400000) : Arr (M2 20000 128) := fun i =>
  leaky (conv ht Ws Wn bs l 2 (sumMT hm tm tt) (degT tt) i)

section Results
variable (G : Arr (M2 50000 64)) (U : Arr (M2 200000 128)) (T : Arr (M2 20000 128)) (MW : Arr (M2 128 64))
  (mb : Arr (V1 128)) (Wn Ws : Arr (T4 2 4 128 128)) (bs : Arr (T3 2 4 128)) (ru rm : Ids 800000) (tm tt : Ids 400000)

def hu1 : Arr (M2 200000 128) := layerU 0 U (hm0 G MW mb) Wn Ws bs ru rm

def hm1 : Arr (M2 50000 128) := layerM 0 U (hm0 G MW mb) T Wn Ws bs ru rm tm tt

def ht1 : Arr (M2 20000 128) := layerT 0 (hm0 G MW mb) T Wn Ws bs tm tt

def outU : Arr (M2 200000 128) :=
  layerU 1 (hu1 G U MW mb Wn Ws bs ru rm) (hm1 G U T MW mb Wn Ws bs ru rm tm tt) Wn Ws bs ru rm

def outM : Arr (M2 50000 128) :=
  layerM 1 (hu1 G U MW mb Wn Ws bs ru rm) (hm1 G U T MW mb Wn Ws bs ru rm tm tt) (ht1 G T MW mb Wn Ws bs tm tt)
    Wn Ws bs ru rm tm tt
end Results

def recip {n : Nat} (cnt : Arr (M2 n 1)) : Arr (M2 n 1) := fun i => Ideal.div 1 (max (cnt i) 1)

def stackW2 (W : Arr (T4 2 4 128 128)) (l : Fin 2) (k0 k1 : Fin 4) : Arr (T3 2 128 128) := fun i =>
  W (ix4 l (if (i 0).val = 0 then k0 else k1) (i 2) (i 1))

def stackW1 (W : Arr (T4 2 4 128 128)) (l : Fin 2) (k : Fin 4) : Arr (T3 1 128 128) := fun i =>
  W (ix4 l k (i 2) (i 1))

def stackB2 (bs : Arr (T3 2 4 128)) (l : Fin 2) (k0 k1 : Fin 4) : Arr (T3 2 1 128) := fun i =>
  bs (ix3 l (if (i 0).val = 0 then k0 else k1) (i 2))

def stackB1 (bs : Arr (T3 2 4 128)) (l : Fin 2) (k : Fin 4) : Arr (T3 1 1 128) := fun i => bs (ix3 l k (i 2))

def stack2 {n w : Nat} (a b : Arr (M2 n w)) : Arr (T3 2 n w) := fun i =>
  if (i 0).val = 0 then a (ix2 (i 1) (i 2)) else b (ix2 (i 1) (i 2))

def stack1 {n w : Nat} (a : Arr (M2 n w)) : Arr (T3 1 n w) := fun i => a (ix2 (i 1) (i 2))

def combine2 {n : Nat} (h : Arr (M2 n 128)) (WS : Arr (T3 2 128 128)) (B : Arr (T3 2 1 128)) (WN : Arr (T3 2 128 128))
    (S : Arr (T3 2 n 128)) (R : Arr (T3 2 n 1)) : Arr (M2 n 128) := fun i =>
  leaky
    (((∑ j : Fin 128, h (ix2 (i 0) j) * WS (ix3 (0 : Fin 2) j (i 1))) + B (ix3 (0 : Fin 2) (0 : Fin 1) (i 1))
        + ∑ j : Fin 128, (S (ix3 (0 : Fin 2) (i 0) j) * R (ix3 (0 : Fin 2) (i 0) (0 : Fin 1))) * WN (ix3 (0 : Fin 2) j (i 1)))
      + ((∑ j : Fin 128, h (ix2 (i 0) j) * WS (ix3 (1 : Fin 2) j (i 1))) + B (ix3 (1 : Fin 2) (0 : Fin 1) (i 1))
        + ∑ j : Fin 128, (S (ix3 (1 : Fin 2) (i 0) j) * R (ix3 (1 : Fin 2) (i 0) (0 : Fin 1))) * WN (ix3 (1 : Fin 2) j (i 1))))

def combine1 {n : Nat} (h : Arr (M2 n 128)) (WS : Arr (T3 1 128 128)) (B : Arr (T3 1 1 128)) (WN : Arr (T3 1 128 128))
    (S : Arr (T3 1 n 128)) (R : Arr (T3 1 n 1)) : Arr (M2 n 128) := fun i =>
  leaky
    ((∑ j : Fin 128, h (ix2 (i 0) j) * WS (ix3 (0 : Fin 1) j (i 1))) + B (ix3 (0 : Fin 1) (0 : Fin 1) (i 1))
      + ∑ j : Fin 128, (S (ix3 (0 : Fin 1) (i 0) j) * R (ix3 (0 : Fin 1) (i 0) (0 : Fin 1))) * WN (ix3 (0 : Fin 1) j (i 1)))

def proj (G : Arr (M2 50000 64)) (WT : Arr (M2 64 128)) (b : Arr (M2 1 128)) : Arr (M2 50000 128) := fun i =>
  (∑ f : Fin 64, G (ix2 (i 0) f) * WT (ix2 f (i 1))) + b (ix2 (0 : Fin 1) (i 1))

end Sage

end
-- ==== Proof.Range.lean ====
-- The precondition's four range conjuncts, read as bounds on the index arrays' entries.
import proofs.«428332_j82145544503775_2_alg».proof.Pre_finite_inputs
import proofs.«428332_j82145544503775_2_alg».proof.Proof.Spec
import Idealize.ShloMosaic.Lib.ReduceAll
import Idealize.ShloMosaic.Lib.StableHlo.Predicate

namespace Cert.Range

open Idealize.ShloMosaic Idealize.ShloMosaic.StableHlo Cert.Pre_finite_inputs

instance : Subsingleton S_.Idx := ⟨fun a b => funext fun d => d.elim0⟩

theorem toNat_lt_of_sge_zero (w : BitVec 32) (h0 : IntOp.cmpi .sge w 0#32 = 1#1) : w.toNat < 2 ^ 31 := by
  unfold IntOp.cmpi at h0
  rw [Predicate.ofBool_eq_one_iff] at h0
  simp only [BitVec.sle, decide_eq_true_eq] at h0
  have hz : (0#32 : BitVec 32).toInt = 0 := by decide
  rw [hz, BitVec.toInt_eq_toNat_cond] at h0
  have hlt := w.isLt
  split at h0 <;> omega

theorem toNat_lt_of_signed (w b : BitVec 32) (hb : b.toNat < 2 ^ 31) (h0 : IntOp.cmpi .sge w 0#32 = 1#1)
    (h1 : IntOp.cmpi .slt w b = 1#1) : w.toNat < b.toNat :=
  (Predicate.slt_iff_toNat (toNat_lt_of_sge_zero w h0) hb).1 h1

theorem ranges_of_pre {F : FTy → Type} [FloatOps F] [Cert.Pre_finite_inputs.Facts]
    (a0 : FVec F S50000x64 .f32) (a1 : FVec F S200000x128 .f32) (a2 : FVec F S20000x128 .f32)
    (a3 : FVec F S128x64 .f32) (a4 : FVec F S128 .f32) (a5 : FVec F S2x4x128x128 .f32)
    (a6 : FVec F S2x4x128x128 .f32) (a7 : FVec F S2x4x128 .f32)
    (a8 : IVec S800000 32) (a9 : IVec S800000 32) (a10 : IVec S400000 32) (a11 : IVec S400000 32)
    (h : Cert.Pre_finite_inputs.fn (F := F) a0 a1 a2 a3 a4 a5 a6 a7 a8 a9 a10 a11 = fun _ => 1#1) :
    Sage.InRange 200000 a8 ∧ Sage.InRange 50000 a9 ∧ Sage.InRange 50000 a10 ∧ Sage.InRange 20000 a11 := by
  have e := congrFun h ValueIdx.ix0
  dsimp only [fn, fn_part1, fn_part2, fn_part3, fn_part4] at e
  simp only [andi, IntOp.andi_eq_one] at e
  obtain ⟨⟨⟨⟨⟨⟨⟨⟨_, l8⟩, u8⟩, l9⟩, u9⟩, l10⟩, u10⟩, l11⟩, u11⟩ := e
  refine ⟨fun i => ?_, fun i => ?_, fun i => ?_, fun i => ?_⟩
  · exact toNat_lt_of_signed (a8 i) 200000#32 (by decide)
      (Host.reduce_andi_all _ _ _ _ _ l8 i) (Host.reduce_andi_all _ _ _ _ _ u8 i)
  · exact toNat_lt_of_signed (a9 i) 50000#32 (by decide)
      (Host.reduce_andi_all _ _ _ _ _ l9 i) (Host.reduce_andi_all _ _ _ _ _ u9 i)
  · exact toNat_lt_of_signed (a10 i) 50000#32 (by decide)
      (Host.reduce_andi_all _ _ _ _ _ l10 i) (Host.reduce_andi_all _ _ _ _ _ u10 i)
  · exact toNat_lt_of_signed (a11 i) 20000#32 (by decide)
      (Host.reduce_andi_all _ _ _ _ _ l11 i) (Host.reduce_andi_all _ _ _ _ _ u11 i)

end Cert.Range
-- ==== Proof.SpecLemmas.lean ====
-- x · (1 / c) = x / c for c = max(count, 1), and the kernel's combine of transposed stacks is the specification's SAGE term.
import proofs.«428332_j82145544503775_2_alg».proof.Proof.Spec

noncomputable section

open scoped BigOperators

namespace Sage

open Idealize.ShloMosaic Idealize.ShloMosaic.ValueIdx

theorem max_one_ne_zero (c : EReal) : max c 1 ≠ 0 :=
  (lt_of_lt_of_le zero_lt_one (le_max_right c 1)).ne'

theorem mul_recip {n : Nat} (s : EReal) (cnt : Arr (M2 n 1)) (i : (M2 n 1).Idx) :
    s * recip cnt i = Ideal.div s (max (cnt i) 1) :=
  Ideal.mul_one_div (max_one_ne_zero (cnt i))

theorem proj_transposed (G : Arr (M2 50000 64)) (MW : Arr (M2 128 64)) (mb : Arr (V1 128)) :
    proj G (fun i => MW (ix2 (i 1) (i 0))) (fun i => mb (ix1 (i 1))) = hm0 G MW mb := by
  funext i
  rfl

theorem stackW1_of_swapped (W : Arr (T4 2 4 128 128)) (l : Fin 2) (k : Fin 4) :
    (fun i : (T3 1 128 128).Idx =>
      (fun a : (T4 2 4 128 128).Idx => W (ix4 (a 0) (a 1) (a 3) (a 2))) (ix4 l k (i 1) (i 2))) = stackW1 W l k := by
  funext i
  rfl

theorem stackB1_of_row (bs : Arr (T3 2 4 128)) (l : Fin 2) (k : Fin 4) :
    (fun i : (T3 1 1 128).Idx =>
      (fun a : (T4 2 4 1 128).Idx => bs (ix3 (a 0) (a 1) (a 3))) (ix4 l k (0 : Fin 1) (i 2))) = stackB1 bs l k := by
  funext i
  rfl

theorem combine1_conv {n : Nat} (h : Arr (M2 n 128)) (Ws Wn : Arr (T4 2 4 128 128)) (bs : Arr (T3 2 4 128))
    (l : Fin 2) (k : Fin 4) (s : Arr (M2 n 128)) (c : Arr (M2 n 1)) :
    combine1 h (stackW1 Ws l k) (stackB1 bs l k) (stackW1 Wn l k) (stack1 s) (stack1 (recip c))
      = fun i => leaky (conv h Ws Wn bs l k s c i) := by
  funext i
  unfold combine1 conv
  congr 1
  congr 1
  refine Finset.sum_congr rfl fun j _ => ?_
  congr 1
  exact mul_recip (s (ix2 (i 0) j)) c (ix2 (i 0) (0 : Fin 1))

theorem combine2_conv {n : Nat} (h : Arr (M2 n 128)) (Ws Wn : Arr (T4 2 4 128 128)) (bs : Arr (T3 2 4 128))
    (l : Fin 2) (k0 k1 : Fin 4) (s0 s1 : Arr (M2 n 128)) (c0 c1 : Arr (M2 n 1)) :
    combine2 h (stackW2 Ws l k0 k1) (stackB2 bs l k0 k1) (stackW2 Wn l k0 k1) (stack2 s0 s1) (stack2 (recip c0) (recip c1))
      = fun i => leaky (conv h Ws Wn bs l k0 s0 c0 i + conv h Ws Wn bs l k1 s1 c1 i) := by
  funext i
  unfold combine2 conv
  congr 1
  congr 1
  · congr 1
    refine Finset.sum_congr rfl fun j _ => ?_
    congr 1
    exact mul_recip (s0 (ix2 (i 0) j)) c0 (ix2 (i 0) (0 : Fin 1))
  · congr 1
    refine Finset.sum_congr rfl fun j _ => ?_
    congr 1
    exact mul_recip (s1 (ix2 (i 0) j)) c1 (ix2 (i 0) (0 : Fin 1))

end Sage

end
-- ==== Proof.KReg0.lean ====
-- The projection region: each block of 5000 movie rows stores genre · Wᵀ + b, and the ten blocks cover the array.
import proofs.«428332_j82145544503775_2_alg».proof.Proof.Gen.KernelIdeal.Frame
import proofs.«428332_j82145544503775_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

theorem matmul_zero_ix2 {m k n : Nat}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    FloatOps.matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

theorem proj_block (x0 : Vec Ideal S5000x64 .f32) (x1 : Vec Ideal S64x128 .f32) (x2 : Vec Ideal S1x128 .f32)
    (r : Fin 5000) (o : Fin 128) :
    k0_pay1 x0 x1 x2 (ix2 r o) = (∑ f : Fin 64, x0 (ix2 r f) * x1 (ix2 f o)) + x2 (ix2 (0 : Fin 1) o) := by
  unfold k0_pay1
  simp only [shapeCast_self]
  rw [addf_apply]
  congr 1
  · exact matmul_zero_ix2 dot_S5000x64_S64x128_S5000x128_1_0_0_1_n_n_wf (some .fp32) x0 x1 r o
  · exact broadcastTo_apply x2 broadcasts_S1x128_S5000x128 (ix2 r o) (ix2 (0 : Fin 1) o) (by
      intro a
      match a with
      | ⟨0, _⟩ => rfl
      | ⟨1, _⟩ => rfl)

section Region0
variable (V : (c : Dev nD) → (b : Ref sig .tc) → Buf (Elt Ideal) ((c : Thread nD τ).loc b))

theorem zeros2 : (![0, 0] : Fin 2 → Nat) = fun _ => 0 := funext fun a => by fin_cases a <;> rfl

theorem blockNumbers0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushed0_eq (c : Dev nD) (t : Fin cfg0.N) :
    (dat0 V c).flushed 3 t = ((cfg0.win 3).blk t).view.read (Elt Ideal)
      (Sage.proj (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeros2]
  simp only [View.ld_unit_zero (S := S5000x64) zeros2, View.ld_unit_zero (S := S64x128) zeros2, View.ld_unit_zero (S := S1x128) zeros2]
  obtain ⟨e0, e1, e2, e3, e4, e5, e6, e7⟩ := blockNumbers0 t
  funext j
  obtain ⟨r, o, rfl⟩ : ∃ (r : Fin 5000) (o : Fin 128), j = ix2 r o := ⟨j 0, j 1, eq_ix2 j⟩
  show k0_pay1 (iblk0 V c 0 t) (iblk0 V c 1 t) (iblk0 V c 2 t) (ix2 r o)
    = Sage.proj (V c (Pipeline.arrRef spec0 0)) (V c (Pipeline.arrRef spec0 1)) (V c (Pipeline.arrRef spec0 2)) (((cfg0.win 3).blk t).view.emb (ix2 r o))
  rw [proj_block]
  have he0 : (((cfg0.win 3).blk t).view.emb (ix2 r o) 0).val = t.val * 5000 + r.val := by
    show win0_3.index t (0 : Fin 2) * 5000 + 1 * r.val = _; rw [e6]; omega
  have he1 : (((cfg0.win 3).blk t).view.emb (ix2 r o) 1).val = o.val := by
    show win0_3.index t (1 : Fin 2) * 128 + 1 * o.val = _; rw [e7]; omega
  generalize ((cfg0.win 3).blk t).view.emb (ix2 r o) = e at he0 he1 ⊢
  have h0 : ∀ f : Fin 64, iblk0 V c 0 t (ix2 r f) = V c (Pipeline.arrRef spec0 0) (ix2 (e 0) f) := by
    intro f
    show V c (Pipeline.arrRef spec0 0) (((cfg0.win 0).blk t).view.emb (ix2 r f)) = _
    congr 1
    funext a; apply Fin.ext
    match a with
    | ⟨0, _⟩ => show win0_0.index t (0 : Fin 2) * 5000 + 1 * r.val = (e 0).val; rw [he0, e0]; omega
    | ⟨1, _⟩ => show win0_0.index t (1 : Fin 2) * 64 + 1 * f.val = f.val; rw [e1]; omega
  have h1 : ∀ f : Fin 64, iblk0 V c 1 t (ix2 f o) = V c (Pipeline.arrRef spec0 1) (ix2 f (e 1)) := by
    intro f
    show V c (Pipeline.arrRef spec0 1) (((cfg0.win 1).blk t).view.emb (ix2 f o)) = _
    congr 1
    funext a; apply Fin.ext
    match a with
    | ⟨0, _⟩ => show win0_1.index t (0 : Fin 2) * 64 + 1 * f.val = f.val; rw [e2]; omega
    | ⟨1, _⟩ => show win0_1.index t (1 : Fin 2) * 128 + 1 * o.val = (e 1).val; rw [he1, e3]; omega
  have h2 : iblk0 V c 2 t (ix2 (0 : Fin 1) o) = V c (Pipeline.arrRef spec0 2) (ix2 (0 : Fin 1) (e 1)) := by
    show V c (Pipeline.arrRef spec0 2) (((cfg0.win 2).blk t).view.emb (ix2 (0 : Fin 1) o)) = _
    congr 1
    funext a; apply Fin.ext
    match a with
    | ⟨0, _⟩ => show win0_2.index t (0 : Fin 2) * 1 + 1 * 0 = 0; rw [e4]
    | ⟨1, _⟩ => show win0_2.index t (1 : Fin 2) * 128 + 1 * o.val = (e 1).val; rw [he1, e5]; omega
  rw [h2]
  simp only [h0, h1]
  unfold Sage.proj
  rfl

theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨e0, e1, e2, e3, e4, e5, e6, e7⟩ := blockNumbers0 t
  refine ⟨t, flush0_3 t, ?_⟩
  rw [mem_block0]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

theorem final0 (c : Dev nD) : (dat0 V c).arrAt 3 cfg0.N
    = Sage.proj (V c (Pipeline.arrRef spec0 0)) (V c (Pipeline.arrRef spec0 1)) (V c (Pipeline.arrRef spec0 2)) :=
  (dat0 V c).arrAt_eq_of_cover 3 _ (fun t _ => flushed0_eq V c t) cover0

end Region0

end Cert.KernelIdeal.Reg

end
-- ==== Proof.KComb.lean ====
-- The two-edge-type body's pieces at an entry: layout operations, the 128-channel product, one SAGE term added to an accumulator.
import proofs.«428332_j82145544503775_2_alg».proof.Proof.Gen.KernelIdeal.Frame
import proofs.«428332_j82145544503775_2_alg».proof.Proof.Spec
import proofs.«428332_j82145544503775_2_alg».proof.Proof.KReg0
import Idealize.ShloMosaic.Lib.Pipeline.Value
import Idealize.ShloMosaic.Lib.ValueIdx
import Idealize.ShloMosaic.PureOps.Ideal.Laws

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

theorem dropUnit_ix2 {α : Type} {m n : Nat} (v : (⟨3, ![1, m, n]⟩ : Shape).Idx → α)
    (h : (⟨3, ![1, m, n]⟩ : Shape).ShapeCasts ⟨2, ![m, n]⟩) (a : Fin m) (b : Fin n) :
    shapeCast ⟨2, ![m, n]⟩ v h (ix2 a b) = v (ix3 (0 : Fin 1) a b) := by
  refine shapeCast_apply v h (ix2 a b) (ix3 (0 : Fin 1) a b) ?_
  rw [Shape.rowMajor_val_three, Shape.rowMajor_val_two]
  show (0 * m + a.val) * n + b.val = a.val * n + b.val
  rw [Nat.zero_mul, Nat.zero_add]

theorem rowCopy_ix2 {α : Type} {m n : Nat} (v : (⟨2, ![1, n]⟩ : Shape).Idx → α)
    (h : (⟨2, ![1, n]⟩ : Shape).Broadcasts ⟨2, ![m, n]⟩) (a : Fin m) (b : Fin n) :
    broadcastTo ⟨2, ![m, n]⟩ v h (ix2 a b) = v (ix2 (0 : Fin 1) b) := by
  refine broadcastTo_apply v h (ix2 a b) (ix2 (0 : Fin 1) b) ?_
  intro c
  match c with
  | ⟨0, _⟩ => rfl
  | ⟨1, _⟩ =>
    show b.val = if n = 1 then 0 else b.val
    have hb := b.isLt
    split
    · omega
    · rfl

theorem colCopy_ix2 {α : Type} {m n : Nat} (v : (⟨2, ![m, 1]⟩ : Shape).Idx → α)
    (h : (⟨2, ![m, 1]⟩ : Shape).Broadcasts ⟨2, ![m, n]⟩) (a : Fin m) (b : Fin n) :
    broadcastTo ⟨2, ![m, n]⟩ v h (ix2 a b) = v (ix2 a (0 : Fin 1)) := by
  refine broadcastTo_apply v h (ix2 a b) (ix2 a (0 : Fin 1)) ?_
  intro c
  match c with
  | ⟨0, _⟩ =>
    show a.val = if m = 1 then 0 else a.val
    have ha := a.isLt
    split
    · omega
    · rfl
  | ⟨1, _⟩ => rfl

theorem idx_ext3 {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

theorem leaky_of_eq {x y : Ideal .f32} (h : x = y) :
    Scalar.select (FloatOps.cmpf (F := Ideal) (φ := .f32) .oge x (FloatOps.ofBits (F := Ideal) .f32 0x00000000#32)) x
      (FloatOps.ofBits (F := Ideal) .f32 0x3DCCCCCD#32 * x) = Sage.leaky y := by
  subst h; rfl

theorem mm128 (A : FVec Ideal S5000x128 .f32) (B : FVec Ideal S128x128 .f32) (r : Fin 5000) (o : Fin 128) :
    matmul dot_S5000x128_S128x128_S5000x128_1_0_0_1_n_n (some .fp32) A B (constant S5000x128 .f32 0x00000000#32) (ix2 r o)
      = ∑ j : Fin 128, A (ix2 r j) * B (ix2 j o) :=
  matmul_zero_ix2 dot_S5000x128_S128x128_S5000x128_1_0_0_1_n_n_wf (some .fp32) A B r o

theorem term_block (acc h : FVec Ideal S5000x128 .f32) (ws : FVec Ideal S128x128 .f32) (b : FVec Ideal S1x128 .f32)
    (wn : FVec Ideal S128x128 .f32) (s : Vec Ideal S1x5000x128 .f32) (rc : Vec Ideal S1x5000x1 .f32)
    (r : Fin 5000) (o : Fin 128) :
    addf (addf (addf acc (matmul dot_S5000x128_S128x128_S5000x128_1_0_0_1_n_n (some .fp32) h ws (constant S5000x128 .f32 0x00000000#32)))
        (broadcastTo S5000x128 b broadcasts_S1x128_S5000x128))
      (matmul dot_S5000x128_S128x128_S5000x128_1_0_0_1_n_n (some .fp32)
        (mulf (shapeCast S5000x128 s shapeCasts_S1x5000x128_S5000x128 : FVec Ideal S5000x128 .f32)
          (broadcastTo S5000x128 (shapeCast S5000x1 rc shapeCasts_S1x5000x1_S5000x1 : FVec Ideal S5000x1 .f32) broadcasts_S5000x1_S5000x128))
        wn (constant S5000x128 .f32 0x00000000#32)) (ix2 r o)
    = acc (ix2 r o) + (∑ j : Fin 128, h (ix2 r j) * ws (ix2 j o)) + b (ix2 (0 : Fin 1) o)
        + ∑ j : Fin 128, (s (ix3 (0 : Fin 1) r j) * rc (ix3 (0 : Fin 1) r (0 : Fin 1))) * wn (ix2 j o) := by
  rw [addf_apply, addf_apply, addf_apply, mm128, mm128, rowCopy_ix2]
  congr 1
  refine Finset.sum_congr rfl fun j _ => ?_
  rw [mulf_apply, colCopy_ix2, dropUnit_ix2, dropUnit_ix2]

end Cert.KernelIdeal.Reg

end
-- ==== Proof.KReg1.lean ====
-- The movies' combine of the first layer: block t of the result is rows 5000·t … of the two-edge-type combine of the six arrays.
import proofs.«428332_j82145544503775_2_alg».proof.Proof.Gen.KernelIdeal.Frame
import proofs.«428332_j82145544503775_2_alg».proof.Proof.Spec
import proofs.«428332_j82145544503775_2_alg».proof.Proof.KComb
import Idealize.ShloMosaic.Lib.Pipeline.Value
import Idealize.ShloMosaic.Lib.ValueIdx
import Idealize.ShloMosaic.PureOps.Ideal.Laws

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

theorem sage2_block1 (h : Vec Ideal S5000x128 .f32)
    (ws0 : Vec Ideal S1x128x128 .f32) (b0 : Vec Ideal S1x1x128 .f32) (wn0 : Vec Ideal S1x128x128 .f32)
    (s0 : Vec Ideal S1x5000x128 .f32) (r0 : Vec Ideal S1x5000x1 .f32)
    (ws1 : Vec Ideal S1x128x128 .f32) (b1 : Vec Ideal S1x1x128 .f32) (wn1 : Vec Ideal S1x128x128 .f32)
    (s1 : Vec Ideal S1x5000x128 .f32) (r1 : Vec Ideal S1x5000x1 .f32) (r : Fin 5000) (o : Fin 128) :
    k1_pay1 (k1_pay2 h) (k1_pay3 h ws0 b0 wn0 s0 r0) (k1_pay4 ws1) (k1_pay5 b1) (k1_pay6 wn1) s1 r1 (ix2 r o)
      = Sage.leaky
        (((∑ j : Fin 128, h (ix2 r j) * ws0 (ix3 (0 : Fin 1) j o)) + b0 (ix3 (0 : Fin 1) (0 : Fin 1) o)
            + ∑ j : Fin 128, (s0 (ix3 (0 : Fin 1) r j) * r0 (ix3 (0 : Fin 1) r (0 : Fin 1))) * wn0 (ix3 (0 : Fin 1) j o))
          + ((∑ j : Fin 128, h (ix2 r j) * ws1 (ix3 (0 : Fin 1) j o)) + b1 (ix3 (0 : Fin 1) (0 : Fin 1) o)
            + ∑ j : Fin 128, (s1 (ix3 (0 : Fin 1) r j) * r1 (ix3 (0 : Fin 1) r (0 : Fin 1))) * wn1 (ix3 (0 : Fin 1) j o))) := by
  unfold k1_pay1
  rw [select_apply, cmpf_apply, mulf_apply, broadcast_apply, broadcast_apply, term_block]
  unfold k1_pay3
  rw [term_block, broadcast_apply]
  unfold k1_pay2 k1_pay4 k1_pay5 k1_pay6
  simp only [shapeCast_self, dropUnit_ix2]
  refine leaky_of_eq ?_
  rw [Ideal.ofBits_def, Ideal.ofBits_zero_f32, zero_add]
  simp only [add_assoc]

section Region1
variable (V : (c : Dev nD) → (b : Ref sig .tc) → Buf (Elt Ideal) ((c : Thread nD τ).loc b))

theorem blockNumbers1 : ∀ t : Fin cfg1.N,
    win1_0.index t (0 : Fin 2) = t.val
    ∧ win1_0.index t (1 : Fin 2) = 0
    ∧ win1_1.index t (0 : Fin 3) = 0
    ∧ win1_1.index t (1 : Fin 3) = 0
    ∧ win1_1.index t (2 : Fin 3) = 0
    ∧ win1_2.index t (0 : Fin 3) = 0
    ∧ win1_2.index t (1 : Fin 3) = 0
    ∧ win1_2.index t (2 : Fin 3) = 0
    ∧ win1_3.index t (0 : Fin 3) = 0
    ∧ win1_3.index t (1 : Fin 3) = 0
    ∧ win1_3.index t (2 : Fin 3) = 0
    ∧ win1_4.index t (0 : Fin 3) = 0
    ∧ win1_4.index t (1 : Fin 3) = t.val
    ∧ win1_4.index t (2 : Fin 3) = 0
    ∧ win1_5.index t (0 : Fin 3) = 0
    ∧ win1_5.index t (1 : Fin 3) = t.val
    ∧ win1_5.index t (2 : Fin 3) = 0
    ∧ win1_6.index t (0 : Fin 2) = t.val
    ∧ win1_6.index t (1 : Fin 2) = 0 :=
  (by decide +kernel : ∀ t : Fin grid1.N, _)

theorem rd1_H (c : Dev nD) (t : Fin cfg1.N) (r : Fin 5000) (j : Fin 128) (e0 : Fin 50000) (he0 : e0.val = t.val * 5000 + r.val) :
    iblk1 V c 0 t (ix2 r j) = V c (Pipeline.arrRef spec1 0) (ix2 e0 j) := by
  have f := blockNumbers1 t
  show V c (Pipeline.arrRef spec1 0) (((cfg1.win 0).blk t).view.emb (ix2 r j)) = _
  exact congrArg (V c (Pipeline.arrRef spec1 0)) (Shape.idx_ext₂
    (show win1_0.index t (0 : Fin 2) * 5000 + 1 * r.val = e0.val by omega)
    (show win1_0.index t (1 : Fin 2) * 128 + 1 * j.val = j.val by omega))

theorem rd1_WSa (c : Dev nD) (t : Fin cfg1.N) (j o : Fin 128) (e1 : Fin 128) (he1 : e1.val = o.val) :
    View.ld (iblk1 V c 1 t) r1_1 (ix3 (0 : Fin 1) j o) = V c (Pipeline.arrRef spec1 1) (ix3 (0 : Fin 2) j e1) := by
  have f := blockNumbers1 t
  show V c (Pipeline.arrRef spec1 1) (((cfg1.win 1).blk t).view.emb (r1_1.emb (ix3 (0 : Fin 1) j o))) = _
  exact congrArg (V c (Pipeline.arrRef spec1 1)) (idx_ext3
    (show win1_1.index t (0 : Fin 3) * 2 + 1 * (0 + 1 * 0) = 0 by omega)
    (show win1_1.index t (1 : Fin 3) * 128 + 1 * (0 + 1 * j.val) = j.val by omega)
    (show win1_1.index t (2 : Fin 3) * 128 + 1 * (0 + 1 * o.val) = e1.val by omega))

theorem rd1_Ba (c : Dev nD) (t : Fin cfg1.N) (o : Fin 128) (e1 : Fin 128) (he1 : e1.val = o.val) :
    View.ld (iblk1 V c 2 t) r1_2 (ix3 (0 : Fin 1) (0 : Fin 1) o) = V c (Pipeline.arrRef spec1 2) (ix3 (0 : Fin 2) (0 : Fin 1) e1) := by
  have f := blockNumbers1 t
  show V c (Pipeline.arrRef spec1 2) (((cfg1.win 2).blk t).view.emb (r1_2.emb (ix3 (0 : Fin 1) (0 : Fin 1) o))) = _
  exact congrArg (V c (Pipeline.arrRef spec1 2)) (idx_ext3
    (show win1_2.index t (0 : Fin 3) * 2 + 1 * (0 + 1 * 0) = 0 by omega)
    (show win1_2.index t (1 : Fin 3) * 1 + 1 * (0 + 1 * 0) = 0 by omega)
    (show win1_2.index t (2 : Fin 3) * 128 + 1 * (0 + 1 * o.val) = e1.val by omega))

theorem rd1_WNa (c : Dev nD) (t : Fin cfg1.N) (j o : Fin 128) (e1 : Fin 128) (he1 : e1.val = o.val) :
    View.ld (iblk1 V c 3 t) r1_1 (ix3 (0 : Fin 1) j o) = V c (Pipeline.arrRef spec1 3) (ix3 (0 : Fin 2) j e1) := by
  have f := blockNumbers1 t
  show V c (Pipeline.arrRef spec1 3) (((cfg1.win 3).blk t).view.emb (r1_1.emb (ix3 (0 : Fin 1) j o))) = _
  exact congrArg (V c (Pipeline.arrRef spec1 3)) (idx_ext3
    (show win1_3.index t (0 : Fin 3) * 2 + 1 * (0 + 1 * 0) = 0 by omega)
    (show win1_3.index t (1 : Fin 3) * 128 + 1 * (0 + 1 * j.val) = j.val by omega)
    (show win1_3.index t (2 : Fin 3) * 128 + 1 * (0 + 1 * o.val) = e1.val by omega))

theorem rd1_Sa (c : Dev nD) (t : Fin cfg1.N) (r : Fin 5000) (j : Fin 128) (e0 : Fin 50000) (he0 : e0.val = t.val * 5000 + r.val) :
    View.ld (iblk1 V c 4 t) r1_3 (ix3 (0 : Fin 1) r j) = V c (Pipeline.arrRef spec1 4) (ix3 (0 : Fin 2) e0 j) := by
  have f := blockNumbers1 t
  show V c (Pipeline.arrRef spec1 4) (((cfg1.win 4).blk t).view.emb (r1_3.emb (ix3 (0 : Fin 1) r j))) = _
  exact congrArg (V c (Pipeline.arrRef spec1 4)) (idx_ext3
    (show win1_4.index t (0 : Fin 3) * 2 + 1 * (0 + 1 * 0) = 0 by omega)
    (show win1_4.index t (1 : Fin 3) * 5000 + 1 * (0 + 1 * r.val) = e0.val by omega)
    (show win1_4.index t (2 : Fin 3) * 128 + 1 * (0 + 1 * j.val) = j.val by omega))

theorem rd1_Ra (c : Dev nD) (t : Fin cfg1.N) (r : Fin 5000) (e0 : Fin 50000) (he0 : e0.val = t.val * 5000 + r.val) :
    View.ld (iblk1 V c 5 t) r1_4 (ix3 (0 : Fin 1) r (0 : Fin 1)) = V c (Pipeline.arrRef spec1 5) (ix3 (0 : Fin 2) e0 (0 : Fin 1)) := by
  have f := blockNumbers1 t
  show V c (Pipeline.arrRef spec1 5) (((cfg1.win 5).blk t).view.emb (r1_4.emb (ix3 (0 : Fin 1) r (0 : Fin 1)))) = _
  exact congrArg (V c (Pipeline.arrRef spec1 5)) (idx_ext3
    (show win1_5.index t (0 : Fin 3) * 2 + 1 * (0 + 1 * 0) = 0 by omega)
    (show win1_5.index t (1 : Fin 3) * 5000 + 1 * (0 + 1 * r.val) = e0.val by omega)
    (show win1_5.index t (2 : Fin 3) * 1 + 1 * (0 + 1 * 0) = 0 by omega))

theorem rd1_WSb (c : Dev nD) (t : Fin cfg1.N) (j o : Fin 128) (e1 : Fin 128) (he1 : e1.val = o.val) :
    View.ld (iblk1 V c 1 t) r1_5 (ix3 (0 : Fin 1) j o) = V c (Pipeline.arrRef spec1 1) (ix3 (1 : Fin 2) j e1) := by
  have f := blockNumbers1 t
  show V c (Pipeline.arrRef spec1 1) (((cfg1.win 1).blk t).view.emb (r1_5.emb (ix3 (0 : Fin 1) j o))) = _
  exact congrArg (V c (Pipeline.arrRef spec1 1)) (idx_ext3
    (show win1_1.index t (0 : Fin 3) * 2 + 1 * (1 + 1 * 0) = 1 by omega)
    (show win1_1.index t (1 : Fin 3) * 128 + 1 * (0 + 1 * j.val) = j.val by omega)
    (show win1_1.index t (2 : Fin 3) * 128 + 1 * (0 + 1 * o.val) = e1.val by omega))

theorem rd1_Bb (c : Dev nD) (t : Fin cfg1.N) (o : Fin 128) (e1 : Fin 128) (he1 : e1.val = o.val) :
    View.ld (iblk1 V c 2 t) r1_6 (ix3 (0 : Fin 1) (0 : Fin 1) o) = V c (Pipeline.arrRef spec1 2) (ix3 (1 : Fin 2) (0 : Fin 1) e1) := by
  have f := blockNumbers1 t
  show V c (Pipeline.arrRef spec1 2) (((cfg1.win 2).blk t).view.emb (r1_6.emb (ix3 (0 : Fin 1) (0 : Fin 1) o))) = _
  exact congrArg (V c (Pipeline.arrRef spec1 2)) (idx_ext3
    (show win1_2.index t (0 : Fin 3) * 2 + 1 * (1 + 1 * 0) = 1 by omega)
    (show win1_2.index t (1 : Fin 3) * 1 + 1 * (0 + 1 * 0) = 0 by omega)
    (show win1_2.index t (2 : Fin 3) * 128 + 1 * (0 + 1 * o.val) = e1.val by omega))

theorem rd1_WNb (c : Dev nD) (t : Fin cfg1.N) (j o : Fin 128) (e1 : Fin 128) (he1 : e1.val = o.val) :
    View.ld (iblk1 V c 3 t) r1_5 (ix3 (0 : Fin 1) j o) = V c (Pipeline.arrRef spec1 3) (ix3 (1 : Fin 2) j e1) := by
  have f := blockNumbers1 t
  show V c (Pipeline.arrRef spec1 3) (((cfg1.win 3).blk t).view.emb (r1_5.emb (ix3 (0 : Fin 1) j o))) = _
  exact congrArg (V c (Pipeline.arrRef spec1 3)) (idx_ext3
    (show win1_3.index t (0 : Fin 3) * 2 + 1 * (1 + 1 * 0) = 1 by omega)
    (show win1_3.index t (1 : Fin 3) * 128 + 1 * (0 + 1 * j.val) = j.val by omega)
    (show win1_3.index t (2 : Fin 3) * 128 + 1 * (0 + 1 * o.val) = e1.val by omega))

theorem rd1_Sb (c : Dev nD) (t : Fin cfg1.N) (r : Fin 5000) (j : Fin 128) (e0 : Fin 50000) (he0 : e0.val = t.val * 5000 + r.val) :
    View.ld (iblk1 V c 4 t) r1_7 (ix3 (0 : Fin 1) r j) = V c (Pipeline.arrRef spec1 4) (ix3 (1 : Fin 2) e0 j) := by
  have f := blockNumbers1 t
  show V c (Pipeline.arrRef spec1 4) (((cfg1.win 4).blk t).view.emb (r1_7.emb (ix3 (0 : Fin 1) r j))) = _
  exact congrArg (V c (Pipeline.arrRef spec1 4)) (idx_ext3
    (show win1_4.index t (0 : Fin 3) * 2 + 1 * (1 + 1 * 0) = 1 by omega)
    (show win1_4.index t (1 : Fin 3) * 5000 + 1 * (0 + 1 * r.val) = e0.val by omega)
    (show win1_4.index t (2 : Fin 3) * 128 + 1 * (0 + 1 * j.val) = j.val by omega))

theorem rd1_Rb (c : Dev nD) (t : Fin cfg1.N) (r : Fin 5000) (e0 : Fin 50000) (he0 : e0.val = t.val * 5000 + r.val) :
    View.ld (iblk1 V c 5 t) r1_8 (ix3 (0 : Fin 1) r (0 : Fin 1)) = V c (Pipeline.arrRef spec1 5) (ix3 (1 : Fin 2) e0 (0 : Fin 1)) := by
  have f := blockNumbers1 t
  show V c (Pipeline.arrRef spec1 5) (((cfg1.win 5).blk t).view.emb (r1_8.emb (ix3 (0 : Fin 1) r (0 : Fin 1)))) = _
  exact congrArg (V c (Pipeline.arrRef spec1 5)) (idx_ext3
    (show win1_5.index t (0 : Fin 3) * 2 + 1 * (1 + 1 * 0) = 1 by omega)
    (show win1_5.index t (1 : Fin 3) * 5000 + 1 * (0 + 1 * r.val) = e0.val by omega)
    (show win1_5.index t (2 : Fin 3) * 1 + 1 * (0 + 1 * 0) = 0 by omega))

set_option maxHeartbeats 1000000 in
theorem flushed1_eq (c : Dev nD) (t : Fin cfg1.N) :
    (dat1 V c).flushed 6 t = ((cfg1.win 6).blk t).view.read (Elt Ideal)
      (Sage.combine2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero zeros2]
  simp only [View.ld_unit_zero (S := S5000x128) zeros2]
  have f := blockNumbers1 t
  funext j
  obtain ⟨r, o, rfl⟩ : ∃ (r : Fin 5000) (o : Fin 128), j = ix2 r o := ⟨j 0, j 1, eq_ix2 j⟩
  show k1_pay1 _ _ _ _ _ _ _ (ix2 r o)
    = Sage.combine2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb (ix2 r o))
  rw [sage2_block1]
  obtain ⟨e0, e1, he0, he1, he⟩ : ∃ (e0 : Fin 50000) (e1 : Fin 128), e0.val = t.val * 5000 + r.val ∧ e1.val = o.val
      ∧ ((cfg1.win 6).blk t).view.emb (ix2 r o) = ix2 e0 e1 :=
    ⟨((cfg1.win 6).blk t).view.emb (ix2 r o) 0, ((cfg1.win 6).blk t).view.emb (ix2 r o) 1,
      (show win1_6.index t (0 : Fin 2) * 5000 + 1 * r.val = _ by omega),
      (show win1_6.index t (1 : Fin 2) * 128 + 1 * o.val = _ by omega), eq_ix2 _⟩
  rw [he]
  unfold Sage.combine2
  exact congrArg Sage.leaky (congrArg₂ (· + ·)
    (congrArg₂ (· + ·) (congrArg₂ (· + ·)
        (Finset.sum_congr rfl fun j _ => congrArg₂ (· * ·) (rd1_H V c t r j e0 he0) (rd1_WSa V c t j o e1 he1))
        (rd1_Ba V c t o e1 he1))
      (Finset.sum_congr rfl fun j _ => congrArg₂ (· * ·)
        (congrArg₂ (· * ·) (rd1_Sa V c t r j e0 he0) (rd1_Ra V c t r e0 he0)) (rd1_WNa V c t j o e1 he1)))
    (congrArg₂ (· + ·) (congrArg₂ (· + ·)
        (Finset.sum_congr rfl fun j _ => congrArg₂ (· * ·) (rd1_H V c t r j e0 he0) (rd1_WSb V c t j o e1 he1))
        (rd1_Bb V c t o e1 he1))
      (Finset.sum_congr rfl fun j _ => congrArg₂ (· * ·)
        (congrArg₂ (· * ·) (rd1_Sb V c t r j e0 he0) (rd1_Rb V c t r e0 he0)) (rd1_WNb V c t j o e1 he1))))

theorem mem_block1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v83).slice (win1_6.rect t)).set ↔ _
  rw [View.set_slice_whole, Rect.mem_set_unit]
  exact Iff.rfl

theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  have f := blockNumbers1 t
  refine ⟨t, flush1_6 t, ?_⟩
  rw [mem_block1]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

theorem final1 (c : Dev nD) : (dat1 V c).arrAt 6 cfg1.N
    = Sage.combine2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed1_eq V c t) cover1

end Region1

end Cert.KernelIdeal.Reg

end
-- ==== Proof.KHost1.lean ====
-- The host stretch between the first two tiled regions, as nine lines of array operations: what each leaves, against the specification.
import proofs.«428332_j82145544503775_2_alg».proof.Proof.Gen.KernelIdeal.Launch
import Idealize.ShloMosaic.Lib.StableHlo.Run
import Idealize.ShloMosaic.Lib.Pipeline.Frame
import proofs.«428332_j82145544503775_2_alg».proof.Proof.Spec
import Idealize.ShloMosaic.Lib.Pipeline.Value

set_option maxRecDepth 16384

noncomputable section

namespace Cert.KernelIdeal.Host

open Cert.KernelIdeal Cert.KernelIdeal.Gen Idealize.ShloMosaic Idealize.ShloMosaic.StableHlo Idealize.ShloMosaic.ValueIdx

def s1_0 (X : Valuation τ sig (Elt Ideal)) : Valuation τ sig (Elt Ideal) := after hostOps1 X

def s1_1 (X : Valuation τ sig (Elt Ideal)) : Valuation τ sig (Elt Ideal) := after hostOps1_1 (s1_0 X)

def s1_2 (X : Valuation τ sig (Elt Ideal)) : Valuation τ sig (Elt Ideal) := after hostOps1_2 (s1_1 X)

def s1_3 (X : Valuation τ sig (Elt Ideal)) : Valuation τ sig (Elt Ideal) := after hostOps1_3 (s1_2 X)

def s1_4 (X : Valuation τ sig (Elt Ideal)) : Valuation τ sig (Elt Ideal) := after hostOps1_4 (s1_3 X)

def s1_5 (X : Valuation τ sig (Elt Ideal)) : Valuation τ sig (Elt Ideal) := after hostOps1_5 (s1_4 X)

def s1_6 (X : Valuation τ sig (Elt Ideal)) : Valuation τ sig (Elt Ideal) := after hostOps1_6 (s1_5 X)

def s1_7 (X : Valuation τ sig (Elt Ideal)) : Valuation τ sig (Elt Ideal) := after hostOps1_7 (s1_6 X)

def s1_8 (X : Valuation τ sig (Elt Ideal)) : Valuation τ sig (Elt Ideal) := after hostOps1_8 (s1_7 X)

abbrev aft1 (X : Valuation τ sig (Elt Ideal)) : Valuation τ sig (Elt Ideal) := s1_8 X

-- No operation of the line writes the array.
abbrev NW (ops : List (HloOp τ sig (Elt Ideal))) (r : Ref sig .tc) : Prop :=
  ∀ op ∈ ops, Proc.devRef (τ := τ) .tc r ∉ op.writes

-- Contents carried to an array's own type and back are unchanged.
theorem ofBuf_toBuf {F : FTy → Type} [FloatOps F] {T : BufTy} (x : TRef sig T) (v : T.Contents (Elt F)) : x.ofBuf (x.toBuf v) = v := by
  simp [TRef.ofBuf, TRef.toBuf]

theorem s1_0_keep (X : Valuation τ sig (Elt Ideal)) (r : Ref sig .tc) (h : NW hostOps1 r) :
    s1_0 X (Proc.devRef .tc r) = X (Proc.devRef .tc r) :=
  after_of_forall_not_mem _ _ h

theorem s1_1_keep (X : Valuation τ sig (Elt Ideal)) (r : Ref sig .tc) (h : NW hostOps1_1 r) :
    s1_1 X (Proc.devRef .tc r) = s1_0 X (Proc.devRef .tc r) :=
  after_of_forall_not_mem _ _ h

theorem s1_2_keep (X : Valuation τ sig (Elt Ideal)) (r : Ref sig .tc) (h : NW hostOps1_2 r) :
    s1_2 X (Proc.devRef .tc r) = s1_1 X (Proc.devRef .tc r) :=
  after_of_forall_not_mem _ _ h

theorem s1_3_keep (X : Valuation τ sig (Elt Ideal)) (r : Ref sig .tc) (h : NW hostOps1_3 r) :
    s1_3 X (Proc.devRef .tc r) = s1_2 X (Proc.devRef .tc r) :=
  after_of_forall_not_mem _ _ h

theorem s1_4_keep (X : Valuation τ sig (Elt Ideal)) (r : Ref sig .tc) (h : NW hostOps1_4 r) :
    s1_4 X (Proc.devRef .tc r) = s1_3 X (Proc.devRef .tc r) :=
  after_of_forall_not_mem _ _ h

theorem s1_5_keep (X : Valuation τ sig (Elt Ideal)) (r : Ref sig .tc) (h : NW hostOps1_5 r) :
    s1_5 X (Proc.devRef .tc r) = s1_4 X (Proc.devRef .tc r) :=
  after_of_forall_not_mem _ _ h

theorem s1_6_keep (X : Valuation τ sig (Elt Ideal)) (r : Ref sig .tc) (h : NW hostOps1_6 r) :
    s1_6 X (Proc.devRef .tc r) = s1_5 X (Proc.devRef .tc r) :=
  after_of_forall_not_mem _ _ h

theorem s1_7_keep (X : Valuation τ sig (Elt Ideal)) (r : Ref sig .tc) (h : NW hostOps1_7 r) :
    s1_7 X (Proc.devRef .tc r) = s1_6 X (Proc.devRef .tc r) :=
  after_of_forall_not_mem _ _ h

theorem s1_8_keep (X : Valuation τ sig (Elt Ideal)) (r : Ref sig .tc) (h : NW hostOps1_8 r) :
    s1_8 X (Proc.devRef .tc r) = s1_7 X (Proc.devRef .tc r) :=
  after_of_forall_not_mem _ _ h

theorem aft1_keep (X : Valuation τ sig (Elt Ideal)) (r : Ref sig .tc) (h : NW (hostOps1 ++ hostOps1_1 ++ hostOps1_2 ++ hostOps1_3 ++ hostOps1_4 ++ hostOps1_5 ++ hostOps1_6 ++ hostOps1_7 ++ hostOps1_8) r) :
    aft1 X (Proc.devRef .tc r) = X (Proc.devRef .tc r) := by
  have e := after_of_forall_not_mem _ (X) h
  simp only [after_append] at e
  exact e

section Layout
open Sage

theorem swap_last_two (W : Arr (T4 2 4 128 128)) (h : (T4 2 4 128 128).Transposes [0, 1, 3, 2] (T4 2 4 128 128)) :
    transpose (T4 2 4 128 128) [0, 1, 3, 2] W h = fun i => W (ix4 (i 0) (i 1) (i 3) (i 2)) := by
  funext i
  exact transpose_apply _ _ _ i _ (fun b => match b with | ⟨0, _⟩ => rfl | ⟨1, _⟩ => rfl | ⟨2, _⟩ => rfl | ⟨3, _⟩ => rfl)

theorem bias_row (bs : Arr (T3 2 4 128)) (h : (T3 2 4 128).BroadcastsInDim (T4 2 4 1 128) ![0, 1, 3]) :
    broadcastInDim (T4 2 4 1 128) ![0, 1, 3] h bs = fun i => bs (ix3 (i 0) (i 1) (i 3)) := by
  funext i
  exact broadcastInDim_apply _ _ _ i _ (fun a => match a with | ⟨0, _⟩ => rfl | ⟨1, _⟩ => rfl | ⟨2, _⟩ => rfl)

theorem lead_unit_apply {a b : Nat} (x : Arr (M2 a b)) (h : (M2 a b).BroadcastsInDim (T3 1 a b) ![1, 2])
    (i : (T3 1 a b).Idx) : broadcastInDim (T3 1 a b) ![1, 2] h x i = x (ix2 (i 1) (i 2)) := by
  have h1 : (i 1).val < a := (i 1).isLt
  have h2 : (i 2).val < b := (i 2).isLt
  exact broadcastInDim_apply _ _ _ i _ (fun c => match c with
    | ⟨0, _⟩ => by
      show (i 1).val = if a = 1 then 0 else (i 1).val
      split <;> omega
    | ⟨1, _⟩ => by
      show (i 2).val = if b = 1 then 0 else (i 2).val
      split <;> omega)

theorem pair_apply {a b : Nat} (x y : Arr (T3 1 a b)) (h : Shape.Concatenates [T3 1 a b, T3 1 a b] (T3 2 a b) 0)
    (i : (T3 2 a b).Idx) :
    concatenate (T3 2 a b) 0 [⟨T3 1 a b, x⟩, ⟨T3 1 a b, y⟩] h i
      = if (i 0).val = 0 then x (ix3 (0 : Fin 1) (i 1) (i 2)) else y (ix3 (0 : Fin 1) (i 1) (i 2)) := by
  have h0 : (i 0).val < 2 := (i 0).isLt
  by_cases hz : (i 0).val = 0
  · rw [if_pos hz]
    exact concatenate_pair_apply_left 0 x y h i rfl _ (fun c => match c with
      | ⟨0, _⟩ => by show 0 = (i 0).val; omega
      | ⟨1, _⟩ => rfl
      | ⟨2, _⟩ => rfl)
  · rw [if_neg hz]
    exact concatenate_pair_apply_right 0 x y h i rfl rfl _ (fun c hc => match c, hc with
      | ⟨0, _⟩, hc => absurd rfl hc
      | ⟨1, _⟩, _ => rfl
      | ⟨2, _⟩, _ => rfl) (by show 0 + 1 = (i 0).val; omega)

theorem stack1_eq {n w : Nat} (a : Arr (M2 n w)) (h : (M2 n w).BroadcastsInDim (T3 1 n w) ![1, 2]) :
    broadcastInDim (T3 1 n w) ![1, 2] h a = stack1 a := funext fun i => lead_unit_apply a h i

theorem stack2_eq {n w : Nat} (a b : Arr (M2 n w)) (h : (M2 n w).BroadcastsInDim (T3 1 n w) ![1, 2])
    (hc : Shape.Concatenates [T3 1 n w, T3 1 n w] (T3 2 n w) 0) :
    concatenate (T3 2 n w) 0 [⟨T3 1 n w, broadcastInDim (T3 1 n w) ![1, 2] h a⟩,
      ⟨T3 1 n w, broadcastInDim (T3 1 n w) ![1, 2] h b⟩] hc = stack2 a b := by
  funext i
  rw [pair_apply, lead_unit_apply, lead_unit_apply]
  rfl

theorem recip_eq {n : Nat} (cnt : Arr (M2 n 1)) (h : Sc.BroadcastsInDim (M2 n 1) (![] : Fin 0 → Fin 2)) :
    Host.divf (broadcastInDim (M2 n 1) ![] h (constant (F := Ideal) Sc .f32 0x3F800000#32))
        (maximumf cnt (broadcastInDim (M2 n 1) ![] h (constant (F := Ideal) Sc .f32 0x3F800000#32)))
      = recip cnt := by
  funext i
  show Ideal.div (Ideal.ofBits .f32 0x3F800000#32) (max (cnt i) (Ideal.ofBits .f32 0x3F800000#32)) = Ideal.div 1 (max (cnt i) 1)
  rw [Ideal.ofBits_one_f32]

theorem mat_apply (V : Arr (T4 2 4 128 128)) (l k : Nat) (hl : l < 2) (hk : k < 4)
    (hs : (T4 2 4 128 128).Slices ![l, k, 0, 0] (T4 1 1 128 128)) (hc : (T4 1 1 128 128).ShapeCasts (M2 128 128))
    (hb : (M2 128 128).BroadcastsInDim (T3 1 128 128) ![1, 2]) (i : (T3 1 128 128).Idx) :
    broadcastInDim (T3 1 128 128) ![1, 2] hb
        (shapeCast (M2 128 128) (extractStridedSlice (T4 1 1 128 128) ![l, k, 0, 0] V hs) hc) i
      = V (ix4 ⟨l, hl⟩ ⟨k, hk⟩ (i 1) (i 2)) := by
  have h1 : (i 1).val < 128 := (i 1).isLt
  have h2 : (i 2).val < 128 := (i 2).isLt
  rw [lead_unit_apply]
  refine (shapeCast_apply _ _ _ (ix4 (0 : Fin 1) (0 : Fin 1) (i 1) (i 2)) (by
    rw [Shape.rowMajor_val_four, Shape.rowMajor_val_two]
    show ((0 * 1 + 0) * 128 + (i 1).val) * 128 + (i 2).val = (i 1).val * 128 + (i 2).val
    omega)).trans ?_
  exact extractStridedSlice_apply _ _ _ _ _ (fun c => match c with
    | ⟨0, _⟩ => by show l = l + 0; omega
    | ⟨1, _⟩ => by show k = k + 0; omega
    | ⟨2, _⟩ => by show (i 1).val = 0 + (i 1).val; omega
    | ⟨3, _⟩ => by show (i 2).val = 0 + (i 2).val; omega)

theorem row_apply (V : Arr (T4 2 4 1 128)) (l k : Nat) (hl : l < 2) (hk : k < 4)
    (hs : (T4 2 4 1 128).Slices ![l, k, 0, 0] (T4 1 1 1 128)) (hc : (T4 1 1 1 128).ShapeCasts (M2 1 128))
    (hb : (M2 1 128).BroadcastsInDim (T3 1 1 128) ![1, 2]) (i : (T3 1 1 128).Idx) :
    broadcastInDim (T3 1 1 128) ![1, 2] hb
        (shapeCast (M2 1 128) (extractStridedSlice (T4 1 1 1 128) ![l, k, 0, 0] V hs) hc) i
      = V (ix4 ⟨l, hl⟩ ⟨k, hk⟩ (0 : Fin 1) (i 2)) := by
  have h1 : (i 1).val < 1 := (i 1).isLt
  have h2 : (i 2).val < 128 := (i 2).isLt
  rw [lead_unit_apply]
  refine (shapeCast_apply _ _ _ (ix4 (0 : Fin 1) (0 : Fin 1) (0 : Fin 1) (i 2)) (by
    rw [Shape.rowMajor_val_four, Shape.rowMajor_val_two]
    show ((0 * 1 + 0) * 1 + 0) * 128 + (i 2).val = (i 1).val * 128 + (i 2).val
    omega)).trans ?_
  exact extractStridedSlice_apply _ _ _ _ _ (fun c => match c with
    | ⟨0, _⟩ => by show l = l + 0; omega
    | ⟨1, _⟩ => by show k = k + 0; omega
    | ⟨2, _⟩ => by show 0 = 0 + 0; omega
    | ⟨3, _⟩ => by show (i 2).val = 0 + (i 2).val; omega)

theorem mat_pair (V : Arr (T4 2 4 128 128)) (l k0 k1 : Nat) (hl : l < 2) (hk0 : k0 < 4) (hk1 : k1 < 4)
    (hs0 : (T4 2 4 128 128).Slices ![l, k0, 0, 0] (T4 1 1 128 128))
    (hs1 : (T4 2 4 128 128).Slices ![l, k1, 0, 0] (T4 1 1 128 128)) (hc : (T4 1 1 128 128).ShapeCasts (M2 128 128))
    (hb : (M2 128 128).BroadcastsInDim (T3 1 128 128) ![1, 2])
    (hcat : Shape.Concatenates [T3 1 128 128, T3 1 128 128] (T3 2 128 128) 0) :
    concatenate (T3 2 128 128) 0
        [⟨T3 1 128 128, broadcastInDim (T3 1 128 128) ![1, 2] hb
            (shapeCast (M2 128 128) (extractStridedSlice (T4 1 1 128 128) ![l, k0, 0, 0] V hs0) hc)⟩,
         ⟨T3 1 128 128, broadcastInDim (T3 1 128 128) ![1, 2] hb
            (shapeCast (M2 128 128) (extractStridedSlice (T4 1 1 128 128) ![l, k1, 0, 0] V hs1) hc)⟩] hcat
      = fun i => V (ix4 (⟨l, hl⟩ : Fin 2) (if (i 0).val = 0 then (⟨k0, hk0⟩ : Fin 4) else ⟨k1, hk1⟩) (i 1) (i 2)) := by
  funext i
  rw [pair_apply, mat_apply V l k0 hl hk0, mat_apply V l k1 hl hk1]
  split <;> rfl

theorem row_pair (V : Arr (T4 2 4 1 128)) (l k0 k1 : Nat) (hl : l < 2) (hk0 : k0 < 4) (hk1 : k1 < 4)
    (hs0 : (T4 2 4 1 128).Slices ![l, k0, 0, 0] (T4 1 1 1 128))
    (hs1 : (T4 2 4 1 128).Slices ![l, k1, 0, 0] (T4 1 1 1 128)) (hc : (T4 1 1 1 128).ShapeCasts (M2 1 128))
    (hb : (M2 1 128).BroadcastsInDim (T3 1 1 128) ![1, 2])
    (hcat : Shape.Concatenates [T3 1 1 128, T3 1 1 128] (T3 2 1 128) 0) :
    concatenate (T3 2 1 128) 0
        [⟨T3 1 1 128, broadcastInDim (T3 1 1 128) ![1, 2] hb
            (shapeCast (M2 1 128) (extractStridedSlice (T4 1 1 1 128) ![l, k0, 0, 0] V hs0) hc)⟩,
         ⟨T3 1 1 128, broadcastInDim (T3 1 1 128) ![1, 2] hb
            (shapeCast (M2 1 128) (extractStridedSlice (T4 1 1 1 128) ![l, k1, 0, 0] V hs1) hc)⟩] hcat
      = fun i => V (ix4 (⟨l, hl⟩ : Fin 2) (if (i 0).val = 0 then (⟨k0, hk0⟩ : Fin 4) else ⟨k1, hk1⟩) (0 : Fin 1) (i 2)) := by
  funext i
  rw [pair_apply, row_apply V l k0 hl hk0, row_apply V l k1 hl hk1]
  split <;> rfl

end Layout

section Values
variable (X : Valuation τ sig (Elt Ideal))

theorem degM1_eq (idx : Sage.Ids 800000) :
    Host.scatterAdd scatter_S50000x1_S800000x1_S800000x1_1_0_0_1
        (broadcastInDim S50000x1 ![] bcast_S_S50000x1 (constant (F := Ideal) S_ .f32 0x00000000#32))
        (broadcastInDim S800000x1 ![0] bcast_S800000_S800000x1_0 idx)
        (broadcastInDim S800000x1 ![] bcast_S_S800000x1 (constant (F := Ideal) S_ .f32 0x3F800000#32))
      = Sage.degM1 idx := rfl

theorem degM2_eq (idx : Sage.Ids 400000) :
    Host.scatterAdd scatter_S50000x1_S400000x1_S400000x1_1_0_0_1
        (broadcastInDim S50000x1 ![] bcast_S_S50000x1 (constant (F := Ideal) S_ .f32 0x00000000#32))
        (broadcastInDim S400000x1 ![0] bcast_S400000_S400000x1_0 idx)
        (broadcastInDim S400000x1 ![] bcast_S_S400000x1 (constant (F := Ideal) S_ .f32 0x3F800000#32))
      = Sage.degM2 idx := rfl

theorem degU_eq (idx : Sage.Ids 800000) :
    Host.scatterAdd scatter_S200000x1_S800000x1_S800000x1_1_0_0_1
        (broadcastInDim S200000x1 ![] bcast_S_S200000x1 (constant (F := Ideal) S_ .f32 0x00000000#32))
        (broadcastInDim S800000x1 ![0] bcast_S800000_S800000x1_0 idx)
        (broadcastInDim S800000x1 ![] bcast_S_S800000x1 (constant (F := Ideal) S_ .f32 0x3F800000#32))
      = Sage.degU idx := rfl

theorem degT_eq (idx : Sage.Ids 400000) :
    Host.scatterAdd scatter_S20000x1_S400000x1_S400000x1_1_0_0_1
        (broadcastInDim S20000x1 ![] bcast_S_S20000x1 (constant (F := Ideal) S_ .f32 0x00000000#32))
        (broadcastInDim S400000x1 ![0] bcast_S400000_S400000x1_0 idx)
        (broadcastInDim S400000x1 ![] bcast_S_S400000x1 (constant (F := Ideal) S_ .f32 0x3F800000#32))
      = Sage.degT idx := rfl

theorem s1_0_v3 : s1_0 X (Proc.devRef .tc main_v3) = fun i => X (Proc.devRef .tc main_arg6) (ix4 (i 0) (i 1) (i 3) (i 2)) := by
  unfold s1_0
  simp only [hostOps1]
  after_results_simp
  exact swap_last_two _ _

theorem s1_0_v4 : s1_0 X (Proc.devRef .tc main_v4) = fun i => X (Proc.devRef .tc main_arg5) (ix4 (i 0) (i 1) (i 3) (i 2)) := by
  unfold s1_0
  simp only [hostOps1]
  after_results_simp
  exact swap_last_two _ _

theorem s1_0_v5 : s1_0 X (Proc.devRef .tc main_v5) = fun i => X (Proc.devRef .tc main_arg7) (ix3 (i 0) (i 1) (i 3)) := by
  unfold s1_0
  simp only [hostOps1]
  after_results_simp
  exact bias_row _ _

theorem s1_0_v40 : s1_0 X (Proc.devRef .tc main_v40)
    = Sage.stack2 (Sage.recip (Sage.degM1 (X (Proc.devRef .tc main_arg9)))) (Sage.recip (Sage.degM2 (X (Proc.devRef .tc main_arg10)))) := by
  unfold s1_0
  simp only [hostOps1]
  after_results_simp
  funext i
  refine (pair_apply (a := 50000) (b := 1) _ _ _ i).trans ?_
  after_results_simp
  rw [degM1_eq, degM2_eq, recip_eq (Sage.degM1 (X (Proc.devRef .tc main_arg9))) bcast_S_S50000x1,
    recip_eq (Sage.degM2 (X (Proc.devRef .tc main_arg10))) bcast_S_S50000x1]
  rw [lead_unit_apply (a := 50000) (b := 1), lead_unit_apply (a := 50000) (b := 1)]
  rfl

theorem s1_0_v41 : s1_0 X (Proc.devRef .tc main_v41) = Sage.stack1 (Sage.recip (Sage.degU (X (Proc.devRef .tc main_arg8)))) := by
  unfold s1_0
  simp only [hostOps1]
  after_results_simp
  rw [degU_eq]
  refine (stack1_eq (n := 200000) (w := 1) _ bcast_S200000x1_S1x200000x1_1_2).trans ?_
  rw [recip_eq (Sage.degU (X (Proc.devRef .tc main_arg8))) bcast_S_S200000x1]

theorem s1_0_v42 : s1_0 X (Proc.devRef .tc main_v42) = Sage.stack1 (Sage.recip (Sage.degT (X (Proc.devRef .tc main_arg11)))) := by
  unfold s1_0
  simp only [hostOps1]
  after_results_simp
  rw [degT_eq]
  refine (stack1_eq (n := 20000) (w := 1) _ bcast_S20000x1_S1x20000x1_1_2).trans ?_
  rw [recip_eq (Sage.degT (X (Proc.devRef .tc main_arg11))) bcast_S_S20000x1]

theorem s1_7_keep0 (r : Ref sig .tc) (h : NW (hostOps1_1 ++ hostOps1_2 ++ hostOps1_3 ++ hostOps1_4 ++ hostOps1_5 ++ hostOps1_6 ++ hostOps1_7) r) :
    s1_7 X (Proc.devRef .tc r) = s1_0 X (Proc.devRef .tc r) := by
  have e := after_of_forall_not_mem _ (s1_0 X) h
  simp only [after_append] at e
  exact e

theorem s1_8_v68 : s1_8 X (Proc.devRef .tc main_v68)
    = fun i => s1_7 X (Proc.devRef .tc main_v3) (ix4 (0 : Fin 2) (if (i 0).val = 0 then (0 : Fin 4) else 3) (i 1) (i 2)) := by
  unfold s1_8
  simp only [hostOps1_8]
  after_results_simp
  funext i
  refine (pair_apply (a := 128) (b := 128) _ _ _ i).trans ?_
  after_results_simp
  split
  · exact mat_apply _ 0 0 (by decide) (by decide) _ _ _ _
  · exact mat_apply _ 0 3 (by decide) (by decide) _ _ _ _

theorem s1_8_v75 : s1_8 X (Proc.devRef .tc main_v75)
    = fun i => s1_7 X (Proc.devRef .tc main_v5) (ix4 (0 : Fin 2) (if (i 0).val = 0 then (0 : Fin 4) else 3) (0 : Fin 1) (i 2)) := by
  unfold s1_8
  simp only [hostOps1_8]
  after_results_simp
  funext i
  refine (pair_apply (a := 1) (b := 128) _ _ _ i).trans ?_
  after_results_simp
  split
  · exact row_apply _ 0 0 (by decide) (by decide) _ _ _ _
  · exact row_apply _ 0 3 (by decide) (by decide) _ _ _ _

theorem s1_8_v82 : s1_8 X (Proc.devRef .tc main_v82)
    = fun i => s1_7 X (Proc.devRef .tc main_v4) (ix4 (0 : Fin 2) (if (i 0).val = 0 then (0 : Fin 4) else 3) (i 1) (i 2)) := by
  unfold s1_8
  simp only [hostOps1_8]
  after_results_simp
  funext i
  refine (pair_apply (a := 128) (b := 128) _ _ _ i).trans ?_
  after_results_simp
  split
  · exact mat_apply _ 0 0 (by decide) (by decide) _ _ _ _
  · exact mat_apply _ 0 3 (by decide) (by decide) _ _ _ _

theorem aft1_v3 : aft1 X (Proc.devRef .tc main_v3) = fun i => X (Proc.devRef .tc main_arg6) (ix4 (i 0) (i 1) (i 3) (i 2)) := by
  show s1_8 X _ = _
  rw [s1_8_keep X main_v3 (by decide), s1_7_keep0 X main_v3 (by decide)]
  exact s1_0_v3 X
theorem aft1_v4 : aft1 X (Proc.devRef .tc main_v4) = fun i => X (Proc.devRef .tc main_arg5) (ix4 (i 0) (i 1) (i 3) (i 2)) := by
  show s1_8 X _ = _
  rw [s1_8_keep X main_v4 (by decide), s1_7_keep0 X main_v4 (by decide)]
  exact s1_0_v4 X
theorem aft1_v5 : aft1 X (Proc.devRef .tc main_v5) = fun i => X (Proc.devRef .tc main_arg7) (ix3 (i 0) (i 1) (i 3)) := by
  show s1_8 X _ = _
  rw [s1_8_keep X main_v5 (by decide), s1_7_keep0 X main_v5 (by decide)]
  exact s1_0_v5 X
theorem aft1_v40 : aft1 X (Proc.devRef .tc main_v40)
    = Sage.stack2 (Sage.recip (Sage.degM1 (X (Proc.devRef .tc main_arg9)))) (Sage.recip (Sage.degM2 (X (Proc.devRef .tc main_arg10)))) := by
  show s1_8 X _ = _
  rw [s1_8_keep X main_v40 (by decide), s1_7_keep0 X main_v40 (by decide)]
  exact s1_0_v40 X
theorem aft1_v41 : aft1 X (Proc.devRef .tc main_v41) = Sage.stack1 (Sage.recip (Sage.degU (X (Proc.devRef .tc main_arg8)))) := by
  show s1_8 X _ = _
  rw [s1_8_keep X main_v41 (by decide), s1_7_keep0 X main_v41 (by decide)]
  exact s1_0_v41 X
theorem aft1_v42 : aft1 X (Proc.devRef .tc main_v42) = Sage.stack1 (Sage.recip (Sage.degT (X (Proc.devRef .tc main_arg11)))) := by
  show s1_8 X _ = _
  rw [s1_8_keep X main_v42 (by decide), s1_7_keep0 X main_v42 (by decide)]
  exact s1_0_v42 X
theorem aft1_v68 : aft1 X (Proc.devRef .tc main_v68) = Sage.stackW2 (X (Proc.devRef .tc main_arg6)) 0 0 3 := by
  show s1_8 X _ = _
  rw [s1_8_v68, s1_7_keep0 X main_v3 (by decide), s1_0_v3]
  rfl
theorem aft1_v75 : aft1 X (Proc.devRef .tc main_v75) = Sage.stackB2 (X (Proc.devRef .tc main_arg7)) 0 0 3 := by
  show s1_8 X _ = _
  rw [s1_8_v75, s1_7_keep0 X main_v5 (by decide), s1_0_v5]
  rfl
theorem aft1_v82 : aft1 X (Proc.devRef .tc main_v82) = Sage.stackW2 (X (Proc.devRef .tc main_arg5)) 0 0 3 := by
  show s1_8 X _ = _
  rw [s1_8_v82, s1_7_keep0 X main_v4 (by decide), s1_0_v4]
  rfl

end Values

end Cert.KernelIdeal.Host

end
-- ==== Proof.Words.lean ====
-- Signed comparisons of 32-bit node numbers below 2^31: an in-range index is never wrapped and passes every range mask.
import Idealize.ShloMosaic.PureOps
import Idealize.ShloMosaic.Lib.ValueIdx
import Idealize.ShloMosaic.Lib.StableHlo.Predicate
import Idealize.ShloMosaic.Lib.ReduceAll
import proofs.«428332_j82145544503775_2_alg».proof.Proof.Spec

namespace Cert.Words

open Idealize.ShloMosaic Idealize.ShloMosaic.ValueIdx Idealize.ShloMosaic.StableHlo.Predicate

theorem foldl_andi_ones {ι : Type} (f : ι → BitVec 1) (hf : ∀ i, f i = 1#1) :
    ∀ (l : List ι) (init : BitVec 1), init = 1#1 → l.foldl (fun r i => IntOp.andi r (f i)) init = 1#1
  | [], _, h => h
  | a :: l, init, h => by
    rw [List.foldl_cons]
    exact foldl_andi_ones f hf l _ (by rw [h, hf a]; rfl)

theorem reduce_andi_ones {s t u : Shape} {axes : List (Fin s.rank)} (x : IVec s 1) (hx : ∀ i, x i = 1#1)
    (hr : s.ReducesTo axes t) (hu : 0 < u.numel) :
    Host.reduce IntOp.andi x (constantI u 1 1#1) hr hu = fun _ => 1#1 := by
  funext j
  rw [Host.reduce_eq_foldl]
  exact foldl_andi_ones x hx _ _ rfl

theorem slt_zero_ne_one {w : BitVec 32} (hw : w.toNat < 2 ^ 31) : IntOp.cmpi .slt w 0#32 ≠ 1#1 := by
  intro hc
  have := (slt_iff_toNat (a := w) (b := 0#32) hw (by decide)).1 hc
  simp at this

theorem sge_zero_eq_one {w : BitVec 32} (hw : w.toNat < 2 ^ 31) : IntOp.cmpi .sge w 0#32 = 1#1 :=
  (sge_iff_toNat (a := w) (b := 0#32) hw (by decide)).2 (by simp)

theorem sle_eq_one {w hi : BitVec 32} (hhi : hi.toNat < 2 ^ 31) (hw : w.toNat ≤ hi.toNat) :
    IntOp.cmpi .sle w hi = 1#1 :=
  (sle_iff_toNat (a := w) (b := hi) (by omega) hhi).2 hw

section
variable {e n : Nat}

theorem wrap_eq (hn : n < 2 ^ 31) (idx : IVec ⟨1, ![e]⟩ 32) (h : Sage.InRange n idx)
    (hz : (⟨0, ![]⟩ : Shape).BroadcastsInDim ⟨1, ![e]⟩ ![]) :
    select (cmpi .slt idx (broadcastInDim ⟨1, ![e]⟩ ![] hz (constantI ⟨0, ![]⟩ 32 0#32)))
        (addi idx (broadcastInDim ⟨1, ![e]⟩ ![] hz (constantI ⟨0, ![]⟩ 32 (BitVec.ofNat 32 n)))) idx = idx := by
  funext i
  show Scalar.select (IntOp.cmpi .slt (idx i) 0#32) _ (idx i) = idx i
  have hi : (idx i).toNat < 2 ^ 31 := lt_trans (h i) hn
  unfold Scalar.select
  exact if_neg (slt_zero_ne_one hi)

theorem mask_all_le (hi : BitVec 32) (hhi : hi.toNat < 2 ^ 31) (idx : IVec ⟨1, ![e]⟩ 32)
    (h : ∀ i, (idx i).toNat ≤ hi.toNat)
    (hb : (⟨1, ![e]⟩ : Shape).BroadcastsInDim ⟨2, ![e, 1]⟩ ![0])
    (hz : (⟨0, ![]⟩ : Shape).BroadcastsInDim ⟨2, ![e, 1]⟩ ![])
    (h1 : (⟨1, ![1]⟩ : Shape).BroadcastsInDim ⟨2, ![1, 1]⟩ ![1])
    (h2 : (⟨2, ![1, 1]⟩ : Shape).BroadcastsInDim ⟨2, ![e, 1]⟩ ![0, 1])
    (hr : (⟨2, ![e, 1]⟩ : Shape).ReducesTo [1] ⟨1, ![e]⟩) (h0 : 0 < (⟨0, ![]⟩ : Shape).numel) :
    Host.reduce IntOp.andi
        (andi
          (cmpi .sge (broadcastInDim ⟨2, ![e, 1]⟩ ![0] hb idx)
            (broadcastInDim ⟨2, ![e, 1]⟩ ![] hz (constantI ⟨0, ![]⟩ 32 0#32)))
          (cmpi .sle (broadcastInDim ⟨2, ![e, 1]⟩ ![0] hb idx)
            (broadcastInDim ⟨2, ![e, 1]⟩ ![0, 1] h2 (broadcastInDim ⟨2, ![1, 1]⟩ ![1] h1 (constantI ⟨1, ![1]⟩ 32 hi)))))
        (constantI ⟨0, ![]⟩ 1 1#1) hr h0 = fun _ => 1#1 := by
  refine reduce_andi_ones _ (fun i => ?_) hr h0
  show IntOp.andi (IntOp.cmpi .sge (idx _) 0#32) (IntOp.cmpi .sle (idx _) hi) = 1#1
  rw [sge_zero_eq_one (lt_of_le_of_lt (h _) hhi), sle_eq_one hhi (h _)]
  rfl

theorem mask_all (hn : n < 2 ^ 31) (idx : IVec ⟨1, ![e]⟩ 32) (h : Sage.InRange n idx)
    (hb : (⟨1, ![e]⟩ : Shape).BroadcastsInDim ⟨2, ![e, 1]⟩ ![0])
    (hz : (⟨0, ![]⟩ : Shape).BroadcastsInDim ⟨2, ![e, 1]⟩ ![])
    (h1 : (⟨1, ![1]⟩ : Shape).BroadcastsInDim ⟨2, ![1, 1]⟩ ![1])
    (h2 : (⟨2, ![1, 1]⟩ : Shape).BroadcastsInDim ⟨2, ![e, 1]⟩ ![0, 1])
    (hr : (⟨2, ![e, 1]⟩ : Shape).ReducesTo [1] ⟨1, ![e]⟩) (h0 : 0 < (⟨0, ![]⟩ : Shape).numel) :
    Host.reduce IntOp.andi
        (andi
          (cmpi .sge (broadcastInDim ⟨2, ![e, 1]⟩ ![0] hb idx)
            (broadcastInDim ⟨2, ![e, 1]⟩ ![] hz (constantI ⟨0, ![]⟩ 32 0#32)))
          (cmpi .sle (broadcastInDim ⟨2, ![e, 1]⟩ ![0] hb idx)
            (broadcastInDim ⟨2, ![e, 1]⟩ ![0, 1] h2
              (broadcastInDim ⟨2, ![1, 1]⟩ ![1] h1 (constantI ⟨1, ![1]⟩ 32 (BitVec.ofNat 32 (n - 1)))))))
        (constantI ⟨0, ![]⟩ 1 1#1) hr h0 = fun _ => 1#1 := by
  have hm : (BitVec.ofNat 32 (n - 1)).toNat = n - 1 := by
    rw [BitVec.toNat_ofNat]; exact Nat.mod_eq_of_lt (by omega)
  refine mask_all_le _ (by omega) idx (fun i => ?_) hb hz h1 h2 hr h0
  have := h i
  omega

end

theorem select_all_ones {α : Type} {s t : Shape} {dims : Fin s.rank → Fin t.rank} (hb : s.BroadcastsInDim t dims)
    (a b : t.Idx → α) : select (broadcastInDim t dims hb (fun _ => 1#1)) a b = a := by
  funext i
  show Scalar.select 1#1 (a i) (b i) = a i
  unfold Scalar.select
  exact if_pos rfl

end Cert.Words
-- ==== Proof.KTake.lean ====
-- A row lookup that masks out-of-range indices; in range it is the plain row gather.
import Idealize.ShloMosaic.PureOps
import Idealize.ShloMosaic.Lib.ValueIdx
import Idealize.ShloMosaic.Lib.Pipeline.Value
import proofs.«428332_j82145544503775_2_alg».proof.Proof.Spec
import proofs.«428332_j82145544503775_2_alg».proof.Proof.Words

noncomputable section

namespace Cert.Take

open Idealize.ShloMosaic Idealize.ShloMosaic.ValueIdx Sage

section Take
variable {F : FTy → Type} [FloatOps F] {n e : Nat}

def wrap (N : BitVec 32) (hz1 : Sc.BroadcastsInDim (V1 e) ![]) (idx : Ids e) : Ids e :=
  select (cmpi .slt idx (broadcastInDim (V1 e) ![] hz1 (constantI Sc 32 0#32)))
    (addi idx (broadcastInDim (V1 e) ![] hz1 (constantI Sc 32 N))) idx

def keep (hiw : BitVec 32) (hz2 : Sc.BroadcastsInDim (M2 e 1) ![])
    (h1 : (V1 1).BroadcastsInDim (M2 1 1) ![1]) (h2 : (M2 1 1).BroadcastsInDim (M2 e 1) ![0, 1])
    (hr : (M2 e 1).ReducesTo [1] (V1 e)) (h0 : 0 < Sc.numel) (C : IVec (M2 e 1) 32) : IVec (V1 e) 1 :=
  Host.reduce IntOp.andi
    (andi (cmpi .sge C (broadcastInDim (M2 e 1) ![] hz2 (constantI Sc 32 0#32)))
      (cmpi .sle C (broadcastInDim (M2 e 1) ![0, 1] h2 (broadcastInDim (M2 1 1) ![1] h1 (constantI (V1 1) 32 hiw)))))
    (constantI Sc 1 1#1) hr h0

def take (N hiw : BitVec 32) (d : GatherDims (M2 n 128) (M2 e 1) (M2 e 128))
    (hz1 : Sc.BroadcastsInDim (V1 e) ![]) (hb : (V1 e).BroadcastsInDim (M2 e 1) ![0])
    (hz2 : Sc.BroadcastsInDim (M2 e 1) ![])
    (h1 : (V1 1).BroadcastsInDim (M2 1 1) ![1]) (h2 : (M2 1 1).BroadcastsInDim (M2 e 1) ![0, 1])
    (hr : (M2 e 1).ReducesTo [1] (V1 e)) (h0 : 0 < Sc.numel)
    (hbm : (V1 e).BroadcastsInDim (M2 e 128) ![0]) (hq : Sc.BroadcastsInDim (M2 e 128) ![])
    (x : FVec F (M2 n 128) .f32) (idx : Ids e) : FVec F (M2 e 128) .f32 :=
  select
    (broadcastInDim (M2 e 128) ![0] hbm
      (keep hiw hz2 h1 h2 hr h0 (broadcastInDim (M2 e 1) ![0] hb (wrap N hz1 idx))))
    (Host.gather d x (broadcastInDim (M2 e 1) ![0] hb (wrap N hz1 idx)))
    (broadcastInDim (M2 e 128) ![] hq (constant (F := F) Sc .f32 0x7FC00000#32))

theorem take_eq (hn : n < 2 ^ 31) (d : GatherDims (M2 n 128) (M2 e 1) (M2 e 128))
    (hz1 : Sc.BroadcastsInDim (V1 e) ![]) (hb : (V1 e).BroadcastsInDim (M2 e 1) ![0])
    (hz2 : Sc.BroadcastsInDim (M2 e 1) ![])
    (h1 : (V1 1).BroadcastsInDim (M2 1 1) ![1]) (h2 : (M2 1 1).BroadcastsInDim (M2 e 1) ![0, 1])
    (hr : (M2 e 1).ReducesTo [1] (V1 e)) (h0 : 0 < Sc.numel)
    (hbm : (V1 e).BroadcastsInDim (M2 e 128) ![0]) (hq : Sc.BroadcastsInDim (M2 e 128) ![])
    (x : FVec F (M2 n 128) .f32) (idx : Ids e) (h : InRange n idx) :
    take (BitVec.ofNat 32 n) (BitVec.ofNat 32 (n - 1)) d hz1 hb hz2 h1 h2 hr h0 hbm hq x idx
      = Host.gather d x (col hb idx) := by
  have hw : wrap (BitVec.ofNat 32 n) hz1 idx = idx := Cert.Words.wrap_eq hn idx h hz1
  have hk : keep (BitVec.ofNat 32 (n - 1)) hz2 h1 h2 hr h0 (broadcastInDim (M2 e 1) ![0] hb idx) = fun _ => 1#1 :=
    Cert.Words.mask_all hn idx h hb hz2 h1 h2 hr h0
  unfold take
  rw [hw, hk, Cert.Words.select_all_ones]
  rfl

end Take

section Stack
variable {n w : Nat}

theorem lead_apply (hb : (M2 n w).BroadcastsInDim (T3 1 n w) ![1, 2]) (a : Arr (M2 n w)) (i : (T3 1 n w).Idx) :
    broadcastInDim (T3 1 n w) ![1, 2] hb a i = a (ix2 (i 1) (i 2)) := by
  simp only [broadcastInDim]
  congr 1
  funext c
  match c with
  | ⟨0, _⟩ =>
    apply Fin.ext
    have hp := (i 1).isLt
    split
    · next h1 => change n = 1 at h1; change (i 1).val < n at hp; show (0 : Nat) = (i 1).val; omega
    · rfl
  | ⟨1, _⟩ =>
    apply Fin.ext
    have hq := (i 2).isLt
    split
    · next h1 => change w = 1 at h1; change (i 2).val < w at hq; show (0 : Nat) = (i 2).val; omega
    · rfl

theorem stack2_concat (hb : (M2 n w).BroadcastsInDim (T3 1 n w) ![1, 2])
    (hc : Shape.Concatenates [T3 1 n w, T3 1 n w] (T3 2 n w) 0) (a b : Arr (M2 n w)) :
    concatenate (T3 2 n w) 0
        [⟨T3 1 n w, broadcastInDim (T3 1 n w) ![1, 2] hb a⟩, ⟨T3 1 n w, broadcastInDim (T3 1 n w) ![1, 2] hb b⟩] hc
      = stack2 a b := by
  funext j
  unfold stack2
  have h0 := (j 0).isLt
  change (j 0).val < 2 at h0
  split
  · next hj =>
    rw [concatenate_pair_apply_left (t := T3 2 n w) (s₁ := T3 1 n w) (s₂ := T3 1 n w) (0 : Fin 3) _ _ hc j rfl (ix3 (0 : Fin 1) (j 1) (j 2))
      (fun c => by match c with | ⟨0, _⟩ => exact hj.symm | ⟨1, _⟩ => rfl | ⟨2, _⟩ => rfl)]
    exact lead_apply hb a _
  · next hj =>
    rw [concatenate_pair_apply_right (t := T3 2 n w) (s₁ := T3 1 n w) (s₂ := T3 1 n w) (0 : Fin 3) _ _ hc j rfl rfl (ix3 (0 : Fin 1) (j 1) (j 2))
      (fun c hc' => by
        match c with
        | ⟨0, _⟩ => exact absurd rfl hc'
        | ⟨1, _⟩ => rfl
        | ⟨2, _⟩ => rfl)
      (by show (0 : Nat) + 1 = (j 0).val; omega)]
    exact lead_apply hb b _

end Stack

end Cert.Take

end
-- ==== Proof.KHost1s.lean ====
-- In range every checked row lookup is the plain gather, so each scatter-add of the first long stretch is a segment sum of the specification.
import proofs.«428332_j82145544503775_2_alg».proof.Proof.Gen.KernelIdeal.Launch
import Idealize.ShloMosaic.Lib.StableHlo.Run
import proofs.«428332_j82145544503775_2_alg».proof.Proof.Spec
import proofs.«428332_j82145544503775_2_alg».proof.Proof.Words
import proofs.«428332_j82145544503775_2_alg».proof.Proof.KTake
import proofs.«428332_j82145544503775_2_alg».proof.Proof.KHost1

set_option maxRecDepth 16384

noncomputable section

namespace Cert.KernelIdeal.Host

open Cert.KernelIdeal Cert.KernelIdeal.Gen Idealize.ShloMosaic Idealize.ShloMosaic.StableHlo

section Raw
variable {F : FTy → Type} [FloatOps F]

private theorem ofBuf_arg1 (Y : Valuation τ sig (Elt F)) :
    (TRef.of main_arg1 : TRef sig ⟨S200000x128, .f32⟩).ofBuf (Y (Proc.devRef .tc main_arg1)) = Y (Proc.devRef .tc main_arg1) := rfl

private theorem ofBuf_arg8 (Y : Valuation τ sig (Elt F)) :
    (TRef.of main_arg8 : TRef sig ⟨S800000, .i32⟩).ofBuf (Y (Proc.devRef .tc main_arg8)) = Y (Proc.devRef .tc main_arg8) := rfl

private theorem toBuf_v43 (v : FVec F S800000x128 .f32) :
    (TRef.of main_v43 : TRef sig ⟨S800000x128, .f32⟩).toBuf (Val := Elt F) v = v := rfl

private theorem ofBuf_arg2 (Y : Valuation τ sig (Elt F)) :
    (TRef.of main_arg2 : TRef sig ⟨S20000x128, .f32⟩).ofBuf (Y (Proc.devRef .tc main_arg2)) = Y (Proc.devRef .tc main_arg2) := rfl

private theorem ofBuf_arg11 (Y : Valuation τ sig (Elt F)) :
    (TRef.of main_arg11 : TRef sig ⟨S400000, .i32⟩).ofBuf (Y (Proc.devRef .tc main_arg11)) = Y (Proc.devRef .tc main_arg11) := rfl

private theorem toBuf_v47 (v : FVec F S400000x128 .f32) :
    (TRef.of main_v47 : TRef sig ⟨S400000x128, .f32⟩).toBuf (Val := Elt F) v = v := rfl

private theorem ofBuf_v2 (Y : Valuation τ sig (Elt F)) :
    (TRef.of main_v2 : TRef sig ⟨S50000x128, .f32⟩).ofBuf (Y (Proc.devRef .tc main_v2)) = Y (Proc.devRef .tc main_v2) := rfl

private theorem ofBuf_arg9 (Y : Valuation τ sig (Elt F)) :
    (TRef.of main_arg9 : TRef sig ⟨S800000, .i32⟩).ofBuf (Y (Proc.devRef .tc main_arg9)) = Y (Proc.devRef .tc main_arg9) := rfl

private theorem toBuf_v51 (v : FVec F S800000x128 .f32) :
    (TRef.of main_v51 : TRef sig ⟨S800000x128, .f32⟩).toBuf (Val := Elt F) v = v := rfl

private theorem ofBuf_arg10 (Y : Valuation τ sig (Elt F)) :
    (TRef.of main_arg10 : TRef sig ⟨S400000, .i32⟩).ofBuf (Y (Proc.devRef .tc main_arg10)) = Y (Proc.devRef .tc main_arg10) := rfl

private theorem toBuf_v55 (v : FVec F S400000x128 .f32) :
    (TRef.of main_v55 : TRef sig ⟨S400000x128, .f32⟩).toBuf (Val := Elt F) v = v := rfl

theorem take1a_raw (Y : Valuation τ sig (Elt F)) :
    after hostOps1_1 Y (Proc.devRef .tc main_v43)
      = (TRef.of main_v43 : TRef sig ⟨S800000x128, .f32⟩).toBuf
          (Cert.Take.take (F := F) (n := 200000) (e := 800000) 200000#32 199999#32 gather_S200000x128_S800000x1_S800000x128_1_0_n_n_0_1_1128
            bcast_S_S800000 bcast_S800000_S800000x1_0 bcast_S_S800000x1 bcast_S1_S1x1_1 bcast_S1x1_S800000x1_0_1 reducesTo_S800000x1_S800000_d1 h_S_ bcast_S800000_S800000x128_0 bcast_S_S800000x128
            ((TRef.of main_arg1 : TRef sig ⟨S200000x128, .f32⟩).ofBuf (Y (Proc.devRef .tc main_arg1)))
            ((TRef.of main_arg8 : TRef sig ⟨S800000, .i32⟩).ofBuf (Y (Proc.devRef .tc main_arg8)))) := by
  simp only [hostOps1_1]
  after_results_simp
  simp only [ofBuf_toBuf, Cert.Take.take, Cert.Take.wrap, Cert.Take.keep]

theorem take1a_val (Y : Valuation τ sig (Elt F)) :
    after hostOps1_1 Y (Proc.devRef .tc main_v43)
      = Cert.Take.take (F := F) (n := 200000) (e := 800000) 200000#32 199999#32 gather_S200000x128_S800000x1_S800000x128_1_0_n_n_0_1_1128
          bcast_S_S800000 bcast_S800000_S800000x1_0 bcast_S_S800000x1 bcast_S1_S1x1_1 bcast_S1x1_S800000x1_0_1 reducesTo_S800000x1_S800000_d1 h_S_ bcast_S800000_S800000x128_0 bcast_S_S800000x128
          (Y (Proc.devRef .tc main_arg1)) (Y (Proc.devRef .tc main_arg8)) := by
  rw [take1a_raw, ofBuf_arg1, ofBuf_arg8, toBuf_v43]

theorem take1b_raw (Y : Valuation τ sig (Elt F)) :
    after hostOps1_3 Y (Proc.devRef .tc main_v47)
      = (TRef.of main_v47 : TRef sig ⟨S400000x128, .f32⟩).toBuf
          (Cert.Take.take (F := F) (n := 20000) (e := 400000) 20000#32 19999#32 gather_S20000x128_S400000x1_S400000x128_1_0_n_n_0_1_1128
            bcast_S_S400000 bcast_S400000_S400000x1_0 bcast_S_S400000x1 bcast_S1_S1x1_1 bcast_S1x1_S400000x1_0_1 reducesTo_S400000x1_S400000_d1 h_S_ bcast_S400000_S400000x128_0 bcast_S_S400000x128
            ((TRef.of main_arg2 : TRef sig ⟨S20000x128, .f32⟩).ofBuf (Y (Proc.devRef .tc main_arg2)))
            ((TRef.of main_arg11 : TRef sig ⟨S400000, .i32⟩).ofBuf (Y (Proc.devRef .tc main_arg11)))) := by
  simp only [hostOps1_3]
  after_results_simp
  simp only [ofBuf_toBuf, Cert.Take.take, Cert.Take.wrap, Cert.Take.keep]

theorem take1b_val (Y : Valuation τ sig (Elt F)) :
    after hostOps1_3 Y (Proc.devRef .tc main_v47)
      = Cert.Take.take (F := F) (n := 20000) (e := 400000) 20000#32 19999#32 gather_S20000x128_S400000x1_S400000x128_1_0_n_n_0_1_1128
          bcast_S_S400000 bcast_S400000_S400000x1_0 bcast_S_S400000x1 bcast_S1_S1x1_1 bcast_S1x1_S400000x1_0_1 reducesTo_S400000x1_S400000_d1 h_S_ bcast_S400000_S400000x128_0 bcast_S_S400000x128
          (Y (Proc.devRef .tc main_arg2)) (Y (Proc.devRef .tc main_arg11)) := by
  rw [take1b_raw, ofBuf_arg2, ofBuf_arg11, toBuf_v47]

theorem take1c_raw (Y : Valuation τ sig (Elt F)) :
    after hostOps1_5 Y (Proc.devRef .tc main_v51)
      = (TRef.of main_v51 : TRef sig ⟨S800000x128, .f32⟩).toBuf
          (Cert.Take.take (F := F) (n := 50000) (e := 800000) 50000#32 49999#32 gather_S50000x128_S800000x1_S800000x128_1_0_n_n_0_1_1128
            bcast_S_S800000 bcast_S800000_S800000x1_0 bcast_S_S800000x1 bcast_S1_S1x1_1 bcast_S1x1_S800000x1_0_1 reducesTo_S800000x1_S800000_d1 h_S_ bcast_S800000_S800000x128_0 bcast_S_S800000x128
            ((TRef.of main_v2 : TRef sig ⟨S50000x128, .f32⟩).ofBuf (Y (Proc.devRef .tc main_v2)))
            ((TRef.of main_arg9 : TRef sig ⟨S800000, .i32⟩).ofBuf (Y (Proc.devRef .tc main_arg9)))) := by
  simp only [hostOps1_5]
  after_results_simp
  simp only [ofBuf_toBuf, Cert.Take.take, Cert.Take.wrap, Cert.Take.keep]

theorem take1c_val (Y : Valuation τ sig (Elt F)) :
    after hostOps1_5 Y (Proc.devRef .tc main_v51)
      = Cert.Take.take (F := F) (n := 50000) (e := 800000) 50000#32 49999#32 gather_S50000x128_S800000x1_S800000x128_1_0_n_n_0_1_1128
          bcast_S_S800000 bcast_S800000_S800000x1_0 bcast_S_S800000x1 bcast_S1_S1x1_1 bcast_S1x1_S800000x1_0_1 reducesTo_S800000x1_S800000_d1 h_S_ bcast_S800000_S800000x128_0 bcast_S_S800000x128
          (Y (Proc.devRef .tc main_v2)) (Y (Proc.devRef .tc main_arg9)) := by
  rw [take1c_raw, ofBuf_v2, ofBuf_arg9, toBuf_v51]

theorem take1d_raw (Y : Valuation τ sig (Elt F)) :
    after hostOps1_7 Y (Proc.devRef .tc main_v55)
      = (TRef.of main_v55 : TRef sig ⟨S400000x128, .f32⟩).toBuf
          (Cert.Take.take (F := F) (n := 50000) (e := 400000) 50000#32 49999#32 gather_S50000x128_S400000x1_S400000x128_1_0_n_n_0_1_1128
            bcast_S_S400000 bcast_S400000_S400000x1_0 bcast_S_S400000x1 bcast_S1_S1x1_1 bcast_S1x1_S400000x1_0_1 reducesTo_S400000x1_S400000_d1 h_S_ bcast_S400000_S400000x128_0 bcast_S_S400000x128
            ((TRef.of main_v2 : TRef sig ⟨S50000x128, .f32⟩).ofBuf (Y (Proc.devRef .tc main_v2)))
            ((TRef.of main_arg10 : TRef sig ⟨S400000, .i32⟩).ofBuf (Y (Proc.devRef .tc main_arg10)))) := by
  simp only [hostOps1_7]
  after_results_simp
  simp only [ofBuf_toBuf, Cert.Take.take, Cert.Take.wrap, Cert.Take.keep]

theorem take1d_val (Y : Valuation τ sig (Elt F)) :
    after hostOps1_7 Y (Proc.devRef .tc main_v55)
      = Cert.Take.take (F := F) (n := 50000) (e := 400000) 50000#32 49999#32 gather_S50000x128_S400000x1_S400000x128_1_0_n_n_0_1_1128
          bcast_S_S400000 bcast_S400000_S400000x1_0 bcast_S_S400000x1 bcast_S1_S1x1_1 bcast_S1x1_S400000x1_0_1 reducesTo_S400000x1_S400000_d1 h_S_ bcast_S400000_S400000x128_0 bcast_S_S400000x128
          (Y (Proc.devRef .tc main_v2)) (Y (Proc.devRef .tc main_arg10)) := by
  rw [take1d_raw, ofBuf_v2, ofBuf_arg10, toBuf_v55]

end Raw

theorem stack1_raw {F : FTy → Type} [FloatOps F] (Y : Valuation τ sig (Elt F)) :
    after hostOps1_8 Y (Proc.devRef .tc main_v61)
      = concatenate S2x50000x128 0
          [⟨S1x50000x128, broadcastInDim S1x50000x128 ![1, 2] bcast_S50000x128_S1x50000x128_1_2 (Y (Proc.devRef .tc main_v46))⟩,
           ⟨S1x50000x128, broadcastInDim S1x50000x128 ![1, 2] bcast_S50000x128_S1x50000x128_1_2 (Y (Proc.devRef .tc main_v50))⟩]
          concatenates_S1x50000x128_S1x50000x128_S2x50000x128_d0 := by
  simp only [hostOps1_8]
  after_results

theorem s1_1_from0 (X : Valuation τ sig (Elt Ideal)) (r : Ref sig .tc) (h : NW (hostOps1 ++ hostOps1_1) r) :
    s1_1 X (Proc.devRef .tc r) = X (Proc.devRef .tc r) := by
  have e := after_of_forall_not_mem _ (X) h
  simp only [after_append] at e
  exact e

theorem s1_2_from0 (X : Valuation τ sig (Elt Ideal)) (r : Ref sig .tc) (h : NW (hostOps1 ++ hostOps1_1 ++ hostOps1_2) r) :
    s1_2 X (Proc.devRef .tc r) = X (Proc.devRef .tc r) := by
  have e := after_of_forall_not_mem _ (X) h
  simp only [after_append] at e
  exact e

theorem s1_3_from0 (X : Valuation τ sig (Elt Ideal)) (r : Ref sig .tc) (h : NW (hostOps1 ++ hostOps1_1 ++ hostOps1_2 ++ hostOps1_3) r) :
    s1_3 X (Proc.devRef .tc r) = X (Proc.devRef .tc r) := by
  have e := after_of_forall_not_mem _ (X) h
  simp only [after_append] at e
  exact e

theorem s1_4_from0 (X : Valuation τ sig (Elt Ideal)) (r : Ref sig .tc) (h : NW (hostOps1 ++ hostOps1_1 ++ hostOps1_2 ++ hostOps1_3 ++ hostOps1_4) r) :
    s1_4 X (Proc.devRef .tc r) = X (Proc.devRef .tc r) := by
  have e := after_of_forall_not_mem _ (X) h
  simp only [after_append] at e
  exact e

theorem s1_5_from0 (X : Valuation τ sig (Elt Ideal)) (r : Ref sig .tc) (h : NW (hostOps1 ++ hostOps1_1 ++ hostOps1_2 ++ hostOps1_3 ++ hostOps1_4 ++ hostOps1_5) r) :
    s1_5 X (Proc.devRef .tc r) = X (Proc.devRef .tc r) := by
  have e := after_of_forall_not_mem _ (X) h
  simp only [after_append] at e
  exact e

theorem s1_6_from0 (X : Valuation τ sig (Elt Ideal)) (r : Ref sig .tc) (h : NW (hostOps1 ++ hostOps1_1 ++ hostOps1_2 ++ hostOps1_3 ++ hostOps1_4 ++ hostOps1_5 ++ hostOps1_6) r) :
    s1_6 X (Proc.devRef .tc r) = X (Proc.devRef .tc r) := by
  have e := after_of_forall_not_mem _ (X) h
  simp only [after_append] at e
  exact e

theorem s1_7_from0 (X : Valuation τ sig (Elt Ideal)) (r : Ref sig .tc) (h : NW (hostOps1 ++ hostOps1_1 ++ hostOps1_2 ++ hostOps1_3 ++ hostOps1_4 ++ hostOps1_5 ++ hostOps1_6 ++ hostOps1_7) r) :
    s1_7 X (Proc.devRef .tc r) = X (Proc.devRef .tc r) := by
  have e := after_of_forall_not_mem _ (X) h
  simp only [after_append] at e
  exact e

theorem s1_1_v43 (X : Valuation τ sig (Elt Ideal)) (h8 : Sage.InRange 200000 (X (Proc.devRef .tc main_arg8))) :
    s1_1 X (Proc.devRef .tc main_v43) = Host.gather gather_S200000x128_S800000x1_S800000x128_1_0_n_n_0_1_1128 (X (Proc.devRef .tc main_arg1)) (Sage.col bcast_S800000_S800000x1_0 (X (Proc.devRef .tc main_arg8))) := by
  have e := take1a_val (s1_0 X)
  rw [s1_0_keep X main_arg1 (by decide), s1_0_keep X main_arg8 (by decide)] at e
  exact e.trans (Cert.Take.take_eq (n := 200000) (by decide) _ _ _ _ _ _ _ _ _ _ _ _ h8)

theorem s1_2_v46 (X : Valuation τ sig (Elt Ideal)) (h8 : Sage.InRange 200000 (X (Proc.devRef .tc main_arg8))) :
    s1_2 X (Proc.devRef .tc main_v46) = Sage.sumUM (X (Proc.devRef .tc main_arg1)) (X (Proc.devRef .tc main_arg8)) (X (Proc.devRef .tc main_arg9)) := by
  unfold s1_2
  simp only [hostOps1_2]
  after_results_simp
  rw [s1_1_from0 X main_arg9 (by decide), s1_1_v43 X h8]
  rfl

theorem s1_3_v47 (X : Valuation τ sig (Elt Ideal)) (h11 : Sage.InRange 20000 (X (Proc.devRef .tc main_arg11))) :
    s1_3 X (Proc.devRef .tc main_v47) = Host.gather gather_S20000x128_S400000x1_S400000x128_1_0_n_n_0_1_1128 (X (Proc.devRef .tc main_arg2)) (Sage.col bcast_S400000_S400000x1_0 (X (Proc.devRef .tc main_arg11))) := by
  have e := take1b_val (s1_2 X)
  rw [s1_2_from0 X main_arg2 (by decide), s1_2_from0 X main_arg11 (by decide)] at e
  exact e.trans (Cert.Take.take_eq (n := 20000) (by decide) _ _ _ _ _ _ _ _ _ _ _ _ h11)

theorem s1_4_v50 (X : Valuation τ sig (Elt Ideal)) (h11 : Sage.InRange 20000 (X (Proc.devRef .tc main_arg11))) :
    s1_4 X (Proc.devRef .tc main_v50) = Sage.sumTM (X (Proc.devRef .tc main_arg2)) (X (Proc.devRef .tc main_arg11)) (X (Proc.devRef .tc main_arg10)) := by
  unfold s1_4
  simp only [hostOps1_4]
  after_results_simp
  rw [s1_3_from0 X main_arg10 (by decide), s1_3_v47 X h11]
  rfl

theorem s1_5_v51 (X : Valuation τ sig (Elt Ideal)) (h9 : Sage.InRange 50000 (X (Proc.devRef .tc main_arg9))) :
    s1_5 X (Proc.devRef .tc main_v51) = Host.gather gather_S50000x128_S800000x1_S800000x128_1_0_n_n_0_1_1128 (X (Proc.devRef .tc main_v2)) (Sage.col bcast_S800000_S800000x1_0 (X (Proc.devRef .tc main_arg9))) := by
  have e := take1c_val (s1_4 X)
  rw [s1_4_from0 X main_v2 (by decide), s1_4_from0 X main_arg9 (by decide)] at e
  exact e.trans (Cert.Take.take_eq (n := 50000) (by decide) _ _ _ _ _ _ _ _ _ _ _ _ h9)

theorem s1_6_v54 (X : Valuation τ sig (Elt Ideal)) (h9 : Sage.InRange 50000 (X (Proc.devRef .tc main_arg9))) :
    s1_6 X (Proc.devRef .tc main_v54) = Sage.sumMU (X (Proc.devRef .tc main_v2)) (X (Proc.devRef .tc main_arg9)) (X (Proc.devRef .tc main_arg8)) := by
  unfold s1_6
  simp only [hostOps1_6]
  after_results_simp
  rw [s1_5_from0 X main_arg8 (by decide), s1_5_v51 X h9]
  rfl

theorem s1_7_v55 (X : Valuation τ sig (Elt Ideal)) (h10 : Sage.InRange 50000 (X (Proc.devRef .tc main_arg10))) :
    s1_7 X (Proc.devRef .tc main_v55) = Host.gather gather_S50000x128_S400000x1_S400000x128_1_0_n_n_0_1_1128 (X (Proc.devRef .tc main_v2)) (Sage.col bcast_S400000_S400000x1_0 (X (Proc.devRef .tc main_arg10))) := by
  have e := take1d_val (s1_6 X)
  rw [s1_6_from0 X main_v2 (by decide), s1_6_from0 X main_arg10 (by decide)] at e
  exact e.trans (Cert.Take.take_eq (n := 50000) (by decide) _ _ _ _ _ _ _ _ _ _ _ _ h10)

theorem s1_8_v58 (X : Valuation τ sig (Elt Ideal)) (h10 : Sage.InRange 50000 (X (Proc.devRef .tc main_arg10))) :
    s1_8 X (Proc.devRef .tc main_v58) = Sage.sumMT (X (Proc.devRef .tc main_v2)) (X (Proc.devRef .tc main_arg10)) (X (Proc.devRef .tc main_arg11)) := by
  unfold s1_8
  simp only [hostOps1_8]
  after_results_simp
  rw [s1_7_from0 X main_arg11 (by decide), s1_7_v55 X h10]
  rfl

theorem s1_7_v46 (X : Valuation τ sig (Elt Ideal)) (h8 : Sage.InRange 200000 (X (Proc.devRef .tc main_arg8))) :
    s1_7 X (Proc.devRef .tc main_v46) = Sage.sumUM (X (Proc.devRef .tc main_arg1)) (X (Proc.devRef .tc main_arg8)) (X (Proc.devRef .tc main_arg9)) := by
  rw [s1_7_keep X main_v46 (by decide), s1_6_keep X main_v46 (by decide), s1_5_keep X main_v46 (by decide), s1_4_keep X main_v46 (by decide), s1_3_keep X main_v46 (by decide)]
  exact s1_2_v46 X h8

theorem s1_7_v50 (X : Valuation τ sig (Elt Ideal)) (h11 : Sage.InRange 20000 (X (Proc.devRef .tc main_arg11))) :
    s1_7 X (Proc.devRef .tc main_v50) = Sage.sumTM (X (Proc.devRef .tc main_arg2)) (X (Proc.devRef .tc main_arg11)) (X (Proc.devRef .tc main_arg10)) := by
  rw [s1_7_keep X main_v50 (by decide), s1_6_keep X main_v50 (by decide), s1_5_keep X main_v50 (by decide)]
  exact s1_4_v50 X h11

theorem aft1_v61 (X : Valuation τ sig (Elt Ideal)) (h8 : Sage.InRange 200000 (X (Proc.devRef .tc main_arg8))) (h11 : Sage.InRange 20000 (X (Proc.devRef .tc main_arg11))) :
    aft1 X (Proc.devRef .tc main_v61) = Sage.stack2 (Sage.sumUM (X (Proc.devRef .tc main_arg1)) (X (Proc.devRef .tc main_arg8)) (X (Proc.devRef .tc main_arg9))) (Sage.sumTM (X (Proc.devRef .tc main_arg2)) (X (Proc.devRef .tc main_arg11)) (X (Proc.devRef .tc main_arg10))) := by
  show s1_8 X _ = _
  unfold s1_8
  rw [stack1_raw (s1_7 X), s1_7_v46 X h8, s1_7_v50 X h11]
  exact Cert.Take.stack2_concat _ _ _ _

theorem aft1_v54 (X : Valuation τ sig (Elt Ideal)) (h9 : Sage.InRange 50000 (X (Proc.devRef .tc main_arg9))) :
    aft1 X (Proc.devRef .tc main_v54) = Sage.sumMU (X (Proc.devRef .tc main_v2)) (X (Proc.devRef .tc main_arg9)) (X (Proc.devRef .tc main_arg8)) := by
  show s1_8 X _ = _
  rw [s1_8_keep X main_v54 (by decide), s1_7_keep X main_v54 (by decide)]
  exact s1_6_v54 X h9

theorem aft1_v58 (X : Valuation τ sig (Elt Ideal)) (h10 : Sage.InRange 50000 (X (Proc.devRef .tc main_arg10))) :
    aft1 X (Proc.devRef .tc main_v58) = Sage.sumMT (X (Proc.devRef .tc main_v2)) (X (Proc.devRef .tc main_arg10)) (X (Proc.devRef .tc main_arg11)) :=
  s1_8_v58 X h10

end Cert.KernelIdeal.Host

end
-- ==== Proof.KHostSmall.lean ====
-- The short host stretches: slices of the swapped weights and the bias row, and stacks of one.
import proofs.«428332_j82145544503775_2_alg».proof.Proof.Gen.KernelIdeal.Launch
import Idealize.ShloMosaic.Lib.StableHlo.Run
import Idealize.ShloMosaic.Lib.Pipeline.Value
import Idealize.ShloMosaic.Lib.ValueLayout
import proofs.«428332_j82145544503775_2_alg».proof.Proof.Spec
import proofs.«428332_j82145544503775_2_alg».proof.Proof.KHost1

set_option maxRecDepth 16384

noncomputable section

namespace Cert.KernelIdeal.Host

open Cert.KernelIdeal Cert.KernelIdeal.Gen Idealize.ShloMosaic Idealize.ShloMosaic.StableHlo Idealize.ShloMosaic.ValueIdx

section Reads
variable {α : Type}

theorem cutW (W : S2x4x128x128.Idx → α) (l : Fin 2) (k : Fin 4)
    (hs : S2x4x128x128.Slices ![l.val, k.val, 0, 0] S1x1x128x128) (hc : S1x1x128x128.ShapeCasts S128x128)
    (hb : S128x128.BroadcastsInDim S1x128x128 ![1, 2]) :
    broadcastInDim S1x128x128 ![1, 2] hb (shapeCast S128x128 (extractStridedSlice S1x1x128x128 ![l.val, k.val, 0, 0] W hs) hc)
      = fun i => W (ix4 l k (i 1) (i 2)) := by
  funext i
  refine (broadcastInDim_apply _ _ _ i (ix2 (i 1) (i 2)) (fun a => ?_)).trans ?_
  · match a with
    | ⟨0, _⟩ => rfl
    | ⟨1, _⟩ => rfl
  refine (shapeCast_apply _ _ (ix2 (i 1) (i 2)) (ix4 (0 : Fin 1) (0 : Fin 1) (i 1) (i 2)) ?_).trans ?_
  · rw [Shape.rowMajor_val_four, Shape.rowMajor_val_two]
    show ((0 * 1 + 0) * 128 + (i 1).val) * 128 + (i 2).val = (i 1).val * 128 + (i 2).val
    omega
  exact extractStridedSlice_apply _ _ _ _ (ix4 l k (i 1) (i 2)) (fun a => by
    match a with
    | ⟨0, _⟩ => exact (Nat.add_zero _).symm
    | ⟨1, _⟩ => exact (Nat.add_zero _).symm
    | ⟨2, _⟩ => exact (Nat.zero_add _).symm
    | ⟨3, _⟩ => exact (Nat.zero_add _).symm)

theorem cutB (B : S2x4x1x128.Idx → α) (l : Fin 2) (k : Fin 4)
    (hs : S2x4x1x128.Slices ![l.val, k.val, 0, 0] S1x1x1x128) (hc : S1x1x1x128.ShapeCasts S1x128)
    (hb : S1x128.BroadcastsInDim S1x1x128 ![1, 2]) :
    broadcastInDim S1x1x128 ![1, 2] hb (shapeCast S1x128 (extractStridedSlice S1x1x1x128 ![l.val, k.val, 0, 0] B hs) hc)
      = fun i => B (ix4 l k (0 : Fin 1) (i 2)) := by
  funext i
  refine (broadcastInDim_apply _ _ _ i (ix2 (0 : Fin 1) (i 2)) (fun a => ?_)).trans ?_
  · match a with
    | ⟨0, _⟩ => rfl
    | ⟨1, _⟩ => rfl
  refine (shapeCast_apply _ _ (ix2 (0 : Fin 1) (i 2)) (ix4 (0 : Fin 1) (0 : Fin 1) (0 : Fin 1) (i 2)) ?_).trans ?_
  · rw [Shape.rowMajor_val_four, Shape.rowMajor_val_two]
    show ((0 * 1 + 0) * 1 + 0) * 128 + (i 2).val = 0 * 128 + (i 2).val
    omega
  exact extractStridedSlice_apply _ _ _ _ (ix4 l k (0 : Fin 1) (i 2)) (fun a => by
    match a with
    | ⟨0, _⟩ => exact (Nat.add_zero _).symm
    | ⟨1, _⟩ => exact (Nat.add_zero _).symm
    | ⟨2, _⟩ => exact (Nat.zero_add _).symm
    | ⟨3, _⟩ => exact (Nat.zero_add _).symm)

end Reads

theorem stackOne {n w : Nat} (a : Sage.Arr (Sage.M2 n w))
    (hb : (Sage.M2 n w).BroadcastsInDim (Sage.T3 1 n w) ![1, 2]) :
    broadcastInDim (Sage.T3 1 n w) ![1, 2] hb a = Sage.stack1 a := by
  funext i
  refine broadcastInDim_apply _ _ _ i (ix2 (i 1) (i 2)) (fun c => ?_)
  match c with
  | ⟨0, _⟩ =>
    have h1 : (i 1).val < n := (i 1).isLt
    show (i 1).val = if n = 1 then 0 else (i 1).val
    split
    · omega
    · rfl
  | ⟨1, _⟩ =>
    have h2 : (i 2).val < w := (i 2).isLt
    show (i 2).val = if w = 1 then 0 else (i 2).val
    split
    · omega
    · rfl

theorem keep0 (X : Valuation τ sig (Elt Ideal)) (r : Ref sig .tc) (h : NW hostOps0 r) :
    after (hostOps0 (F := Ideal)) X (Proc.devRef .tc r) = X (Proc.devRef .tc r) :=
  after_of_forall_not_mem _ _ h

theorem hostOps0_v0 (X : Valuation τ sig (Elt Ideal)) :
    after (hostOps0 (F := Ideal)) X (Proc.devRef .tc main_v0)
      = fun i => X (Proc.devRef .tc main_arg3) (ix2 (i 1) (i 0)) := by
  simp only [hostOps0]
  after_results
  funext i
  exact transpose_apply _ _ _ _ (ix2 (i 1) (i 0)) (fun b => by
    match b with
    | ⟨0, _⟩ => rfl
    | ⟨1, _⟩ => rfl)

theorem hostOps0_v1 (X : Valuation τ sig (Elt Ideal)) :
    after (hostOps0 (F := Ideal)) X (Proc.devRef .tc main_v1)
      = fun i => X (Proc.devRef .tc main_arg4) (ix1 (i 1)) := by
  simp only [hostOps0]
  after_results
  funext i
  exact broadcastInDim_apply _ _ _ _ (ix1 (i 1)) (fun a => by
    match a with
    | ⟨0, _⟩ => rfl)

theorem keep2 (X : Valuation τ sig (Elt Ideal)) (r : Ref sig .tc) (h : NW hostOps2 r) :
    after (hostOps2 (F := Ideal)) X (Proc.devRef .tc r) = X (Proc.devRef .tc r) :=
  after_of_forall_not_mem _ _ h

theorem hostOps2_v84 (X : Valuation τ sig (Elt Ideal)) :
    after (hostOps2 (F := Ideal)) X (Proc.devRef .tc main_v84) = Sage.stack1 (X (Proc.devRef .tc main_v54)) := by
  simp only [hostOps2]
  after_results
  exact stackOne _ _

theorem hostOps2_v87 (X : Valuation τ sig (Elt Ideal)) :
    after (hostOps2 (F := Ideal)) X (Proc.devRef .tc main_v87)
      = fun i => X (Proc.devRef .tc main_v3) (ix4 (0 : Fin 2) (1 : Fin 4) (i 1) (i 2)) := by
  simp only [hostOps2]
  after_results
  exact cutW (X (Proc.devRef .tc main_v3)) 0 1 _ _ _

theorem hostOps2_v90 (X : Valuation τ sig (Elt Ideal)) :
    after (hostOps2 (F := Ideal)) X (Proc.devRef .tc main_v90)
      = fun i => X (Proc.devRef .tc main_v5) (ix4 (0 : Fin 2) (1 : Fin 4) (0 : Fin 1) (i 2)) := by
  simp only [hostOps2]
  after_results
  exact cutB (X (Proc.devRef .tc main_v5)) 0 1 _ _ _

theorem hostOps2_v93 (X : Valuation τ sig (Elt Ideal)) :
    after (hostOps2 (F := Ideal)) X (Proc.devRef .tc main_v93)
      = fun i => X (Proc.devRef .tc main_v4) (ix4 (0 : Fin 2) (1 : Fin 4) (i 1) (i 2)) := by
  simp only [hostOps2]
  after_results
  exact cutW (X (Proc.devRef .tc main_v4)) 0 1 _ _ _

theorem keep3 (X : Valuation τ sig (Elt Ideal)) (r : Ref sig .tc) (h : NW hostOps3 r) :
    after (hostOps3 (F := Ideal)) X (Proc.devRef .tc r) = X (Proc.devRef .tc r) :=
  after_of_forall_not_mem _ _ h

theorem hostOps3_v95 (X : Valuation τ sig (Elt Ideal)) :
    after (hostOps3 (F := Ideal)) X (Proc.devRef .tc main_v95) = Sage.stack1 (X (Proc.devRef .tc main_v58)) := by
  simp only [hostOps3]
  after_results
  exact stackOne _ _

theorem hostOps3_v98 (X : Valuation τ sig (Elt Ideal)) :
    after (hostOps3 (F := Ideal)) X (Proc.devRef .tc main_v98)
      = fun i => X (Proc.devRef .tc main_v3) (ix4 (0 : Fin 2) (2 : Fin 4) (i 1) (i 2)) := by
  simp only [hostOps3]
  after_results
  exact cutW (X (Proc.devRef .tc main_v3)) 0 2 _ _ _

theorem hostOps3_v101 (X : Valuation τ sig (Elt Ideal)) :
    after (hostOps3 (F := Ideal)) X (Proc.devRef .tc main_v101)
      = fun i => X (Proc.devRef .tc main_v5) (ix4 (0 : Fin 2) (2 : Fin 4) (0 : Fin 1) (i 2)) := by
  simp only [hostOps3]
  after_results
  exact cutB (X (Proc.devRef .tc main_v5)) 0 2 _ _ _

theorem hostOps3_v104 (X : Valuation τ sig (Elt Ideal)) :
    after (hostOps3 (F := Ideal)) X (Proc.devRef .tc main_v104)
      = fun i => X (Proc.devRef .tc main_v4) (ix4 (0 : Fin 2) (2 : Fin 4) (i 1) (i 2)) := by
  simp only [hostOps3]
  after_results
  exact cutW (X (Proc.devRef .tc main_v4)) 0 2 _ _ _

theorem keep5 (X : Valuation τ sig (Elt Ideal)) (r : Ref sig .tc) (h : NW hostOps5 r) :
    after (hostOps5 (F := Ideal)) X (Proc.devRef .tc r) = X (Proc.devRef .tc r) :=
  after_of_forall_not_mem _ _ h

theorem hostOps5_v147 (X : Valuation τ sig (Elt Ideal)) :
    after (hostOps5 (F := Ideal)) X (Proc.devRef .tc main_v147) = Sage.stack1 (X (Proc.devRef .tc main_v117)) := by
  simp only [hostOps5]
  after_results
  exact stackOne _ _

theorem hostOps5_v150 (X : Valuation τ sig (Elt Ideal)) :
    after (hostOps5 (F := Ideal)) X (Proc.devRef .tc main_v150)
      = fun i => X (Proc.devRef .tc main_v3) (ix4 (1 : Fin 2) (1 : Fin 4) (i 1) (i 2)) := by
  simp only [hostOps5]
  after_results
  exact cutW (X (Proc.devRef .tc main_v3)) 1 1 _ _ _

theorem hostOps5_v153 (X : Valuation τ sig (Elt Ideal)) :
    after (hostOps5 (F := Ideal)) X (Proc.devRef .tc main_v153)
      = fun i => X (Proc.devRef .tc main_v5) (ix4 (1 : Fin 2) (1 : Fin 4) (0 : Fin 1) (i 2)) := by
  simp only [hostOps5]
  after_results
  exact cutB (X (Proc.devRef .tc main_v5)) 1 1 _ _ _

theorem hostOps5_v156 (X : Valuation τ sig (Elt Ideal)) :
    after (hostOps5 (F := Ideal)) X (Proc.devRef .tc main_v156)
      = fun i => X (Proc.devRef .tc main_v4) (ix4 (1 : Fin 2) (1 : Fin 4) (i 1) (i 2)) := by
  simp only [hostOps5]
  after_results
  exact cutW (X (Proc.devRef .tc main_v4)) 1 1 _ _ _

theorem keep6 (X : Valuation τ sig (Elt Ideal)) (r : Ref sig .tc) (h : NW hostOps6 r) :
    after (hostOps6 (F := Ideal)) X (Proc.devRef .tc r) = X (Proc.devRef .tc r) :=
  after_of_forall_not_mem _ _ h

end Cert.KernelIdeal.Host
-- ==== Proof.KChainA.lean ====
-- The tiled program's arrays, from launch to the first movie update, as functions of the twelve launch arrays.
import proofs.«428332_j82145544503775_2_alg».proof.Proof.Gen.KernelIdeal.Frame
import proofs.«428332_j82145544503775_2_alg».proof.Proof.Spec
import proofs.«428332_j82145544503775_2_alg».proof.Proof.SpecLemmas
import proofs.«428332_j82145544503775_2_alg».proof.Proof.KReg0
import proofs.«428332_j82145544503775_2_alg».proof.Proof.KReg1
import proofs.«428332_j82145544503775_2_alg».proof.Proof.KHost1
import proofs.«428332_j82145544503775_2_alg».proof.Proof.KHost1s
import proofs.«428332_j82145544503775_2_alg».proof.Proof.KHostSmall

set_option maxRecDepth 16384

noncomputable section

namespace Cert.KernelIdeal.Chain

open Cert.KernelIdeal Cert.KernelIdeal.Gen Cert.KernelIdeal.Host Cert.KernelIdeal.Reg
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

abbrev aG : Sage.Arr (Sage.M2 50000 64) := m ((c : Thread nD τ).loc main_arg0)
abbrev aU : Sage.Arr (Sage.M2 200000 128) := m ((c : Thread nD τ).loc main_arg1)
abbrev aT : Sage.Arr (Sage.M2 20000 128) := m ((c : Thread nD τ).loc main_arg2)
abbrev aMW : Sage.Arr (Sage.M2 128 64) := m ((c : Thread nD τ).loc main_arg3)
abbrev aMb : Sage.Arr (Sage.V1 128) := m ((c : Thread nD τ).loc main_arg4)
abbrev aWn : Sage.Arr (Sage.T4 2 4 128 128) := m ((c : Thread nD τ).loc main_arg5)
abbrev aWs : Sage.Arr (Sage.T4 2 4 128 128) := m ((c : Thread nD τ).loc main_arg6)
abbrev aBs : Sage.Arr (Sage.T3 2 4 128) := m ((c : Thread nD τ).loc main_arg7)
abbrev aRu : Sage.Ids 800000 := m ((c : Thread nD τ).loc main_arg8)
abbrev aRm : Sage.Ids 800000 := m ((c : Thread nD τ).loc main_arg9)
abbrev aTm : Sage.Ids 400000 := m ((c : Thread nD τ).loc main_arg10)
abbrev aTt : Sage.Ids 400000 := m ((c : Thread nD τ).loc main_arg11)

structure Ranges : Prop where
  ru : Sage.InRange 200000 (aRu m c)
  rm : Sage.InRange 50000 (aRm m c)
  tm : Sage.InRange 50000 (aTm m c)
  tt : Sage.InRange 20000 (aTt m c)

abbrev HM0 : Sage.Arr (Sage.M2 50000 128) := Sage.hm0 (aG m c) (aMW m c) (aMb m c)

abbrev HU1 : Sage.Arr (Sage.M2 200000 128) :=
  Sage.hu1 (aG m c) (aU m c) (aMW m c) (aMb m c) (aWn m c) (aWs m c) (aBs m c) (aRu m c) (aRm m c)
abbrev HM1 : Sage.Arr (Sage.M2 50000 128) :=
  Sage.hm1 (aG m c) (aU m c) (aT m c) (aMW m c) (aMb m c) (aWn m c) (aWs m c) (aBs m c) (aRu m c) (aRm m c) (aTm m c) (aTt m c)
abbrev HT1 : Sage.Arr (Sage.M2 20000 128) :=
  Sage.ht1 (aG m c) (aT m c) (aMW m c) (aMb m c) (aWn m c) (aWs m c) (aBs m c) (aTm m c) (aTt m c)

abbrev OutU : Sage.Arr (Sage.M2 200000 128) :=
  Sage.outU (aG m c) (aU m c) (aT m c) (aMW m c) (aMb m c) (aWn m c) (aWs m c) (aBs m c) (aRu m c) (aRm m c) (aTm m c) (aTt m c)
abbrev OutM : Sage.Arr (Sage.M2 50000 128) :=
  Sage.outM (aG m c) (aU m c) (aT m c) (aMW m c) (aMb m c) (aWn m c) (aWs m c) (aBs m c) (aRu m c) (aRm m c) (aTm m c) (aTt m c)

abbrev WSs : Sage.Arr (Sage.T4 2 4 128 128) := fun i => aWs m c (ix4 (i 0) (i 1) (i 3) (i 2))
abbrev WNs : Sage.Arr (Sage.T4 2 4 128 128) := fun i => aWn m c (ix4 (i 0) (i 1) (i 3) (i 2))
abbrev BSr : Sage.Arr (Sage.T4 2 4 1 128) := fun i => aBs m c (ix3 (i 0) (i 1) (i 3))

abbrev RM : Sage.Arr (Sage.T3 2 50000 1) :=
  Sage.stack2 (Sage.recip (Sage.degM1 (aRm m c))) (Sage.recip (Sage.degM2 (aTm m c)))
abbrev RU : Sage.Arr (Sage.T3 1 200000 1) := Sage.stack1 (Sage.recip (Sage.degU (aRu m c)))
abbrev RT : Sage.Arr (Sage.T3 1 20000 1) := Sage.stack1 (Sage.recip (Sage.degT (aTt m c)))

abbrev SMU0 : Sage.Arr (Sage.M2 200000 128) := Sage.sumMU (HM0 m c) (aRm m c) (aRu m c)
abbrev SMT0 : Sage.Arr (Sage.M2 20000 128) := Sage.sumMT (HM0 m c) (aTm m c) (aTt m c)
abbrev SMU1 : Sage.Arr (Sage.M2 200000 128) := Sage.sumMU (HM1 m c) (aRm m c) (aRu m c)

theorem stackW2_of_swapped (W : Sage.Arr (Sage.T4 2 4 128 128)) (l : Fin 2) (k0 k1 : Fin 4) :
    (fun i : (Sage.T3 2 128 128).Idx =>
      (fun a : (Sage.T4 2 4 128 128).Idx => W (ix4 (a 0) (a 1) (a 3) (a 2)))
        (ix4 l (if (i 0).val = 0 then k0 else k1) (i 1) (i 2))) = Sage.stackW2 W l k0 k1 := by
  funext i
  rfl

theorem stackB2_of_row (bs : Sage.Arr (Sage.T3 2 4 128)) (l : Fin 2) (k0 k1 : Fin 4) :
    (fun i : (Sage.T3 2 1 128).Idx =>
      (fun a : (Sage.T4 2 4 1 128).Idx => bs (ix3 (a 0) (a 1) (a 3)))
        (ix4 l (if (i 0).val = 0 then k0 else k1) (0 : Fin 1) (i 2))) = Sage.stackB2 bs l k0 k1 := by
  funext i
  rfl

theorem w1_arg0 : W1 m ρ c (Proc.devRef .tc main_arg0) = aG m c := keep0 (W0 m ρ c) main_arg0 (by decide)
theorem w1_v0 : W1 m ρ c (Proc.devRef .tc main_v0) = fun i => aMW m c (ix2 (i 1) (i 0)) := hostOps0_v0 (W0 m ρ c)
theorem w1_v1 : W1 m ρ c (Proc.devRef .tc main_v1) = fun i => aMb m c (ix1 (i 1)) := hostOps0_v1 (W0 m ρ c)

theorem w2_v2' : W2 m ρ c (Proc.devRef .tc main_v2) = HM0 m c := by
  refine (W2_arr m ρ c 3).trans ((final0 (V1 m ρ) c).trans ?_)
  show Sage.proj (W1 m ρ c (Proc.devRef .tc main_arg0)) (W1 m ρ c (Proc.devRef .tc main_v0)) (W1 m ρ c (Proc.devRef .tc main_v1)) = _
  rw [w1_arg0, w1_v0, w1_v1]
  exact Sage.proj_transposed _ _ _

theorem w2_arg (r : Ref sig .tc) (h0 : NW hostOps0 r) (hne : ∀ w, Pipeline.arrRef spec0 w ≠ r) :
    W2 m ρ c (Proc.devRef .tc r) = W0 m ρ c (Proc.devRef .tc r) :=
  (W2_of_ne m ρ c r hne).trans (keep0 (W0 m ρ c) r h0)

section Stages
variable (hR : Ranges m c)
include hR

theorem w2_v2 : W2 m ρ c (Proc.devRef .tc main_v2) = HM0 m c := w2_v2' m ρ c
theorem w2_arg1 : W2 m ρ c (Proc.devRef .tc main_arg1) = aU m c := w2_arg m ρ c main_arg1 (by decide) (by decide)
theorem w2_arg2 : W2 m ρ c (Proc.devRef .tc main_arg2) = aT m c := w2_arg m ρ c main_arg2 (by decide) (by decide)
theorem w2_arg5 : W2 m ρ c (Proc.devRef .tc main_arg5) = aWn m c := w2_arg m ρ c main_arg5 (by decide) (by decide)
theorem w2_arg6 : W2 m ρ c (Proc.devRef .tc main_arg6) = aWs m c := w2_arg m ρ c main_arg6 (by decide) (by decide)
theorem w2_arg7 : W2 m ρ c (Proc.devRef .tc main_arg7) = aBs m c := w2_arg m ρ c main_arg7 (by decide) (by decide)
theorem w2_arg8 : W2 m ρ c (Proc.devRef .tc main_arg8) = aRu m c := w2_arg m ρ c main_arg8 (by decide) (by decide)
theorem w2_arg9 : W2 m ρ c (Proc.devRef .tc main_arg9) = aRm m c := w2_arg m ρ c main_arg9 (by decide) (by decide)
theorem w2_arg10 : W2 m ρ c (Proc.devRef .tc main_arg10) = aTm m c := w2_arg m ρ c main_arg10 (by decide) (by decide)
theorem w2_arg11 : W2 m ρ c (Proc.devRef .tc main_arg11) = aTt m c := w2_arg m ρ c main_arg11 (by decide) (by decide)
theorem r2_8 : Sage.InRange 200000 (W2 m ρ c (Proc.devRef .tc main_arg8)) := by rw [w2_arg8 m ρ c hR]; exact hR.ru
theorem r2_9 : Sage.InRange 50000 (W2 m ρ c (Proc.devRef .tc main_arg9)) := by rw [w2_arg9 m ρ c hR]; exact hR.rm
theorem r2_10 : Sage.InRange 50000 (W2 m ρ c (Proc.devRef .tc main_arg10)) := by rw [w2_arg10 m ρ c hR]; exact hR.tm
theorem r2_11 : Sage.InRange 20000 (W2 m ρ c (Proc.devRef .tc main_arg11)) := by rw [w2_arg11 m ρ c hR]; exact hR.tt

theorem w11_v2 : W11 m ρ c (Proc.devRef .tc main_v2) = HM0 m c :=
  (aft1_keep (W2 m ρ c) main_v2 (by decide)).trans (w2_v2 m ρ c hR)
theorem w11_arg1 : W11 m ρ c (Proc.devRef .tc main_arg1) = aU m c :=
  (aft1_keep (W2 m ρ c) main_arg1 (by decide)).trans (w2_arg1 m ρ c hR)
theorem w11_arg2 : W11 m ρ c (Proc.devRef .tc main_arg2) = aT m c :=
  (aft1_keep (W2 m ρ c) main_arg2 (by decide)).trans (w2_arg2 m ρ c hR)
theorem w11_arg8 : W11 m ρ c (Proc.devRef .tc main_arg8) = aRu m c :=
  (aft1_keep (W2 m ρ c) main_arg8 (by decide)).trans (w2_arg8 m ρ c hR)
theorem w11_arg9 : W11 m ρ c (Proc.devRef .tc main_arg9) = aRm m c :=
  (aft1_keep (W2 m ρ c) main_arg9 (by decide)).trans (w2_arg9 m ρ c hR)
theorem w11_arg10 : W11 m ρ c (Proc.devRef .tc main_arg10) = aTm m c :=
  (aft1_keep (W2 m ρ c) main_arg10 (by decide)).trans (w2_arg10 m ρ c hR)
theorem w11_arg11 : W11 m ρ c (Proc.devRef .tc main_arg11) = aTt m c :=
  (aft1_keep (W2 m ρ c) main_arg11 (by decide)).trans (w2_arg11 m ρ c hR)
theorem r11_8 : Sage.InRange 200000 (W11 m ρ c (Proc.devRef .tc main_arg8)) := by rw [w11_arg8 m ρ c hR]; exact hR.ru
theorem r11_9 : Sage.InRange 50000 (W11 m ρ c (Proc.devRef .tc main_arg9)) := by rw [w11_arg9 m ρ c hR]; exact hR.rm
theorem r11_10 : Sage.InRange 50000 (W11 m ρ c (Proc.devRef .tc main_arg10)) := by rw [w11_arg10 m ρ c hR]; exact hR.tm
theorem r11_11 : Sage.InRange 20000 (W11 m ρ c (Proc.devRef .tc main_arg11)) := by rw [w11_arg11 m ρ c hR]; exact hR.tt

theorem w11_v3 : W11 m ρ c (Proc.devRef .tc main_v3) = WSs m c := by
  refine (aft1_v3 (W2 m ρ c)).trans ?_
  rw [w2_arg6 m ρ c hR]
  rfl
theorem w11_v4 : W11 m ρ c (Proc.devRef .tc main_v4) = WNs m c := by
  refine (aft1_v4 (W2 m ρ c)).trans ?_
  rw [w2_arg5 m ρ c hR]
  rfl
theorem w11_v5 : W11 m ρ c (Proc.devRef .tc main_v5) = BSr m c := by
  refine (aft1_v5 (W2 m ρ c)).trans ?_
  rw [w2_arg7 m ρ c hR]
  rfl
theorem w11_v68 : W11 m ρ c (Proc.devRef .tc main_v68) = Sage.stackW2 (aWs m c) 0 0 3 := by
  refine (aft1_v68 (W2 m ρ c)).trans ?_
  rw [w2_arg6 m ρ c hR]
theorem w11_v75 : W11 m ρ c (Proc.devRef .tc main_v75) = Sage.stackB2 (aBs m c) 0 0 3 := by
  refine (aft1_v75 (W2 m ρ c)).trans ?_
  rw [w2_arg7 m ρ c hR]
theorem w11_v82 : W11 m ρ c (Proc.devRef .tc main_v82) = Sage.stackW2 (aWn m c) 0 0 3 := by
  refine (aft1_v82 (W2 m ρ c)).trans ?_
  rw [w2_arg5 m ρ c hR]
theorem w11_v40 : W11 m ρ c (Proc.devRef .tc main_v40) = RM m c := by
  refine (aft1_v40 (W2 m ρ c)).trans ?_
  rw [w2_arg9 m ρ c hR, w2_arg10 m ρ c hR]
theorem w11_v41 : W11 m ρ c (Proc.devRef .tc main_v41) = RU m c := by
  refine (aft1_v41 (W2 m ρ c)).trans ?_
  rw [w2_arg8 m ρ c hR]
theorem w11_v42 : W11 m ρ c (Proc.devRef .tc main_v42) = RT m c := by
  refine (aft1_v42 (W2 m ρ c)).trans ?_
  rw [w2_arg11 m ρ c hR]
theorem w11_v61 : W11 m ρ c (Proc.devRef .tc main_v61)
    = Sage.stack2 (Sage.sumUM (aU m c) (aRu m c) (aRm m c)) (Sage.sumTM (aT m c) (aTt m c) (aTm m c)) := by
  refine (aft1_v61 (W2 m ρ c) (r2_8 m ρ c hR) (r2_11 m ρ c hR)).trans ?_
  rw [w2_arg1 m ρ c hR, w2_arg2 m ρ c hR, w2_arg8 m ρ c hR, w2_arg9 m ρ c hR, w2_arg10 m ρ c hR, w2_arg11 m ρ c hR]
theorem w11_v54 : W11 m ρ c (Proc.devRef .tc main_v54) = SMU0 m c := by
  refine (aft1_v54 (W2 m ρ c) (r2_9 m ρ c hR)).trans ?_
  rw [w2_v2 m ρ c hR, w2_arg8 m ρ c hR, w2_arg9 m ρ c hR]
theorem w11_v58 : W11 m ρ c (Proc.devRef .tc main_v58) = SMT0 m c := by
  refine (aft1_v58 (W2 m ρ c) (r2_10 m ρ c hR)).trans ?_
  rw [w2_v2 m ρ c hR, w2_arg10 m ρ c hR, w2_arg11 m ρ c hR]

theorem w12_v83 : W12 m ρ c (Proc.devRef .tc main_v83) = HM1 m c := by
  refine (W12_arr m ρ c 6).trans ((final1 (V11 m ρ) c).trans ?_)
  show Sage.combine2 (W11 m ρ c (Proc.devRef .tc main_v2)) (W11 m ρ c (Proc.devRef .tc main_v68)) (W11 m ρ c (Proc.devRef .tc main_v75)) (W11 m ρ c (Proc.devRef .tc main_v82)) (W11 m ρ c (Proc.devRef .tc main_v61)) (W11 m ρ c (Proc.devRef .tc main_v40)) = _
  rw [w11_v2 m ρ c hR, w11_v68 m ρ c hR, w11_v75 m ρ c hR, w11_v82 m ρ c hR, w11_v61 m ρ c hR, w11_v40 m ρ c hR]
  exact Sage.combine2_conv (HM0 m c) (aWs m c) (aWn m c) (aBs m c) 0 0 3 (Sage.sumUM (aU m c) (aRu m c) (aRm m c)) (Sage.sumTM (aT m c) (aTt m c) (aTm m c)) (Sage.degM1 (aRm m c)) (Sage.degM2 (aTm m c))

theorem w12_v54 : W12 m ρ c (Proc.devRef .tc main_v54) = SMU0 m c :=
  (W12_of_ne m ρ c main_v54 (by decide)).trans (w11_v54 m ρ c hR)
theorem w12_v58 : W12 m ρ c (Proc.devRef .tc main_v58) = SMT0 m c :=
  (W12_of_ne m ρ c main_v58 (by decide)).trans (w11_v58 m ρ c hR)
theorem w12_v41 : W12 m ρ c (Proc.devRef .tc main_v41) = RU m c :=
  (W12_of_ne m ρ c main_v41 (by decide)).trans (w11_v41 m ρ c hR)
theorem w12_v42 : W12 m ρ c (Proc.devRef .tc main_v42) = RT m c :=
  (W12_of_ne m ρ c main_v42 (by decide)).trans (w11_v42 m ρ c hR)
theorem w12_v3 : W12 m ρ c (Proc.devRef .tc main_v3) = WSs m c :=
  (W12_of_ne m ρ c main_v3 (by decide)).trans (w11_v3 m ρ c hR)
theorem w12_v4 : W12 m ρ c (Proc.devRef .tc main_v4) = WNs m c :=
  (W12_of_ne m ρ c main_v4 (by decide)).trans (w11_v4 m ρ c hR)
theorem w12_v5 : W12 m ρ c (Proc.devRef .tc main_v5) = BSr m c :=
  (W12_of_ne m ρ c main_v5 (by decide)).trans (w11_v5 m ρ c hR)
theorem w12_arg1 : W12 m ρ c (Proc.devRef .tc main_arg1) = aU m c :=
  (W12_of_ne m ρ c main_arg1 (by decide)).trans (w11_arg1 m ρ c hR)
theorem w12_arg2 : W12 m ρ c (Proc.devRef .tc main_arg2) = aT m c :=
  (W12_of_ne m ρ c main_arg2 (by decide)).trans (w11_arg2 m ρ c hR)
theorem w12_arg8 : W12 m ρ c (Proc.devRef .tc main_arg8) = aRu m c :=
  (W12_of_ne m ρ c main_arg8 (by decide)).trans (w11_arg8 m ρ c hR)
theorem w12_arg9 : W12 m ρ c (Proc.devRef .tc main_arg9) = aRm m c :=
  (W12_of_ne m ρ c main_arg9 (by decide)).trans (w11_arg9 m ρ c hR)
theorem w12_arg10 : W12 m ρ c (Proc.devRef .tc main_arg10) = aTm m c :=
  (W12_of_ne m ρ c main_arg10 (by decide)).trans (w11_arg10 m ρ c hR)
theorem w12_arg11 : W12 m ρ c (Proc.devRef .tc main_arg11) = aTt m c :=
  (W12_of_ne m ρ c main_arg11 (by decide)).trans (w11_arg11 m ρ c hR)
theorem w12_v40 : W12 m ρ c (Proc.devRef .tc main_v40) = RM m c :=
  (W12_arr m ρ c 5).trans ((((dat1 (V11 m ρ) c).arrAt_in 5 rfl _).trans (A_eq1 (V11 m ρ) c 5)).trans (w11_v40 m ρ c hR))

end Stages

end Cert.KernelIdeal.Chain

end
-- ==== Proof.KRegOne.lean ====
-- The one-edge-type body's stored value at row r, channel o: two products over the 128 contracted channels, the bias row, the reciprocal column.
import proofs.«428332_j82145544503775_2_alg».proof.Proof.KComb

noncomputable section

open scoped BigOperators

namespace Cert.KernelIdeal.Reg.One

open Cert.KernelIdeal Cert.KernelIdeal.Gen Cert.KernelIdeal.Reg Idealize.ShloMosaic Idealize.ShloMosaic.ValueIdx

theorem zero_word_add (y : EReal) : (FloatOps.ofBits .f32 0x00000000#32 : Ideal .f32) + y = y := by
  show Ideal.ofBits .f32 0x00000000#32 + y = y
  rw [Ideal.ofBits_zero_f32, zero_add]

theorem mm4000 (A : FVec Ideal S4000x128 .f32) (B : FVec Ideal S128x128 .f32) (r : Fin 4000) (o : Fin 128) :
    FloatOps.matmul dot_S4000x128_S128x128_S4000x128_1_0_0_1_n_n (some .fp32) A B (constant S4000x128 .f32 0x00000000#32) (ix2 r o)
      = ∑ j : Fin 128, A (ix2 r j) * B (ix2 j o) :=
  matmul_zero_ix2 dot_S4000x128_S128x128_S4000x128_1_0_0_1_n_n_wf (some .fp32) A B r o

theorem mm2000 (A : FVec Ideal S2000x128 .f32) (B : FVec Ideal S128x128 .f32) (r : Fin 2000) (o : Fin 128) :
    FloatOps.matmul dot_S2000x128_S128x128_S2000x128_1_0_0_1_n_n (some .fp32) A B (constant S2000x128 .f32 0x00000000#32) (ix2 r o)
      = ∑ j : Fin 128, A (ix2 r j) * B (ix2 j o) :=
  matmul_zero_ix2 dot_S2000x128_S128x128_S2000x128_1_0_0_1_n_n_wf (some .fp32) A B r o

theorem pay2_apply (x0 : Vec Ideal S4000x128 .f32) (x1 : Vec Ideal S1x128x128 .f32) (x2 : Vec Ideal S1x1x128 .f32)
    (x3 : Vec Ideal S1x128x128 .f32) (x4 : Vec Ideal S1x4000x128 .f32) (x5 : Vec Ideal S1x4000x1 .f32)
    (r : Fin 4000) (o : Fin 128) :
    k2_pay1 (F := Ideal) x0 x1 x2 x3 x4 x5 (ix2 r o)
      = Sage.leaky ((∑ j : Fin 128, x0 (ix2 r j) * x1 (ix3 (0 : Fin 1) j o)) + x2 (ix3 (0 : Fin 1) (0 : Fin 1) o)
          + ∑ j : Fin 128, (x4 (ix3 (0 : Fin 1) r j) * x5 (ix3 (0 : Fin 1) r (0 : Fin 1))) * x3 (ix3 (0 : Fin 1) j o)) := by
  unfold k2_pay1
  simp only [select_apply, cmpf_apply, mulf_apply, addf_apply, broadcast_apply, matmul]
  rw [mm4000, mm4000]
  simp only [mulf_apply, zero_word_add, rowCopy_ix2, colCopy_ix2, dropUnit_ix2]
  rfl

theorem pay5_apply (x0 : Vec Ideal S4000x128 .f32) (x1 : Vec Ideal S1x128x128 .f32) (x2 : Vec Ideal S1x1x128 .f32)
    (x3 : Vec Ideal S1x128x128 .f32) (x4 : Vec Ideal S1x4000x128 .f32) (x5 : Vec Ideal S1x4000x1 .f32)
    (r : Fin 4000) (o : Fin 128) :
    k5_pay1 (F := Ideal) x0 x1 x2 x3 x4 x5 (ix2 r o)
      = Sage.leaky ((∑ j : Fin 128, x0 (ix2 r j) * x1 (ix3 (0 : Fin 1) j o)) + x2 (ix3 (0 : Fin 1) (0 : Fin 1) o)
          + ∑ j : Fin 128, (x4 (ix3 (0 : Fin 1) r j) * x5 (ix3 (0 : Fin 1) r (0 : Fin 1))) * x3 (ix3 (0 : Fin 1) j o)) := by
  unfold k5_pay1
  simp only [select_apply, cmpf_apply, mulf_apply, addf_apply, broadcast_apply, matmul, shapeCast_self]
  rw [mm4000, mm4000]
  simp only [mulf_apply, zero_word_add, rowCopy_ix2, colCopy_ix2, dropUnit_ix2]
  rfl

theorem pay3_apply (x0 : Vec Ideal S2000x128 .f32) (x1 : Vec Ideal S1x128x128 .f32) (x2 : Vec Ideal S1x1x128 .f32)
    (x3 : Vec Ideal S1x128x128 .f32) (x4 : Vec Ideal S1x2000x128 .f32) (x5 : Vec Ideal S1x2000x1 .f32)
    (r : Fin 2000) (o : Fin 128) :
    k3_pay1 (F := Ideal) x0 x1 x2 x3 x4 x5 (ix2 r o)
      = Sage.leaky ((∑ j : Fin 128, x0 (ix2 r j) * x1 (ix3 (0 : Fin 1) j o)) + x2 (ix3 (0 : Fin 1) (0 : Fin 1) o)
          + ∑ j : Fin 128, (x4 (ix3 (0 : Fin 1) r j) * x5 (ix3 (0 : Fin 1) r (0 : Fin 1))) * x3 (ix3 (0 : Fin 1) j o)) := by
  unfold k3_pay1
  simp only [select_apply, cmpf_apply, mulf_apply, addf_apply, broadcast_apply, matmul]
  rw [mm2000, mm2000]
  simp only [mulf_apply, zero_word_add, rowCopy_ix2, colCopy_ix2, dropUnit_ix2]
  rfl

end Cert.KernelIdeal.Reg.One

end
-- ==== Proof.KReg2.lean ====
-- The users' combine of the first layer: block t of the result is rows 4000·t … of the one-edge-type combine of the six arrays.
import proofs.«428332_j82145544503775_2_alg».proof.Proof.Gen.KernelIdeal.Frame
import proofs.«428332_j82145544503775_2_alg».proof.Proof.Spec
import proofs.«428332_j82145544503775_2_alg».proof.Proof.KRegOne
import Idealize.ShloMosaic.Lib.Pipeline.Value
import Idealize.ShloMosaic.Lib.ValueIdx
import Idealize.ShloMosaic.PureOps.Ideal.Laws

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

namespace Users2

theorem zeros2 : (![0, 0] : Fin 2 → Nat) = fun _ => 0 := funext fun a => by fin_cases a <;> rfl
theorem zeros3 : (![0, 0, 0] : Fin 3 → Nat) = fun _ => 0 := funext fun a => by fin_cases a <;> rfl

theorem blockNumbers2 : ∀ t : Fin cfg2.N,
    win2_0.index t (0 : Fin 2) = t.val
    ∧ win2_0.index t (1 : Fin 2) = 0
    ∧ win2_1.index t (0 : Fin 3) = 0
    ∧ win2_1.index t (1 : Fin 3) = 0
    ∧ win2_1.index t (2 : Fin 3) = 0
    ∧ win2_2.index t (0 : Fin 3) = 0
    ∧ win2_2.index t (1 : Fin 3) = 0
    ∧ win2_2.index t (2 : Fin 3) = 0
    ∧ win2_3.index t (0 : Fin 3) = 0
    ∧ win2_3.index t (1 : Fin 3) = 0
    ∧ win2_3.index t (2 : Fin 3) = 0
    ∧ win2_4.index t (0 : Fin 3) = 0
    ∧ win2_4.index t (1 : Fin 3) = t.val
    ∧ win2_4.index t (2 : Fin 3) = 0
    ∧ win2_5.index t (0 : Fin 3) = 0
    ∧ win2_5.index t (1 : Fin 3) = t.val
    ∧ win2_5.index t (2 : Fin 3) = 0
    ∧ win2_6.index t (0 : Fin 2) = t.val
    ∧ win2_6.index t (1 : Fin 2) = 0 :=
  (by decide +kernel : ∀ t : Fin grid2.N, _)

def row (t : Fin cfg2.N) (r : Fin 4000) : Fin 200000 :=
  ⟨t.val * 4000 + r.val, by have h : t.val < 50 := t.isLt.trans_eq (show cfg2.N = 50 from N_2); have := r.isLt; omega⟩

section Blocks
variable (V : (c : Dev nD) → (b : Ref sig .tc) → Buf (Elt Ideal) ((c : Thread nD τ).loc b))

theorem blk0 (c : Dev nD) (t : Fin cfg2.N) (r : Fin 4000) (j : Fin 128) :
    iblk2 V c 0 t (ix2 r j) = V c (Pipeline.arrRef spec2 0) (ix2 (row t r) j) := by
  have f := blockNumbers2 t
  show V c (Pipeline.arrRef spec2 0) (((cfg2.win 0).blk t).view.emb (ix2 r j)) = _
  congr 1
  funext a; apply Fin.ext
  match a with
  | ⟨0, _⟩ => show win2_0.index t (0 : Fin 2) * 4000 + 1 * r.val = t.val * 4000 + r.val; omega
  | ⟨1, _⟩ => show win2_0.index t (1 : Fin 2) * 128 + 1 * j.val = j.val; omega

theorem blk1 (c : Dev nD) (t : Fin cfg2.N) (j o : Fin 128) :
    iblk2 V c 1 t (ix3 (0 : Fin 1) j o) = V c (Pipeline.arrRef spec2 1) (ix3 (0 : Fin 1) j o) := by
  have f := blockNumbers2 t
  show V c (Pipeline.arrRef spec2 1) (((cfg2.win 1).blk t).view.emb (ix3 (0 : Fin 1) j o)) = _
  congr 1
  funext a; apply Fin.ext
  match a with
  | ⟨0, _⟩ => show win2_1.index t (0 : Fin 3) * 1 + 1 * 0 = 0; omega
  | ⟨1, _⟩ => show win2_1.index t (1 : Fin 3) * 128 + 1 * j.val = j.val; omega
  | ⟨2, _⟩ => show win2_1.index t (2 : Fin 3) * 128 + 1 * o.val = o.val; omega

theorem blk2 (c : Dev nD) (t : Fin cfg2.N) (o : Fin 128) :
    iblk2 V c 2 t (ix3 (0 : Fin 1) (0 : Fin 1) o) = V c (Pipeline.arrRef spec2 2) (ix3 (0 : Fin 1) (0 : Fin 1) o) := by
  have f := blockNumbers2 t
  show V c (Pipeline.arrRef spec2 2) (((cfg2.win 2).blk t).view.emb (ix3 (0 : Fin 1) (0 : Fin 1) o)) = _
  congr 1
  funext a; apply Fin.ext
  match a with
  | ⟨0, _⟩ => show win2_2.index t (0 : Fin 3) * 1 + 1 * 0 = 0; omega
  | ⟨1, _⟩ => show win2_2.index t (1 : Fin 3) * 1 + 1 * 0 = 0; omega
  | ⟨2, _⟩ => show win2_2.index t (2 : Fin 3) * 128 + 1 * o.val = o.val; omega

theorem blk3 (c : Dev nD) (t : Fin cfg2.N) (j o : Fin 128) :
    iblk2 V c 3 t (ix3 (0 : Fin 1) j o) = V c (Pipeline.arrRef spec2 3) (ix3 (0 : Fin 1) j o) := by
  have f := blockNumbers2 t
  show V c (Pipeline.arrRef spec2 3) (((cfg2.win 3).blk t).view.emb (ix3 (0 : Fin 1) j o)) = _
  congr 1
  funext a; apply Fin.ext
  match a with
  | ⟨0, _⟩ => show win2_3.index t (0 : Fin 3) * 1 + 1 * 0 = 0; omega
  | ⟨1, _⟩ => show win2_3.index t (1 : Fin 3) * 128 + 1 * j.val = j.val; omega
  | ⟨2, _⟩ => show win2_3.index t (2 : Fin 3) * 128 + 1 * o.val = o.val; omega

theorem blk4 (c : Dev nD) (t : Fin cfg2.N) (r : Fin 4000) (j : Fin 128) :
    iblk2 V c 4 t (ix3 (0 : Fin 1) r j) = V c (Pipeline.arrRef spec2 4) (ix3 (0 : Fin 1) (row t r) j) := by
  have f := blockNumbers2 t
  show V c (Pipeline.arrRef spec2 4) (((cfg2.win 4).blk t).view.emb (ix3 (0 : Fin 1) r j)) = _
  congr 1
  funext a; apply Fin.ext
  match a with
  | ⟨0, _⟩ => show win2_4.index t (0 : Fin 3) * 1 + 1 * 0 = 0; omega
  | ⟨1, _⟩ => show win2_4.index t (1 : Fin 3) * 4000 + 1 * r.val = t.val * 4000 + r.val; omega
  | ⟨2, _⟩ => show win2_4.index t (2 : Fin 3) * 128 + 1 * j.val = j.val; omega

theorem blk5 (c : Dev nD) (t : Fin cfg2.N) (r : Fin 4000) :
    iblk2 V c 5 t (ix3 (0 : Fin 1) r (0 : Fin 1)) = V c (Pipeline.arrRef spec2 5) (ix3 (0 : Fin 1) (row t r) (0 : Fin 1)) := by
  have f := blockNumbers2 t
  show V c (Pipeline.arrRef spec2 5) (((cfg2.win 5).blk t).view.emb (ix3 (0 : Fin 1) r (0 : Fin 1))) = _
  congr 1
  funext a; apply Fin.ext
  match a with
  | ⟨0, _⟩ => show win2_5.index t (0 : Fin 3) * 1 + 1 * 0 = 0; omega
  | ⟨1, _⟩ => show win2_5.index t (1 : Fin 3) * 4000 + 1 * r.val = t.val * 4000 + r.val; omega
  | ⟨2, _⟩ => show win2_5.index t (2 : Fin 3) * 1 + 1 * 0 = 0; omega

theorem emb6 (t : Fin cfg2.N) (r : Fin 4000) (o : Fin 128) :
    ((cfg2.win 6).blk t).view.emb (ix2 r o) = ix2 (row t r) o := by
  have f := blockNumbers2 t
  funext a; apply Fin.ext
  match a with
  | ⟨0, _⟩ => show win2_6.index t (0 : Fin 2) * 4000 + 1 * r.val = t.val * 4000 + r.val; omega
  | ⟨1, _⟩ => show win2_6.index t (1 : Fin 2) * 128 + 1 * o.val = o.val; omega

set_option maxHeartbeats 1600000 in
theorem flushed2_eq (c : Dev nD) (t : Fin cfg2.N) :
    (dat2 V c).flushed 6 t = ((cfg2.win 6).blk t).view.read (Elt Ideal)
      (Sage.combine1 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero zeros2]
  simp only [View.ld_unit_zero (S := S4000x128) zeros2, View.ld_unit_zero (S := S1x128x128) zeros3,
    View.ld_unit_zero (S := S1x1x128) zeros3, View.ld_unit_zero (S := S1x4000x128) zeros3,
    View.ld_unit_zero (S := S1x4000x1) zeros3]
  funext j
  obtain ⟨r, o, rfl⟩ : ∃ (r : Fin 4000) (o : Fin 128), j = ix2 r o := ⟨j 0, j 1, eq_ix2 j⟩
  show k2_pay1 _ _ _ _ _ _ (ix2 r o)
    = Sage.combine1 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb (ix2 r o))
  rw [One.pay2_apply, emb6 t r o, blk2 V c t o, blk5 V c t r]
  simp only [blk0 V c t, blk1 V c t, blk3 V c t, blk4 V c t]
  unfold Sage.combine1
  rfl

theorem mem_block2 (t : Fin cfg2.N) (i : S200000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v94).slice (win2_6.rect t)).set ↔ _
  rw [View.set_slice_whole, Rect.mem_set_unit]
  exact Iff.rfl

theorem cover2 (i : S200000x128.Idx) : ∃ t : Fin cfg2.N, (cfg2.win 6).flush t = true ∧ i ∈ ((cfg2.win 6).blk t).view.set := by
  have hi0 : (i 0).val < 200000 := (i 0).isLt
  have hi1 : (i 1).val < 128 := (i 1).isLt
  obtain ⟨t, ht⟩ : ∃ t : Fin cfg2.N, t.val = (i 0).val / 4000 :=
    ⟨⟨(i 0).val / 4000, by rw [show cfg2.N = 50 from N_2]; omega⟩, rfl⟩
  have f := blockNumbers2 t
  refine ⟨t, flush2_6 t, ?_⟩
  rw [mem_block2]
  intro a
  match a with
  | ⟨0, _⟩ =>
    show win2_6.index t (0 : Fin 2) * 4000 ≤ (i 0).val ∧ (i 0).val < win2_6.index t (0 : Fin 2) * 4000 + 4000
    omega
  | ⟨1, _⟩ =>
    show win2_6.index t (1 : Fin 2) * 128 ≤ (i 1).val ∧ (i 1).val < win2_6.index t (1 : Fin 2) * 128 + 128
    omega

end Blocks

end Users2

theorem final2 (V : (c : Dev nD) → (b : Ref sig .tc) → Buf (Elt Ideal) ((c : Thread nD τ).loc b)) (c : Dev nD) :
    (dat2 V c).arrAt 6 cfg2.N
      = Sage.combine1 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 _ (fun t _ => Users2.flushed2_eq V c t) Users2.cover2

end Cert.KernelIdeal.Reg

end
-- ==== Proof.KReg3.lean ====
-- The tags' combine of the first layer: block t of the result is rows 2000·t … of the one-edge-type combine of the six arrays.
import proofs.«428332_j82145544503775_2_alg».proof.Proof.Gen.KernelIdeal.Frame
import proofs.«428332_j82145544503775_2_alg».proof.Proof.Spec
import proofs.«428332_j82145544503775_2_alg».proof.Proof.KRegOne
import Idealize.ShloMosaic.Lib.Pipeline.Value
import Idealize.ShloMosaic.Lib.ValueIdx
import Idealize.ShloMosaic.PureOps.Ideal.Laws

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

namespace Tags

theorem zeros2 : (![0, 0] : Fin 2 → Nat) = fun _ => 0 := funext fun a => by fin_cases a <;> rfl
theorem zeros3 : (![0, 0, 0] : Fin 3 → Nat) = fun _ => 0 := funext fun a => by fin_cases a <;> rfl

theorem blockNumbers3 : ∀ t : Fin cfg3.N,
    win3_0.index t (0 : Fin 2) = t.val
    ∧ win3_0.index t (1 : Fin 2) = 0
    ∧ win3_1.index t (0 : Fin 3) = 0
    ∧ win3_1.index t (1 : Fin 3) = 0
    ∧ win3_1.index t (2 : Fin 3) = 0
    ∧ win3_2.index t (0 : Fin 3) = 0
    ∧ win3_2.index t (1 : Fin 3) = 0
    ∧ win3_2.index t (2 : Fin 3) = 0
    ∧ win3_3.index t (0 : Fin 3) = 0
    ∧ win3_3.index t (1 : Fin 3) = 0
    ∧ win3_3.index t (2 : Fin 3) = 0
    ∧ win3_4.index t (0 : Fin 3) = 0
    ∧ win3_4.index t (1 : Fin 3) = t.val
    ∧ win3_4.index t (2 : Fin 3) = 0
    ∧ win3_5.index t (0 : Fin 3) = 0
    ∧ win3_5.index t (1 : Fin 3) = t.val
    ∧ win3_5.index t (2 : Fin 3) = 0
    ∧ win3_6.index t (0 : Fin 2) = t.val
    ∧ win3_6.index t (1 : Fin 2) = 0 :=
  (by decide +kernel : ∀ t : Fin grid3.N, _)

def row (t : Fin cfg3.N) (r : Fin 2000) : Fin 20000 :=
  ⟨t.val * 2000 + r.val, by have h : t.val < 10 := t.isLt.trans_eq (show cfg3.N = 10 from N_3); have := r.isLt; omega⟩

section Blocks
variable (V : (c : Dev nD) → (b : Ref sig .tc) → Buf (Elt Ideal) ((c : Thread nD τ).loc b))

theorem blk0 (c : Dev nD) (t : Fin cfg3.N) (r : Fin 2000) (j : Fin 128) :
    iblk3 V c 0 t (ix2 r j) = V c (Pipeline.arrRef spec3 0) (ix2 (row t r) j) := by
  have f := blockNumbers3 t
  show V c (Pipeline.arrRef spec3 0) (((cfg3.win 0).blk t).view.emb (ix2 r j)) = _
  congr 1
  funext a; apply Fin.ext
  match a with
  | ⟨0, _⟩ => show win3_0.index t (0 : Fin 2) * 2000 + 1 * r.val = t.val * 2000 + r.val; omega
  | ⟨1, _⟩ => show win3_0.index t (1 : Fin 2) * 128 + 1 * j.val = j.val; omega

theorem blk1 (c : Dev nD) (t : Fin cfg3.N) (j o : Fin 128) :
    iblk3 V c 1 t (ix3 (0 : Fin 1) j o) = V c (Pipeline.arrRef spec3 1) (ix3 (0 : Fin 1) j o) := by
  have f := blockNumbers3 t
  show V c (Pipeline.arrRef spec3 1) (((cfg3.win 1).blk t).view.emb (ix3 (0 : Fin 1) j o)) = _
  congr 1
  funext a; apply Fin.ext
  match a with
  | ⟨0, _⟩ => show win3_1.index t (0 : Fin 3) * 1 + 1 * 0 = 0; omega
  | ⟨1, _⟩ => show win3_1.index t (1 : Fin 3) * 128 + 1 * j.val = j.val; omega
  | ⟨2, _⟩ => show win3_1.index t (2 : Fin 3) * 128 + 1 * o.val = o.val; omega

theorem blk2 (c : Dev nD) (t : Fin cfg3.N) (o : Fin 128) :
    iblk3 V c 2 t (ix3 (0 : Fin 1) (0 : Fin 1) o) = V c (Pipeline.arrRef spec3 2) (ix3 (0 : Fin 1) (0 : Fin 1) o) := by
  have f := blockNumbers3 t
  show V c (Pipeline.arrRef spec3 2) (((cfg3.win 2).blk t).view.emb (ix3 (0 : Fin 1) (0 : Fin 1) o)) = _
  congr 1
  funext a; apply Fin.ext
  match a with
  | ⟨0, _⟩ => show win3_2.index t (0 : Fin 3) * 1 + 1 * 0 = 0; omega
  | ⟨1, _⟩ => show win3_2.index t (1 : Fin 3) * 1 + 1 * 0 = 0; omega
  | ⟨2, _⟩ => show win3_2.index t (2 : Fin 3) * 128 + 1 * o.val = o.val; omega

theorem blk3 (c : Dev nD) (t : Fin cfg3.N) (j o : Fin 128) :
    iblk3 V c 3 t (ix3 (0 : Fin 1) j o) = V c (Pipeline.arrRef spec3 3) (ix3 (0 : Fin 1) j o) := by
  have f := blockNumbers3 t
  show V c (Pipeline.arrRef spec3 3) (((cfg3.win 3).blk t).view.emb (ix3 (0 : Fin 1) j o)) = _
  congr 1
  funext a; apply Fin.ext
  match a with
  | ⟨0, _⟩ => show win3_3.index t (0 : Fin 3) * 1 + 1 * 0 = 0; omega
  | ⟨1, _⟩ => show win3_3.index t (1 : Fin 3) * 128 + 1 * j.val = j.val; omega
  | ⟨2, _⟩ => show win3_3.index t (2 : Fin 3) * 128 + 1 * o.val = o.val; omega

theorem blk4 (c : Dev nD) (t : Fin cfg3.N) (r : Fin 2000) (j : Fin 128) :
    iblk3 V c 4 t (ix3 (0 : Fin 1) r j) = V c (Pipeline.arrRef spec3 4) (ix3 (0 : Fin 1) (row t r) j) := by
  have f := blockNumbers3 t
  show V c (Pipeline.arrRef spec3 4) (((cfg3.win 4).blk t).view.emb (ix3 (0 : Fin 1) r j)) = _
  congr 1
  funext a; apply Fin.ext
  match a with
  | ⟨0, _⟩ => show win3_4.index t (0 : Fin 3) * 1 + 1 * 0 = 0; omega
  | ⟨1, _⟩ => show win3_4.index t (1 : Fin 3) * 2000 + 1 * r.val = t.val * 2000 + r.val; omega
  | ⟨2, _⟩ => show win3_4.index t (2 : Fin 3) * 128 + 1 * j.val = j.val; omega

theorem blk5 (c : Dev nD) (t : Fin cfg3.N) (r : Fin 2000) :
    iblk3 V c 5 t (ix3 (0 : Fin 1) r (0 : Fin 1)) = V c (Pipeline.arrRef spec3 5) (ix3 (0 : Fin 1) (row t r) (0 : Fin 1)) := by
  have f := blockNumbers3 t
  show V c (Pipeline.arrRef spec3 5) (((cfg3.win 5).blk t).view.emb (ix3 (0 : Fin 1) r (0 : Fin 1))) = _
  congr 1
  funext a; apply Fin.ext
  match a with
  | ⟨0, _⟩ => show win3_5.index t (0 : Fin 3) * 1 + 1 * 0 = 0; omega
  | ⟨1, _⟩ => show win3_5.index t (1 : Fin 3) * 2000 + 1 * r.val = t.val * 2000 + r.val; omega
  | ⟨2, _⟩ => show win3_5.index t (2 : Fin 3) * 1 + 1 * 0 = 0; omega

theorem emb6 (t : Fin cfg3.N) (r : Fin 2000) (o : Fin 128) :
    ((cfg3.win 6).blk t).view.emb (ix2 r o) = ix2 (row t r) o := by
  have f := blockNumbers3 t
  funext a; apply Fin.ext
  match a with
  | ⟨0, _⟩ => show win3_6.index t (0 : Fin 2) * 2000 + 1 * r.val = t.val * 2000 + r.val; omega
  | ⟨1, _⟩ => show win3_6.index t (1 : Fin 2) * 128 + 1 * o.val = o.val; omega

set_option maxHeartbeats 1600000 in
theorem flushed3_eq (c : Dev nD) (t : Fin cfg3.N) :
    (dat3 V c).flushed 6 t = ((cfg3.win 6).blk t).view.read (Elt Ideal)
      (Sage.combine1 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zeros2]
  simp only [View.ld_unit_zero (S := S2000x128) zeros2, View.ld_unit_zero (S := S1x128x128) zeros3,
    View.ld_unit_zero (S := S1x1x128) zeros3, View.ld_unit_zero (S := S1x2000x128) zeros3,
    View.ld_unit_zero (S := S1x2000x1) zeros3]
  funext j
  obtain ⟨r, o, rfl⟩ : ∃ (r : Fin 2000) (o : Fin 128), j = ix2 r o := ⟨j 0, j 1, eq_ix2 j⟩
  show k3_pay1 _ _ _ _ _ _ (ix2 r o)
    = Sage.combine1 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb (ix2 r o))
  rw [One.pay3_apply, emb6 t r o, blk2 V c t o, blk5 V c t r]
  simp only [blk0 V c t, blk1 V c t, blk3 V c t, blk4 V c t]
  unfold Sage.combine1
  rfl

theorem mem_block3 (t : Fin cfg3.N) (i : S20000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v105).slice (win3_6.rect t)).set ↔ _
  rw [View.set_slice_whole, Rect.mem_set_unit]
  exact Iff.rfl

theorem cover3 (i : S20000x128.Idx) : ∃ t : Fin cfg3.N, (cfg3.win 6).flush t = true ∧ i ∈ ((cfg3.win 6).blk t).view.set := by
  have hi0 : (i 0).val < 20000 := (i 0).isLt
  have hi1 : (i 1).val < 128 := (i 1).isLt
  obtain ⟨t, ht⟩ : ∃ t : Fin cfg3.N, t.val = (i 0).val / 2000 :=
    ⟨⟨(i 0).val / 2000, by rw [show cfg3.N = 10 from N_3]; omega⟩, rfl⟩
  have f := blockNumbers3 t
  refine ⟨t, flush3_6 t, ?_⟩
  rw [mem_block3]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 128 ≤ (i 1).val ∧ (i 1).val < win3_6.index t (1 : Fin 2) * 128 + 128
    omega

end Blocks

end Tags

theorem final3 (V : (c : Dev nD) → (b : Ref sig .tc) → Buf (Elt Ideal) ((c : Thread nD τ).loc b)) (c : Dev nD) :
    (dat3 V c).arrAt 6 cfg3.N
      = Sage.combine1 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => Tags.flushed3_eq V c t) Tags.cover3

end Cert.KernelIdeal.Reg

end
-- ==== Proof.KChainB.lean ====
-- The users' and the tags' first-layer updates: every array the later stages read, as a function of the launch arrays.
import proofs.«428332_j82145544503775_2_alg».proof.Proof.KChainA
import proofs.«428332_j82145544503775_2_alg».proof.Proof.KReg2
import proofs.«428332_j82145544503775_2_alg».proof.Proof.KReg3

set_option maxRecDepth 16384

noncomputable section

namespace Cert.KernelIdeal.Chain

open Cert.KernelIdeal Cert.KernelIdeal.Gen Cert.KernelIdeal.Host Cert.KernelIdeal.Reg
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

section Stages
variable (hR : Ranges m c)
include hR

theorem w13_v84 : W13 m ρ c (Proc.devRef .tc main_v84) = Sage.stack1 (SMU0 m c) := by
  refine (hostOps2_v84 (W12 m ρ c)).trans ?_
  rw [w12_v54 m ρ c hR]
theorem w13_v87 : W13 m ρ c (Proc.devRef .tc main_v87) = Sage.stackW1 (aWs m c) 0 1 := by
  refine (hostOps2_v87 (W12 m ρ c)).trans ?_
  rw [w12_v3 m ρ c hR]
  exact Sage.stackW1_of_swapped (aWs m c) 0 1
theorem w13_v90 : W13 m ρ c (Proc.devRef .tc main_v90) = Sage.stackB1 (aBs m c) 0 1 := by
  refine (hostOps2_v90 (W12 m ρ c)).trans ?_
  rw [w12_v5 m ρ c hR]
  exact Sage.stackB1_of_row (aBs m c) 0 1
theorem w13_v93 : W13 m ρ c (Proc.devRef .tc main_v93) = Sage.stackW1 (aWn m c) 0 1 := by
  refine (hostOps2_v93 (W12 m ρ c)).trans ?_
  rw [w12_v4 m ρ c hR]
  exact Sage.stackW1_of_swapped (aWn m c) 0 1
theorem w13_arg1 : W13 m ρ c (Proc.devRef .tc main_arg1) = aU m c :=
  (keep2 (W12 m ρ c) main_arg1 (by decide)).trans (w12_arg1 m ρ c hR)
theorem w13_v41 : W13 m ρ c (Proc.devRef .tc main_v41) = RU m c :=
  (keep2 (W12 m ρ c) main_v41 (by decide)).trans (w12_v41 m ρ c hR)
theorem w13_v83 : W13 m ρ c (Proc.devRef .tc main_v83) = HM1 m c :=
  (keep2 (W12 m ρ c) main_v83 (by decide)).trans (w12_v83 m ρ c hR)
theorem w13_v58 : W13 m ρ c (Proc.devRef .tc main_v58) = SMT0 m c :=
  (keep2 (W12 m ρ c) main_v58 (by decide)).trans (w12_v58 m ρ c hR)
theorem w13_v42 : W13 m ρ c (Proc.devRef .tc main_v42) = RT m c :=
  (keep2 (W12 m ρ c) main_v42 (by decide)).trans (w12_v42 m ρ c hR)
theorem w13_v3 : W13 m ρ c (Proc.devRef .tc main_v3) = WSs m c :=
  (keep2 (W12 m ρ c) main_v3 (by decide)).trans (w12_v3 m ρ c hR)
theorem w13_v4 : W13 m ρ c (Proc.devRef .tc main_v4) = WNs m c :=
  (keep2 (W12 m ρ c) main_v4 (by decide)).trans (w12_v4 m ρ c hR)
theorem w13_v5 : W13 m ρ c (Proc.devRef .tc main_v5) = BSr m c :=
  (keep2 (W12 m ρ c) main_v5 (by decide)).trans (w12_v5 m ρ c hR)
theorem w13_v40 : W13 m ρ c (Proc.devRef .tc main_v40) = RM m c :=
  (keep2 (W12 m ρ c) main_v40 (by decide)).trans (w12_v40 m ρ c hR)
theorem w13_arg2 : W13 m ρ c (Proc.devRef .tc main_arg2) = aT m c :=
  (keep2 (W12 m ρ c) main_arg2 (by decide)).trans (w12_arg2 m ρ c hR)
theorem w13_arg8 : W13 m ρ c (Proc.devRef .tc main_arg8) = aRu m c :=
  (keep2 (W12 m ρ c) main_arg8 (by decide)).trans (w12_arg8 m ρ c hR)
theorem w13_arg9 : W13 m ρ c (Proc.devRef .tc main_arg9) = aRm m c :=
  (keep2 (W12 m ρ c) main_arg9 (by decide)).trans (w12_arg9 m ρ c hR)
theorem w13_arg10 : W13 m ρ c (Proc.devRef .tc main_arg10) = aTm m c :=
  (keep2 (W12 m ρ c) main_arg10 (by decide)).trans (w12_arg10 m ρ c hR)
theorem w13_arg11 : W13 m ρ c (Proc.devRef .tc main_arg11) = aTt m c :=
  (keep2 (W12 m ρ c) main_arg11 (by decide)).trans (w12_arg11 m ρ c hR)

theorem w14_v94 : W14 m ρ c (Proc.devRef .tc main_v94) = HU1 m c := by
  refine (W14_arr m ρ c 6).trans ((final2 (V13 m ρ) c).trans ?_)
  show Sage.combine1 (W13 m ρ c (Proc.devRef .tc main_arg1)) (W13 m ρ c (Proc.devRef .tc main_v87)) (W13 m ρ c (Proc.devRef .tc main_v90)) (W13 m ρ c (Proc.devRef .tc main_v93)) (W13 m ρ c (Proc.devRef .tc main_v84)) (W13 m ρ c (Proc.devRef .tc main_v41)) = _
  rw [w13_arg1 m ρ c hR, w13_v87 m ρ c hR, w13_v90 m ρ c hR, w13_v93 m ρ c hR, w13_v84 m ρ c hR, w13_v41 m ρ c hR]
  exact Sage.combine1_conv (aU m c) (aWs m c) (aWn m c) (aBs m c) 0 1 (SMU0 m c) (Sage.degU (aRu m c))

theorem w14_v83 : W14 m ρ c (Proc.devRef .tc main_v83) = HM1 m c :=
  (W14_of_ne m ρ c main_v83 (by decide)).trans (w13_v83 m ρ c hR)
theorem w14_v58 : W14 m ρ c (Proc.devRef .tc main_v58) = SMT0 m c :=
  (W14_of_ne m ρ c main_v58 (by decide)).trans (w13_v58 m ρ c hR)
theorem w14_v42 : W14 m ρ c (Proc.devRef .tc main_v42) = RT m c :=
  (W14_of_ne m ρ c main_v42 (by decide)).trans (w13_v42 m ρ c hR)
theorem w14_v3 : W14 m ρ c (Proc.devRef .tc main_v3) = WSs m c :=
  (W14_of_ne m ρ c main_v3 (by decide)).trans (w13_v3 m ρ c hR)
theorem w14_v4 : W14 m ρ c (Proc.devRef .tc main_v4) = WNs m c :=
  (W14_of_ne m ρ c main_v4 (by decide)).trans (w13_v4 m ρ c hR)
theorem w14_v5 : W14 m ρ c (Proc.devRef .tc main_v5) = BSr m c :=
  (W14_of_ne m ρ c main_v5 (by decide)).trans (w13_v5 m ρ c hR)
theorem w14_v40 : W14 m ρ c (Proc.devRef .tc main_v40) = RM m c :=
  (W14_of_ne m ρ c main_v40 (by decide)).trans (w13_v40 m ρ c hR)
theorem w14_arg2 : W14 m ρ c (Proc.devRef .tc main_arg2) = aT m c :=
  (W14_of_ne m ρ c main_arg2 (by decide)).trans (w13_arg2 m ρ c hR)
theorem w14_arg8 : W14 m ρ c (Proc.devRef .tc main_arg8) = aRu m c :=
  (W14_of_ne m ρ c main_arg8 (by decide)).trans (w13_arg8 m ρ c hR)
theorem w14_arg9 : W14 m ρ c (Proc.devRef .tc main_arg9) = aRm m c :=
  (W14_of_ne m ρ c main_arg9 (by decide)).trans (w13_arg9 m ρ c hR)
theorem w14_arg10 : W14 m ρ c (Proc.devRef .tc main_arg10) = aTm m c :=
  (W14_of_ne m ρ c main_arg10 (by decide)).trans (w13_arg10 m ρ c hR)
theorem w14_arg11 : W14 m ρ c (Proc.devRef .tc main_arg11) = aTt m c :=
  (W14_of_ne m ρ c main_arg11 (by decide)).trans (w13_arg11 m ρ c hR)
theorem w14_v41 : W14 m ρ c (Proc.devRef .tc main_v41) = RU m c :=
  (W14_arr m ρ c 5).trans ((((dat2 (V13 m ρ) c).arrAt_in 5 rfl _).trans (A_eq2 (V13 m ρ) c 5)).trans (w13_v41 m ρ c hR))

theorem w15_v95 : W15 m ρ c (Proc.devRef .tc main_v95) = Sage.stack1 (SMT0 m c) := by
  refine (hostOps3_v95 (W14 m ρ c)).trans ?_
  rw [w14_v58 m ρ c hR]
theorem w15_v98 : W15 m ρ c (Proc.devRef .tc main_v98) = Sage.stackW1 (aWs m c) 0 2 := by
  refine (hostOps3_v98 (W14 m ρ c)).trans ?_
  rw [w14_v3 m ρ c hR]
  exact Sage.stackW1_of_swapped (aWs m c) 0 2
theorem w15_v101 : W15 m ρ c (Proc.devRef .tc main_v101) = Sage.stackB1 (aBs m c) 0 2 := by
  refine (hostOps3_v101 (W14 m ρ c)).trans ?_
  rw [w14_v5 m ρ c hR]
  exact Sage.stackB1_of_row (aBs m c) 0 2
theorem w15_v104 : W15 m ρ c (Proc.devRef .tc main_v104) = Sage.stackW1 (aWn m c) 0 2 := by
  refine (hostOps3_v104 (W14 m ρ c)).trans ?_
  rw [w14_v4 m ρ c hR]
  exact Sage.stackW1_of_swapped (aWn m c) 0 2
theorem w15_arg2 : W15 m ρ c (Proc.devRef .tc main_arg2) = aT m c :=
  (keep3 (W14 m ρ c) main_arg2 (by decide)).trans (w14_arg2 m ρ c hR)
theorem w15_v42 : W15 m ρ c (Proc.devRef .tc main_v42) = RT m c :=
  (keep3 (W14 m ρ c) main_v42 (by decide)).trans (w14_v42 m ρ c hR)
theorem w15_v83 : W15 m ρ c (Proc.devRef .tc main_v83) = HM1 m c :=
  (keep3 (W14 m ρ c) main_v83 (by decide)).trans (w14_v83 m ρ c hR)
theorem w15_v94 : W15 m ρ c (Proc.devRef .tc main_v94) = HU1 m c :=
  (keep3 (W14 m ρ c) main_v94 (by decide)).trans (w14_v94 m ρ c hR)
theorem w15_v3 : W15 m ρ c (Proc.devRef .tc main_v3) = WSs m c :=
  (keep3 (W14 m ρ c) main_v3 (by decide)).trans (w14_v3 m ρ c hR)
theorem w15_v4 : W15 m ρ c (Proc.devRef .tc main_v4) = WNs m c :=
  (keep3 (W14 m ρ c) main_v4 (by decide)).trans (w14_v4 m ρ c hR)
theorem w15_v5 : W15 m ρ c (Proc.devRef .tc main_v5) = BSr m c :=
  (keep3 (W14 m ρ c) main_v5 (by decide)).trans (w14_v5 m ρ c hR)
theorem w15_v40 : W15 m ρ c (Proc.devRef .tc main_v40) = RM m c :=
  (keep3 (W14 m ρ c) main_v40 (by decide)).trans (w14_v40 m ρ c hR)
theorem w15_v41 : W15 m ρ c (Proc.devRef .tc main_v41) = RU m c :=
  (keep3 (W14 m ρ c) main_v41 (by decide)).trans (w14_v41 m ρ c hR)
theorem w15_arg8 : W15 m ρ c (Proc.devRef .tc main_arg8) = aRu m c :=
  (keep3 (W14 m ρ c) main_arg8 (by decide)).trans (w14_arg8 m ρ c hR)
theorem w15_arg9 : W15 m ρ c (Proc.devRef .tc main_arg9) = aRm m c :=
  (keep3 (W14 m ρ c) main_arg9 (by decide)).trans (w14_arg9 m ρ c hR)
theorem w15_arg10 : W15 m ρ c (Proc.devRef .tc main_arg10) = aTm m c :=
  (keep3 (W14 m ρ c) main_arg10 (by decide)).trans (w14_arg10 m ρ c hR)
theorem w15_arg11 : W15 m ρ c (Proc.devRef .tc main_arg11) = aTt m c :=
  (keep3 (W14 m ρ c) main_arg11 (by decide)).trans (w14_arg11 m ρ c hR)

theorem w16_v105 : W16 m ρ c (Proc.devRef .tc main_v105) = HT1 m c := by
  refine (W16_arr m ρ c 6).trans ((final3 (V15 m ρ) c).trans ?_)
  show Sage.combine1 (W15 m ρ c (Proc.devRef .tc main_arg2)) (W15 m ρ c (Proc.devRef .tc main_v98)) (W15 m ρ c (Proc.devRef .tc main_v101)) (W15 m ρ c (Proc.devRef .tc main_v104)) (W15 m ρ c (Proc.devRef .tc main_v95)) (W15 m ρ c (Proc.devRef .tc main_v42)) = _
  rw [w15_arg2 m ρ c hR, w15_v98 m ρ c hR, w15_v101 m ρ c hR, w15_v104 m ρ c hR, w15_v95 m ρ c hR, w15_v42 m ρ c hR]
  exact Sage.combine1_conv (aT m c) (aWs m c) (aWn m c) (aBs m c) 0 2 (SMT0 m c) (Sage.degT (aTt m c))

theorem w16_v83 : W16 m ρ c (Proc.devRef .tc main_v83) = HM1 m c :=
  (W16_of_ne m ρ c main_v83 (by decide)).trans (w15_v83 m ρ c hR)
theorem w16_v94 : W16 m ρ c (Proc.devRef .tc main_v94) = HU1 m c :=
  (W16_of_ne m ρ c main_v94 (by decide)).trans (w15_v94 m ρ c hR)
theorem w16_v3 : W16 m ρ c (Proc.devRef .tc main_v3) = WSs m c :=
  (W16_of_ne m ρ c main_v3 (by decide)).trans (w15_v3 m ρ c hR)
theorem w16_v4 : W16 m ρ c (Proc.devRef .tc main_v4) = WNs m c :=
  (W16_of_ne m ρ c main_v4 (by decide)).trans (w15_v4 m ρ c hR)
theorem w16_v5 : W16 m ρ c (Proc.devRef .tc main_v5) = BSr m c :=
  (W16_of_ne m ρ c main_v5 (by decide)).trans (w15_v5 m ρ c hR)
theorem w16_v40 : W16 m ρ c (Proc.devRef .tc main_v40) = RM m c :=
  (W16_of_ne m ρ c main_v40 (by decide)).trans (w15_v40 m ρ c hR)
theorem w16_v41 : W16 m ρ c (Proc.devRef .tc main_v41) = RU m c :=
  (W16_of_ne m ρ c main_v41 (by decide)).trans (w15_v41 m ρ c hR)
theorem w16_arg8 : W16 m ρ c (Proc.devRef .tc main_arg8) = aRu m c :=
  (W16_of_ne m ρ c main_arg8 (by decide)).trans (w15_arg8 m ρ c hR)
theorem w16_arg9 : W16 m ρ c (Proc.devRef .tc main_arg9) = aRm m c :=
  (W16_of_ne m ρ c main_arg9 (by decide)).trans (w15_arg9 m ρ c hR)
theorem w16_arg10 : W16 m ρ c (Proc.devRef .tc main_arg10) = aTm m c :=
  (W16_of_ne m ρ c main_arg10 (by decide)).trans (w15_arg10 m ρ c hR)
theorem w16_arg11 : W16 m ρ c (Proc.devRef .tc main_arg11) = aTt m c :=
  (W16_of_ne m ρ c main_arg11 (by decide)).trans (w15_arg11 m ρ c hR)
theorem r16_8 : Sage.InRange 200000 (W16 m ρ c (Proc.devRef .tc main_arg8)) := by rw [w16_arg8 m ρ c hR]; exact hR.ru
theorem r16_9 : Sage.InRange 50000 (W16 m ρ c (Proc.devRef .tc main_arg9)) := by rw [w16_arg9 m ρ c hR]; exact hR.rm
theorem r16_10 : Sage.InRange 50000 (W16 m ρ c (Proc.devRef .tc main_arg10)) := by rw [w16_arg10 m ρ c hR]; exact hR.tm
theorem r16_11 : Sage.InRange 20000 (W16 m ρ c (Proc.devRef .tc main_arg11)) := by rw [w16_arg11 m ρ c hR]; exact hR.tt

end Stages

end Cert.KernelIdeal.Chain

end
-- ==== Proof.KReg4.lean ====
-- The movies' combine of the second layer, as the first layer's.
import proofs.«428332_j82145544503775_2_alg».proof.Proof.Gen.KernelIdeal.Frame
import proofs.«428332_j82145544503775_2_alg».proof.Proof.Spec
import proofs.«428332_j82145544503775_2_alg».proof.Proof.KComb
import Idealize.ShloMosaic.Lib.Pipeline.Value
import Idealize.ShloMosaic.Lib.ValueIdx
import Idealize.ShloMosaic.PureOps.Ideal.Laws

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

theorem sage2_block4 (h : Vec Ideal S5000x128 .f32)
    (ws0 : Vec Ideal S1x128x128 .f32) (b0 : Vec Ideal S1x1x128 .f32) (wn0 : Vec Ideal S1x128x128 .f32)
    (s0 : Vec Ideal S1x5000x128 .f32) (r0 : Vec Ideal S1x5000x1 .f32)
    (ws1 : Vec Ideal S1x128x128 .f32) (b1 : Vec Ideal S1x1x128 .f32) (wn1 : Vec Ideal S1x128x128 .f32)
    (s1 : Vec Ideal S1x5000x128 .f32) (r1 : Vec Ideal S1x5000x1 .f32) (r : Fin 5000) (o : Fin 128) :
    k4_pay1 (k4_pay2 h) (k4_pay3 h ws0 b0 wn0 s0 r0) (k4_pay4 ws1) (k4_pay5 b1) (k4_pay6 wn1) s1 r1 (ix2 r o)
      = Sage.leaky
        (((∑ j : Fin 128, h (ix2 r j) * ws0 (ix3 (0 : Fin 1) j o)) + b0 (ix3 (0 : Fin 1) (0 : Fin 1) o)
            + ∑ j : Fin 128, (s0 (ix3 (0 : Fin 1) r j) * r0 (ix3 (0 : Fin 1) r (0 : Fin 1))) * wn0 (ix3 (0 : Fin 1) j o))
          + ((∑ j : Fin 128, h (ix2 r j) * ws1 (ix3 (0 : Fin 1) j o)) + b1 (ix3 (0 : Fin 1) (0 : Fin 1) o)
            + ∑ j : Fin 128, (s1 (ix3 (0 : Fin 1) r j) * r1 (ix3 (0 : Fin 1) r (0 : Fin 1))) * wn1 (ix3 (0 : Fin 1) j o))) := by
  unfold k4_pay1
  rw [select_apply, cmpf_apply, mulf_apply, broadcast_apply, broadcast_apply, term_block]
  unfold k4_pay3
  rw [term_block, broadcast_apply]
  unfold k4_pay2 k4_pay4 k4_pay5 k4_pay6
  simp only [shapeCast_self, dropUnit_ix2]
  refine leaky_of_eq ?_
  rw [Ideal.ofBits_def, Ideal.ofBits_zero_f32, zero_add]
  simp only [add_assoc]

section Region4
variable (V : (c : Dev nD) → (b : Ref sig .tc) → Buf (Elt Ideal) ((c : Thread nD τ).loc b))

theorem blockNumbers4 : ∀ t : Fin cfg4.N,
    win4_0.index t (0 : Fin 2) = t.val
    ∧ win4_0.index t (1 : Fin 2) = 0
    ∧ win4_1.index t (0 : Fin 3) = 0
    ∧ win4_1.index t (1 : Fin 3) = 0
    ∧ win4_1.index t (2 : Fin 3) = 0
    ∧ win4_2.index t (0 : Fin 3) = 0
    ∧ win4_2.index t (1 : Fin 3) = 0
    ∧ win4_2.index t (2 : Fin 3) = 0
    ∧ win4_3.index t (0 : Fin 3) = 0
    ∧ win4_3.index t (1 : Fin 3) = 0
    ∧ win4_3.index t (2 : Fin 3) = 0
    ∧ win4_4.index t (0 : Fin 3) = 0
    ∧ win4_4.index t (1 : Fin 3) = t.val
    ∧ win4_4.index t (2 : Fin 3) = 0
    ∧ win4_5.index t (0 : Fin 3) = 0
    ∧ win4_5.index t (1 : Fin 3) = t.val
    ∧ win4_5.index t (2 : Fin 3) = 0
    ∧ win4_6.index t (0 : Fin 2) = t.val
    ∧ win4_6.index t (1 : Fin 2) = 0 :=
  (by decide +kernel : ∀ t : Fin grid4.N, _)

theorem rd4_H (c : Dev nD) (t : Fin cfg4.N) (r : Fin 5000) (j : Fin 128) (e0 : Fin 50000) (he0 : e0.val = t.val * 5000 + r.val) :
    iblk4 V c 0 t (ix2 r j) = V c (Pipeline.arrRef spec4 0) (ix2 e0 j) := by
  have f := blockNumbers4 t
  show V c (Pipeline.arrRef spec4 0) (((cfg4.win 0).blk t).view.emb (ix2 r j)) = _
  exact congrArg (V c (Pipeline.arrRef spec4 0)) (Shape.idx_ext₂
    (show win4_0.index t (0 : Fin 2) * 5000 + 1 * r.val = e0.val by omega)
    (show win4_0.index t (1 : Fin 2) * 128 + 1 * j.val = j.val by omega))

theorem rd4_WSa (c : Dev nD) (t : Fin cfg4.N) (j o : Fin 128) (e1 : Fin 128) (he1 : e1.val = o.val) :
    View.ld (iblk4 V c 1 t) r4_1 (ix3 (0 : Fin 1) j o) = V c (Pipeline.arrRef spec4 1) (ix3 (0 : Fin 2) j e1) := by
  have f := blockNumbers4 t
  show V c (Pipeline.arrRef spec4 1) (((cfg4.win 1).blk t).view.emb (r4_1.emb (ix3 (0 : Fin 1) j o))) = _
  exact congrArg (V c (Pipeline.arrRef spec4 1)) (idx_ext3
    (show win4_1.index t (0 : Fin 3) * 2 + 1 * (0 + 1 * 0) = 0 by omega)
    (show win4_1.index t (1 : Fin 3) * 128 + 1 * (0 + 1 * j.val) = j.val by omega)
    (show win4_1.index t (2 : Fin 3) * 128 + 1 * (0 + 1 * o.val) = e1.val by omega))

theorem rd4_Ba (c : Dev nD) (t : Fin cfg4.N) (o : Fin 128) (e1 : Fin 128) (he1 : e1.val = o.val) :
    View.ld (iblk4 V c 2 t) r4_2 (ix3 (0 : Fin 1) (0 : Fin 1) o) = V c (Pipeline.arrRef spec4 2) (ix3 (0 : Fin 2) (0 : Fin 1) e1) := by
  have f := blockNumbers4 t
  show V c (Pipeline.arrRef spec4 2) (((cfg4.win 2).blk t).view.emb (r4_2.emb (ix3 (0 : Fin 1) (0 : Fin 1) o))) = _
  exact congrArg (V c (Pipeline.arrRef spec4 2)) (idx_ext3
    (show win4_2.index t (0 : Fin 3) * 2 + 1 * (0 + 1 * 0) = 0 by omega)
    (show win4_2.index t (1 : Fin 3) * 1 + 1 * (0 + 1 * 0) = 0 by omega)
    (show win4_2.index t (2 : Fin 3) * 128 + 1 * (0 + 1 * o.val) = e1.val by omega))

theorem rd4_WNa (c : Dev nD) (t : Fin cfg4.N) (j o : Fin 128) (e1 : Fin 128) (he1 : e1.val = o.val) :
    View.ld (iblk4 V c 3 t) r4_1 (ix3 (0 : Fin 1) j o) = V c (Pipeline.arrRef spec4 3) (ix3 (0 : Fin 2) j e1) := by
  have f := blockNumbers4 t
  show V c (Pipeline.arrRef spec4 3) (((cfg4.win 3).blk t).view.emb (r4_1.emb (ix3 (0 : Fin 1) j o))) = _
  exact congrArg (V c (Pipeline.arrRef spec4 3)) (idx_ext3
    (show win4_3.index t (0 : Fin 3) * 2 + 1 * (0 + 1 * 0) = 0 by omega)
    (show win4_3.index t (1 : Fin 3) * 128 + 1 * (0 + 1 * j.val) = j.val by omega)
    (show win4_3.index t (2 : Fin 3) * 128 + 1 * (0 + 1 * o.val) = e1.val by omega))

theorem rd4_Sa (c : Dev nD) (t : Fin cfg4.N) (r : Fin 5000) (j : Fin 128) (e0 : Fin 50000) (he0 : e0.val = t.val * 5000 + r.val) :
    View.ld (iblk4 V c 4 t) r4_3 (ix3 (0 : Fin 1) r j) = V c (Pipeline.arrRef spec4 4) (ix3 (0 : Fin 2) e0 j) := by
  have f := blockNumbers4 t
  show V c (Pipeline.arrRef spec4 4) (((cfg4.win 4).blk t).view.emb (r4_3.emb (ix3 (0 : Fin 1) r j))) = _
  exact congrArg (V c (Pipeline.arrRef spec4 4)) (idx_ext3
    (show win4_4.index t (0 : Fin 3) * 2 + 1 * (0 + 1 * 0) = 0 by omega)
    (show win4_4.index t (1 : Fin 3) * 5000 + 1 * (0 + 1 * r.val) = e0.val by omega)
    (show win4_4.index t (2 : Fin 3) * 128 + 1 * (0 + 1 * j.val) = j.val by omega))

theorem rd4_Ra (c : Dev nD) (t : Fin cfg4.N) (r : Fin 5000) (e0 : Fin 50000) (he0 : e0.val = t.val * 5000 + r.val) :
    View.ld (iblk4 V c 5 t) r4_4 (ix3 (0 : Fin 1) r (0 : Fin 1)) = V c (Pipeline.arrRef spec4 5) (ix3 (0 : Fin 2) e0 (0 : Fin 1)) := by
  have f := blockNumbers4 t
  show V c (Pipeline.arrRef spec4 5) (((cfg4.win 5).blk t).view.emb (r4_4.emb (ix3 (0 : Fin 1) r (0 : Fin 1)))) = _
  exact congrArg (V c (Pipeline.arrRef spec4 5)) (idx_ext3
    (show win4_5.index t (0 : Fin 3) * 2 + 1 * (0 + 1 * 0) = 0 by omega)
    (show win4_5.index t (1 : Fin 3) * 5000 + 1 * (0 + 1 * r.val) = e0.val by omega)
    (show win4_5.index t (2 : Fin 3) * 1 + 1 * (0 + 1 * 0) = 0 by omega))

theorem rd4_WSb (c : Dev nD) (t : Fin cfg4.N) (j o : Fin 128) (e1 : Fin 128) (he1 : e1.val = o.val) :
    View.ld (iblk4 V c 1 t) r4_5 (ix3 (0 : Fin 1) j o) = V c (Pipeline.arrRef spec4 1) (ix3 (1 : Fin 2) j e1) := by
  have f := blockNumbers4 t
  show V c (Pipeline.arrRef spec4 1) (((cfg4.win 1).blk t).view.emb (r4_5.emb (ix3 (0 : Fin 1) j o))) = _
  exact congrArg (V c (Pipeline.arrRef spec4 1)) (idx_ext3
    (show win4_1.index t (0 : Fin 3) * 2 + 1 * (1 + 1 * 0) = 1 by omega)
    (show win4_1.index t (1 : Fin 3) * 128 + 1 * (0 + 1 * j.val) = j.val by omega)
    (show win4_1.index t (2 : Fin 3) * 128 + 1 * (0 + 1 * o.val) = e1.val by omega))

theorem rd4_Bb (c : Dev nD) (t : Fin cfg4.N) (o : Fin 128) (e1 : Fin 128) (he1 : e1.val = o.val) :
    View.ld (iblk4 V c 2 t) r4_6 (ix3 (0 : Fin 1) (0 : Fin 1) o) = V c (Pipeline.arrRef spec4 2) (ix3 (1 : Fin 2) (0 : Fin 1) e1) := by
  have f := blockNumbers4 t
  show V c (Pipeline.arrRef spec4 2) (((cfg4.win 2).blk t).view.emb (r4_6.emb (ix3 (0 : Fin 1) (0 : Fin 1) o))) = _
  exact congrArg (V c (Pipeline.arrRef spec4 2)) (idx_ext3
    (show win4_2.index t (0 : Fin 3) * 2 + 1 * (1 + 1 * 0) = 1 by omega)
    (show win4_2.index t (1 : Fin 3) * 1 + 1 * (0 + 1 * 0) = 0 by omega)
    (show win4_2.index t (2 : Fin 3) * 128 + 1 * (0 + 1 * o.val) = e1.val by omega))

theorem rd4_WNb (c : Dev nD) (t : Fin cfg4.N) (j o : Fin 128) (e1 : Fin 128) (he1 : e1.val = o.val) :
    View.ld (iblk4 V c 3 t) r4_5 (ix3 (0 : Fin 1) j o) = V c (Pipeline.arrRef spec4 3) (ix3 (1 : Fin 2) j e1) := by
  have f := blockNumbers4 t
  show V c (Pipeline.arrRef spec4 3) (((cfg4.win 3).blk t).view.emb (r4_5.emb (ix3 (0 : Fin 1) j o))) = _
  exact congrArg (V c (Pipeline.arrRef spec4 3)) (idx_ext3
    (show win4_3.index t (0 : Fin 3) * 2 + 1 * (1 + 1 * 0) = 1 by omega)
    (show win4_3.index t (1 : Fin 3) * 128 + 1 * (0 + 1 * j.val) = j.val by omega)
    (show win4_3.index t (2 : Fin 3) * 128 + 1 * (0 + 1 * o.val) = e1.val by omega))

theorem rd4_Sb (c : Dev nD) (t : Fin cfg4.N) (r : Fin 5000) (j : Fin 128) (e0 : Fin 50000) (he0 : e0.val = t.val * 5000 + r.val) :
    View.ld (iblk4 V c 4 t) r4_7 (ix3 (0 : Fin 1) r j) = V c (Pipeline.arrRef spec4 4) (ix3 (1 : Fin 2) e0 j) := by
  have f := blockNumbers4 t
  show V c (Pipeline.arrRef spec4 4) (((cfg4.win 4).blk t).view.emb (r4_7.emb (ix3 (0 : Fin 1) r j))) = _
  exact congrArg (V c (Pipeline.arrRef spec4 4)) (idx_ext3
    (show win4_4.index t (0 : Fin 3) * 2 + 1 * (1 + 1 * 0) = 1 by omega)
    (show win4_4.index t (1 : Fin 3) * 5000 + 1 * (0 + 1 * r.val) = e0.val by omega)
    (show win4_4.index t (2 : Fin 3) * 128 + 1 * (0 + 1 * j.val) = j.val by omega))

theorem rd4_Rb (c : Dev nD) (t : Fin cfg4.N) (r : Fin 5000) (e0 : Fin 50000) (he0 : e0.val = t.val * 5000 + r.val) :
    View.ld (iblk4 V c 5 t) r4_8 (ix3 (0 : Fin 1) r (0 : Fin 1)) = V c (Pipeline.arrRef spec4 5) (ix3 (1 : Fin 2) e0 (0 : Fin 1)) := by
  have f := blockNumbers4 t
  show V c (Pipeline.arrRef spec4 5) (((cfg4.win 5).blk t).view.emb (r4_8.emb (ix3 (0 : Fin 1) r (0 : Fin 1)))) = _
  exact congrArg (V c (Pipeline.arrRef spec4 5)) (idx_ext3
    (show win4_5.index t (0 : Fin 3) * 2 + 1 * (1 + 1 * 0) = 1 by omega)
    (show win4_5.index t (1 : Fin 3) * 5000 + 1 * (0 + 1 * r.val) = e0.val by omega)
    (show win4_5.index t (2 : Fin 3) * 1 + 1 * (0 + 1 * 0) = 0 by omega))

set_option maxHeartbeats 1000000 in
theorem flushed4_eq (c : Dev nD) (t : Fin cfg4.N) :
    (dat4 V c).flushed 6 t = ((cfg4.win 6).blk t).view.read (Elt Ideal)
      (Sage.combine2 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero zeros2]
  simp only [View.ld_unit_zero (S := S5000x128) zeros2]
  have f := blockNumbers4 t
  funext j
  obtain ⟨r, o, rfl⟩ : ∃ (r : Fin 5000) (o : Fin 128), j = ix2 r o := ⟨j 0, j 1, eq_ix2 j⟩
  show k4_pay1 _ _ _ _ _ _ _ (ix2 r o)
    = Sage.combine2 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (((cfg4.win 6).blk t).view.emb (ix2 r o))
  rw [sage2_block4]
  obtain ⟨e0, e1, he0, he1, he⟩ : ∃ (e0 : Fin 50000) (e1 : Fin 128), e0.val = t.val * 5000 + r.val ∧ e1.val = o.val
      ∧ ((cfg4.win 6).blk t).view.emb (ix2 r o) = ix2 e0 e1 :=
    ⟨((cfg4.win 6).blk t).view.emb (ix2 r o) 0, ((cfg4.win 6).blk t).view.emb (ix2 r o) 1,
      (show win4_6.index t (0 : Fin 2) * 5000 + 1 * r.val = _ by omega),
      (show win4_6.index t (1 : Fin 2) * 128 + 1 * o.val = _ by omega), eq_ix2 _⟩
  rw [he]
  unfold Sage.combine2
  exact congrArg Sage.leaky (congrArg₂ (· + ·)
    (congrArg₂ (· + ·) (congrArg₂ (· + ·)
        (Finset.sum_congr rfl fun j _ => congrArg₂ (· * ·) (rd4_H V c t r j e0 he0) (rd4_WSa V c t j o e1 he1))
        (rd4_Ba V c t o e1 he1))
      (Finset.sum_congr rfl fun j _ => congrArg₂ (· * ·)
        (congrArg₂ (· * ·) (rd4_Sa V c t r j e0 he0) (rd4_Ra V c t r e0 he0)) (rd4_WNa V c t j o e1 he1)))
    (congrArg₂ (· + ·) (congrArg₂ (· + ·)
        (Finset.sum_congr rfl fun j _ => congrArg₂ (· * ·) (rd4_H V c t r j e0 he0) (rd4_WSb V c t j o e1 he1))
        (rd4_Bb V c t o e1 he1))
      (Finset.sum_congr rfl fun j _ => congrArg₂ (· * ·)
        (congrArg₂ (· * ·) (rd4_Sb V c t r j e0 he0) (rd4_Rb V c t r e0 he0)) (rd4_WNb V c t j o e1 he1))))

theorem mem_block4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v146).slice (win4_6.rect t)).set ↔ _
  rw [View.set_slice_whole, Rect.mem_set_unit]
  exact Iff.rfl

theorem cover4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by rw [show cfg4.N = 10 from N_4]; omega⟩, rfl⟩
  have f := blockNumbers4 t
  refine ⟨t, flush4_6 t, ?_⟩
  rw [mem_block4]
  intro a
  match a with
  | ⟨0, _⟩ =>
    show win4_6.index t (0 : Fin 2) * 5000 ≤ (i 0).val ∧ (i 0).val < win4_6.index t (0 : Fin 2) * 5000 + 5000
    omega
  | ⟨1, _⟩ =>
    show win4_6.index t (1 : Fin 2) * 128 ≤ (i 1).val ∧ (i 1).val < win4_6.index t (1 : Fin 2) * 128 + 128
    omega

theorem final4 (c : Dev nD) : (dat4 V c).arrAt 6 cfg4.N
    = Sage.combine2 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 _ (fun t _ => flushed4_eq V c t) cover4

end Region4

end Cert.KernelIdeal.Reg

end
-- ==== Proof.KReg5.lean ====
-- The users' combine of the second layer, as the first layer's.
import proofs.«428332_j82145544503775_2_alg».proof.Proof.Gen.KernelIdeal.Frame
import proofs.«428332_j82145544503775_2_alg».proof.Proof.Spec
import proofs.«428332_j82145544503775_2_alg».proof.Proof.KRegOne
import Idealize.ShloMosaic.Lib.Pipeline.Value
import Idealize.ShloMosaic.Lib.ValueIdx
import Idealize.ShloMosaic.PureOps.Ideal.Laws

noncomputable section

open scoped BigOperators

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

namespace Users5

theorem zeros2 : (![0, 0] : Fin 2 → Nat) = fun _ => 0 := funext fun a => by fin_cases a <;> rfl
theorem zeros3 : (![0, 0, 0] : Fin 3 → Nat) = fun _ => 0 := funext fun a => by fin_cases a <;> rfl

theorem blockNumbers5 : ∀ t : Fin cfg5.N,
    win5_0.index t (0 : Fin 2) = t.val
    ∧ win5_0.index t (1 : Fin 2) = 0
    ∧ win5_1.index t (0 : Fin 3) = 0
    ∧ win5_1.index t (1 : Fin 3) = 0
    ∧ win5_1.index t (2 : Fin 3) = 0
    ∧ win5_2.index t (0 : Fin 3) = 0
    ∧ win5_2.index t (1 : Fin 3) = 0
    ∧ win5_2.index t (2 : Fin 3) = 0
    ∧ win5_3.index t (0 : Fin 3) = 0
    ∧ win5_3.index t (1 : Fin 3) = 0
    ∧ win5_3.index t (2 : Fin 3) = 0
    ∧ win5_4.index t (0 : Fin 3) = 0
    ∧ win5_4.index t (1 : Fin 3) = t.val
    ∧ win5_4.index t (2 : Fin 3) = 0
    ∧ win5_5.index t (0 : Fin 3) = 0
    ∧ win5_5.index t (1 : Fin 3) = t.val
    ∧ win5_5.index t (2 : Fin 3) = 0
    ∧ win5_6.index t (0 : Fin 2) = t.val
    ∧ win5_6.index t (1 : Fin 2) = 0 :=
  (by decide +kernel : ∀ t : Fin grid5.N, _)

def row (t : Fin cfg5.N) (r : Fin 4000) : Fin 200000 :=
  ⟨t.val * 4000 + r.val, by have h : t.val < 50 := t.isLt.trans_eq (show cfg5.N = 50 from N_5); have := r.isLt; omega⟩

section Blocks
variable (V : (c : Dev nD) → (b : Ref sig .tc) → Buf (Elt Ideal) ((c : Thread nD τ).loc b))

theorem blk0 (c : Dev nD) (t : Fin cfg5.N) (r : Fin 4000) (j : Fin 128) :
    iblk5 V c 0 t (ix2 r j) = V c (Pipeline.arrRef spec5 0) (ix2 (row t r) j) := by
  have f := blockNumbers5 t
  show V c (Pipeline.arrRef spec5 0) (((cfg5.win 0).blk t).view.emb (ix2 r j)) = _
  congr 1
  funext a; apply Fin.ext
  match a with
  | ⟨0, _⟩ => show win5_0.index t (0 : Fin 2) * 4000 + 1 * r.val = t.val * 4000 + r.val; omega
  | ⟨1, _⟩ => show win5_0.index t (1 : Fin 2) * 128 + 1 * j.val = j.val; omega

theorem blk1 (c : Dev nD) (t : Fin cfg5.N) (j o : Fin 128) :
    iblk5 V c 1 t (ix3 (0 : Fin 1) j o) = V c (Pipeline.arrRef spec5 1) (ix3 (0 : Fin 1) j o) := by
  have f := blockNumbers5 t
  show V c (Pipeline.arrRef spec5 1) (((cfg5.win 1).blk t).view.emb (ix3 (0 : Fin 1) j o)) = _
  congr 1
  funext a; apply Fin.ext
  match a with
  | ⟨0, _⟩ => show win5_1.index t (0 : Fin 3) * 1 + 1 * 0 = 0; omega
  | ⟨1, _⟩ => show win5_1.index t (1 : Fin 3) * 128 + 1 * j.val = j.val; omega
  | ⟨2, _⟩ => show win5_1.index t (2 : Fin 3) * 128 + 1 * o.val = o.val; omega

theorem blk2 (c : Dev nD) (t : Fin cfg5.N) (o : Fin 128) :
    iblk5 V c 2 t (ix3 (0 : Fin 1) (0 : Fin 1) o) = V c (Pipeline.arrRef spec5 2) (ix3 (0 : Fin 1) (0 : Fin 1) o) := by
  have f := blockNumbers5 t
  show V c (Pipeline.arrRef spec5 2) (((cfg5.win 2).blk t).view.emb (ix3 (0 : Fin 1) (0 : Fin 1) o)) = _
  congr 1
  funext a; apply Fin.ext
  match a with
  | ⟨0, _⟩ => show win5_2.index t (0 : Fin 3) * 1 + 1 * 0 = 0; omega
  | ⟨1, _⟩ => show win5_2.index t (1 : Fin 3) * 1 + 1 * 0 = 0; omega
  | ⟨2, _⟩ => show win5_2.index t (2 : Fin 3) * 128 + 1 * o.val = o.val; omega

theorem blk3 (c : Dev nD) (t : Fin cfg5.N) (j o : Fin 128) :
    iblk5 V c 3 t (ix3 (0 : Fin 1) j o) = V c (Pipeline.arrRef spec5 3) (ix3 (0 : Fin 1) j o) := by
  have f := blockNumbers5 t
  show V c (Pipeline.arrRef spec5 3) (((cfg5.win 3).blk t).view.emb (ix3 (0 : Fin 1) j o)) = _
  congr 1
  funext a; apply Fin.ext
  match a with
  | ⟨0, _⟩ => show win5_3.index t (0 : Fin 3) * 1 + 1 * 0 = 0; omega
  | ⟨1, _⟩ => show win5_3.index t (1 : Fin 3) * 128 + 1 * j.val = j.val; omega
  | ⟨2, _⟩ => show win5_3.index t (2 : Fin 3) * 128 + 1 * o.val = o.val; omega

theorem blk4 (c : Dev nD) (t : Fin cfg5.N) (r : Fin 4000) (j : Fin 128) :
    iblk5 V c 4 t (ix3 (0 : Fin 1) r j) = V c (Pipeline.arrRef spec5 4) (ix3 (0 : Fin 1) (row t r) j) := by
  have f := blockNumbers5 t
  show V c (Pipeline.arrRef spec5 4) (((cfg5.win 4).blk t).view.emb (ix3 (0 : Fin 1) r j)) = _
  congr 1
  funext a; apply Fin.ext
  match a with
  | ⟨0, _⟩ => show win5_4.index t (0 : Fin 3) * 1 + 1 * 0 = 0; omega
  | ⟨1, _⟩ => show win5_4.index t (1 : Fin 3) * 4000 + 1 * r.val = t.val * 4000 + r.val; omega
  | ⟨2, _⟩ => show win5_4.index t (2 : Fin 3) * 128 + 1 * j.val = j.val; omega

theorem blk5 (c : Dev nD) (t : Fin cfg5.N) (r : Fin 4000) :
    iblk5 V c 5 t (ix3 (0 : Fin 1) r (0 : Fin 1)) = V c (Pipeline.arrRef spec5 5) (ix3 (0 : Fin 1) (row t r) (0 : Fin 1)) := by
  have f := blockNumbers5 t
  show V c (Pipeline.arrRef spec5 5) (((cfg5.win 5).blk t).view.emb (ix3 (0 : Fin 1) r (0 : Fin 1))) = _
  congr 1
  funext a; apply Fin.ext
  match a with
  | ⟨0, _⟩ => show win5_5.index t (0 : Fin 3) * 1 + 1 * 0 = 0; omega
  | ⟨1, _⟩ => show win5_5.index t (1 : Fin 3) * 4000 + 1 * r.val = t.val * 4000 + r.val; omega
  | ⟨2, _⟩ => show win5_5.index t (2 : Fin 3) * 1 + 1 * 0 = 0; omega

theorem emb6 (t : Fin cfg5.N) (r : Fin 4000) (o : Fin 128) :
    ((cfg5.win 6).blk t).view.emb (ix2 r o) = ix2 (row t r) o := by
  have f := blockNumbers5 t
  funext a; apply Fin.ext
  match a with
  | ⟨0, _⟩ => show win5_6.index t (0 : Fin 2) * 4000 + 1 * r.val = t.val * 4000 + r.val; omega
  | ⟨1, _⟩ => show win5_6.index t (1 : Fin 2) * 128 + 1 * o.val = o.val; omega

set_option maxHeartbeats 1600000 in
theorem flushed5_eq (c : Dev nD) (t : Fin cfg5.N) :
    (dat5 V c).flushed 6 t = ((cfg5.win 6).blk t).view.read (Elt Ideal)
      (Sage.combine1 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero zeros2]
  simp only [View.ld_unit_zero (S := S4000x128) zeros2, View.ld_unit_zero (S := S1x128x128) zeros3,
    View.ld_unit_zero (S := S1x1x128) zeros3, View.ld_unit_zero (S := S1x4000x128) zeros3,
    View.ld_unit_zero (S := S1x4000x1) zeros3]
  funext j
  obtain ⟨r, o, rfl⟩ : ∃ (r : Fin 4000) (o : Fin 128), j = ix2 r o := ⟨j 0, j 1, eq_ix2 j⟩
  show k5_pay1 _ _ _ _ _ _ (ix2 r o)
    = Sage.combine1 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 6).blk t).view.emb (ix2 r o))
  rw [One.pay5_apply, emb6 t r o, blk2 V c t o, blk5 V c t r]
  simp only [blk0 V c t, blk1 V c t, blk3 V c t, blk4 V c t]
  unfold Sage.combine1
  rfl

theorem mem_block5 (t : Fin cfg5.N) (i : S200000x128.Idx) :
    i ∈ ((cfg5.win 6).blk t).view.set ↔ ∀ a : Fin 2, win5_6.index t a * S4000x128.size a ≤ (i a).val ∧ (i a).val < win5_6.index t a * S4000x128.size a + S4000x128.size a := by
  show i ∈ ((View.whole main_v157).slice (win5_6.rect t)).set ↔ _
  rw [View.set_slice_whole, Rect.mem_set_unit]
  exact Iff.rfl

theorem cover5 (i : S200000x128.Idx) : ∃ t : Fin cfg5.N, (cfg5.win 6).flush t = true ∧ i ∈ ((cfg5.win 6).blk t).view.set := by
  have hi0 : (i 0).val < 200000 := (i 0).isLt
  have hi1 : (i 1).val < 128 := (i 1).isLt
  obtain ⟨t, ht⟩ : ∃ t : Fin cfg5.N, t.val = (i 0).val / 4000 :=
    ⟨⟨(i 0).val / 4000, by rw [show cfg5.N = 50 from N_5]; omega⟩, rfl⟩
  have f := blockNumbers5 t
  refine ⟨t, flush5_6 t, ?_⟩
  rw [mem_block5]
  intro a
  match a with
  | ⟨0, _⟩ =>
    show win5_6.index t (0 : Fin 2) * 4000 ≤ (i 0).val ∧ (i 0).val < win5_6.index t (0 : Fin 2) * 4000 + 4000
    omega
  | ⟨1, _⟩ =>
    show win5_6.index t (1 : Fin 2) * 128 ≤ (i 1).val ∧ (i 1).val < win5_6.index t (1 : Fin 2) * 128 + 128
    omega

end Blocks

end Users5

theorem final5 (V : (c : Dev nD) → (b : Ref sig .tc) → Buf (Elt Ideal) ((c : Thread nD τ).loc b)) (c : Dev nD) :
    (dat5 V c).arrAt 6 cfg5.N
      = Sage.combine1 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => Users5.flushed5_eq V c t) Users5.cover5

end Cert.KernelIdeal.Reg

end
-- ==== Proof.KHost4.lean ====
-- The host stretch between the fourth and fifth tiled regions, as eight lines of array operations.
import proofs.«428332_j82145544503775_2_alg».proof.Proof.Gen.KernelIdeal.Launch
import Idealize.ShloMosaic.Lib.StableHlo.Run
import proofs.«428332_j82145544503775_2_alg».proof.Proof.Spec
import proofs.«428332_j82145544503775_2_alg».proof.Proof.KHost1

set_option maxRecDepth 16384

noncomputable section

namespace Cert.KernelIdeal.Host

open Cert.KernelIdeal Cert.KernelIdeal.Gen Idealize.ShloMosaic Idealize.ShloMosaic.StableHlo

def s4_0 (X : Valuation τ sig (Elt Ideal)) : Valuation τ sig (Elt Ideal) := after hostOps4 X

def s4_1 (X : Valuation τ sig (Elt Ideal)) : Valuation τ sig (Elt Ideal) := after hostOps4_1 (s4_0 X)

def s4_2 (X : Valuation τ sig (Elt Ideal)) : Valuation τ sig (Elt Ideal) := after hostOps4_2 (s4_1 X)

def s4_3 (X : Valuation τ sig (Elt Ideal)) : Valuation τ sig (Elt Ideal) := after hostOps4_3 (s4_2 X)

def s4_4 (X : Valuation τ sig (Elt Ideal)) : Valuation τ sig (Elt Ideal) := after hostOps4_4 (s4_3 X)

def s4_5 (X : Valuation τ sig (Elt Ideal)) : Valuation τ sig (Elt Ideal) := after hostOps4_5 (s4_4 X)

def s4_6 (X : Valuation τ sig (Elt Ideal)) : Valuation τ sig (Elt Ideal) := after hostOps4_6 (s4_5 X)

def s4_7 (X : Valuation τ sig (Elt Ideal)) : Valuation τ sig (Elt Ideal) := after hostOps4_7 (s4_6 X)

abbrev aft4 (X : Valuation τ sig (Elt Ideal)) : Valuation τ sig (Elt Ideal) := s4_7 X

theorem s4_0_keep (X : Valuation τ sig (Elt Ideal)) (r : Ref sig .tc) (h : NW hostOps4 r) :
    s4_0 X (Proc.devRef .tc r) = X (Proc.devRef .tc r) :=
  after_of_forall_not_mem _ _ h

theorem s4_1_keep (X : Valuation τ sig (Elt Ideal)) (r : Ref sig .tc) (h : NW hostOps4_1 r) :
    s4_1 X (Proc.devRef .tc r) = s4_0 X (Proc.devRef .tc r) :=
  after_of_forall_not_mem _ _ h

theorem s4_2_keep (X : Valuation τ sig (Elt Ideal)) (r : Ref sig .tc) (h : NW hostOps4_2 r) :
    s4_2 X (Proc.devRef .tc r) = s4_1 X (Proc.devRef .tc r) :=
  after_of_forall_not_mem _ _ h

theorem s4_3_keep (X : Valuation τ sig (Elt Ideal)) (r : Ref sig .tc) (h : NW hostOps4_3 r) :
    s4_3 X (Proc.devRef .tc r) = s4_2 X (Proc.devRef .tc r) :=
  after_of_forall_not_mem _ _ h

theorem s4_4_keep (X : Valuation τ sig (Elt Ideal)) (r : Ref sig .tc) (h : NW hostOps4_4 r) :
    s4_4 X (Proc.devRef .tc r) = s4_3 X (Proc.devRef .tc r) :=
  after_of_forall_not_mem _ _ h

theorem s4_5_keep (X : Valuation τ sig (Elt Ideal)) (r : Ref sig .tc) (h : NW hostOps4_5 r) :
    s4_5 X (Proc.devRef .tc r) = s4_4 X (Proc.devRef .tc r) :=
  after_of_forall_not_mem _ _ h

theorem s4_6_keep (X : Valuation τ sig (Elt Ideal)) (r : Ref sig .tc) (h : NW hostOps4_6 r) :
    s4_6 X (Proc.devRef .tc r) = s4_5 X (Proc.devRef .tc r) :=
  after_of_forall_not_mem _ _ h

theorem s4_7_keep (X : Valuation τ sig (Elt Ideal)) (r : Ref sig .tc) (h : NW hostOps4_7 r) :
    s4_7 X (Proc.devRef .tc r) = s4_6 X (Proc.devRef .tc r) :=
  after_of_forall_not_mem _ _ h

theorem aft4_keep (X : Valuation τ sig (Elt Ideal)) (r : Ref sig .tc) (h : NW (hostOps4 ++ hostOps4_1 ++ hostOps4_2 ++ hostOps4_3 ++ hostOps4_4 ++ hostOps4_5 ++ hostOps4_6 ++ hostOps4_7) r) :
    aft4 X (Proc.devRef .tc r) = X (Proc.devRef .tc r) := by
  have e := after_of_forall_not_mem _ (X) h
  simp only [after_append] at e
  exact e

theorem s4_1_from0 (X : Valuation τ sig (Elt Ideal)) (r : Ref sig .tc) (h : NW (hostOps4 ++ hostOps4_1) r) :
    s4_1 X (Proc.devRef .tc r) = X (Proc.devRef .tc r) := by
  have e := after_of_forall_not_mem _ (X) h
  simp only [after_append] at e
  exact e

theorem s4_2_from0 (X : Valuation τ sig (Elt Ideal)) (r : Ref sig .tc) (h : NW (hostOps4 ++ hostOps4_1 ++ hostOps4_2) r) :
    s4_2 X (Proc.devRef .tc r) = X (Proc.devRef .tc r) := by
  have e := after_of_forall_not_mem _ (X) h
  simp only [after_append] at e
  exact e

theorem s4_3_from0 (X : Valuation τ sig (Elt Ideal)) (r : Ref sig .tc) (h : NW (hostOps4 ++ hostOps4_1 ++ hostOps4_2 ++ hostOps4_3) r) :
    s4_3 X (Proc.devRef .tc r) = X (Proc.devRef .tc r) := by
  have e := after_of_forall_not_mem _ (X) h
  simp only [after_append] at e
  exact e

theorem s4_4_from0 (X : Valuation τ sig (Elt Ideal)) (r : Ref sig .tc) (h : NW (hostOps4 ++ hostOps4_1 ++ hostOps4_2 ++ hostOps4_3 ++ hostOps4_4) r) :
    s4_4 X (Proc.devRef .tc r) = X (Proc.devRef .tc r) := by
  have e := after_of_forall_not_mem _ (X) h
  simp only [after_append] at e
  exact e

theorem s4_5_from0 (X : Valuation τ sig (Elt Ideal)) (r : Ref sig .tc) (h : NW (hostOps4 ++ hostOps4_1 ++ hostOps4_2 ++ hostOps4_3 ++ hostOps4_4 ++ hostOps4_5) r) :
    s4_5 X (Proc.devRef .tc r) = X (Proc.devRef .tc r) := by
  have e := after_of_forall_not_mem _ (X) h
  simp only [after_append] at e
  exact e

theorem s4_6_from0 (X : Valuation τ sig (Elt Ideal)) (r : Ref sig .tc) (h : NW (hostOps4 ++ hostOps4_1 ++ hostOps4_2 ++ hostOps4_3 ++ hostOps4_4 ++ hostOps4_5 ++ hostOps4_6) r) :
    s4_6 X (Proc.devRef .tc r) = X (Proc.devRef .tc r) := by
  have e := after_of_forall_not_mem _ (X) h
  simp only [after_append] at e
  exact e

end Cert.KernelIdeal.Host

end
-- ==== Proof.KHost4s.lean ====
-- The same for the second layer's stretch: the four segment sums over the first layer's features.
import proofs.«428332_j82145544503775_2_alg».proof.Proof.Gen.KernelIdeal.Launch
import Idealize.ShloMosaic.Lib.StableHlo.Run
import proofs.«428332_j82145544503775_2_alg».proof.Proof.Spec
import proofs.«428332_j82145544503775_2_alg».proof.Proof.Words
import proofs.«428332_j82145544503775_2_alg».proof.Proof.KTake
import proofs.«428332_j82145544503775_2_alg».proof.Proof.KHost4

set_option maxRecDepth 16384

noncomputable section

namespace Cert.KernelIdeal.Host

open Cert.KernelIdeal Cert.KernelIdeal.Gen Idealize.ShloMosaic Idealize.ShloMosaic.StableHlo

section Raw
variable {F : FTy → Type} [FloatOps F]

private theorem ofBuf_v94 (Y : Valuation τ sig (Elt F)) :
    (TRef.of main_v94 : TRef sig ⟨S200000x128, .f32⟩).ofBuf (Y (Proc.devRef .tc main_v94)) = Y (Proc.devRef .tc main_v94) := rfl

private theorem ofBuf_arg8 (Y : Valuation τ sig (Elt F)) :
    (TRef.of main_arg8 : TRef sig ⟨S800000, .i32⟩).ofBuf (Y (Proc.devRef .tc main_arg8)) = Y (Proc.devRef .tc main_arg8) := rfl

private theorem toBuf_v106 (v : FVec F S800000x128 .f32) :
    (TRef.of main_v106 : TRef sig ⟨S800000x128, .f32⟩).toBuf (Val := Elt F) v = v := rfl

private theorem ofBuf_v105 (Y : Valuation τ sig (Elt F)) :
    (TRef.of main_v105 : TRef sig ⟨S20000x128, .f32⟩).ofBuf (Y (Proc.devRef .tc main_v105)) = Y (Proc.devRef .tc main_v105) := rfl

private theorem ofBuf_arg11 (Y : Valuation τ sig (Elt F)) :
    (TRef.of main_arg11 : TRef sig ⟨S400000, .i32⟩).ofBuf (Y (Proc.devRef .tc main_arg11)) = Y (Proc.devRef .tc main_arg11) := rfl

private theorem toBuf_v110 (v : FVec F S400000x128 .f32) :
    (TRef.of main_v110 : TRef sig ⟨S400000x128, .f32⟩).toBuf (Val := Elt F) v = v := rfl

private theorem ofBuf_v83 (Y : Valuation τ sig (Elt F)) :
    (TRef.of main_v83 : TRef sig ⟨S50000x128, .f32⟩).ofBuf (Y (Proc.devRef .tc main_v83)) = Y (Proc.devRef .tc main_v83) := rfl

private theorem ofBuf_arg9 (Y : Valuation τ sig (Elt F)) :
    (TRef.of main_arg9 : TRef sig ⟨S800000, .i32⟩).ofBuf (Y (Proc.devRef .tc main_arg9)) = Y (Proc.devRef .tc main_arg9) := rfl

private theorem toBuf_v114 (v : FVec F S800000x128 .f32) :
    (TRef.of main_v114 : TRef sig ⟨S800000x128, .f32⟩).toBuf (Val := Elt F) v = v := rfl

private theorem ofBuf_arg10 (Y : Valuation τ sig (Elt F)) :
    (TRef.of main_arg10 : TRef sig ⟨S400000, .i32⟩).ofBuf (Y (Proc.devRef .tc main_arg10)) = Y (Proc.devRef .tc main_arg10) := rfl

private theorem toBuf_v118 (v : FVec F S400000x128 .f32) :
    (TRef.of main_v118 : TRef sig ⟨S400000x128, .f32⟩).toBuf (Val := Elt F) v = v := rfl

theorem take4a_raw (Y : Valuation τ sig (Elt F)) :
    after hostOps4 Y (Proc.devRef .tc main_v106)
      = (TRef.of main_v106 : TRef sig ⟨S800000x128, .f32⟩).toBuf
          (Cert.Take.take (F := F) (n := 200000) (e := 800000) 200000#32 199999#32 gather_S200000x128_S800000x1_S800000x128_1_0_n_n_0_1_1128
            bcast_S_S800000 bcast_S800000_S800000x1_0 bcast_S_S800000x1 bcast_S1_S1x1_1 bcast_S1x1_S800000x1_0_1 reducesTo_S800000x1_S800000_d1 h_S_ bcast_S800000_S800000x128_0 bcast_S_S800000x128
            ((TRef.of main_v94 : TRef sig ⟨S200000x128, .f32⟩).ofBuf (Y (Proc.devRef .tc main_v94)))
            ((TRef.of main_arg8 : TRef sig ⟨S800000, .i32⟩).ofBuf (Y (Proc.devRef .tc main_arg8)))) := by
  simp only [hostOps4]
  after_results_simp
  simp only [ofBuf_toBuf, Cert.Take.take, Cert.Take.wrap, Cert.Take.keep]

theorem take4a_val (Y : Valuation τ sig (Elt F)) :
    after hostOps4 Y (Proc.devRef .tc main_v106)
      = Cert.Take.take (F := F) (n := 200000) (e := 800000) 200000#32 199999#32 gather_S200000x128_S800000x1_S800000x128_1_0_n_n_0_1_1128
          bcast_S_S800000 bcast_S800000_S800000x1_0 bcast_S_S800000x1 bcast_S1_S1x1_1 bcast_S1x1_S800000x1_0_1 reducesTo_S800000x1_S800000_d1 h_S_ bcast_S800000_S800000x128_0 bcast_S_S800000x128
          (Y (Proc.devRef .tc main_v94)) (Y (Proc.devRef .tc main_arg8)) := by
  rw [take4a_raw, ofBuf_v94, ofBuf_arg8, toBuf_v106]

theorem take4b_raw (Y : Valuation τ sig (Elt F)) :
    after hostOps4_2 Y (Proc.devRef .tc main_v110)
      = (TRef.of main_v110 : TRef sig ⟨S400000x128, .f32⟩).toBuf
          (Cert.Take.take (F := F) (n := 20000) (e := 400000) 20000#32 19999#32 gather_S20000x128_S400000x1_S400000x128_1_0_n_n_0_1_1128
            bcast_S_S400000 bcast_S400000_S400000x1_0 bcast_S_S400000x1 bcast_S1_S1x1_1 bcast_S1x1_S400000x1_0_1 reducesTo_S400000x1_S400000_d1 h_S_ bcast_S400000_S400000x128_0 bcast_S_S400000x128
            ((TRef.of main_v105 : TRef sig ⟨S20000x128, .f32⟩).ofBuf (Y (Proc.devRef .tc main_v105)))
            ((TRef.of main_arg11 : TRef sig ⟨S400000, .i32⟩).ofBuf (Y (Proc.devRef .tc main_arg11)))) := by
  simp only [hostOps4_2]
  after_results_simp
  simp only [ofBuf_toBuf, Cert.Take.take, Cert.Take.wrap, Cert.Take.keep]

theorem take4b_val (Y : Valuation τ sig (Elt F)) :
    after hostOps4_2 Y (Proc.devRef .tc main_v110)
      = Cert.Take.take (F := F) (n := 20000) (e := 400000) 20000#32 19999#32 gather_S20000x128_S400000x1_S400000x128_1_0_n_n_0_1_1128
          bcast_S_S400000 bcast_S400000_S400000x1_0 bcast_S_S400000x1 bcast_S1_S1x1_1 bcast_S1x1_S400000x1_0_1 reducesTo_S400000x1_S400000_d1 h_S_ bcast_S400000_S400000x128_0 bcast_S_S400000x128
          (Y (Proc.devRef .tc main_v105)) (Y (Proc.devRef .tc main_arg11)) := by
  rw [take4b_raw, ofBuf_v105, ofBuf_arg11, toBuf_v110]

theorem take4c_raw (Y : Valuation τ sig (Elt F)) :
    after hostOps4_4 Y (Proc.devRef .tc main_v114)
      = (TRef.of main_v114 : TRef sig ⟨S800000x128, .f32⟩).toBuf
          (Cert.Take.take (F := F) (n := 50000) (e := 800000) 50000#32 49999#32 gather_S50000x128_S800000x1_S800000x128_1_0_n_n_0_1_1128
            bcast_S_S800000 bcast_S800000_S800000x1_0 bcast_S_S800000x1 bcast_S1_S1x1_1 bcast_S1x1_S800000x1_0_1 reducesTo_S800000x1_S800000_d1 h_S_ bcast_S800000_S800000x128_0 bcast_S_S800000x128
            ((TRef.of main_v83 : TRef sig ⟨S50000x128, .f32⟩).ofBuf (Y (Proc.devRef .tc main_v83)))
            ((TRef.of main_arg9 : TRef sig ⟨S800000, .i32⟩).ofBuf (Y (Proc.devRef .tc main_arg9)))) := by
  simp only [hostOps4_4]
  after_results_simp
  simp only [ofBuf_toBuf, Cert.Take.take, Cert.Take.wrap, Cert.Take.keep]

theorem take4c_val (Y : Valuation τ sig (Elt F)) :
    after hostOps4_4 Y (Proc.devRef .tc main_v114)
      = Cert.Take.take (F := F) (n := 50000) (e := 800000) 50000#32 49999#32 gather_S50000x128_S800000x1_S800000x128_1_0_n_n_0_1_1128
          bcast_S_S800000 bcast_S800000_S800000x1_0 bcast_S_S800000x1 bcast_S1_S1x1_1 bcast_S1x1_S800000x1_0_1 reducesTo_S800000x1_S800000_d1 h_S_ bcast_S800000_S800000x128_0 bcast_S_S800000x128
          (Y (Proc.devRef .tc main_v83)) (Y (Proc.devRef .tc main_arg9)) := by
  rw [take4c_raw, ofBuf_v83, ofBuf_arg9, toBuf_v114]

theorem take4d_raw (Y : Valuation τ sig (Elt F)) :
    after hostOps4_6 Y (Proc.devRef .tc main_v118)
      = (TRef.of main_v118 : TRef sig ⟨S400000x128, .f32⟩).toBuf
          (Cert.Take.take (F := F) (n := 50000) (e := 400000) 50000#32 49999#32 gather_S50000x128_S400000x1_S400000x128_1_0_n_n_0_1_1128
            bcast_S_S400000 bcast_S400000_S400000x1_0 bcast_S_S400000x1 bcast_S1_S1x1_1 bcast_S1x1_S400000x1_0_1 reducesTo_S400000x1_S400000_d1 h_S_ bcast_S400000_S400000x128_0 bcast_S_S400000x128
            ((TRef.of main_v83 : TRef sig ⟨S50000x128, .f32⟩).ofBuf (Y (Proc.devRef .tc main_v83)))
            ((TRef.of main_arg10 : TRef sig ⟨S400000, .i32⟩).ofBuf (Y (Proc.devRef .tc main_arg10)))) := by
  simp only [hostOps4_6]
  after_results_simp
  simp only [ofBuf_toBuf, Cert.Take.take, Cert.Take.wrap, Cert.Take.keep]

theorem take4d_val (Y : Valuation τ sig (Elt F)) :
    after hostOps4_6 Y (Proc.devRef .tc main_v118)
      = Cert.Take.take (F := F) (n := 50000) (e := 400000) 50000#32 49999#32 gather_S50000x128_S400000x1_S400000x128_1_0_n_n_0_1_1128
          bcast_S_S400000 bcast_S400000_S400000x1_0 bcast_S_S400000x1 bcast_S1_S1x1_1 bcast_S1x1_S400000x1_0_1 reducesTo_S400000x1_S400000_d1 h_S_ bcast_S400000_S400000x128_0 bcast_S_S400000x128
          (Y (Proc.devRef .tc main_v83)) (Y (Proc.devRef .tc main_arg10)) := by
  rw [take4d_raw, ofBuf_v83, ofBuf_arg10, toBuf_v118]

end Raw

theorem stack4_raw {F : FTy → Type} [FloatOps F] (Y : Valuation τ sig (Elt F)) :
    after hostOps4_7 Y (Proc.devRef .tc main_v124)
      = concatenate S2x50000x128 0
          [⟨S1x50000x128, broadcastInDim S1x50000x128 ![1, 2] bcast_S50000x128_S1x50000x128_1_2 (Y (Proc.devRef .tc main_v109))⟩,
           ⟨S1x50000x128, broadcastInDim S1x50000x128 ![1, 2] bcast_S50000x128_S1x50000x128_1_2 (Y (Proc.devRef .tc main_v113))⟩]
          concatenates_S1x50000x128_S1x50000x128_S2x50000x128_d0 := by
  simp only [hostOps4_7]
  after_results

theorem s4_0_v106 (X : Valuation τ sig (Elt Ideal)) (h8 : Sage.InRange 200000 (X (Proc.devRef .tc main_arg8))) :
    s4_0 X (Proc.devRef .tc main_v106) = Host.gather gather_S200000x128_S800000x1_S800000x128_1_0_n_n_0_1_1128 (X (Proc.devRef .tc main_v94)) (Sage.col bcast_S800000_S800000x1_0 (X (Proc.devRef .tc main_arg8))) :=
  (take4a_val X).trans (Cert.Take.take_eq (n := 200000) (by decide) _ _ _ _ _ _ _ _ _ _ _ _ h8)

theorem s4_1_v109 (X : Valuation τ sig (Elt Ideal)) (h8 : Sage.InRange 200000 (X (Proc.devRef .tc main_arg8))) :
    s4_1 X (Proc.devRef .tc main_v109) = Sage.sumUM (X (Proc.devRef .tc main_v94)) (X (Proc.devRef .tc main_arg8)) (X (Proc.devRef .tc main_arg9)) := by
  unfold s4_1
  simp only [hostOps4_1]
  after_results_simp
  rw [s4_0_keep X main_arg9 (by decide), s4_0_v106 X h8]
  rfl

theorem s4_2_v110 (X : Valuation τ sig (Elt Ideal)) (h11 : Sage.InRange 20000 (X (Proc.devRef .tc main_arg11))) :
    s4_2 X (Proc.devRef .tc main_v110) = Host.gather gather_S20000x128_S400000x1_S400000x128_1_0_n_n_0_1_1128 (X (Proc.devRef .tc main_v105)) (Sage.col bcast_S400000_S400000x1_0 (X (Proc.devRef .tc main_arg11))) := by
  have e := take4b_val (s4_1 X)
  rw [s4_1_from0 X main_v105 (by decide), s4_1_from0 X main_arg11 (by decide)] at e
  exact e.trans (Cert.Take.take_eq (n := 20000) (by decide) _ _ _ _ _ _ _ _ _ _ _ _ h11)

theorem s4_3_v113 (X : Valuation τ sig (Elt Ideal)) (h11 : Sage.InRange 20000 (X (Proc.devRef .tc main_arg11))) :
    s4_3 X (Proc.devRef .tc main_v113) = Sage.sumTM (X (Proc.devRef .tc main_v105)) (X (Proc.devRef .tc main_arg11)) (X (Proc.devRef .tc main_arg10)) := by
  unfold s4_3
  simp only [hostOps4_3]
  after_results_simp
  rw [s4_2_from0 X main_arg10 (by decide), s4_2_v110 X h11]
  rfl

theorem s4_4_v114 (X : Valuation τ sig (Elt Ideal)) (h9 : Sage.InRange 50000 (X (Proc.devRef .tc main_arg9))) :
    s4_4 X (Proc.devRef .tc main_v114) = Host.gather gather_S50000x128_S800000x1_S800000x128_1_0_n_n_0_1_1128 (X (Proc.devRef .tc main_v83)) (Sage.col bcast_S800000_S800000x1_0 (X (Proc.devRef .tc main_arg9))) := by
  have e := take4c_val (s4_3 X)
  rw [s4_3_from0 X main_v83 (by decide), s4_3_from0 X main_arg9 (by decide)] at e
  exact e.trans (Cert.Take.take_eq (n := 50000) (by decide) _ _ _ _ _ _ _ _ _ _ _ _ h9)

theorem s4_5_v117 (X : Valuation τ sig (Elt Ideal)) (h9 : Sage.InRange 50000 (X (Proc.devRef .tc main_arg9))) :
    s4_5 X (Proc.devRef .tc main_v117) = Sage.sumMU (X (Proc.devRef .tc main_v83)) (X (Proc.devRef .tc main_arg9)) (X (Proc.devRef .tc main_arg8)) := by
  unfold s4_5
  simp only [hostOps4_5]
  after_results_simp
  rw [s4_4_from0 X main_arg8 (by decide), s4_4_v114 X h9]
  rfl

theorem s4_6_v118 (X : Valuation τ sig (Elt Ideal)) (h10 : Sage.InRange 50000 (X (Proc.devRef .tc main_arg10))) :
    s4_6 X (Proc.devRef .tc main_v118) = Host.gather gather_S50000x128_S400000x1_S400000x128_1_0_n_n_0_1_1128 (X (Proc.devRef .tc main_v83)) (Sage.col bcast_S400000_S400000x1_0 (X (Proc.devRef .tc main_arg10))) := by
  have e := take4d_val (s4_5 X)
  rw [s4_5_from0 X main_v83 (by decide), s4_5_from0 X main_arg10 (by decide)] at e
  exact e.trans (Cert.Take.take_eq (n := 50000) (by decide) _ _ _ _ _ _ _ _ _ _ _ _ h10)

theorem s4_7_v121 (X : Valuation τ sig (Elt Ideal)) (h10 : Sage.InRange 50000 (X (Proc.devRef .tc main_arg10))) :
    s4_7 X (Proc.devRef .tc main_v121) = Sage.sumMT (X (Proc.devRef .tc main_v83)) (X (Proc.devRef .tc main_arg10)) (X (Proc.devRef .tc main_arg11)) := by
  unfold s4_7
  simp only [hostOps4_7]
  after_results_simp
  rw [s4_6_from0 X main_arg11 (by decide), s4_6_v118 X h10]
  rfl

theorem s4_6_v109 (X : Valuation τ sig (Elt Ideal)) (h8 : Sage.InRange 200000 (X (Proc.devRef .tc main_arg8))) :
    s4_6 X (Proc.devRef .tc main_v109) = Sage.sumUM (X (Proc.devRef .tc main_v94)) (X (Proc.devRef .tc main_arg8)) (X (Proc.devRef .tc main_arg9)) := by
  rw [s4_6_keep X main_v109 (by decide), s4_5_keep X main_v109 (by decide), s4_4_keep X main_v109 (by decide), s4_3_keep X main_v109 (by decide), s4_2_keep X main_v109 (by decide)]
  exact s4_1_v109 X h8

theorem s4_6_v113 (X : Valuation τ sig (Elt Ideal)) (h11 : Sage.InRange 20000 (X (Proc.devRef .tc main_arg11))) :
    s4_6 X (Proc.devRef .tc main_v113) = Sage.sumTM (X (Proc.devRef .tc main_v105)) (X (Proc.devRef .tc main_arg11)) (X (Proc.devRef .tc main_arg10)) := by
  rw [s4_6_keep X main_v113 (by decide), s4_5_keep X main_v113 (by decide), s4_4_keep X main_v113 (by decide)]
  exact s4_3_v113 X h11

theorem aft4_v124 (X : Valuation τ sig (Elt Ideal)) (h8 : Sage.InRange 200000 (X (Proc.devRef .tc main_arg8))) (h11 : Sage.InRange 20000 (X (Proc.devRef .tc main_arg11))) :
    aft4 X (Proc.devRef .tc main_v124) = Sage.stack2 (Sage.sumUM (X (Proc.devRef .tc main_v94)) (X (Proc.devRef .tc main_arg8)) (X (Proc.devRef .tc main_arg9))) (Sage.sumTM (X (Proc.devRef .tc main_v105)) (X (Proc.devRef .tc main_arg11)) (X (Proc.devRef .tc main_arg10))) := by
  show s4_7 X _ = _
  unfold s4_7
  rw [stack4_raw (s4_6 X), s4_6_v109 X h8, s4_6_v113 X h11]
  exact Cert.Take.stack2_concat _ _ _ _

theorem aft4_v117 (X : Valuation τ sig (Elt Ideal)) (h9 : Sage.InRange 50000 (X (Proc.devRef .tc main_arg9))) :
    aft4 X (Proc.devRef .tc main_v117) = Sage.sumMU (X (Proc.devRef .tc main_v83)) (X (Proc.devRef .tc main_arg9)) (X (Proc.devRef .tc main_arg8)) := by
  show s4_7 X _ = _
  rw [s4_7_keep X main_v117 (by decide), s4_6_keep X main_v117 (by decide)]
  exact s4_5_v117 X h9

theorem aft4_v121 (X : Valuation τ sig (Elt Ideal)) (h10 : Sage.InRange 50000 (X (Proc.devRef .tc main_arg10))) :
    aft4 X (Proc.devRef .tc main_v121) = Sage.sumMT (X (Proc.devRef .tc main_v83)) (X (Proc.devRef .tc main_arg10)) (X (Proc.devRef .tc main_arg11)) :=
  s4_7_v121 X h10

end Cert.KernelIdeal.Host

end
-- ==== Proof.KHost4W.lean ====
-- The last line of the second long stretch cuts the second layer's weights and bias for the two edge types into movies and stacks them.
import proofs.«428332_j82145544503775_2_alg».proof.Proof.KHost1

set_option maxRecDepth 16384

noncomputable section

namespace Cert.KernelIdeal.Host

open Cert.KernelIdeal Cert.KernelIdeal.Gen Idealize.ShloMosaic Idealize.ShloMosaic.StableHlo Idealize.ShloMosaic.ValueIdx

section Line
variable (Y : Valuation τ sig (Elt Ideal))

theorem line4_7_v131 : after hostOps4_7 Y (Proc.devRef .tc main_v131)
    = fun i => Y (Proc.devRef .tc main_v3) (ix4 (1 : Fin 2) (if (i 0).val = 0 then (0 : Fin 4) else 3) (i 1) (i 2)) := by
  simp only [hostOps4_7]
  after_results_simp
  funext i
  refine (pair_apply (a := 128) (b := 128) _ _ _ i).trans ?_
  after_results_simp
  split
  · exact mat_apply _ 1 0 (by decide) (by decide) _ _ _ _
  · exact mat_apply _ 1 3 (by decide) (by decide) _ _ _ _

theorem line4_7_v138 : after hostOps4_7 Y (Proc.devRef .tc main_v138)
    = fun i => Y (Proc.devRef .tc main_v5) (ix4 (1 : Fin 2) (if (i 0).val = 0 then (0 : Fin 4) else 3) (0 : Fin 1) (i 2)) := by
  simp only [hostOps4_7]
  after_results_simp
  funext i
  refine (pair_apply (a := 1) (b := 128) _ _ _ i).trans ?_
  after_results_simp
  split
  · exact row_apply _ 1 0 (by decide) (by decide) _ _ _ _
  · exact row_apply _ 1 3 (by decide) (by decide) _ _ _ _

theorem line4_7_v145 : after hostOps4_7 Y (Proc.devRef .tc main_v145)
    = fun i => Y (Proc.devRef .tc main_v4) (ix4 (1 : Fin 2) (if (i 0).val = 0 then (0 : Fin 4) else 3) (i 1) (i 2)) := by
  simp only [hostOps4_7]
  after_results_simp
  funext i
  refine (pair_apply (a := 128) (b := 128) _ _ _ i).trans ?_
  after_results_simp
  split
  · exact mat_apply _ 1 0 (by decide) (by decide) _ _ _ _
  · exact mat_apply _ 1 3 (by decide) (by decide) _ _ _ _

end Line

end Cert.KernelIdeal.Host

end
-- ==== Proof.KHost4Wf.lean ====
-- The second layer's stacked weights for the movies' region, read after the whole stretch.
import proofs.«428332_j82145544503775_2_alg».proof.Proof.KHost4
import proofs.«428332_j82145544503775_2_alg».proof.Proof.KHost4W

set_option maxRecDepth 16384

noncomputable section

namespace Cert.KernelIdeal.Host

open Cert.KernelIdeal Cert.KernelIdeal.Gen Idealize.ShloMosaic Idealize.ShloMosaic.StableHlo Idealize.ShloMosaic.ValueIdx

variable (X : Valuation τ sig (Elt Ideal))

theorem aft4_v131 : aft4 X (Proc.devRef .tc main_v131)
    = fun i => X (Proc.devRef .tc main_v3) (ix4 (1 : Fin 2) (if (i 0).val = 0 then (0 : Fin 4) else 3) (i 1) (i 2)) := by
  show after hostOps4_7 (s4_6 X) _ = _
  rw [line4_7_v131, s4_6_from0 X main_v3 (by decide)]

theorem aft4_v138 : aft4 X (Proc.devRef .tc main_v138)
    = fun i => X (Proc.devRef .tc main_v5) (ix4 (1 : Fin 2) (if (i 0).val = 0 then (0 : Fin 4) else 3) (0 : Fin 1) (i 2)) := by
  show after hostOps4_7 (s4_6 X) _ = _
  rw [line4_7_v138, s4_6_from0 X main_v5 (by decide)]

theorem aft4_v145 : aft4 X (Proc.devRef .tc main_v145)
    = fun i => X (Proc.devRef .tc main_v4) (ix4 (1 : Fin 2) (if (i 0).val = 0 then (0 : Fin 4) else 3) (i 1) (i 2)) := by
  show after hostOps4_7 (s4_6 X) _ = _
  rw [line4_7_v145, s4_6_from0 X main_v4 (by decide)]

end Cert.KernelIdeal.Host

end
-- ==== Proof.KChainC.lean ====
-- The second layer: its segment sums and stacks, then the movies' and the users' updates, which are the two results.
import proofs.«428332_j82145544503775_2_alg».proof.Proof.KChainB
import proofs.«428332_j82145544503775_2_alg».proof.Proof.KReg4
import proofs.«428332_j82145544503775_2_alg».proof.Proof.KReg5
import proofs.«428332_j82145544503775_2_alg».proof.Proof.KHost4
import proofs.«428332_j82145544503775_2_alg».proof.Proof.KHost4s
import proofs.«428332_j82145544503775_2_alg».proof.Proof.KHost4Wf

set_option maxRecDepth 16384

noncomputable section

namespace Cert.KernelIdeal.Chain

open Cert.KernelIdeal Cert.KernelIdeal.Gen Cert.KernelIdeal.Host Cert.KernelIdeal.Reg
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

section Stages
variable (hR : Ranges m c)
include hR

theorem w24_v124 : W24 m ρ c (Proc.devRef .tc main_v124)
    = Sage.stack2 (Sage.sumUM (HU1 m c) (aRu m c) (aRm m c)) (Sage.sumTM (HT1 m c) (aTt m c) (aTm m c)) := by
  refine (aft4_v124 (W16 m ρ c) (r16_8 m ρ c hR) (r16_11 m ρ c hR)).trans ?_
  rw [w16_v94 m ρ c hR, w16_v105 m ρ c hR, w16_arg8 m ρ c hR, w16_arg9 m ρ c hR, w16_arg10 m ρ c hR, w16_arg11 m ρ c hR]
theorem w24_v117 : W24 m ρ c (Proc.devRef .tc main_v117) = SMU1 m c := by
  refine (aft4_v117 (W16 m ρ c) (r16_9 m ρ c hR)).trans ?_
  rw [w16_v83 m ρ c hR, w16_arg8 m ρ c hR, w16_arg9 m ρ c hR]
theorem w24_v131 : W24 m ρ c (Proc.devRef .tc main_v131) = Sage.stackW2 (aWs m c) 1 0 3 := by
  refine (aft4_v131 (W16 m ρ c)).trans ?_
  rw [w16_v3 m ρ c hR]
  exact stackW2_of_swapped (aWs m c) 1 0 3
theorem w24_v138 : W24 m ρ c (Proc.devRef .tc main_v138) = Sage.stackB2 (aBs m c) 1 0 3 := by
  refine (aft4_v138 (W16 m ρ c)).trans ?_
  rw [w16_v5 m ρ c hR]
  exact stackB2_of_row (aBs m c) 1 0 3
theorem w24_v145 : W24 m ρ c (Proc.devRef .tc main_v145) = Sage.stackW2 (aWn m c) 1 0 3 := by
  refine (aft4_v145 (W16 m ρ c)).trans ?_
  rw [w16_v4 m ρ c hR]
  exact stackW2_of_swapped (aWn m c) 1 0 3
theorem w24_v83 : W24 m ρ c (Proc.devRef .tc main_v83) = HM1 m c :=
  (aft4_keep (W16 m ρ c) main_v83 (by decide)).trans (w16_v83 m ρ c hR)
theorem w24_v40 : W24 m ρ c (Proc.devRef .tc main_v40) = RM m c :=
  (aft4_keep (W16 m ρ c) main_v40 (by decide)).trans (w16_v40 m ρ c hR)
theorem w24_v94 : W24 m ρ c (Proc.devRef .tc main_v94) = HU1 m c :=
  (aft4_keep (W16 m ρ c) main_v94 (by decide)).trans (w16_v94 m ρ c hR)
theorem w24_v41 : W24 m ρ c (Proc.devRef .tc main_v41) = RU m c :=
  (aft4_keep (W16 m ρ c) main_v41 (by decide)).trans (w16_v41 m ρ c hR)
theorem w24_v3 : W24 m ρ c (Proc.devRef .tc main_v3) = WSs m c :=
  (aft4_keep (W16 m ρ c) main_v3 (by decide)).trans (w16_v3 m ρ c hR)
theorem w24_v4 : W24 m ρ c (Proc.devRef .tc main_v4) = WNs m c :=
  (aft4_keep (W16 m ρ c) main_v4 (by decide)).trans (w16_v4 m ρ c hR)
theorem w24_v5 : W24 m ρ c (Proc.devRef .tc main_v5) = BSr m c :=
  (aft4_keep (W16 m ρ c) main_v5 (by decide)).trans (w16_v5 m ρ c hR)

theorem w25_v146 : W25 m ρ c (Proc.devRef .tc main_v146) = OutM m c := by
  refine (W25_arr m ρ c 6).trans ((final4 (V24 m ρ) c).trans ?_)
  show Sage.combine2 (W24 m ρ c (Proc.devRef .tc main_v83)) (W24 m ρ c (Proc.devRef .tc main_v131)) (W24 m ρ c (Proc.devRef .tc main_v138)) (W24 m ρ c (Proc.devRef .tc main_v145)) (W24 m ρ c (Proc.devRef .tc main_v124)) (W24 m ρ c (Proc.devRef .tc main_v40)) = _
  rw [w24_v83 m ρ c hR, w24_v131 m ρ c hR, w24_v138 m ρ c hR, w24_v145 m ρ c hR, w24_v124 m ρ c hR, w24_v40 m ρ c hR]
  exact Sage.combine2_conv (HM1 m c) (aWs m c) (aWn m c) (aBs m c) 1 0 3 (Sage.sumUM (HU1 m c) (aRu m c) (aRm m c)) (Sage.sumTM (HT1 m c) (aTt m c) (aTm m c)) (Sage.degM1 (aRm m c)) (Sage.degM2 (aTm m c))

theorem w25_v117 : W25 m ρ c (Proc.devRef .tc main_v117) = SMU1 m c :=
  (W25_of_ne m ρ c main_v117 (by decide)).trans (w24_v117 m ρ c hR)
theorem w25_v94 : W25 m ρ c (Proc.devRef .tc main_v94) = HU1 m c :=
  (W25_of_ne m ρ c main_v94 (by decide)).trans (w24_v94 m ρ c hR)
theorem w25_v41 : W25 m ρ c (Proc.devRef .tc main_v41) = RU m c :=
  (W25_of_ne m ρ c main_v41 (by decide)).trans (w24_v41 m ρ c hR)
theorem w25_v3 : W25 m ρ c (Proc.devRef .tc main_v3) = WSs m c :=
  (W25_of_ne m ρ c main_v3 (by decide)).trans (w24_v3 m ρ c hR)
theorem w25_v4 : W25 m ρ c (Proc.devRef .tc main_v4) = WNs m c :=
  (W25_of_ne m ρ c main_v4 (by decide)).trans (w24_v4 m ρ c hR)
theorem w25_v5 : W25 m ρ c (Proc.devRef .tc main_v5) = BSr m c :=
  (W25_of_ne m ρ c main_v5 (by decide)).trans (w24_v5 m ρ c hR)

theorem w26_v147 : W26 m ρ c (Proc.devRef .tc main_v147) = Sage.stack1 (SMU1 m c) := by
  refine (hostOps5_v147 (W25 m ρ c)).trans ?_
  rw [w25_v117 m ρ c hR]
theorem w26_v150 : W26 m ρ c (Proc.devRef .tc main_v150) = Sage.stackW1 (aWs m c) 1 1 := by
  refine (hostOps5_v150 (W25 m ρ c)).trans ?_
  rw [w25_v3 m ρ c hR]
  exact Sage.stackW1_of_swapped (aWs m c) 1 1
theorem w26_v153 : W26 m ρ c (Proc.devRef .tc main_v153) = Sage.stackB1 (aBs m c) 1 1 := by
  refine (hostOps5_v153 (W25 m ρ c)).trans ?_
  rw [w25_v5 m ρ c hR]
  exact Sage.stackB1_of_row (aBs m c) 1 1
theorem w26_v156 : W26 m ρ c (Proc.devRef .tc main_v156) = Sage.stackW1 (aWn m c) 1 1 := by
  refine (hostOps5_v156 (W25 m ρ c)).trans ?_
  rw [w25_v4 m ρ c hR]
  exact Sage.stackW1_of_swapped (aWn m c) 1 1
theorem w26_v94 : W26 m ρ c (Proc.devRef .tc main_v94) = HU1 m c :=
  (keep5 (W25 m ρ c) main_v94 (by decide)).trans (w25_v94 m ρ c hR)
theorem w26_v41 : W26 m ρ c (Proc.devRef .tc main_v41) = RU m c :=
  (keep5 (W25 m ρ c) main_v41 (by decide)).trans (w25_v41 m ρ c hR)
theorem w26_v146 : W26 m ρ c (Proc.devRef .tc main_v146) = OutM m c :=
  (keep5 (W25 m ρ c) main_v146 (by decide)).trans (w25_v146 m ρ c hR)

theorem w27_v157 : W27 m ρ c (Proc.devRef .tc main_v157) = OutU m c := by
  refine (W27_arr m ρ c 6).trans ((final5 (V26 m ρ) c).trans ?_)
  show Sage.combine1 (W26 m ρ c (Proc.devRef .tc main_v94)) (W26 m ρ c (Proc.devRef .tc main_v150)) (W26 m ρ c (Proc.devRef .tc main_v153)) (W26 m ρ c (Proc.devRef .tc main_v156)) (W26 m ρ c (Proc.devRef .tc main_v147)) (W26 m ρ c (Proc.devRef .tc main_v41)) = _
  rw [w26_v94 m ρ c hR, w26_v150 m ρ c hR, w26_v153 m ρ c hR, w26_v156 m ρ c hR, w26_v147 m ρ c hR, w26_v41 m ρ c hR]
  exact Sage.combine1_conv (HU1 m c) (aWs m c) (aWn m c) (aBs m c) 1 1 (SMU1 m c) (Sage.degU (aRu m c))

theorem w27_v146 : W27 m ρ c (Proc.devRef .tc main_v146) = OutM m c :=
  (W27_of_ne m ρ c main_v146 (by decide)).trans (w26_v146 m ρ c hR)

theorem w28_v157 : W28 m ρ c (Proc.devRef .tc main_v157) = OutU m c :=
  (keep6 (W27 m ρ c) main_v157 (by decide)).trans (w27_v157 m ρ c hR)
theorem w28_v146 : W28 m ρ c (Proc.devRef .tc main_v146) = OutM m c :=
  (keep6 (W27 m ρ c) main_v146 (by decide)).trans (w27_v146 m ρ c hR)

theorem kernel_u : W29 m ρ c (Proc.devRef .tc main_v157)
    = Sage.outU (aG m c) (aU m c) (aT m c) (aMW m c) (aMb m c) (aWn m c) (aWs m c) (aBs m c) (aRu m c) (aRm m c) (aTm m c) (aTt m c) :=
  (W29_of_ne m ρ c main_v157 (by decide)).trans (w28_v157 m ρ c hR)

theorem kernel_m : W29 m ρ c (Proc.devRef .tc main_v146)
    = Sage.outM (aG m c) (aU m c) (aT m c) (aMW m c) (aMb m c) (aWn m c) (aWs m c) (aBs m c) (aRu m c) (aRm m c) (aTm m c) (aTt m c) :=
  (W29_of_ne m ρ c main_v146 (by decide)).trans (w28_v146 m ρ c hR)

end Stages

end Cert.KernelIdeal.Chain

end
-- ==== Proof.RefOps.lean ====
/-
  The reference's host function read as the list of its operations, window by window; running it leaves in every
  buffer the fold of the operations over the launch contents, and a buffer a window does not write is unchanged by it.
-/
import proofs.«428332_j82145544503775_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ unary main_arg3 main_v0 ((transpose S64x128 [1, 0] · transposes_S128x64_S64x128_1_0) : (⟨S128x64, .f32⟩ : BufTy).Contents (Elt F) → (⟨S64x128, .f32⟩ : BufTy).Contents (Elt F)),
    binary main_arg0 main_v0 main_v1 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg4 main_v2 (broadcastInDim S1x128 ![1] bcast_S128_S1x128_1 : (⟨S128, .f32⟩ : BufTy).Contents (Elt F) → (⟨S1x128, .f32⟩ : BufTy).Contents (Elt F)),
    unary main_v2 main_v3 (broadcastInDim S50000x128 ![0, 1] bcast_S1x128_S50000x128_0_1 : (⟨S1x128, .f32⟩ : BufTy).Contents (Elt F) → (⟨S50000x128, .f32⟩ : BufTy).Contents (Elt F)),
    binary main_v1 main_v3 main_v4 (addf : (⟨S50000x128, .f32⟩ : BufTy).Contents (Elt F) → (⟨S50000x128, .f32⟩ : BufTy).Contents (Elt F) → (⟨S50000x128, .f32⟩ : BufTy).Contents (Elt F)),
    unary main_arg5 main_v5 ((extractStridedSlice S1x1x128x128 ![0, 0, 0, 0] · slices_S2x4x128x128_S1x1x128x128_0_0_0_0) : (⟨S2x4x128x128, .f32⟩ : BufTy).Contents (Elt F) → (⟨S1x1x128x128, .f32⟩ : BufTy).Contents (Elt F)),
    reshape main_v5 main_v6 rfl shapeCasts_S1x1x128x128_S128x128,
    unary main_arg6 main_v7 ((extractStridedSlice S1x1x128x128 ![0, 0, 0, 0] · slices_S2x4x128x128_S1x1x128x128_0_0_0_0) : (⟨S2x4x128x128, .f32⟩ : BufTy).Contents (Elt F) → (⟨S1x1x128x128, .f32⟩ : BufTy).Contents (Elt F)),
    reshape main_v7 main_v8 rfl shapeCasts_S1x1x128x128_S128x128,
    unary main_arg7 main_v9 ((extractStridedSlice S1x1x128 ![0, 0, 0] · slices_S2x4x128_S1x1x128_0_0_0) : (⟨S2x4x128, .f32⟩ : BufTy).Contents (Elt F) → (⟨S1x1x128, .f32⟩ : BufTy).Contents (Elt F)),
    reshape main_v9 main_v10 rfl shapeCasts_S1x1x128_S128,
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_arg8 main_v11 main_v12 (cmpi .slt : (⟨S800000, .i32⟩ : BufTy).Contents (Elt F) → (⟨S800000, .i32⟩ : BufTy).Contents (Elt F) → (⟨S800000, .i1⟩ : BufTy).Contents (Elt F)),
    nullary main_c_0 (constantI S_ 32 200000#32),
    unary main_c_0 main_v13 (broadcastInDim S800000 ![] bcast_S_S800000 : (⟨S_, .i32⟩ : BufTy).Contents (Elt F) → (⟨S800000, .i32⟩ : BufTy).Contents (Elt F)),
    binary main_arg8 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_arg8 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg1 main_v16 main_v17 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v18 (broadcastInDim S50000x128 ![] bcast_S_S50000x128 : (⟨S_, .f32⟩ : BufTy).Contents (Elt F) → (⟨S50000x128, .f32⟩ : BufTy).Contents (Elt F)),
    unary main_arg9 main_v19 (broadcastInDim S800000x1 ![0] bcast_S800000_S800000x1_0 : (⟨S800000, .i32⟩ : BufTy).Contents (Elt F) → (⟨S800000x1, .i32⟩ : BufTy).Contents (Elt F)),
    ternary main_v18 main_v19 main_v17 main_v20 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v21 (broadcastInDim S800000x1 ![] bcast_S_S800000x1 : (⟨S_, .f32⟩ : BufTy).Contents (Elt F) → (⟨S800000x1, .f32⟩ : BufTy).Contents (Elt F)),
    nullary main_cst_2 (constant S_ .f32 0x00000000#32),
    unary main_cst_2 main_v22 (broadcastInDim S50000x1 ![] bcast_S_S50000x1 : (⟨S_, .f32⟩ : BufTy).Contents (Elt F) → (⟨S50000x1, .f32⟩ : BufTy).Contents (Elt F)),
    unary main_arg9 main_v23 (broadcastInDim S800000x1 ![0] bcast_S800000_S800000x1_0 : (⟨S800000, .i32⟩ : BufTy).Contents (Elt F) → (⟨S800000x1, .i32⟩ : BufTy).Contents (Elt F)),
    ternary main_v22 main_v23 main_v21 main_v24 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_3 (constant S_ .f32 0x3F800000#32),
    unary main_cst_3 main_v25 (broadcastInDim S50000x1 ![] bcast_S_S50000x1 : (⟨S_, .f32⟩ : BufTy).Contents (Elt F) → (⟨S50000x1, .f32⟩ : BufTy).Contents (Elt F)),
    binary main_v24 main_v25 main_v26 (maximumf : (⟨S50000x1, .f32⟩ : BufTy).Contents (Elt F) → (⟨S50000x1, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v20 main_v27 main_v28 (Host.divf : (⟨S50000x128, .f32⟩ : BufTy).Contents (Elt F) → (⟨S50000x128, .f32⟩ : BufTy).Contents (Elt F) → (⟨S50000x128, .f32⟩ : BufTy).Contents (Elt F)),
    unary main_v8 main_v29 ((transpose S128x128 [1, 0] · transposes_S128x128_S128x128_1_0) : (⟨S128x128, .f32⟩ : BufTy).Contents (Elt F) → (⟨S128x128, .f32⟩ : BufTy).Contents (Elt F)),
    binary main_v4 main_v29 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v10 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)),
    unary main_v6 main_v34 ((transpose S128x128 [1, 0] · transposes_S128x128_S128x128_1_0) : (⟨S128x128, .f32⟩ : BufTy).Contents (Elt F) → (⟨S128x128, .f32⟩ : BufTy).Contents (Elt F)),
    binary main_v28 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v33 main_v35 main_v36 (addf : (⟨S50000x128, .f32⟩ : BufTy).Contents (Elt F) → (⟨S50000x128, .f32⟩ : BufTy).Contents (Elt F) → (⟨S50000x128, .f32⟩ : BufTy).Contents (Elt F)),
    unary main_arg5 main_v37 ((extractStridedSlice S1x1x128x128 ![0, 3, 0, 0] · slices_S2x4x128x128_S1x1x128x128_0_3_0_0) : (⟨S2x4x128x128, .f32⟩ : BufTy).Contents (Elt F) → (⟨S1x1x128x128, .f32⟩ : BufTy).Contents (Elt F)),
    reshape main_v37 main_v38 rfl shapeCasts_S1x1x128x128_S128x128,
    unary main_arg6 main_v39 ((extractStridedSlice S1x1x128x128 ![0, 3, 0, 0] · slices_S2x4x128x128_S1x1x128x128_0_3_0_0) : (⟨S2x4x128x128, .f32⟩ : BufTy).Contents (Elt F) → (⟨S1x1x128x128, .f32⟩ : BufTy).Contents (Elt F)),
    reshape main_v39 main_v40 rfl shapeCasts_S1x1x128x128_S128x128,
    unary main_arg7 main_v41 ((extractStridedSlice S1x1x128 ![0, 3, 0] · slices_S2x4x128_S1x1x128_0_3_0) : (⟨S2x4x128, .f32⟩ : BufTy).Contents (Elt F) → (⟨S1x1x128, .f32⟩ : BufTy).Contents (Elt F)),
    reshape main_v41 main_v42 rfl shapeCasts_S1x1x128_S128,
    nullary main_c_4 (constantI S_ 32 0#32),
    unary main_c_4 main_v43 (broadcastInDim S400000 ![] bcast_S_S400000 : (⟨S_, .i32⟩ : BufTy).Contents (Elt F) → (⟨S400000, .i32⟩ : BufTy).Contents (Elt F)),
    binary main_arg11 main_v43 main_v44 (cmpi .slt : (⟨S400000, .i32⟩ : BufTy).Contents (Elt F) → (⟨S400000, .i32⟩ : BufTy).Contents (Elt F) → (⟨S400000, .i1⟩ : BufTy).Contents (Elt F)),
    nullary main_c_5 (constantI S_ 32 20000#32),
    unary main_c_5 main_v45 (broadcastInDim S400000 ![] bcast_S_S400000 : (⟨S_, .i32⟩ : BufTy).Contents (Elt F) → (⟨S400000, .i32⟩ : BufTy).Contents (Elt F)),
    binary main_arg11 main_v45 main_v46 (addi : (⟨S400000, .i32⟩ : BufTy).Contents (Elt F) → (⟨S400000, .i32⟩ : BufTy).Contents (Elt F) → (⟨S400000, .i32⟩ : BufTy).Contents (Elt F)),
    ternary main_v44 main_v46 main_arg11 main_v47 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v47 main_v48 (broadcastInDim S400000x1 ![0] bcast_S400000_S400000x1_0 : (⟨S400000, .i32⟩ : BufTy).Contents (Elt F) → (⟨S400000x1, .i32⟩ : BufTy).Contents (Elt F)),
    binary main_arg2 main_v48 main_v49 ((fun x i => Host.gather gather_S20000x128_S400000x1_S400000x128_1_0_n_n_0_1_1128 x i) : (⟨S20000x128, .f32⟩ : BufTy).Contents (Elt F) → (⟨S400000x1, .i32⟩ : BufTy).Contents (Elt F) → (⟨S400000x128, .f32⟩ : BufTy).Contents (Elt F)),
    nullary main_cst_6 (constant S_ .f32 0x00000000#32),
    unary main_cst_6 main_v50 (broadcastInDim S50000x128 ![] bcast_S_S50000x128 : (⟨S_, .f32⟩ : BufTy).Contents (Elt F) → (⟨S50000x128, .f32⟩ : BufTy).Contents (Elt F)) ]

abbrev ops_part1 : List (HloOp τ sig (Elt F)) :=
  [ unary main_arg10 main_v51 (broadcastInDim S400000x1 ![0] bcast_S400000_S400000x1_0 : (⟨S400000, .i32⟩ : BufTy).Contents (Elt F) → (⟨S400000x1, .i32⟩ : BufTy).Contents (Elt F)),
    ternary main_v50 main_v51 main_v49 main_v52 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_7 (constant S_ .f32 0x3F800000#32),
    unary main_cst_7 main_v53 (broadcastInDim S400000x1 ![] bcast_S_S400000x1 : (⟨S_, .f32⟩ : BufTy).Contents (Elt F) → (⟨S400000x1, .f32⟩ : BufTy).Contents (Elt F)),
    nullary main_cst_8 (constant S_ .f32 0x00000000#32),
    unary main_cst_8 main_v54 (broadcastInDim S50000x1 ![] bcast_S_S50000x1 : (⟨S_, .f32⟩ : BufTy).Contents (Elt F) → (⟨S50000x1, .f32⟩ : BufTy).Contents (Elt F)),
    unary main_arg10 main_v55 (broadcastInDim S400000x1 ![0] bcast_S400000_S400000x1_0 : (⟨S400000, .i32⟩ : BufTy).Contents (Elt F) → (⟨S400000x1, .i32⟩ : BufTy).Contents (Elt F)),
    ternary main_v54 main_v55 main_v53 main_v56 ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)),
    nullary main_cst_9 (constant S_ .f32 0x3F800000#32),
    unary main_cst_9 main_v57 (broadcastInDim S50000x1 ![] bcast_S_S50000x1 : (⟨S_, .f32⟩ : BufTy).Contents (Elt F) → (⟨S50000x1, .f32⟩ : BufTy).Contents (Elt F)),
    binary main_v56 main_v57 main_v58 (maximumf : (⟨S50000x1, .f32⟩ : BufTy).Contents (Elt F) → (⟨S50000x1, .f32⟩ : BufTy).Contents (Elt F) → (⟨S50000x1, .f32⟩ : BufTy).Contents (Elt F)),
    unary main_v58 main_v59 (broadcastInDim S50000x128 ![0, 1] bcast_S50000x1_S50000x128_0_1 : (⟨S50000x1, .f32⟩ : BufTy).Contents (Elt F) → (⟨S50000x128, .f32⟩ : BufTy).Contents (Elt F)),
    binary main_v52 main_v59 main_v60 (Host.divf : (⟨S50000x128, .f32⟩ : BufTy).Contents (Elt F) → (⟨S50000x128, .f32⟩ : BufTy).Contents (Elt F) → (⟨S50000x128, .f32⟩ : BufTy).Contents (Elt F)),
    unary main_v40 main_v61 ((transpose S128x128 [1, 0] · transposes_S128x128_S128x128_1_0) : (⟨S128x128, .f32⟩ : BufTy).Contents (Elt F) → (⟨S128x128, .f32⟩ : BufTy).Contents (Elt F)),
    binary main_v4 main_v61 main_v62 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v42 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v62 main_v64 main_v65 (addf : (⟨S50000x128, .f32⟩ : BufTy).Contents (Elt F) → (⟨S50000x128, .f32⟩ : BufTy).Contents (Elt F) → (⟨S50000x128, .f32⟩ : BufTy).Contents (Elt F)),
    unary main_v38 main_v66 ((transpose S128x128 [1, 0] · transposes_S128x128_S128x128_1_0) : (⟨S128x128, .f32⟩ : BufTy).Contents (Elt F) → (⟨S128x128, .f32⟩ : BufTy).Contents (Elt F)),
    binary main_v60 main_v66 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v65 main_v67 main_v68 (addf : (⟨S50000x128, .f32⟩ : BufTy).Contents (Elt F) → (⟨S50000x128, .f32⟩ : BufTy).Contents (Elt F) → (⟨S50000x128, .f32⟩ : BufTy).Contents (Elt F)),
    binary main_v36 main_v68 main_v69 (addf : (⟨S50000x128, .f32⟩ : BufTy).Contents (Elt F) → (⟨S50000x128, .f32⟩ : BufTy).Contents (Elt F) → (⟨S50000x128, .f32⟩ : BufTy).Contents (Elt F)),
    unary main_arg5 main_v70 ((extractStridedSlice S1x1x128x128 ![0, 1, 0, 0] · slices_S2x4x128x128_S1x1x128x128_0_1_0_0) : (⟨S2x4x128x128, .f32⟩ : BufTy).Contents (Elt F) → (⟨S1x1x128x128, .f32⟩ : BufTy).Contents (Elt F)),
    reshape main_v70 main_v71 rfl shapeCasts_S1x1x128x128_S128x128,
    unary main_arg6 main_v72 ((extractStridedSlice S1x1x128x128 ![0, 1, 0, 0] · slices_S2x4x128x128_S1x1x128x128_0_1_0_0) : (⟨S2x4x128x128, .f32⟩ : BufTy).Contents (Elt F) → (⟨S1x1x128x128, .f32⟩ : BufTy).Contents (Elt F)),
    reshape main_v72 main_v73 rfl shapeCasts_S1x1x128x128_S128x128,
    unary main_arg7 main_v74 ((extractStridedSlice S1x1x128 ![0, 1, 0] · slices_S2x4x128_S1x1x128_0_1_0) : (⟨S2x4x128, .f32⟩ : BufTy).Contents (Elt F) → (⟨S1x1x128, .f32⟩ : BufTy).Contents (Elt F)),
    reshape main_v74 main_v75 rfl shapeCasts_S1x1x128_S128,
    nullary main_c_10 (constantI S_ 32 0#32),
    unary main_c_10 main_v76 (broadcastInDim S800000 ![] bcast_S_S800000 : (⟨S_, .i32⟩ : BufTy).Contents (Elt F) → (⟨S800000, .i32⟩ : BufTy).Contents (Elt F)),
    binary main_arg9 main_v76 main_v77 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v78 (broadcastInDim S800000 ![] bcast_S_S800000 : (⟨S_, .i32⟩ : BufTy).Contents (Elt F) → (⟨S800000, .i32⟩ : BufTy).Contents (Elt F)),
    binary main_arg9 main_v78 main_v79 (addi : (⟨S800000, .i32⟩ : BufTy).Contents (Elt F) → (⟨S800000, .i32⟩ : BufTy).Contents (Elt F) → (⟨S800000, .i32⟩ : BufTy).Contents (Elt F)),
    ternary main_v77 main_v79 main_arg9 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v80 main_v81 (broadcastInDim S800000x1 ![0] bcast_S800000_S800000x1_0 : (⟨S800000, .i32⟩ : BufTy).Contents (Elt F) → (⟨S800000x1, .i32⟩ : BufTy).Contents (Elt F)),
    binary main_v4 main_v81 main_v82 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v83 (broadcastInDim S200000x128 ![] bcast_S_S200000x128 : (⟨S_, .f32⟩ : BufTy).Contents (Elt F) → (⟨S200000x128, .f32⟩ : BufTy).Contents (Elt F)),
    unary main_arg8 main_v84 (broadcastInDim S800000x1 ![0] bcast_S800000_S800000x1_0 : (⟨S800000, .i32⟩ : BufTy).Contents (Elt F) → (⟨S800000x1, .i32⟩ : BufTy).Contents (Elt F)),
    ternary main_v83 main_v84 main_v82 main_v85 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    nullary main_cst_13 (constant S_ .f32 0x3F800000#32),
    unary main_cst_13 main_v86 (broadcastInDim S800000x1 ![] bcast_S_S800000x1 : (⟨S_, .f32⟩ : BufTy).Contents (Elt F) → (⟨S800000x1, .f32⟩ : BufTy).Contents (Elt F)),
    nullary main_cst_14 (constant S_ .f32 0x00000000#32),
    unary main_cst_14 main_v87 (broadcastInDim S200000x1 ![] bcast_S_S200000x1 : (⟨S_, .f32⟩ : BufTy).Contents (Elt F) → (⟨S200000x1, .f32⟩ : BufTy).Contents (Elt F)),
    unary main_arg8 main_v88 (broadcastInDim S800000x1 ![0] bcast_S800000_S800000x1_0 : (⟨S800000, .i32⟩ : BufTy).Contents (Elt F) → (⟨S800000x1, .i32⟩ : BufTy).Contents (Elt F)),
    ternary main_v87 main_v88 main_v86 main_v89 ((fun x i u => Host.scatterAdd scatter_S200000x1_S800000x1_S800000x1_1_0_0_1 x i u) : (⟨S200000x1, .f32⟩ : BufTy).Contents (Elt F) → (⟨S800000x1, .i32⟩ : BufTy).Contents (Elt F) → (⟨S800000x1, .f32⟩ : BufTy).Contents (Elt F) → (⟨S200000x1, .f32⟩ : BufTy).Contents (Elt F)),
    nullary main_cst_15 (constant S_ .f32 0x3F800000#32),
    unary main_cst_15 main_v90 (broadcastInDim S200000x1 ![] bcast_S_S200000x1 : (⟨S_, .f32⟩ : BufTy).Contents (Elt F) → (⟨S200000x1, .f32⟩ : BufTy).Contents (Elt F)),
    binary main_v89 main_v90 main_v91 (maximumf : (⟨S200000x1, .f32⟩ : BufTy).Contents (Elt F) → (⟨S200000x1, .f32⟩ : BufTy).Contents (Elt F) → (⟨S200000x1, .f32⟩ : BufTy).Contents (Elt F)),
    unary main_v91 main_v92 (broadcastInDim S200000x128 ![0, 1] bcast_S200000x1_S200000x128_0_1 : (⟨S200000x1, .f32⟩ : BufTy).Contents (Elt F) → (⟨S200000x128, .f32⟩ : BufTy).Contents (Elt F)),
    binary main_v85 main_v92 main_v93 (Host.divf : (⟨S200000x128, .f32⟩ : BufTy).Contents (Elt F) → (⟨S200000x128, .f32⟩ : BufTy).Contents (Elt F) → (⟨S200000x128, .f32⟩ : BufTy).Contents (Elt F)),
    unary main_v73 main_v94 ((transpose S128x128 [1, 0] · transposes_S128x128_S128x128_1_0) : (⟨S128x128, .f32⟩ : BufTy).Contents (Elt F) → (⟨S128x128, .f32⟩ : BufTy).Contents (Elt F)),
    binary main_arg1 main_v94 main_v95 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_v75 main_v96 (broadcastInDim S1x128 ![1] bcast_S128_S1x128_1 : (⟨S128, .f32⟩ : BufTy).Contents (Elt F) → (⟨S1x128, .f32⟩ : BufTy).Contents (Elt F)),
    unary main_v96 main_v97 (broadcastInDim S200000x128 ![0, 1] bcast_S1x128_S200000x128_0_1 : (⟨S1x128, .f32⟩ : BufTy).Contents (Elt F) → (⟨S200000x128, .f32⟩ : BufTy).Contents (Elt F)),
    binary main_v95 main_v97 main_v98 (addf : (⟨S200000x128, .f32⟩ : BufTy).Contents (Elt F) → (⟨S200000x128, .f32⟩ : BufTy).Contents (Elt F) → (⟨S200000x128, .f32⟩ : BufTy).Contents (Elt F)),
    unary main_v71 main_v99 ((transpose S128x128 [1, 0] · transposes_S128x128_S128x128_1_0) : (⟨S128x128, .f32⟩ : BufTy).Contents (Elt F) → (⟨S128x128, .f32⟩ : BufTy).Contents (Elt F)),
    binary main_v93 main_v99 main_v100 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v98 main_v100 main_v101 (addf : (⟨S200000x128, .f32⟩ : BufTy).Contents (Elt F) → (⟨S200000x128, .f32⟩ : BufTy).Contents (Elt F) → (⟨S200000x128, .f32⟩ : BufTy).Contents (Elt F)) ]

abbrev ops_part2 : List (HloOp τ sig (Elt F)) :=
  [ unary main_arg5 main_v102 ((extractStridedSlice S1x1x128x128 ![0, 2, 0, 0] · slices_S2x4x128x128_S1x1x128x128_0_2_0_0) : (⟨S2x4x128x128, .f32⟩ : BufTy).Contents (Elt F) → (⟨S1x1x128x128, .f32⟩ : BufTy).Contents (Elt F)),
    reshape main_v102 main_v103 rfl shapeCasts_S1x1x128x128_S128x128,
    unary main_arg6 main_v104 ((extractStridedSlice S1x1x128x128 ![0, 2, 0, 0] · slices_S2x4x128x128_S1x1x128x128_0_2_0_0) : (⟨S2x4x128x128, .f32⟩ : BufTy).Contents (Elt F) → (⟨S1x1x128x128, .f32⟩ : BufTy).Contents (Elt F)),
    reshape main_v104 main_v105 rfl shapeCasts_S1x1x128x128_S128x128,
    unary main_arg7 main_v106 ((extractStridedSlice S1x1x128 ![0, 2, 0] · slices_S2x4x128_S1x1x128_0_2_0) : (⟨S2x4x128, .f32⟩ : BufTy).Contents (Elt F) → (⟨S1x1x128, .f32⟩ : BufTy).Contents (Elt F)),
    reshape main_v106 main_v107 rfl shapeCasts_S1x1x128_S128,
    nullary main_c_16 (constantI S_ 32 0#32),
    unary main_c_16 main_v108 (broadcastInDim S400000 ![] bcast_S_S400000 : (⟨S_, .i32⟩ : BufTy).Contents (Elt F) → (⟨S400000, .i32⟩ : BufTy).Contents (Elt F)),
    binary main_arg10 main_v108 main_v109 (cmpi .slt : (⟨S400000, .i32⟩ : BufTy).Contents (Elt F) → (⟨S400000, .i32⟩ : BufTy).Contents (Elt F) → (⟨S400000, .i1⟩ : BufTy).Contents (Elt F)),
    nullary main_c_17 (constantI S_ 32 50000#32),
    unary main_c_17 main_v110 (broadcastInDim S400000 ![] bcast_S_S400000 : (⟨S_, .i32⟩ : BufTy).Contents (Elt F) → (⟨S400000, .i32⟩ : BufTy).Contents (Elt F)),
    binary main_arg10 main_v110 main_v111 (addi : (⟨S400000, .i32⟩ : BufTy).Contents (Elt F) → (⟨S400000, .i32⟩ : BufTy).Contents (Elt F) → (⟨S400000, .i32⟩ : BufTy).Contents (Elt F)),
    ternary main_v109 main_v111 main_arg10 main_v112 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v112 main_v113 (broadcastInDim S400000x1 ![0] bcast_S400000_S400000x1_0 : (⟨S400000, .i32⟩ : BufTy).Contents (Elt F) → (⟨S400000x1, .i32⟩ : BufTy).Contents (Elt F)),
    binary main_v4 main_v113 main_v114 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_18 (constant S_ .f32 0x00000000#32),
    unary main_cst_18 main_v115 (broadcastInDim S20000x128 ![] bcast_S_S20000x128 : (⟨S_, .f32⟩ : BufTy).Contents (Elt F) → (⟨S20000x128, .f32⟩ : BufTy).Contents (Elt F)),
    unary main_arg11 main_v116 (broadcastInDim S400000x1 ![0] bcast_S400000_S400000x1_0 : (⟨S400000, .i32⟩ : BufTy).Contents (Elt F) → (⟨S400000x1, .i32⟩ : BufTy).Contents (Elt F)),
    ternary main_v115 main_v116 main_v114 main_v117 ((fun x i u => Host.scatterAdd scatter_S20000x128_S400000x1_S400000x128_1_0_0_1 x i u) : (⟨S20000x128, .f32⟩ : BufTy).Contents (Elt F) → (⟨S400000x1, .i32⟩ : BufTy).Contents (Elt F) → (⟨S400000x128, .f32⟩ : BufTy).Contents (Elt F) → (⟨S20000x128, .f32⟩ : BufTy).Contents (Elt F)),
    nullary main_cst_19 (constant S_ .f32 0x3F800000#32),
    unary main_cst_19 main_v118 (broadcastInDim S400000x1 ![] bcast_S_S400000x1 : (⟨S_, .f32⟩ : BufTy).Contents (Elt F) → (⟨S400000x1, .f32⟩ : BufTy).Contents (Elt F)),
    nullary main_cst_20 (constant S_ .f32 0x00000000#32),
    unary main_cst_20 main_v119 (broadcastInDim S20000x1 ![] bcast_S_S20000x1 : (⟨S_, .f32⟩ : BufTy).Contents (Elt F) → (⟨S20000x1, .f32⟩ : BufTy).Contents (Elt F)),
    unary main_arg11 main_v120 (broadcastInDim S400000x1 ![0] bcast_S400000_S400000x1_0 : (⟨S400000, .i32⟩ : BufTy).Contents (Elt F) → (⟨S400000x1, .i32⟩ : BufTy).Contents (Elt F)),
    ternary main_v119 main_v120 main_v118 main_v121 ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F)),
    nullary main_cst_21 (constant S_ .f32 0x3F800000#32),
    unary main_cst_21 main_v122 (broadcastInDim S20000x1 ![] bcast_S_S20000x1 : (⟨S_, .f32⟩ : BufTy).Contents (Elt F) → (⟨S20000x1, .f32⟩ : BufTy).Contents (Elt F)),
    binary main_v121 main_v122 main_v123 (maximumf : (⟨S20000x1, .f32⟩ : BufTy).Contents (Elt F) → (⟨S20000x1, .f32⟩ : BufTy).Contents (Elt F) → (⟨S20000x1, .f32⟩ : BufTy).Contents (Elt F)),
    unary main_v123 main_v124 (broadcastInDim S20000x128 ![0, 1] bcast_S20000x1_S20000x128_0_1 : (⟨S20000x1, .f32⟩ : BufTy).Contents (Elt F) → (⟨S20000x128, .f32⟩ : BufTy).Contents (Elt F)),
    binary main_v117 main_v124 main_v125 (Host.divf : (⟨S20000x128, .f32⟩ : BufTy).Contents (Elt F) → (⟨S20000x128, .f32⟩ : BufTy).Contents (Elt F) → (⟨S20000x128, .f32⟩ : BufTy).Contents (Elt F)),
    unary main_v105 main_v126 ((transpose S128x128 [1, 0] · transposes_S128x128_S128x128_1_0) : (⟨S128x128, .f32⟩ : BufTy).Contents (Elt F) → (⟨S128x128, .f32⟩ : BufTy).Contents (Elt F)),
    binary main_arg2 main_v126 main_v127 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v107 main_v128 (broadcastInDim S1x128 ![1] bcast_S128_S1x128_1 : (⟨S128, .f32⟩ : BufTy).Contents (Elt F) → (⟨S1x128, .f32⟩ : BufTy).Contents (Elt F)),
    unary main_v128 main_v129 (broadcastInDim S20000x128 ![0, 1] bcast_S1x128_S20000x128_0_1 : (⟨S1x128, .f32⟩ : BufTy).Contents (Elt F) → (⟨S20000x128, .f32⟩ : BufTy).Contents (Elt F)),
    binary main_v127 main_v129 main_v130 (addf : (⟨S20000x128, .f32⟩ : BufTy).Contents (Elt F) → (⟨S20000x128, .f32⟩ : BufTy).Contents (Elt F) → (⟨S20000x128, .f32⟩ : BufTy).Contents (Elt F)),
    unary main_v103 main_v131 ((transpose S128x128 [1, 0] · transposes_S128x128_S128x128_1_0) : (⟨S128x128, .f32⟩ : BufTy).Contents (Elt F) → (⟨S128x128, .f32⟩ : BufTy).Contents (Elt F)),
    binary main_v125 main_v131 main_v132 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v130 main_v132 main_v133 (addf : (⟨S20000x128, .f32⟩ : BufTy).Contents (Elt F) → (⟨S20000x128, .f32⟩ : BufTy).Contents (Elt F) → (⟨S20000x128, .f32⟩ : BufTy).Contents (Elt F)),
    nullary main_cst_22 (constant S_ .f32 0x3DCCCCCD#32),
    TRef.nullary (.of main_call0_cst : TRef sig ⟨S_, .f32⟩) (constant S_ .f32 0x00000000#32),
    TRef.unary (.of main_call0_cst : TRef sig ⟨S_, .f32⟩) (.of main_call0_v0 : TRef sig ⟨S200000x128, .f32⟩) (broadcastInDim S200000x128 ![] bcast_S_S200000x128),
    TRef.binary (.of main_v101 : TRef sig ⟨S200000x128, .f32⟩) (.of main_call0_v0 : TRef sig ⟨S200000x128, .f32⟩) (.of main_call0_v1 : TRef sig ⟨S200000x128, .i1⟩) (cmpf .oge),
    TRef.unary (.of main_cst_22 : TRef sig ⟨S_, .f32⟩) (.of main_call0_v2 : TRef sig ⟨S_, .f32⟩) id,
    TRef.unary (.of main_call0_v2 : TRef sig ⟨S_, .f32⟩) (.of main_call0_v3 : TRef sig ⟨S200000x128, .f32⟩) (broadcastInDim S200000x128 ![] bcast_S_S200000x128),
    TRef.binary (.of main_call0_v3 : TRef sig ⟨S200000x128, .f32⟩) (.of main_v101 : TRef sig ⟨S200000x128, .f32⟩) (.of main_call0_v4 : TRef sig ⟨S200000x128, .f32⟩) mulf,
    TRef.ternary (.of main_call0_v1 : TRef sig ⟨S200000x128, .i1⟩) (.of main_v101 : TRef sig ⟨S200000x128, .f32⟩) (.of main_call0_v4 : TRef sig ⟨S200000x128, .f32⟩) (.of main_v134 : TRef sig ⟨S200000x128, .f32⟩) select,
    nullary main_cst_23 (constant S_ .f32 0x3DCCCCCD#32),
    TRef.nullary (.of main_call1_cst : TRef sig ⟨S_, .f32⟩) (constant S_ .f32 0x00000000#32),
    TRef.unary (.of main_call1_cst : TRef sig ⟨S_, .f32⟩) (.of main_call1_v0 : TRef sig ⟨S50000x128, .f32⟩) (broadcastInDim S50000x128 ![] bcast_S_S50000x128),
    TRef.binary (.of main_v69 : TRef sig ⟨S50000x128, .f32⟩) (.of main_call1_v0 : TRef sig ⟨S50000x128, .f32⟩) (.of main_call1_v1 : TRef sig ⟨S50000x128, .i1⟩) (cmpf .oge),
    TRef.unary (.of main_cst_23 : TRef sig ⟨S_, .f32⟩) (.of main_call1_v2 : TRef sig ⟨S_, .f32⟩) id,
    TRef.unary (.of main_call1_v2 : TRef sig ⟨S_, .f32⟩) (.of main_call1_v3 : TRef sig ⟨S50000x128, .f32⟩) (broadcastInDim S50000x128 ![] bcast_S_S50000x128),
    TRef.binary (.of main_call1_v3 : TRef sig ⟨S50000x128, .f32⟩) (.of main_v69 : TRef sig ⟨S50000x128, .f32⟩) (.of main_call1_v4 : TRef sig ⟨S50000x128, .f32⟩) mulf,
    TRef.ternary (.of main_call1_v1 : TRef sig ⟨S50000x128, .i1⟩) (.of main_v69 : TRef sig ⟨S50000x128, .f32⟩) (.of main_call1_v4 : TRef sig ⟨S50000x128, .f32⟩) (.of main_v135 : TRef sig ⟨S50000x128, .f32⟩) select,
    nullary main_cst_24 (constant S_ .f32 0x3DCCCCCD#32),
    TRef.nullary (.of main_call2_cst : TRef sig ⟨S_, .f32⟩) (constant S_ .f32 0x00000000#32),
    TRef.unary (.of main_call2_cst : TRef sig ⟨S_, .f32⟩) (.of main_call2_v0 : TRef sig ⟨S20000x128, .f32⟩) (broadcastInDim S20000x128 ![] bcast_S_S20000x128),
    TRef.binary (.of main_v133 : TRef sig ⟨S20000x128, .f32⟩) (.of main_call2_v0 : TRef sig ⟨S20000x128, .f32⟩) (.of main_call2_v1 : TRef sig ⟨S20000x128, .i1⟩) (cmpf .oge),
    TRef.unary (.of main_cst_24 : TRef sig ⟨S_, .f32⟩) (.of main_call2_v2 : TRef sig ⟨S_, .f32⟩) id,
    TRef.unary (.of main_call2_v2 : TRef sig ⟨S_, .f32⟩) (.of main_call2_v3 : TRef sig ⟨S20000x128, .f32⟩) (broadcastInDim S20000x128 ![] bcast_S_S20000x128),
    TRef.binary (.of main_call2_v3 : TRef sig ⟨S20000x128, .f32⟩) (.of main_v133 : TRef sig ⟨S20000x128, .f32⟩) (.of main_call2_v4 : TRef sig ⟨S20000x128, .f32⟩) mulf,
    TRef.ternary (.of main_call2_v1 : TRef sig ⟨S20000x128, .i1⟩) (.of main_v133 : TRef sig ⟨S20000x128, .f32⟩) (.of main_call2_v4 : TRef sig ⟨S20000x128, .f32⟩) (.of main_v136 : TRef sig ⟨S20000x128, .f32⟩) select,
    unary main_arg5 main_v137 ((extractStridedSlice S1x1x128x128 ![1, 0, 0, 0] · slices_S2x4x128x128_S1x1x128x128_1_0_0_0) : (⟨S2x4x128x128, .f32⟩ : BufTy).Contents (Elt F) → (⟨S1x1x128x128, .f32⟩ : BufTy).Contents (Elt F)),
    reshape main_v137 main_v138 rfl shapeCasts_S1x1x128x128_S128x128,
    unary main_arg6 main_v139 ((extractStridedSlice S1x1x128x128 ![1, 0, 0, 0] · slices_S2x4x128x128_S1x1x128x128_1_0_0_0) : (⟨S2x4x128x128, .f32⟩ : BufTy).Contents (Elt F) → (⟨S1x1x128x128, .f32⟩ : BufTy).Contents (Elt F)),
    reshape main_v139 main_v140 rfl shapeCasts_S1x1x128x128_S128x128,
    unary main_arg7 main_v141 ((extractStridedSlice S1x1x128 ![1, 0, 0] · slices_S2x4x128_S1x1x128_1_0_0) : (⟨S2x4x128, .f32⟩ : BufTy).Contents (Elt F) → (⟨S1x1x128, .f32⟩ : BufTy).Contents (Elt F)),
    reshape main_v141 main_v142 rfl shapeCasts_S1x1x128_S128,
    nullary main_c_25 (constantI S_ 32 0#32),
    unary main_c_25 main_v143 (broadcastInDim S800000 ![] bcast_S_S800000 : (⟨S_, .i32⟩ : BufTy).Contents (Elt F) → (⟨S800000, .i32⟩ : BufTy).Contents (Elt F)),
    binary main_arg8 main_v143 main_v144 (cmpi .slt : (⟨S800000, .i32⟩ : BufTy).Contents (Elt F) → (⟨S800000, .i32⟩ : BufTy).Contents (Elt F) → (⟨S800000, .i1⟩ : BufTy).Contents (Elt F)),
    nullary main_c_26 (constantI S_ 32 200000#32),
    unary main_c_26 main_v145 (broadcastInDim S800000 ![] bcast_S_S800000 : (⟨S_, .i32⟩ : BufTy).Contents (Elt F) → (⟨S800000, .i32⟩ : BufTy).Contents (Elt F)),
    binary main_arg8 main_v145 main_v146 (addi : (⟨S800000, .i32⟩ : BufTy).Contents (Elt F) → (⟨S800000, .i32⟩ : BufTy).Contents (Elt F) → (⟨S800000, .i32⟩ : BufTy).Contents (Elt F)),
    ternary main_v144 main_v146 main_arg8 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v147 main_v148 (broadcastInDim S800000x1 ![0] bcast_S800000_S800000x1_0 : (⟨S800000, .i32⟩ : BufTy).Contents (Elt F) → (⟨S800000x1, .i32⟩ : BufTy).Contents (Elt F)),
    binary main_v134 main_v148 main_v149 ((fun x i => Host.gather gather_S200000x128_S800000x1_S800000x128_1_0_n_n_0_1_1128 x i) : (⟨S200000x128, .f32⟩ : BufTy).Contents (Elt F) → (⟨S800000x1, .i32⟩ : BufTy).Contents (Elt F) → (⟨S800000x128, .f32⟩ : BufTy).Contents (Elt F)),
    nullary main_cst_27 (constant S_ .f32 0x00000000#32) ]

abbrev ops_part3 : List (HloOp τ sig (Elt F)) :=
  [ unary main_cst_27 main_v150 (broadcastInDim S50000x128 ![] bcast_S_S50000x128 : (⟨S_, .f32⟩ : BufTy).Contents (Elt F) → (⟨S50000x128, .f32⟩ : BufTy).Contents (Elt F)),
    unary main_arg9 main_v151 (broadcastInDim S800000x1 ![0] bcast_S800000_S800000x1_0 : (⟨S800000, .i32⟩ : BufTy).Contents (Elt F) → (⟨S800000x1, .i32⟩ : BufTy).Contents (Elt F)),
    ternary main_v150 main_v151 main_v149 main_v152 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_28 (constant S_ .f32 0x3F800000#32),
    unary main_cst_28 main_v153 (broadcastInDim S800000x1 ![] bcast_S_S800000x1 : (⟨S_, .f32⟩ : BufTy).Contents (Elt F) → (⟨S800000x1, .f32⟩ : BufTy).Contents (Elt F)),
    nullary main_cst_29 (constant S_ .f32 0x00000000#32),
    unary main_cst_29 main_v154 (broadcastInDim S50000x1 ![] bcast_S_S50000x1 : (⟨S_, .f32⟩ : BufTy).Contents (Elt F) → (⟨S50000x1, .f32⟩ : BufTy).Contents (Elt F)),
    unary main_arg9 main_v155 (broadcastInDim S800000x1 ![0] bcast_S800000_S800000x1_0 : (⟨S800000, .i32⟩ : BufTy).Contents (Elt F) → (⟨S800000x1, .i32⟩ : BufTy).Contents (Elt F)),
    ternary main_v154 main_v155 main_v153 main_v156 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_30 (constant S_ .f32 0x3F800000#32),
    unary main_cst_30 main_v157 (broadcastInDim S50000x1 ![] bcast_S_S50000x1 : (⟨S_, .f32⟩ : BufTy).Contents (Elt F) → (⟨S50000x1, .f32⟩ : BufTy).Contents (Elt F)),
    binary main_v156 main_v157 main_v158 (maximumf : (⟨S50000x1, .f32⟩ : BufTy).Contents (Elt F) → (⟨S50000x1, .f32⟩ : BufTy).Contents (Elt F) → (⟨S50000x1, .f32⟩ : BufTy).Contents (Elt F)),
    unary main_v158 main_v159 (broadcastInDim S50000x128 ![0, 1] bcast_S50000x1_S50000x128_0_1 : (⟨S50000x1, .f32⟩ : BufTy).Contents (Elt F) → (⟨S50000x128, .f32⟩ : BufTy).Contents (Elt F)),
    binary main_v152 main_v159 main_v160 (Host.divf : (⟨S50000x128, .f32⟩ : BufTy).Contents (Elt F) → (⟨S50000x128, .f32⟩ : BufTy).Contents (Elt F) → (⟨S50000x128, .f32⟩ : BufTy).Contents (Elt F)),
    unary main_v140 main_v161 ((transpose S128x128 [1, 0] · transposes_S128x128_S128x128_1_0) : (⟨S128x128, .f32⟩ : BufTy).Contents (Elt F) → (⟨S128x128, .f32⟩ : BufTy).Contents (Elt F)),
    binary main_v135 main_v161 main_v162 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v142 main_v163 (broadcastInDim S1x128 ![1] bcast_S128_S1x128_1 : (⟨S128, .f32⟩ : BufTy).Contents (Elt F) → (⟨S1x128, .f32⟩ : BufTy).Contents (Elt F)),
    unary main_v163 main_v164 (broadcastInDim S50000x128 ![0, 1] bcast_S1x128_S50000x128_0_1 : (⟨S1x128, .f32⟩ : BufTy).Contents (Elt F) → (⟨S50000x128, .f32⟩ : BufTy).Contents (Elt F)),
    binary main_v162 main_v164 main_v165 (addf : (⟨S50000x128, .f32⟩ : BufTy).Contents (Elt F) → (⟨S50000x128, .f32⟩ : BufTy).Contents (Elt F) → (⟨S50000x128, .f32⟩ : BufTy).Contents (Elt F)),
    unary main_v138 main_v166 ((transpose S128x128 [1, 0] · transposes_S128x128_S128x128_1_0) : (⟨S128x128, .f32⟩ : BufTy).Contents (Elt F) → (⟨S128x128, .f32⟩ : BufTy).Contents (Elt F)),
    binary main_v160 main_v166 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v165 main_v167 main_v168 (addf : (⟨S50000x128, .f32⟩ : BufTy).Contents (Elt F) → (⟨S50000x128, .f32⟩ : BufTy).Contents (Elt F) → (⟨S50000x128, .f32⟩ : BufTy).Contents (Elt F)),
    unary main_arg5 main_v169 ((extractStridedSlice S1x1x128x128 ![1, 3, 0, 0] · slices_S2x4x128x128_S1x1x128x128_1_3_0_0) : (⟨S2x4x128x128, .f32⟩ : BufTy).Contents (Elt F) → (⟨S1x1x128x128, .f32⟩ : BufTy).Contents (Elt F)),
    reshape main_v169 main_v170 rfl shapeCasts_S1x1x128x128_S128x128,
    unary main_arg6 main_v171 ((extractStridedSlice S1x1x128x128 ![1, 3, 0, 0] · slices_S2x4x128x128_S1x1x128x128_1_3_0_0) : (⟨S2x4x128x128, .f32⟩ : BufTy).Contents (Elt F) → (⟨S1x1x128x128, .f32⟩ : BufTy).Contents (Elt F)),
    reshape main_v171 main_v172 rfl shapeCasts_S1x1x128x128_S128x128,
    unary main_arg7 main_v173 ((extractStridedSlice S1x1x128 ![1, 3, 0] · slices_S2x4x128_S1x1x128_1_3_0) : (⟨S2x4x128, .f32⟩ : BufTy).Contents (Elt F) → (⟨S1x1x128, .f32⟩ : BufTy).Contents (Elt F)),
    reshape main_v173 main_v174 rfl shapeCasts_S1x1x128_S128,
    nullary main_c_31 (constantI S_ 32 0#32),
    unary main_c_31 main_v175 (broadcastInDim S400000 ![] bcast_S_S400000 : (⟨S_, .i32⟩ : BufTy).Contents (Elt F) → (⟨S400000, .i32⟩ : BufTy).Contents (Elt F)),
    binary main_arg11 main_v175 main_v176 (cmpi .slt : (⟨S400000, .i32⟩ : BufTy).Contents (Elt F) → (⟨S400000, .i32⟩ : BufTy).Contents (Elt F) → (⟨S400000, .i1⟩ : BufTy).Contents (Elt F)),
    nullary main_c_32 (constantI S_ 32 20000#32),
    unary main_c_32 main_v177 (broadcastInDim S400000 ![] bcast_S_S400000 : (⟨S_, .i32⟩ : BufTy).Contents (Elt F) → (⟨S400000, .i32⟩ : BufTy).Contents (Elt F)),
    binary main_arg11 main_v177 main_v178 (addi : (⟨S400000, .i32⟩ : BufTy).Contents (Elt F) → (⟨S400000, .i32⟩ : BufTy).Contents (Elt F) → (⟨S400000, .i32⟩ : BufTy).Contents (Elt F)),
    ternary main_v176 main_v178 main_arg11 main_v179 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v179 main_v180 (broadcastInDim S400000x1 ![0] bcast_S400000_S400000x1_0 : (⟨S400000, .i32⟩ : BufTy).Contents (Elt F) → (⟨S400000x1, .i32⟩ : BufTy).Contents (Elt F)),
    binary main_v136 main_v180 main_v181 ((fun x i => Host.gather gather_S20000x128_S400000x1_S400000x128_1_0_n_n_0_1_1128 x i) : (⟨S20000x128, .f32⟩ : BufTy).Contents (Elt F) → (⟨S400000x1, .i32⟩ : BufTy).Contents (Elt F) → (⟨S400000x128, .f32⟩ : BufTy).Contents (Elt F)),
    nullary main_cst_33 (constant S_ .f32 0x00000000#32),
    unary main_cst_33 main_v182 (broadcastInDim S50000x128 ![] bcast_S_S50000x128 : (⟨S_, .f32⟩ : BufTy).Contents (Elt F) → (⟨S50000x128, .f32⟩ : BufTy).Contents (Elt F)),
    unary main_arg10 main_v183 (broadcastInDim S400000x1 ![0] bcast_S400000_S400000x1_0 : (⟨S400000, .i32⟩ : BufTy).Contents (Elt F) → (⟨S400000x1, .i32⟩ : BufTy).Contents (Elt F)),
    ternary main_v182 main_v183 main_v181 main_v184 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_cst_34 (constant S_ .f32 0x3F800000#32),
    unary main_cst_34 main_v185 (broadcastInDim S400000x1 ![] bcast_S_S400000x1 : (⟨S_, .f32⟩ : BufTy).Contents (Elt F) → (⟨S400000x1, .f32⟩ : BufTy).Contents (Elt F)),
    nullary main_cst_35 (constant S_ .f32 0x00000000#32),
    unary main_cst_35 main_v186 (broadcastInDim S50000x1 ![] bcast_S_S50000x1 : (⟨S_, .f32⟩ : BufTy).Contents (Elt F) → (⟨S50000x1, .f32⟩ : BufTy).Contents (Elt F)),
    unary main_arg10 main_v187 (broadcastInDim S400000x1 ![0] bcast_S400000_S400000x1_0 : (⟨S400000, .i32⟩ : BufTy).Contents (Elt F) → (⟨S400000x1, .i32⟩ : BufTy).Contents (Elt F)),
    ternary main_v186 main_v187 main_v185 main_v188 ((fun x i u => Host.scatterAdd scatter_S50000x1_S400000x1_S400000x1_1_0_0_1 x i u) : (⟨S50000x1, .f32⟩ : BufTy).Contents (Elt F) → (⟨S400000x1, .i32⟩ : BufTy).Contents (Elt F) → (⟨S400000x1, .f32⟩ : BufTy).Contents (Elt F) → (⟨S50000x1, .f32⟩ : BufTy).Contents (Elt F)),
    nullary main_cst_36 (constant S_ .f32 0x3F800000#32),
    unary main_cst_36 main_v189 (broadcastInDim S50000x1 ![] bcast_S_S50000x1 : (⟨S_, .f32⟩ : BufTy).Contents (Elt F) → (⟨S50000x1, .f32⟩ : BufTy).Contents (Elt F)),
    binary main_v188 main_v189 main_v190 (maximumf : (⟨S50000x1, .f32⟩ : BufTy).Contents (Elt F) → (⟨S50000x1, .f32⟩ : BufTy).Contents (Elt F) → (⟨S50000x1, .f32⟩ : BufTy).Contents (Elt F)),
    unary main_v190 main_v191 (broadcastInDim S50000x128 ![0, 1] bcast_S50000x1_S50000x128_0_1 : (⟨S50000x1, .f32⟩ : BufTy).Contents (Elt F) → (⟨S50000x128, .f32⟩ : BufTy).Contents (Elt F)),
    binary main_v184 main_v191 main_v192 (Host.divf : (⟨S50000x128, .f32⟩ : BufTy).Contents (Elt F) → (⟨S50000x128, .f32⟩ : BufTy).Contents (Elt F) → (⟨S50000x128, .f32⟩ : BufTy).Contents (Elt F)),
    unary main_v172 main_v193 ((transpose S128x128 [1, 0] · transposes_S128x128_S128x128_1_0) : (⟨S128x128, .f32⟩ : BufTy).Contents (Elt F) → (⟨S128x128, .f32⟩ : BufTy).Contents (Elt F)),
    binary main_v135 main_v193 main_v194 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v174 main_v195 (broadcastInDim S1x128 ![1] bcast_S128_S1x128_1 : (⟨S128, .f32⟩ : BufTy).Contents (Elt F) → (⟨S1x128, .f32⟩ : BufTy).Contents (Elt F)),
    unary main_v195 main_v196 (broadcastInDim S50000x128 ![0, 1] bcast_S1x128_S50000x128_0_1 : (⟨S1x128, .f32⟩ : BufTy).Contents (Elt F) → (⟨S50000x128, .f32⟩ : BufTy).Contents (Elt F)),
    binary main_v194 main_v196 main_v197 (addf : (⟨S50000x128, .f32⟩ : BufTy).Contents (Elt F) → (⟨S50000x128, .f32⟩ : BufTy).Contents (Elt F) → (⟨S50000x128, .f32⟩ : BufTy).Contents (Elt F)),
    unary main_v170 main_v198 ((transpose S128x128 [1, 0] · transposes_S128x128_S128x128_1_0) : (⟨S128x128, .f32⟩ : BufTy).Contents (Elt F) → (⟨S128x128, .f32⟩ : BufTy).Contents (Elt F)),
    binary main_v192 main_v198 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v197 main_v199 main_v200 (addf : (⟨S50000x128, .f32⟩ : BufTy).Contents (Elt F) → (⟨S50000x128, .f32⟩ : BufTy).Contents (Elt F) → (⟨S50000x128, .f32⟩ : BufTy).Contents (Elt F)) ]

abbrev ops_part4 : List (HloOp τ sig (Elt F)) :=
  [ binary main_v168 main_v200 main_v201 (addf : (⟨S50000x128, .f32⟩ : BufTy).Contents (Elt F) → (⟨S50000x128, .f32⟩ : BufTy).Contents (Elt F) → (⟨S50000x128, .f32⟩ : BufTy).Contents (Elt F)),
    unary main_arg5 main_v202 ((extractStridedSlice S1x1x128x128 ![1, 1, 0, 0] · slices_S2x4x128x128_S1x1x128x128_1_1_0_0) : (⟨S2x4x128x128, .f32⟩ : BufTy).Contents (Elt F) → (⟨S1x1x128x128, .f32⟩ : BufTy).Contents (Elt F)),
    reshape main_v202 main_v203 rfl shapeCasts_S1x1x128x128_S128x128,
    unary main_arg6 main_v204 ((extractStridedSlice S1x1x128x128 ![1, 1, 0, 0] · slices_S2x4x128x128_S1x1x128x128_1_1_0_0) : (⟨S2x4x128x128, .f32⟩ : BufTy).Contents (Elt F) → (⟨S1x1x128x128, .f32⟩ : BufTy).Contents (Elt F)),
    reshape main_v204 main_v205 rfl shapeCasts_S1x1x128x128_S128x128,
    unary main_arg7 main_v206 ((extractStridedSlice S1x1x128 ![1, 1, 0] · slices_S2x4x128_S1x1x128_1_1_0) : (⟨S2x4x128, .f32⟩ : BufTy).Contents (Elt F) → (⟨S1x1x128, .f32⟩ : BufTy).Contents (Elt F)),
    reshape main_v206 main_v207 rfl shapeCasts_S1x1x128_S128,
    nullary main_c_37 (constantI S_ 32 0#32),
    unary main_c_37 main_v208 (broadcastInDim S800000 ![] bcast_S_S800000 : (⟨S_, .i32⟩ : BufTy).Contents (Elt F) → (⟨S800000, .i32⟩ : BufTy).Contents (Elt F)),
    binary main_arg9 main_v208 main_v209 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v210 (broadcastInDim S800000 ![] bcast_S_S800000 : (⟨S_, .i32⟩ : BufTy).Contents (Elt F) → (⟨S800000, .i32⟩ : BufTy).Contents (Elt F)),
    binary main_arg9 main_v210 main_v211 (addi : (⟨S800000, .i32⟩ : BufTy).Contents (Elt F) → (⟨S800000, .i32⟩ : BufTy).Contents (Elt F) → (⟨S800000, .i32⟩ : BufTy).Contents (Elt F)),
    ternary main_v209 main_v211 main_arg9 main_v212 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v212 main_v213 (broadcastInDim S800000x1 ![0] bcast_S800000_S800000x1_0 : (⟨S800000, .i32⟩ : BufTy).Contents (Elt F) → (⟨S800000x1, .i32⟩ : BufTy).Contents (Elt F)),
    binary main_v135 main_v213 main_v214 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_39 (constant S_ .f32 0x00000000#32),
    unary main_cst_39 main_v215 (broadcastInDim S200000x128 ![] bcast_S_S200000x128 : (⟨S_, .f32⟩ : BufTy).Contents (Elt F) → (⟨S200000x128, .f32⟩ : BufTy).Contents (Elt F)),
    unary main_arg8 main_v216 (broadcastInDim S800000x1 ![0] bcast_S800000_S800000x1_0 : (⟨S800000, .i32⟩ : BufTy).Contents (Elt F) → (⟨S800000x1, .i32⟩ : BufTy).Contents (Elt F)),
    ternary main_v215 main_v216 main_v214 main_v217 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    nullary main_cst_40 (constant S_ .f32 0x3F800000#32),
    unary main_cst_40 main_v218 (broadcastInDim S800000x1 ![] bcast_S_S800000x1 : (⟨S_, .f32⟩ : BufTy).Contents (Elt F) → (⟨S800000x1, .f32⟩ : BufTy).Contents (Elt F)),
    nullary main_cst_41 (constant S_ .f32 0x00000000#32),
    unary main_cst_41 main_v219 (broadcastInDim S200000x1 ![] bcast_S_S200000x1 : (⟨S_, .f32⟩ : BufTy).Contents (Elt F) → (⟨S200000x1, .f32⟩ : BufTy).Contents (Elt F)),
    unary main_arg8 main_v220 (broadcastInDim S800000x1 ![0] bcast_S800000_S800000x1_0 : (⟨S800000, .i32⟩ : BufTy).Contents (Elt F) → (⟨S800000x1, .i32⟩ : BufTy).Contents (Elt F)),
    ternary main_v219 main_v220 main_v218 main_v221 ((fun x i u => Host.scatterAdd scatter_S200000x1_S800000x1_S800000x1_1_0_0_1 x i u) : (⟨S200000x1, .f32⟩ : BufTy).Contents (Elt F) → (⟨S800000x1, .i32⟩ : BufTy).Contents (Elt F) → (⟨S800000x1, .f32⟩ : BufTy).Contents (Elt F) → (⟨S200000x1, .f32⟩ : BufTy).Contents (Elt F)),
    nullary main_cst_42 (constant S_ .f32 0x3F800000#32),
    unary main_cst_42 main_v222 (broadcastInDim S200000x1 ![] bcast_S_S200000x1 : (⟨S_, .f32⟩ : BufTy).Contents (Elt F) → (⟨S200000x1, .f32⟩ : BufTy).Contents (Elt F)),
    binary main_v221 main_v222 main_v223 (maximumf : (⟨S200000x1, .f32⟩ : BufTy).Contents (Elt F) → (⟨S200000x1, .f32⟩ : BufTy).Contents (Elt F) → (⟨S200000x1, .f32⟩ : BufTy).Contents (Elt F)),
    unary main_v223 main_v224 (broadcastInDim S200000x128 ![0, 1] bcast_S200000x1_S200000x128_0_1 : (⟨S200000x1, .f32⟩ : BufTy).Contents (Elt F) → (⟨S200000x128, .f32⟩ : BufTy).Contents (Elt F)),
    binary main_v217 main_v224 main_v225 (Host.divf : (⟨S200000x128, .f32⟩ : BufTy).Contents (Elt F) → (⟨S200000x128, .f32⟩ : BufTy).Contents (Elt F) → (⟨S200000x128, .f32⟩ : BufTy).Contents (Elt F)),
    unary main_v205 main_v226 ((transpose S128x128 [1, 0] · transposes_S128x128_S128x128_1_0) : (⟨S128x128, .f32⟩ : BufTy).Contents (Elt F) → (⟨S128x128, .f32⟩ : BufTy).Contents (Elt F)),
    binary main_v134 main_v226 main_v227 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_v207 main_v228 (broadcastInDim S1x128 ![1] bcast_S128_S1x128_1 : (⟨S128, .f32⟩ : BufTy).Contents (Elt F) → (⟨S1x128, .f32⟩ : BufTy).Contents (Elt F)),
    unary main_v228 main_v229 (broadcastInDim S200000x128 ![0, 1] bcast_S1x128_S200000x128_0_1 : (⟨S1x128, .f32⟩ : BufTy).Contents (Elt F) → (⟨S200000x128, .f32⟩ : BufTy).Contents (Elt F)),
    binary main_v227 main_v229 main_v230 (addf : (⟨S200000x128, .f32⟩ : BufTy).Contents (Elt F) → (⟨S200000x128, .f32⟩ : BufTy).Contents (Elt F) → (⟨S200000x128, .f32⟩ : BufTy).Contents (Elt F)),
    unary main_v203 main_v231 ((transpose S128x128 [1, 0] · transposes_S128x128_S128x128_1_0) : (⟨S128x128, .f32⟩ : BufTy).Contents (Elt F) → (⟨S128x128, .f32⟩ : BufTy).Contents (Elt F)),
    binary main_v225 main_v231 main_v232 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v230 main_v232 main_v233 (addf : (⟨S200000x128, .f32⟩ : BufTy).Contents (Elt F) → (⟨S200000x128, .f32⟩ : BufTy).Contents (Elt F) → (⟨S200000x128, .f32⟩ : BufTy).Contents (Elt F)),
    unary main_arg5 main_v234 ((extractStridedSlice S1x1x128x128 ![1, 2, 0, 0] · slices_S2x4x128x128_S1x1x128x128_1_2_0_0) : (⟨S2x4x128x128, .f32⟩ : BufTy).Contents (Elt F) → (⟨S1x1x128x128, .f32⟩ : BufTy).Contents (Elt F)),
    reshape main_v234 main_v235 rfl shapeCasts_S1x1x128x128_S128x128,
    unary main_arg6 main_v236 ((extractStridedSlice S1x1x128x128 ![1, 2, 0, 0] · slices_S2x4x128x128_S1x1x128x128_1_2_0_0) : (⟨S2x4x128x128, .f32⟩ : BufTy).Contents (Elt F) → (⟨S1x1x128x128, .f32⟩ : BufTy).Contents (Elt F)),
    reshape main_v236 main_v237 rfl shapeCasts_S1x1x128x128_S128x128,
    unary main_arg7 main_v238 ((extractStridedSlice S1x1x128 ![1, 2, 0] · slices_S2x4x128_S1x1x128_1_2_0) : (⟨S2x4x128, .f32⟩ : BufTy).Contents (Elt F) → (⟨S1x1x128, .f32⟩ : BufTy).Contents (Elt F)),
    reshape main_v238 main_v239 rfl shapeCasts_S1x1x128_S128,
    nullary main_c_43 (constantI S_ 32 0#32),
    unary main_c_43 main_v240 (broadcastInDim S400000 ![] bcast_S_S400000 : (⟨S_, .i32⟩ : BufTy).Contents (Elt F) → (⟨S400000, .i32⟩ : BufTy).Contents (Elt F)),
    binary main_arg10 main_v240 main_v241 (cmpi .slt : (⟨S400000, .i32⟩ : BufTy).Contents (Elt F) → (⟨S400000, .i32⟩ : BufTy).Contents (Elt F) → (⟨S400000, .i1⟩ : BufTy).Contents (Elt F)),
    nullary main_c_44 (constantI S_ 32 50000#32),
    unary main_c_44 main_v242 (broadcastInDim S400000 ![] bcast_S_S400000 : (⟨S_, .i32⟩ : BufTy).Contents (Elt F) → (⟨S400000, .i32⟩ : BufTy).Contents (Elt F)),
    binary main_arg10 main_v242 main_v243 (addi : (⟨S400000, .i32⟩ : BufTy).Contents (Elt F) → (⟨S400000, .i32⟩ : BufTy).Contents (Elt F) → (⟨S400000, .i32⟩ : BufTy).Contents (Elt F)),
    ternary main_v241 main_v243 main_arg10 main_v244 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v244 main_v245 (broadcastInDim S400000x1 ![0] bcast_S400000_S400000x1_0 : (⟨S400000, .i32⟩ : BufTy).Contents (Elt F) → (⟨S400000x1, .i32⟩ : BufTy).Contents (Elt F)),
    binary main_v135 main_v245 main_v246 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_cst_45 (constant S_ .f32 0x00000000#32),
    unary main_cst_45 main_v247 (broadcastInDim S20000x128 ![] bcast_S_S20000x128 : (⟨S_, .f32⟩ : BufTy).Contents (Elt F) → (⟨S20000x128, .f32⟩ : BufTy).Contents (Elt F)),
    unary main_arg11 main_v248 (broadcastInDim S400000x1 ![0] bcast_S400000_S400000x1_0 : (⟨S400000, .i32⟩ : BufTy).Contents (Elt F) → (⟨S400000x1, .i32⟩ : BufTy).Contents (Elt F)),
    ternary main_v247 main_v248 main_v246 main_v249 ((fun x i u => Host.scatterAdd scatter_S20000x128_S400000x1_S400000x128_1_0_0_1 x i u) : (⟨S20000x128, .f32⟩ : BufTy).Contents (Elt F) → (⟨S400000x1, .i32⟩ : BufTy).Contents (Elt F) → (⟨S400000x128, .f32⟩ : BufTy).Contents (Elt F) → (⟨S20000x128, .f32⟩ : BufTy).Contents (Elt F)),
    nullary main_cst_46 (constant S_ .f32 0x3F800000#32),
    unary main_cst_46 main_v250 (broadcastInDim S400000x1 ![] bcast_S_S400000x1 : (⟨S_, .f32⟩ : BufTy).Contents (Elt F) → (⟨S400000x1, .f32⟩ : BufTy).Contents (Elt F)) ]

abbrev ops_part5 : List (HloOp τ sig (Elt F)) :=
  [ nullary main_cst_47 (constant S_ .f32 0x00000000#32),
    unary main_cst_47 main_v251 (broadcastInDim S20000x1 ![] bcast_S_S20000x1 : (⟨S_, .f32⟩ : BufTy).Contents (Elt F) → (⟨S20000x1, .f32⟩ : BufTy).Contents (Elt F)),
    unary main_arg11 main_v252 (broadcastInDim S400000x1 ![0] bcast_S400000_S400000x1_0 : (⟨S400000, .i32⟩ : BufTy).Contents (Elt F) → (⟨S400000x1, .i32⟩ : BufTy).Contents (Elt F)),
    ternary main_v251 main_v252 main_v250 main_v253 ((fun x i u => Host.scatterAdd scatter_S20000x1_S400000x1_S400000x1_1_0_0_1 x i u) : (⟨S20000x1, .f32⟩ : BufTy).Contents (Elt F) → (⟨S400000x1, .i32⟩ : BufTy).Contents (Elt F) → (⟨S400000x1, .f32⟩ : BufTy).Contents (Elt F) → (⟨S20000x1, .f32⟩ : BufTy).Contents (Elt F)),
    nullary main_cst_48 (constant S_ .f32 0x3F800000#32),
    unary main_cst_48 main_v254 (broadcastInDim S20000x1 ![] bcast_S_S20000x1 : (⟨S_, .f32⟩ : BufTy).Contents (Elt F) → (⟨S20000x1, .f32⟩ : BufTy).Contents (Elt F)),
    binary main_v253 main_v254 main_v255 (maximumf : (⟨S20000x1, .f32⟩ : BufTy).Contents (Elt F) → (⟨S20000x1, .f32⟩ : BufTy).Contents (Elt F) → (⟨S20000x1, .f32⟩ : BufTy).Contents (Elt F)),
    unary main_v255 main_v256 (broadcastInDim S20000x128 ![0, 1] bcast_S20000x1_S20000x128_0_1 : (⟨S20000x1, .f32⟩ : BufTy).Contents (Elt F) → (⟨S20000x128, .f32⟩ : BufTy).Contents (Elt F)),
    binary main_v249 main_v256 main_v257 (Host.divf : (⟨S20000x128, .f32⟩ : BufTy).Contents (Elt F) → (⟨S20000x128, .f32⟩ : BufTy).Contents (Elt F) → (⟨S20000x128, .f32⟩ : BufTy).Contents (Elt F)),
    unary main_v237 main_v258 ((transpose S128x128 [1, 0] · transposes_S128x128_S128x128_1_0) : (⟨S128x128, .f32⟩ : BufTy).Contents (Elt F) → (⟨S128x128, .f32⟩ : BufTy).Contents (Elt F)),
    binary main_v136 main_v258 main_v259 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_v239 main_v260 (broadcastInDim S1x128 ![1] bcast_S128_S1x128_1 : (⟨S128, .f32⟩ : BufTy).Contents (Elt F) → (⟨S1x128, .f32⟩ : BufTy).Contents (Elt F)),
    unary main_v260 main_v261 (broadcastInDim S20000x128 ![0, 1] bcast_S1x128_S20000x128_0_1 : (⟨S1x128, .f32⟩ : BufTy).Contents (Elt F) → (⟨S20000x128, .f32⟩ : BufTy).Contents (Elt F)),
    binary main_v259 main_v261 main_v262 (addf : (⟨S20000x128, .f32⟩ : BufTy).Contents (Elt F) → (⟨S20000x128, .f32⟩ : BufTy).Contents (Elt F) → (⟨S20000x128, .f32⟩ : BufTy).Contents (Elt F)),
    unary main_v235 main_v263 ((transpose S128x128 [1, 0] · transposes_S128x128_S128x128_1_0) : (⟨S128x128, .f32⟩ : BufTy).Contents (Elt F) → (⟨S128x128, .f32⟩ : BufTy).Contents (Elt F)),
    binary main_v257 main_v263 main_v264 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    binary main_v262 main_v264 main_v265 (addf : (⟨S20000x128, .f32⟩ : BufTy).Contents (Elt F) → (⟨S20000x128, .f32⟩ : BufTy).Contents (Elt F) → (⟨S20000x128, .f32⟩ : BufTy).Contents (Elt F)),
    nullary main_cst_49 (constant S_ .f32 0x3DCCCCCD#32),
    TRef.nullary (.of main_call3_cst : TRef sig ⟨S_, .f32⟩) (constant S_ .f32 0x00000000#32),
    TRef.unary (.of main_call3_cst : TRef sig ⟨S_, .f32⟩) (.of main_call3_v0 : TRef sig ⟨S200000x128, .f32⟩) (broadcastInDim S200000x128 ![] bcast_S_S200000x128),
    TRef.binary (.of main_v233 : TRef sig ⟨S200000x128, .f32⟩) (.of main_call3_v0 : TRef sig ⟨S200000x128, .f32⟩) (.of main_call3_v1 : TRef sig ⟨S200000x128, .i1⟩) (cmpf .oge),
    TRef.unary (.of main_cst_49 : TRef sig ⟨S_, .f32⟩) (.of main_call3_v2 : TRef sig ⟨S_, .f32⟩) id,
    TRef.unary (.of main_call3_v2 : TRef sig ⟨S_, .f32⟩) (.of main_call3_v3 : TRef sig ⟨S200000x128, .f32⟩) (broadcastInDim S200000x128 ![] bcast_S_S200000x128),
    TRef.binary (.of main_call3_v3 : TRef sig ⟨S200000x128, .f32⟩) (.of main_v233 : TRef sig ⟨S200000x128, .f32⟩) (.of main_call3_v4 : TRef sig ⟨S200000x128, .f32⟩) mulf,
    TRef.ternary (.of main_call3_v1 : TRef sig ⟨S200000x128, .i1⟩) (.of main_v233 : TRef sig ⟨S200000x128, .f32⟩) (.of main_call3_v4 : TRef sig ⟨S200000x128, .f32⟩) (.of main_v266 : TRef sig ⟨S200000x128, .f32⟩) select,
    nullary main_cst_50 (constant S_ .f32 0x3DCCCCCD#32),
    TRef.nullary (.of main_call4_cst : TRef sig ⟨S_, .f32⟩) (constant S_ .f32 0x00000000#32),
    TRef.unary (.of main_call4_cst : TRef sig ⟨S_, .f32⟩) (.of main_call4_v0 : TRef sig ⟨S50000x128, .f32⟩) (broadcastInDim S50000x128 ![] bcast_S_S50000x128),
    TRef.binary (.of main_v201 : TRef sig ⟨S50000x128, .f32⟩) (.of main_call4_v0 : TRef sig ⟨S50000x128, .f32⟩) (.of main_call4_v1 : TRef sig ⟨S50000x128, .i1⟩) (cmpf .oge),
    TRef.unary (.of main_cst_50 : TRef sig ⟨S_, .f32⟩) (.of main_call4_v2 : TRef sig ⟨S_, .f32⟩) id,
    TRef.unary (.of main_call4_v2 : TRef sig ⟨S_, .f32⟩) (.of main_call4_v3 : TRef sig ⟨S50000x128, .f32⟩) (broadcastInDim S50000x128 ![] bcast_S_S50000x128),
    TRef.binary (.of main_call4_v3 : TRef sig ⟨S50000x128, .f32⟩) (.of main_v201 : TRef sig ⟨S50000x128, .f32⟩) (.of main_call4_v4 : TRef sig ⟨S50000x128, .f32⟩) mulf,
    TRef.ternary (.of main_call4_v1 : TRef sig ⟨S50000x128, .i1⟩) (.of main_v201 : TRef sig ⟨S50000x128, .f32⟩) (.of main_call4_v4 : TRef sig ⟨S50000x128, .f32⟩) (.of main_v267 : TRef sig ⟨S50000x128, .f32⟩) select,
    nullary main_cst_51 (constant S_ .f32 0x3DCCCCCD#32),
    TRef.nullary (.of main_call5_cst : TRef sig ⟨S_, .f32⟩) (constant S_ .f32 0x00000000#32),
    TRef.unary (.of main_call5_cst : TRef sig ⟨S_, .f32⟩) (.of main_call5_v0 : TRef sig ⟨S20000x128, .f32⟩) (broadcastInDim S20000x128 ![] bcast_S_S20000x128),
    TRef.binary (.of main_v265 : TRef sig ⟨S20000x128, .f32⟩) (.of main_call5_v0 : TRef sig ⟨S20000x128, .f32⟩) (.of main_call5_v1 : TRef sig ⟨S20000x128, .i1⟩) (cmpf .oge),
    TRef.unary (.of main_cst_51 : TRef sig ⟨S_, .f32⟩) (.of main_call5_v2 : TRef sig ⟨S_, .f32⟩) id,
    TRef.unary (.of main_call5_v2 : TRef sig ⟨S_, .f32⟩) (.of main_call5_v3 : TRef sig ⟨S20000x128, .f32⟩) (broadcastInDim S20000x128 ![] bcast_S_S20000x128),
    TRef.binary (.of main_call5_v3 : TRef sig ⟨S20000x128, .f32⟩) (.of main_v265 : TRef sig ⟨S20000x128, .f32⟩) (.of main_call5_v4 : TRef sig ⟨S20000x128, .f32⟩) mulf,
    TRef.ternary (.of main_call5_v1 : TRef sig ⟨S20000x128, .i1⟩) (.of main_v265 : TRef sig ⟨S20000x128, .f32⟩) (.of main_call5_v4 : TRef sig ⟨S20000x128, .f32⟩) (.of main_v268 : TRef sig ⟨S20000x128, .f32⟩) select ]

abbrev ops : List (HloOp τ sig (Elt F)) :=
  ops_part0 ++ (ops_part1 ++ (ops_part2 ++ (ops_part3 ++ (ops_part4 ++ (ops_part5)))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩
set_option maxRecDepth 8192 in
theorem ops_part1_sub : (ops_part1 : List (HloOp τ sig (Elt F))).Forall fun op => op.bufs ⊆ tcRefs τ sig :=
  ⟨unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub ..⟩
set_option maxRecDepth 8192 in
theorem ops_part2_sub : (ops_part2 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
set_option maxRecDepth 8192 in
theorem ops_part3_sub : (ops_part3 : List (HloOp τ sig (Elt F))).Forall fun op => op.bufs ⊆ tcRefs τ sig :=
  ⟨unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub ..⟩
set_option maxRecDepth 8192 in
theorem ops_part4_sub : (ops_part4 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub ..⟩
set_option maxRecDepth 8192 in
theorem ops_part5_sub : (ops_part5 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., unary_bufs_sub .., binary_bufs_sub .., unary_bufs_sub .., unary_bufs_sub .., binary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

def val0 (X : Valuation τ sig (Elt F)) : Valuation τ sig (Elt F) := X

def val1 (X : Valuation τ sig (Elt F)) : Valuation τ sig (Elt F) := after ops_part0 (val0 X)

def val2 (X : Valuation τ sig (Elt F)) : Valuation τ sig (Elt F) := after ops_part1 (val1 X)

def val3 (X : Valuation τ sig (Elt F)) : Valuation τ sig (Elt F) := after ops_part2 (val2 X)

def val4 (X : Valuation τ sig (Elt F)) : Valuation τ sig (Elt F) := after ops_part3 (val3 X)

def val5 (X : Valuation τ sig (Elt F)) : Valuation τ sig (Elt F) := after ops_part4 (val4 X)

def val6 (X : Valuation τ sig (Elt F)) : Valuation τ sig (Elt F) := after ops_part5 (val5 X)

theorem after_ops (X : Valuation τ sig (Elt F)) : after ops X = val6 X := by
  simp only [ops, after_append]
  rfl

abbrev ops_part0_W : List (Ref sig .tc) :=
  [main_v0, main_v1, main_v2, main_v3, main_v4, main_v5, main_v6, main_v7, main_v8, main_v9, main_v10, main_c, main_v11, main_v12, main_c_0, main_v13, main_v14, main_v15, main_v16, main_v17, main_cst, main_v18, main_v19, main_v20, main_cst_1, main_v21, main_cst_2, main_v22, main_v23, main_v24, main_cst_3, main_v25, main_v26, main_v27, main_v28, main_v29, main_v30, main_v31, main_v32, main_v33, main_v34, main_v35, main_v36, main_v37, main_v38, main_v39, main_v40, main_v41, main_v42, main_c_4, main_v43, main_v44, main_c_5, main_v45, main_v46, main_v47, main_v48, main_v49, main_cst_6, main_v50]
set_option maxRecDepth 8192 in
theorem ops_part0_writes : (ops_part0 : List (HloOp τ sig (Elt F))).Forall fun op => op.writes ⊆ (ops_part0_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))

theorem val1_keep (X : Valuation τ sig (Elt F)) (r : Ref sig .tc) (h : r ∉ ops_part0_W) :
    val1 X (Proc.devRef .tc r) = val0 X (Proc.devRef .tc r) :=
  after_of_writes_sub ops_part0 _ ops_part0_writes h

abbrev ops_part1_W : List (Ref sig .tc) :=
  [main_v51, main_v52, main_cst_7, main_v53, main_cst_8, main_v54, main_v55, main_v56, main_cst_9, main_v57, main_v58, main_v59, main_v60, main_v61, main_v62, main_v63, main_v64, main_v65, main_v66, main_v67, main_v68, main_v69, main_v70, main_v71, main_v72, main_v73, main_v74, main_v75, main_c_10, main_v76, main_v77, main_c_11, main_v78, main_v79, main_v80, main_v81, main_v82, main_cst_12, main_v83, main_v84, main_v85, main_cst_13, main_v86, main_cst_14, main_v87, main_v88, main_v89, main_cst_15, main_v90, main_v91, main_v92, main_v93, main_v94, main_v95, main_v96, main_v97, main_v98, main_v99, main_v100, main_v101]
set_option maxRecDepth 8192 in
theorem ops_part1_writes : (ops_part1 : List (HloOp τ sig (Elt F))).Forall fun op => op.writes ⊆ (ops_part1_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))

theorem val2_keep (X : Valuation τ sig (Elt F)) (r : Ref sig .tc) (h : r ∉ ops_part1_W) :
    val2 X (Proc.devRef .tc r) = val1 X (Proc.devRef .tc r) :=
  after_of_writes_sub ops_part1 _ ops_part1_writes h

abbrev ops_part2_W : List (Ref sig .tc) :=
  [main_v102, main_v103, main_v104, main_v105, main_v106, main_v107, main_c_16, main_v108, main_v109, main_c_17, main_v110, main_v111, main_v112, main_v113, main_v114, main_cst_18, main_v115, main_v116, main_v117, main_cst_19, main_v118, main_cst_20, main_v119, main_v120, main_v121, main_cst_21, main_v122, main_v123, main_v124, main_v125, main_v126, main_v127, main_v128, main_v129, main_v130, main_v131, main_v132, main_v133, main_cst_22, main_call0_cst, main_call0_v0, main_call0_v1, main_call0_v2, main_call0_v3, main_call0_v4, main_v134, main_cst_23, main_call1_cst, main_call1_v0, main_call1_v1, main_call1_v2, main_call1_v3, main_call1_v4, main_v135, main_cst_24, main_call2_cst, main_call2_v0, main_call2_v1, main_call2_v2, main_call2_v3, main_call2_v4, main_v136, main_v137, main_v138, main_v139, main_v140, main_v141, main_v142, main_c_25, main_v143, main_v144, main_c_26, main_v145, main_v146, main_v147, main_v148, main_v149, main_cst_27]
set_option maxRecDepth 8192 in
theorem ops_part2_writes : (ops_part2 : List (HloOp τ sig (Elt F))).Forall fun op => op.writes ⊆ (ops_part2_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))

theorem val3_keep (X : Valuation τ sig (Elt F)) (r : Ref sig .tc) (h : r ∉ ops_part2_W) :
    val3 X (Proc.devRef .tc r) = val2 X (Proc.devRef .tc r) :=
  after_of_writes_sub ops_part2 _ ops_part2_writes h

abbrev ops_part3_W : List (Ref sig .tc) :=
  [main_v150, main_v151, main_v152, main_cst_28, main_v153, main_cst_29, main_v154, main_v155, main_v156, main_cst_30, main_v157, main_v158, main_v159, main_v160, main_v161, main_v162, main_v163, main_v164, main_v165, main_v166, main_v167, main_v168, main_v169, main_v170, main_v171, main_v172, main_v173, main_v174, main_c_31, main_v175, main_v176, main_c_32, main_v177, main_v178, main_v179, main_v180, main_v181, main_cst_33, main_v182, main_v183, main_v184, main_cst_34, main_v185, main_cst_35, main_v186, main_v187, main_v188, main_cst_36, main_v189, main_v190, main_v191, main_v192, main_v193, main_v194, main_v195, main_v196, main_v197, main_v198, main_v199, main_v200]
set_option maxRecDepth 8192 in
theorem ops_part3_writes : (ops_part3 : List (HloOp τ sig (Elt F))).Forall fun op => op.writes ⊆ (ops_part3_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))

theorem val4_keep (X : Valuation τ sig (Elt F)) (r : Ref sig .tc) (h : r ∉ ops_part3_W) :
    val4 X (Proc.devRef .tc r) = val3 X (Proc.devRef .tc r) :=
  after_of_writes_sub ops_part3 _ ops_part3_writes h

abbrev ops_part4_W : List (Ref sig .tc) :=
  [main_v201, main_v202, main_v203, main_v204, main_v205, main_v206, main_v207, main_c_37, main_v208, main_v209, main_c_38, main_v210, main_v211, main_v212, main_v213, main_v214, main_cst_39, main_v215, main_v216, main_v217, main_cst_40, main_v218, main_cst_41, main_v219, main_v220, main_v221, main_cst_42, main_v222, main_v223, main_v224, main_v225, main_v226, main_v227, main_v228, main_v229, main_v230, main_v231, main_v232, main_v233, main_v234, main_v235, main_v236, main_v237, main_v238, main_v239, main_c_43, main_v240, main_v241, main_c_44, main_v242, main_v243, main_v244, main_v245, main_v246, main_cst_45, main_v247, main_v248, main_v249, main_cst_46, main_v250]
set_option maxRecDepth 8192 in
theorem ops_part4_writes : (ops_part4 : List (HloOp τ sig (Elt F))).Forall fun op => op.writes ⊆ (ops_part4_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))

theorem val5_keep (X : Valuation τ sig (Elt F)) (r : Ref sig .tc) (h : r ∉ ops_part4_W) :
    val5 X (Proc.devRef .tc r) = val4 X (Proc.devRef .tc r) :=
  after_of_writes_sub ops_part4 _ ops_part4_writes h

abbrev ops_part5_W : List (Ref sig .tc) :=
  [main_cst_47, main_v251, main_v252, main_v253, main_cst_48, main_v254, main_v255, main_v256, main_v257, main_v258, main_v259, main_v260, main_v261, main_v262, main_v263, main_v264, main_v265, main_cst_49, main_call3_cst, main_call3_v0, main_call3_v1, main_call3_v2, main_call3_v3, main_call3_v4, main_v266, main_cst_50, main_call4_cst, main_call4_v0, main_call4_v1, main_call4_v2, main_call4_v3, main_call4_v4, main_v267, main_cst_51, main_call5_cst, main_call5_v0, main_call5_v1, main_call5_v2, main_call5_v3, main_call5_v4, main_v268]
set_option maxRecDepth 8192 in
theorem ops_part5_writes : (ops_part5 : List (HloOp τ sig (Elt F))).Forall fun op => op.writes ⊆ (ops_part5_W.map (Proc.devRef (τ := τ) .tc)).toFinset := by
  simp only [List.Forall]
  repeat' apply And.intro
  all_goals (simp only [nullary_writes, unary_writes, binary_writes, ternary_writes, quaternary_writes, reshape_writes, Finset.singleton_subset_iff, List.mem_toFinset]; exact List.mem_map_of_mem (by decide))

theorem val6_keep (X : Valuation τ sig (Elt F)) (r : Ref sig .tc) (h : r ∉ ops_part5_W) :
    val6 X (Proc.devRef .tc r) = val5 X (Proc.devRef .tc r) :=
  after_of_writes_sub ops_part5 _ ops_part5_writes h

end Cert.ReferenceIdeal.RefRun

end
-- ==== Proof.RefFn.lean ====
-- The reference's dense steps read entry by entry: a product with a transposed weight slice, the bias row, the division by max(degree, 1), LeakyReLU.
import proofs.«428332_j82145544503775_2_alg».proof.ReferenceIdeal
import proofs.«428332_j82145544503775_2_alg».proof.Proof.Spec
import proofs.«428332_j82145544503775_2_alg».proof.Proof.Words
import Idealize.ShloMosaic.Lib.StackMember
import Idealize.ShloMosaic.Lib.ValueLayout
import Idealize.ShloMosaic.Lib.KernelVsHost
import Idealize.ShloMosaic.Lib.IdealHost
import Idealize.ShloMosaic.Lib.Pipeline.Value

noncomputable section

open scoped BigOperators

namespace Cert.ReferenceIdeal.RefFn

open Idealize.ShloMosaic Idealize.ShloMosaic.ValueIdx Idealize.ShloMosaic.StackMember

section Reads
variable {n m r : Nat}

theorem lin_apply (h : FVec Ideal ⟨2, ![n, r]⟩ .f32) (W : FVec Ideal ⟨2, ![m, r]⟩ .f32)
    (hT : (⟨2, ![m, r]⟩ : Shape).Transposes [1, 0] ⟨2, ![r, m]⟩) (a : Fin n) (o : Fin m) :
    Host.dotGeneral (F := Ideal) (DotDims.plain n r m) none h (transpose ⟨2, ![r, m]⟩ [1, 0] W hT) (ix2 a o)
      = ∑ c : Fin r, h (ix2 a c) * W (ix2 o c) := by
  rw [dotGeneral_plain_apply]
  refine Finset.sum_congr rfl fun c _ => ?_
  rw [transpose_ix2_apply]

theorem bias_apply (b : FVec Ideal ⟨1, ![m]⟩ .f32)
    (h1 : (⟨1, ![m]⟩ : Shape).BroadcastsInDim ⟨2, ![1, m]⟩ ![1])
    (h2 : (⟨2, ![1, m]⟩ : Shape).BroadcastsInDim ⟨2, ![n, m]⟩ ![0, 1]) (a : Fin n) (o : Fin m) :
    broadcastInDim ⟨2, ![n, m]⟩ ![0, 1] h2 (broadcastInDim ⟨2, ![1, m]⟩ ![1] h1 b) (ix2 a o) = b (ix1 o) := by
  rw [broadcastInDim_oneRow_apply]
  refine broadcastInDim_apply ![1] h1 b _ (ix1 o) ?_
  intro c
  match c with
  | ⟨0, _⟩ =>
    show o.val = if m = 1 then 0 else o.val
    split
    · have := o.isLt; omega
    · rfl

theorem col_apply (c : FVec Ideal ⟨2, ![n, 1]⟩ .f32)
    (h : (⟨2, ![n, 1]⟩ : Shape).BroadcastsInDim ⟨2, ![n, m]⟩ ![0, 1]) (a : Fin n) (o : Fin m) :
    broadcastInDim ⟨2, ![n, m]⟩ ![0, 1] h c (ix2 a o) = c (ix2 a (0 : Fin 1)) := by
  refine broadcastInDim_apply ![0, 1] h c _ (ix2 a (0 : Fin 1)) ?_
  intro x
  match x with
  | ⟨0, _⟩ =>
    show a.val = if n = 1 then 0 else a.val
    split
    · have := a.isLt; omega
    · rfl
  | ⟨1, _⟩ =>
    show (0 : ℕ) = if (1 : ℕ) = 1 then 0 else o.val
    simp

end Reads

theorem sliceW_apply (W : FVec Ideal ⟨4, ![2, 4, 128, 128]⟩ .f32) (lo ko : Nat) (l : Fin 2) (k : Fin 4)
    (hl : l.val = lo) (hk : k.val = ko)
    (hs : (⟨4, ![2, 4, 128, 128]⟩ : Shape).Slices ![lo, ko, 0, 0] ⟨4, ![1, 1, 128, 128]⟩)
    (hc : (⟨4, ![1, 1, 128, 128]⟩ : Shape).ShapeCasts ⟨2, ![128, 128]⟩) (o j : Fin 128) :
    shapeCast ⟨2, ![128, 128]⟩ (extractStridedSlice ⟨4, ![1, 1, 128, 128]⟩ ![lo, ko, 0, 0] W hs) hc (ix2 o j)
      = W (ix4 l k o j) := by
  refine (shapeCast_apply _ hc (ix2 o j) (ix4 (0 : Fin 1) (0 : Fin 1) o j) ?_).trans ?_
  · rw [Shape.rowMajor_val_four, Shape.rowMajor_val_two]
    show ((0 * 1 + 0) * 128 + o.val) * 128 + j.val = o.val * 128 + j.val
    omega
  · refine extractStridedSlice_apply _ W hs _ (ix4 l k o j) ?_
    intro a
    match a with
    | ⟨0, _⟩ => show l.val = lo + 0; omega
    | ⟨1, _⟩ => show k.val = ko + 0; omega
    | ⟨2, _⟩ => show o.val = 0 + o.val; omega
    | ⟨3, _⟩ => show j.val = 0 + j.val; omega

theorem sliceB_apply (bs : FVec Ideal ⟨3, ![2, 4, 128]⟩ .f32) (lo ko : Nat) (l : Fin 2) (k : Fin 4)
    (hl : l.val = lo) (hk : k.val = ko)
    (hs : (⟨3, ![2, 4, 128]⟩ : Shape).Slices ![lo, ko, 0] ⟨3, ![1, 1, 128]⟩)
    (hc : (⟨3, ![1, 1, 128]⟩ : Shape).ShapeCasts ⟨1, ![128]⟩) (o : Fin 128) :
    shapeCast ⟨1, ![128]⟩ (extractStridedSlice ⟨3, ![1, 1, 128]⟩ ![lo, ko, 0] bs hs) hc (ix1 o)
      = bs (ix3 l k o) := by
  refine (shapeCast_apply _ hc (ix1 o) (ix3 (0 : Fin 1) (0 : Fin 1) o) ?_).trans ?_
  · rw [Shape.rowMajor_val_three, Shape.rowMajor_val_one]
    show (0 * 1 + 0) * 128 + o.val = o.val
    omega
  · refine extractStridedSlice_apply _ bs hs _ (ix3 l k o) ?_
    intro a
    match a with
    | ⟨0, _⟩ => show l.val = lo + 0; omega
    | ⟨1, _⟩ => show k.val = ko + 0; omega
    | ⟨2, _⟩ => show o.val = 0 + o.val; omega

section Program
variable [Facts₀]
open Facts₀

theorem dot_proj_eq : dot_S50000x64_S64x128_S50000x128_1_0_0_1_n_n = DotDims.plain 50000 64 128 := rfl
theorem dot_m_eq : dot_S50000x128_S128x128_S50000x128_1_0_0_1_n_n = DotDims.plain 50000 128 128 := rfl
theorem dot_u_eq : dot_S200000x128_S128x128_S200000x128_1_0_0_1_n_n = DotDims.plain 200000 128 128 := rfl
theorem dot_t_eq : dot_S20000x128_S128x128_S20000x128_1_0_0_1_n_n = DotDims.plain 20000 128 128 := rfl

theorem proj_eq (G : Sage.Arr (Sage.M2 50000 64)) (MW : Sage.Arr (Sage.M2 128 64)) (mb : Sage.Arr (Sage.V1 128)) :
    addf (Host.dotGeneral (F := Ideal) dot_S50000x64_S64x128_S50000x128_1_0_0_1_n_n none G
        (transpose S64x128 [1, 0] MW transposes_S128x64_S64x128_1_0))
      (broadcastInDim S50000x128 ![0, 1] bcast_S1x128_S50000x128_0_1 (broadcastInDim S1x128 ![1] bcast_S128_S1x128_1 mb))
      = Sage.hm0 G MW mb := by
  funext i
  obtain ⟨a, o, rfl⟩ : ∃ (a : Fin 50000) (o : Fin 128), i = ix2 a o := ⟨i 0, i 1, eq_ix2 i⟩
  rw [addf_apply, dot_proj_eq]
  show Host.dotGeneral (F := Ideal) (DotDims.plain 50000 64 128) none G (transpose ⟨2, ![64, 128]⟩ [1, 0] MW _) (ix2 a o)
      + broadcastInDim ⟨2, ![50000, 128]⟩ ![0, 1] _ (broadcastInDim ⟨2, ![1, 128]⟩ ![1] _ mb) (ix2 a o) = _
  rw [lin_apply, bias_apply]
  rfl

end Program

theorem conv_gen {n : Nat} (D : DotDims ⟨2, ![n, 128]⟩ S128x128 ⟨2, ![n, 128]⟩) (hD : D = DotDims.plain n 128 128) (lo ko : Nat) (l : Fin 2) (k : Fin 4) (hl : l.val = lo) (hk : k.val = ko)
    (h : Sage.Arr (Sage.M2 n 128)) (Ws Wn : Sage.Arr (Sage.T4 2 4 128 128)) (bs : Sage.Arr (Sage.T3 2 4 128))
    (ssum : Sage.Arr (Sage.M2 n 128)) (cnt : Sage.Arr (Sage.M2 n 1))
    (hsW : S2x4x128x128.Slices ![lo, ko, 0, 0] S1x1x128x128) (hcW : S1x1x128x128.ShapeCasts S128x128)
    (hsB : S2x4x128.Slices ![lo, ko, 0] S1x1x128) (hcB : S1x1x128.ShapeCasts S128)
    (hT : S128x128.Transposes [1, 0] S128x128)
    (hb1 : S128.BroadcastsInDim S1x128 ![1]) (hb2 : S1x128.BroadcastsInDim ⟨2, ![n, 128]⟩ ![0, 1])
    (hone : S_.BroadcastsInDim ⟨2, ![n, 1]⟩ ![])
    (hcol : (⟨2, ![n, 1]⟩ : Shape).BroadcastsInDim ⟨2, ![n, 128]⟩ ![0, 1]) :
    addf
      (addf
        (Host.dotGeneral (F := Ideal) D none h
          (transpose S128x128 [1, 0] (shapeCast S128x128 (extractStridedSlice S1x1x128x128 ![lo, ko, 0, 0] Ws hsW) hcW) hT))
        (broadcastInDim ⟨2, ![n, 128]⟩ ![0, 1] hb2
          (broadcastInDim S1x128 ![1] hb1 (shapeCast S128 (extractStridedSlice S1x1x128 ![lo, ko, 0] bs hsB) hcB))))
      (Host.dotGeneral (F := Ideal) D none
        (Host.divf ssum (broadcastInDim ⟨2, ![n, 128]⟩ ![0, 1] hcol
          (maximumf cnt (broadcastInDim ⟨2, ![n, 1]⟩ ![] hone (constant (F := Ideal) S_ .f32 0x3F800000#32)))))
        (transpose S128x128 [1, 0] (shapeCast S128x128 (extractStridedSlice S1x1x128x128 ![lo, ko, 0, 0] Wn hsW) hcW) hT))
      = Sage.conv h Ws Wn bs l k ssum cnt := by
  subst hD
  funext i
  obtain ⟨a, o, rfl⟩ : ∃ (a : Fin n) (o : Fin 128), i = ix2 a o := ⟨i 0, i 1, eq_ix2 i⟩
  rw [addf_apply, addf_apply]
  show Host.dotGeneral (F := Ideal) (DotDims.plain n 128 128) none h
        (transpose ⟨2, ![128, 128]⟩ [1, 0] (shapeCast ⟨2, ![128, 128]⟩ (extractStridedSlice ⟨4, ![1, 1, 128, 128]⟩ ![lo, ko, 0, 0] Ws hsW) hcW) hT) (ix2 a o)
      + broadcastInDim ⟨2, ![n, 128]⟩ ![0, 1] hb2
          (broadcastInDim ⟨2, ![1, 128]⟩ ![1] hb1 (shapeCast ⟨1, ![128]⟩ (extractStridedSlice ⟨3, ![1, 1, 128]⟩ ![lo, ko, 0] bs hsB) hcB)) (ix2 a o)
      + Host.dotGeneral (F := Ideal) (DotDims.plain n 128 128) none
          (Host.divf ssum (broadcastInDim ⟨2, ![n, 128]⟩ ![0, 1] hcol
            (maximumf cnt (broadcastInDim ⟨2, ![n, 1]⟩ ![] hone (constant (F := Ideal) S_ .f32 0x3F800000#32)))))
          (transpose ⟨2, ![128, 128]⟩ [1, 0] (shapeCast ⟨2, ![128, 128]⟩ (extractStridedSlice ⟨4, ![1, 1, 128, 128]⟩ ![lo, ko, 0, 0] Wn hsW) hcW) hT) (ix2 a o)
      = (∑ j : Fin 128, h (ix2 a j) * Ws (ix4 l k o j)) + bs (ix3 l k o)
          + ∑ j : Fin 128, Ideal.div (ssum (ix2 a j)) (max (cnt (ix2 a (0 : Fin 1))) 1) * Wn (ix4 l k o j)
  rw [lin_apply, lin_apply, bias_apply, sliceB_apply bs lo ko l k hl hk]
  congr 1
  · congr 1
    refine Finset.sum_congr rfl fun j _ => ?_
    rw [sliceW_apply Ws lo ko l k hl hk]
  · refine Finset.sum_congr rfl fun j _ => ?_
    rw [sliceW_apply Wn lo ko l k hl hk, hostDivf_apply, col_apply, maximumf_apply, broadcastInDim_scalar_apply,
      constant_apply, Ideal.ofBits_one_f32]

theorem leaky_eq {s : Shape} (hb : S_.BroadcastsInDim s (![] : Fin 0 → Fin s.rank)) (x : FVec Ideal s .f32) :
    select (cmpf .oge x (broadcastInDim s ![] hb (constant (F := Ideal) S_ .f32 0x00000000#32))) x
        (mulf (broadcastInDim s ![] hb (id (constant (F := Ideal) S_ .f32 0x3DCCCCCD#32))) x)
      = fun i => Sage.leaky (x i) := by
  funext i
  rw [select_apply, cmpf_apply, mulf_apply, broadcastInDim_scalar_apply, broadcastInDim_scalar_apply]
  rfl

section Program2
variable [Facts₀]
open Facts₀

theorem sumUM_eq (x : Sage.Arr (Sage.M2 200000 128)) (src dst : Sage.Ids 800000) (h : Sage.InRange 200000 src) :
    Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 dst)
        (Host.gather gather_S200000x128_S800000x1_S800000x128_1_0_n_n_0_1_1128 x
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 200000#32))) src)))
      = Sage.sumUM x src dst := by
  rw [Cert.Words.wrap_eq (n := 200000) (by norm_num) src h]
  rfl

theorem sumTM_eq (x : Sage.Arr (Sage.M2 20000 128)) (src dst : Sage.Ids 400000) (h : Sage.InRange 20000 src) :
    Host.scatterAdd scatter_S50000x128_S400000x1_S400000x128_1_0_0_1
        (broadcastInDim S50000x128 ![] bcast_S_S50000x128 (constant (F := Ideal) S_ .f32 0x00000000#32))
        (broadcastInDim S400000x1 ![0] bcast_S400000_S400000x1_0 dst)
        (Host.gather gather_S20000x128_S400000x1_S400000x128_1_0_n_n_0_1_1128 x
          (broadcastInDim S400000x1 ![0] bcast_S400000_S400000x1_0
            (select (cmpi .slt src (broadcastInDim S400000 ![] bcast_S_S400000 (constantI S_ 32 0#32)))
              (addi src (broadcastInDim S400000 ![] bcast_S_S400000 (constantI S_ 32 20000#32))) src)))
      = Sage.sumTM x src dst := by
  rw [Cert.Words.wrap_eq (n := 20000) (by norm_num) src h]
  rfl

theorem sumMU_eq (x : Sage.Arr (Sage.M2 50000 128)) (src dst : Sage.Ids 800000) (h : Sage.InRange 50000 src) :
    Host.scatterAdd scatter_S200000x128_S800000x1_S800000x128_1_0_0_1
        (broadcastInDim S200000x128 ![] bcast_S_S200000x128 (constant (F := Ideal) S_ .f32 0x00000000#32))
        (broadcastInDim S800000x1 ![0] bcast_S800000_S800000x1_0 dst)
        (Host.gather gather_S50000x128_S800000x1_S800000x128_1_0_n_n_0_1_1128 x
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src)))
      = Sage.sumMU x src dst := by
  rw [Cert.Words.wrap_eq (n := 50000) (by norm_num) src h]
  rfl

theorem sumMT_eq (x : Sage.Arr (Sage.M2 50000 128)) (src dst : Sage.Ids 400000) (h : Sage.InRange 50000 src) :
    Host.scatterAdd scatter_S20000x128_S400000x1_S400000x128_1_0_0_1
        (broadcastInDim S20000x128 ![] bcast_S_S20000x128 (constant (F := Ideal) S_ .f32 0x00000000#32))
        (broadcastInDim S400000x1 ![0] bcast_S400000_S400000x1_0 dst)
        (Host.gather gather_S50000x128_S400000x1_S400000x128_1_0_n_n_0_1_1128 x
          (broadcastInDim S400000x1 ![0] bcast_S400000_S400000x1_0
            (select (cmpi .slt src (broadcastInDim S400000 ![] bcast_S_S400000 (constantI S_ 32 0#32)))
              (addi src (broadcastInDim S400000 ![] bcast_S_S400000 (constantI S_ 32 50000#32))) src)))
      = Sage.sumMT x src dst := by
  rw [Cert.Words.wrap_eq (n := 50000) (by norm_num) src h]
  rfl

theorem degM1_eq (dst : Sage.Ids 800000) :
    Host.scatterAdd scatter_S50000x1_S800000x1_S800000x1_1_0_0_1
        (broadcastInDim S50000x1 ![] bcast_S_S50000x1 (constant (F := Ideal) S_ .f32 0x00000000#32))
        (broadcastInDim S800000x1 ![0] bcast_S800000_S800000x1_0 dst)
        (broadcastInDim S800000x1 ![] bcast_S_S800000x1 (constant (F := Ideal) S_ .f32 0x3F800000#32))
      = Sage.degM1 dst := rfl

theorem degM2_eq (dst : Sage.Ids 400000) :
    Host.scatterAdd scatter_S50000x1_S400000x1_S400000x1_1_0_0_1
        (broadcastInDim S50000x1 ![] bcast_S_S50000x1 (constant (F := Ideal) S_ .f32 0x00000000#32))
        (broadcastInDim S400000x1 ![0] bcast_S400000_S400000x1_0 dst)
        (broadcastInDim S400000x1 ![] bcast_S_S400000x1 (constant (F := Ideal) S_ .f32 0x3F800000#32))
      = Sage.degM2 dst := rfl

theorem degU_eq (dst : Sage.Ids 800000) :
    Host.scatterAdd scatter_S200000x1_S800000x1_S800000x1_1_0_0_1
        (broadcastInDim S200000x1 ![] bcast_S_S200000x1 (constant (F := Ideal) S_ .f32 0x00000000#32))
        (broadcastInDim S800000x1 ![0] bcast_S800000_S800000x1_0 dst)
        (broadcastInDim S800000x1 ![] bcast_S_S800000x1 (constant (F := Ideal) S_ .f32 0x3F800000#32))
      = Sage.degU dst := rfl

theorem degT_eq (dst : Sage.Ids 400000) :
    Host.scatterAdd scatter_S20000x1_S400000x1_S400000x1_1_0_0_1
        (broadcastInDim S20000x1 ![] bcast_S_S20000x1 (constant (F := Ideal) S_ .f32 0x00000000#32))
        (broadcastInDim S400000x1 ![0] bcast_S400000_S400000x1_0 dst)
        (broadcastInDim S400000x1 ![] bcast_S_S400000x1 (constant (F := Ideal) S_ .f32 0x3F800000#32))
      = Sage.degT dst := rfl

end Program2

end Cert.ReferenceIdeal.RefFn

end
-- ==== Proof.RefVals0.lean ====
/-
  The reference's first layer read window by window over the extended reals: the movie projection, the three SAGE
  pre-activations and their LeakyReLU, each the specification's term of the launch arrays.
-/
import proofs.«428332_j82145544503775_2_alg».proof.Proof.RefOps
import proofs.«428332_j82145544503775_2_alg».proof.Proof.RefFn

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

section Args
variable {F : FTy → Type} [FloatOps F] (X : Valuation τ sig (Elt F)) {r : Ref sig .tc}

abbrev argRefs : List (Ref sig .tc) :=
  [main_arg0, main_arg1, main_arg2, main_arg3, main_arg4, main_arg5, main_arg6, main_arg7, main_arg8, main_arg9, main_arg10, main_arg11]

-- No operation of the function writes an argument, so an argument's buffer reads the same after every window.
theorem arg_not_written : ∀ r ∈ argRefs, r ∉ ops_part0_W ∧ r ∉ ops_part1_W ∧ r ∉ ops_part2_W ∧ r ∉ ops_part3_W ∧ r ∉ ops_part4_W ∧ r ∉ ops_part5_W := by
  decide

theorem val1_arg (h : r ∈ argRefs) : val1 X (no_index (Proc.devRef .tc r)) = X (Proc.devRef .tc r) :=
  (val1_keep X r (arg_not_written r h).1).trans rfl
theorem val2_arg (h : r ∈ argRefs) : val2 X (no_index (Proc.devRef .tc r)) = X (Proc.devRef .tc r) :=
  (val2_keep X r (arg_not_written r h).2.1).trans (val1_arg X h)
theorem val3_arg (h : r ∈ argRefs) : val3 X (no_index (Proc.devRef .tc r)) = X (Proc.devRef .tc r) :=
  (val3_keep X r (arg_not_written r h).2.2.1).trans (val2_arg X h)
theorem val4_arg (h : r ∈ argRefs) : val4 X (no_index (Proc.devRef .tc r)) = X (Proc.devRef .tc r) :=
  (val4_keep X r (arg_not_written r h).2.2.2.1).trans (val3_arg X h)
theorem val5_arg (h : r ∈ argRefs) : val5 X (no_index (Proc.devRef .tc r)) = X (Proc.devRef .tc r) :=
  (val5_keep X r (arg_not_written r h).2.2.2.2.1).trans (val4_arg X h)
theorem arg_keep (h : r ∈ argRefs) : after ops X (Proc.devRef .tc r) = X (Proc.devRef .tc r) :=
  (congrFun (after_ops X) _).trans ((val6_keep X r (arg_not_written r h).2.2.2.2.2).trans (val5_arg X h))

end Args

section Launch
variable (X : Valuation τ sig (Elt Ideal))

abbrev aG : Sage.Arr (Sage.M2 50000 64) := X (Proc.devRef .tc main_arg0)
abbrev aU : Sage.Arr (Sage.M2 200000 128) := X (Proc.devRef .tc main_arg1)
abbrev aT : Sage.Arr (Sage.M2 20000 128) := X (Proc.devRef .tc main_arg2)
abbrev aMW : Sage.Arr (Sage.M2 128 64) := X (Proc.devRef .tc main_arg3)
abbrev aMb : Sage.Arr (Sage.V1 128) := X (Proc.devRef .tc main_arg4)
abbrev aWn : Sage.Arr (Sage.T4 2 4 128 128) := X (Proc.devRef .tc main_arg5)
abbrev aWs : Sage.Arr (Sage.T4 2 4 128 128) := X (Proc.devRef .tc main_arg6)
abbrev aBs : Sage.Arr (Sage.T3 2 4 128) := X (Proc.devRef .tc main_arg7)
abbrev aRu : Sage.Ids 800000 := X (Proc.devRef .tc main_arg8)
abbrev aRm : Sage.Ids 800000 := X (Proc.devRef .tc main_arg9)
abbrev aTm : Sage.Ids 400000 := X (Proc.devRef .tc main_arg10)
abbrev aTt : Sage.Ids 400000 := X (Proc.devRef .tc main_arg11)

end Launch

set_option maxRecDepth 8192 in
set_option maxHeartbeats 2000000 in
theorem val1_main_v4 (X : Valuation τ sig (Elt Ideal)) : val1 X (no_index (Proc.devRef .tc main_v4)) = Sage.hm0 (aG X) (aMW X) (aMb X) := by
  unfold val1 val0
  simp only [ops_part0]
  after_results_simp
  exact RefFn.proj_eq _ _ _

set_option maxRecDepth 8192 in
set_option maxHeartbeats 2000000 in
theorem val1_main_v36 (X : Valuation τ sig (Elt Ideal)) (h8 : Sage.InRange 200000 (aRu X)) :
    val1 X (no_index (Proc.devRef .tc main_v36)) = Sage.conv (Sage.hm0 (aG X) (aMW X) (aMb X)) (aWs X) (aWn X) (aBs X) 0 0 (Sage.sumUM (aU X) (aRu X) (aRm X)) (Sage.degM1 (aRm X)) := by
  unfold val1 val0
  simp only [ops_part0]
  after_results_simp
  rw [RefFn.proj_eq, RefFn.sumUM_eq _ _ _ h8, RefFn.degM1_eq]
  exact RefFn.conv_gen dot_S50000x128_S128x128_S50000x128_1_0_0_1_n_n rfl 0 0 0 0 rfl rfl _ _ _ _ _ _ _ _ _ _ _ _ _ _ _

set_option maxRecDepth 8192 in
set_option maxHeartbeats 2000000 in
theorem val1_main_v38 (X : Valuation τ sig (Elt Ideal)) : val1 X (no_index (Proc.devRef .tc main_v38)) = shapeCast S128x128 (extractStridedSlice S1x1x128x128 ![0, 3, 0, 0] (aWn X) slices_S2x4x128x128_S1x1x128x128_0_3_0_0) shapeCasts_S1x1x128x128_S128x128 := by
  unfold val1 val0
  simp only [ops_part0]
  after_results_simp
  rfl

set_option maxRecDepth 8192 in
set_option maxHeartbeats 2000000 in
theorem val1_main_v40 (X : Valuation τ sig (Elt Ideal)) : val1 X (no_index (Proc.devRef .tc main_v40)) = shapeCast S128x128 (extractStridedSlice S1x1x128x128 ![0, 3, 0, 0] (aWs X) slices_S2x4x128x128_S1x1x128x128_0_3_0_0) shapeCasts_S1x1x128x128_S128x128 := by
  unfold val1 val0
  simp only [ops_part0]
  after_results_simp
  rfl

set_option maxRecDepth 8192 in
set_option maxHeartbeats 2000000 in
theorem val1_main_v42 (X : Valuation τ sig (Elt Ideal)) : val1 X (no_index (Proc.devRef .tc main_v42)) = shapeCast S128 (extractStridedSlice S1x1x128 ![0, 3, 0] (aBs X) slices_S2x4x128_S1x1x128_0_3_0) shapeCasts_S1x1x128_S128 := by
  unfold val1 val0
  simp only [ops_part0]
  after_results_simp
  rfl

set_option maxRecDepth 8192 in
set_option maxHeartbeats 2000000 in
theorem val1_main_v49 (X : Valuation τ sig (Elt Ideal)) :
    val1 X (no_index (Proc.devRef .tc main_v49)) = Host.gather gather_S20000x128_S400000x1_S400000x128_1_0_n_n_0_1_1128 (aT X)
      (broadcastInDim S400000x1 ![0] bcast_S400000_S400000x1_0
        (select (cmpi .slt (aTt X) (broadcastInDim S400000 ![] bcast_S_S400000 (constantI S_ 32 0#32)))
          (addi (aTt X) (broadcastInDim S400000 ![] bcast_S_S400000 (constantI S_ 32 20000#32))) (aTt X))) := by
  unfold val1 val0
  simp only [ops_part0]
  after_results_simp

set_option maxRecDepth 8192 in
set_option maxHeartbeats 2000000 in
theorem val1_main_v50 (X : Valuation τ sig (Elt Ideal)) :
    val1 X (no_index (Proc.devRef .tc main_v50)) = broadcastInDim S50000x128 ![] bcast_S_S50000x128 (constant (F := Ideal) S_ .f32 0x00000000#32) := by
  unfold val1 val0
  simp only [ops_part0]
  after_results_simp

theorem val2_main_v4 (X : Valuation τ sig (Elt Ideal)) : val2 X (no_index (Proc.devRef .tc main_v4)) = Sage.hm0 (aG X) (aMW X) (aMb X) :=
  (val2_keep X main_v4 (by decide)).trans (val1_main_v4 X)

set_option maxRecDepth 8192 in
set_option maxHeartbeats 2000000 in
theorem val2_main_v69 (X : Valuation τ sig (Elt Ideal)) (h8 : Sage.InRange 200000 (aRu X)) (h11 : Sage.InRange 20000 (aTt X)) :
    val2 X (no_index (Proc.devRef .tc main_v69)) = addf (Sage.conv (Sage.hm0 (aG X) (aMW X) (aMb X)) (aWs X) (aWn X) (aBs X) 0 0 (Sage.sumUM (aU X) (aRu X) (aRm X)) (Sage.degM1 (aRm X))) (Sage.conv (Sage.hm0 (aG X) (aMW X) (aMb X)) (aWs X) (aWn X) (aBs X) 0 3 (Sage.sumTM (aT X) (aTt X) (aTm X)) (Sage.degM2 (aTm X))) := by
  unfold val2
  simp only [ops_part1]
  after_results_simp
  simp (disch := decide) only [val1_main_v4, val1_main_v36 X h8, val1_main_v38, val1_main_v40, val1_main_v42, val1_main_v49, val1_main_v50, val1_arg]
  rw [RefFn.sumTM_eq _ _ _ h11, RefFn.degM2_eq, RefFn.conv_gen dot_S50000x128_S128x128_S50000x128_1_0_0_1_n_n rfl 0 3 0 3 rfl rfl]

set_option maxRecDepth 8192 in
set_option maxHeartbeats 2000000 in
theorem val2_main_v101 (X : Valuation τ sig (Elt Ideal)) (h9 : Sage.InRange 50000 (aRm X)) : val2 X (no_index (Proc.devRef .tc main_v101)) = Sage.conv (aU X) (aWs X) (aWn X) (aBs X) 0 1 (Sage.sumMU (Sage.hm0 (aG X) (aMW X) (aMb X)) (aRm X) (aRu X)) (Sage.degU (aRu X)) := by
  unfold val2
  simp only [ops_part1]
  after_results_simp
  simp (disch := decide) only [val1_main_v4, val1_arg]
  rw [RefFn.sumMU_eq _ _ _ h9, RefFn.degU_eq]
  exact RefFn.conv_gen dot_S200000x128_S128x128_S200000x128_1_0_0_1_n_n rfl 0 1 0 1 rfl rfl _ _ _ _ _ _ _ _ _ _ _ _ _ _ _

set_option maxRecDepth 8192 in
set_option maxHeartbeats 2000000 in
theorem val3_main_v133 (X : Valuation τ sig (Elt Ideal)) (h10 : Sage.InRange 50000 (aTm X)) : val3 X (no_index (Proc.devRef .tc main_v133)) = Sage.conv (aT X) (aWs X) (aWn X) (aBs X) 0 2 (Sage.sumMT (Sage.hm0 (aG X) (aMW X) (aMb X)) (aTm X) (aTt X)) (Sage.degT (aTt X)) := by
  unfold val3
  simp only [ops_part2]
  after_results_simp
  simp (disch := decide) only [val2_main_v4, val2_arg]
  rw [RefFn.sumMT_eq _ _ _ h10, RefFn.degT_eq]
  exact RefFn.conv_gen dot_S20000x128_S128x128_S20000x128_1_0_0_1_n_n rfl 0 2 0 2 rfl rfl _ _ _ _ _ _ _ _ _ _ _ _ _ _ _

set_option maxRecDepth 8192 in
set_option maxHeartbeats 2000000 in
theorem val3_hu1 (X : Valuation τ sig (Elt Ideal)) (h8 : Sage.InRange 200000 (aRu X)) (h9 : Sage.InRange 50000 (aRm X)) (h10 : Sage.InRange 50000 (aTm X)) (h11 : Sage.InRange 20000 (aTt X)) :
    val3 X (Proc.devRef .tc main_v134) = Sage.hu1 (aG X) (aU X) (aMW X) (aMb X) (aWn X) (aWs X) (aBs X) (aRu X) (aRm X) := by
  unfold val3
  simp only [ops_part2]
  after_results_simp
  simp only [val2_main_v101 X h9]
  exact (RefFn.leaky_eq bcast_S_S200000x128 _).trans rfl

set_option maxRecDepth 8192 in
set_option maxHeartbeats 2000000 in
theorem val3_hm1 (X : Valuation τ sig (Elt Ideal)) (h8 : Sage.InRange 200000 (aRu X)) (h9 : Sage.InRange 50000 (aRm X)) (h10 : Sage.InRange 50000 (aTm X)) (h11 : Sage.InRange 20000 (aTt X)) :
    val3 X (Proc.devRef .tc main_v135) = Sage.hm1 (aG X) (aU X) (aT X) (aMW X) (aMb X) (aWn X) (aWs X) (aBs X) (aRu X) (aRm X) (aTm X) (aTt X) := by
  unfold val3
  simp only [ops_part2]
  after_results_simp
  simp only [val2_main_v69 X h8 h11]
  exact (RefFn.leaky_eq bcast_S_S50000x128 _).trans rfl

set_option maxRecDepth 8192 in
set_option maxHeartbeats 2000000 in
theorem val3_ht1 (X : Valuation τ sig (Elt Ideal)) (h8 : Sage.InRange 200000 (aRu X)) (h9 : Sage.InRange 50000 (aRm X)) (h10 : Sage.InRange 50000 (aTm X)) (h11 : Sage.InRange 20000 (aTt X)) :
    val3 X (Proc.devRef .tc main_v136) = Sage.ht1 (aG X) (aT X) (aMW X) (aMb X) (aWn X) (aWs X) (aBs X) (aTm X) (aTt X) := by
  unfold val3
  simp only [ops_part2]
  after_results_simp
  simp (disch := decide) only [val2_main_v4, val2_arg]
  have key : ∀ p q : Sage.Arr (Sage.M2 20000 128), p = q →
      (fun i => Sage.leaky (p i)) = fun i => Sage.leaky (q i) := fun _ _ h => h ▸ rfl
  refine (RefFn.leaky_eq bcast_S_S20000x128 _).trans (key _ _ ?_)
  rw [RefFn.sumMT_eq _ _ _ h10, RefFn.degT_eq]
  exact RefFn.conv_gen dot_S20000x128_S128x128_S20000x128_1_0_0_1_n_n rfl 0 2 0 2 rfl rfl _ _ _ _ _ _ _ _ _ _ _ _ _ _ _

end Cert.ReferenceIdeal.RefRun

end
-- ==== Proof.RefVals.lean ====
/-
  The reference's second layer and its two results, read window by window over the extended reals.
-/
import proofs.«428332_j82145544503775_2_alg».proof.Proof.RefOps
import proofs.«428332_j82145544503775_2_alg».proof.Proof.RefFn
import proofs.«428332_j82145544503775_2_alg».proof.Proof.RefVals0

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

abbrev Vals := Valuation τ sig (Elt Ideal)

set_option maxRecDepth 8192 in
set_option maxHeartbeats 2000000 in
theorem val3_main_v138 (X : Vals) : val3 X (no_index (Proc.devRef .tc main_v138))
    = shapeCast S128x128 (extractStridedSlice S1x1x128x128 ![1, 0, 0, 0] (aWn X) slices_S2x4x128x128_S1x1x128x128_1_0_0_0) shapeCasts_S1x1x128x128_S128x128 := by
  unfold val3
  simp only [ops_part2]
  after_results_simp
  simp (disch := decide) only [val2_arg] <;> rfl

set_option maxRecDepth 8192 in
set_option maxHeartbeats 2000000 in
theorem val3_main_v140 (X : Vals) : val3 X (no_index (Proc.devRef .tc main_v140))
    = shapeCast S128x128 (extractStridedSlice S1x1x128x128 ![1, 0, 0, 0] (aWs X) slices_S2x4x128x128_S1x1x128x128_1_0_0_0) shapeCasts_S1x1x128x128_S128x128 := by
  unfold val3
  simp only [ops_part2]
  after_results_simp
  simp (disch := decide) only [val2_arg] <;> rfl

set_option maxRecDepth 8192 in
set_option maxHeartbeats 2000000 in
theorem val3_main_v142 (X : Vals) : val3 X (no_index (Proc.devRef .tc main_v142))
    = shapeCast S128 (extractStridedSlice S1x1x128 ![1, 0, 0] (aBs X) slices_S2x4x128_S1x1x128_1_0_0) shapeCasts_S1x1x128_S128 := by
  unfold val3
  simp only [ops_part2]
  after_results_simp
  simp (disch := decide) only [val2_arg] <;> rfl

set_option maxRecDepth 8192 in
set_option maxHeartbeats 2000000 in
theorem val3_main_cst_27 (X : Vals) : val3 X (no_index (Proc.devRef .tc main_cst_27)) = constant (F := Ideal) S_ .f32 0x00000000#32 := by
  unfold val3
  simp only [ops_part2]
  after_results_simp

set_option maxRecDepth 8192 in
set_option maxHeartbeats 4000000 in
theorem val3_main_v149 (X : Vals) : val3 X (no_index (Proc.devRef .tc main_v149))
    = Host.gather gather_S200000x128_S800000x1_S800000x128_1_0_n_n_0_1_1128 (val3 X (Proc.devRef .tc main_v134))
        (broadcastInDim S800000x1 ![0] bcast_S800000_S800000x1_0
          (select (cmpi .slt (aRu X) (broadcastInDim S800000 ![] bcast_S_S800000 (constantI S_ 32 0#32)))
            (addi (aRu X) (broadcastInDim S800000 ![] bcast_S_S800000 (constantI S_ 32 200000#32)))
            (aRu X))) := by
  unfold val3
  simp only [ops_part2]
  after_results_simp
  simp (disch := decide) only [val2_arg] <;> rfl

theorem val4_main_v134 (X : Vals) : val4 X (no_index (Proc.devRef .tc main_v134)) = val3 X (Proc.devRef .tc main_v134) := val4_keep X _ (by decide)
theorem val4_main_v135 (X : Vals) : val4 X (no_index (Proc.devRef .tc main_v135)) = val3 X (Proc.devRef .tc main_v135) := val4_keep X _ (by decide)

set_option maxRecDepth 8192 in
set_option maxHeartbeats 4000000 in
theorem val4_main_v168 (X : Vals) (h8 : Sage.InRange 200000 (aRu X)) :
    val4 X (no_index (Proc.devRef .tc main_v168))
      = Sage.conv (val3 X (Proc.devRef .tc main_v135)) (aWs X) (aWn X) (aBs X) 1 0
          (Sage.sumUM (val3 X (Proc.devRef .tc main_v134)) (aRu X) (aRm X))
          (Sage.degM1 (aRm X)) := by
  unfold val4
  simp only [ops_part3]
  after_results_simp
  simp (disch := decide) only [val3_main_v138, val3_main_v140, val3_main_v142, val3_main_v149, val3_main_cst_27, val3_arg]
  rw [← RefFn.conv_gen dot_S50000x128_S128x128_S50000x128_1_0_0_1_n_n rfl 1 0 1 0 rfl rfl (val3 X (Proc.devRef .tc main_v135)) (aWs X) (aWn X) (aBs X) _ _
      slices_S2x4x128x128_S1x1x128x128_1_0_0_0 shapeCasts_S1x1x128x128_S128x128 slices_S2x4x128_S1x1x128_1_0_0 shapeCasts_S1x1x128_S128 transposes_S128x128_S128x128_1_0
      bcast_S128_S1x128_1 bcast_S1x128_S50000x128_0_1 bcast_S_S50000x1 bcast_S50000x1_S50000x128_0_1,
    ← RefFn.sumUM_eq _ _ _ h8, ← RefFn.degM1_eq]

set_option maxRecDepth 8192 in
set_option maxHeartbeats 4000000 in
theorem val4_main_v200 (X : Vals) (h11 : Sage.InRange 20000 (aTt X)) :
    val4 X (no_index (Proc.devRef .tc main_v200))
      = Sage.conv (val3 X (Proc.devRef .tc main_v135)) (aWs X) (aWn X) (aBs X) 1 3
          (Sage.sumTM (val3 X (Proc.devRef .tc main_v136)) (aTt X) (aTm X))
          (Sage.degM2 (aTm X)) := by
  unfold val4
  simp only [ops_part3]
  after_results_simp
  simp (disch := decide) only [val3_arg]
  rw [← RefFn.conv_gen dot_S50000x128_S128x128_S50000x128_1_0_0_1_n_n rfl 1 3 1 3 rfl rfl (val3 X (Proc.devRef .tc main_v135)) (aWs X) (aWn X) (aBs X) _ _
      slices_S2x4x128x128_S1x1x128x128_1_3_0_0 shapeCasts_S1x1x128x128_S128x128 slices_S2x4x128_S1x1x128_1_3_0 shapeCasts_S1x1x128_S128 transposes_S128x128_S128x128_1_0
      bcast_S128_S1x128_1 bcast_S1x128_S50000x128_0_1 bcast_S_S50000x1 bcast_S50000x1_S50000x128_0_1,
    ← RefFn.sumTM_eq _ _ _ h11, ← RefFn.degM2_eq]
  rfl

set_option maxRecDepth 8192 in
set_option maxHeartbeats 4000000 in
theorem val5_main_v201 (X : Vals) : val5 X (no_index (Proc.devRef .tc main_v201))
    = (addf (val4 X (Proc.devRef .tc main_v168) : FVec Ideal S50000x128 .f32) (val4 X (Proc.devRef .tc main_v200)) : FVec Ideal S50000x128 .f32) := by
  unfold val5
  simp only [ops_part4]
  after_results_simp

set_option maxRecDepth 8192 in
set_option maxHeartbeats 4000000 in
theorem val5_main_v233 (X : Vals) (h9 : Sage.InRange 50000 (aRm X)) :
    val5 X (no_index (Proc.devRef .tc main_v233))
      = Sage.conv (val3 X (Proc.devRef .tc main_v134)) (aWs X) (aWn X) (aBs X) 1 1
          (Sage.sumMU (val3 X (Proc.devRef .tc main_v135)) (aRm X) (aRu X))
          (Sage.degU (aRu X)) := by
  unfold val5
  simp only [ops_part4]
  after_results_simp
  simp (disch := decide) only [val4_main_v134, val4_main_v135, val4_arg]
  rw [← RefFn.conv_gen dot_S200000x128_S128x128_S200000x128_1_0_0_1_n_n rfl 1 1 1 1 rfl rfl (val3 X (Proc.devRef .tc main_v134)) (aWs X) (aWn X) (aBs X) _ _
      slices_S2x4x128x128_S1x1x128x128_1_1_0_0 shapeCasts_S1x1x128x128_S128x128 slices_S2x4x128_S1x1x128_1_1_0 shapeCasts_S1x1x128_S128 transposes_S128x128_S128x128_1_0
      bcast_S128_S1x128_1 bcast_S1x128_S200000x128_0_1 bcast_S_S200000x1 bcast_S200000x1_S200000x128_0_1,
    ← RefFn.sumMU_eq _ _ _ h9, ← RefFn.degU_eq]
  rfl

set_option maxRecDepth 8192 in
set_option maxHeartbeats 4000000 in
theorem val6_main_v266 (X : Vals) : val6 X (no_index (Proc.devRef .tc main_v266))
    = select (cmpf .oge (val5 X (Proc.devRef .tc main_v233)) (broadcastInDim S200000x128 ![] bcast_S_S200000x128 (constant (F := Ideal) S_ .f32 0x00000000#32)))
        (val5 X (Proc.devRef .tc main_v233))
        (mulf (broadcastInDim S200000x128 ![] bcast_S_S200000x128 (id (constant (F := Ideal) S_ .f32 0x3DCCCCCD#32))) (val5 X (Proc.devRef .tc main_v233))) := by
  unfold val6
  simp only [ops_part5]
  after_results_simp
  rfl

set_option maxRecDepth 8192 in
set_option maxHeartbeats 4000000 in
theorem val6_main_v267 (X : Vals) : val6 X (no_index (Proc.devRef .tc main_v267))
    = select (cmpf .oge (val5 X (Proc.devRef .tc main_v201)) (broadcastInDim S50000x128 ![] bcast_S_S50000x128 (constant (F := Ideal) S_ .f32 0x00000000#32)))
        (val5 X (Proc.devRef .tc main_v201))
        (mulf (broadcastInDim S50000x128 ![] bcast_S_S50000x128 (id (constant (F := Ideal) S_ .f32 0x3DCCCCCD#32))) (val5 X (Proc.devRef .tc main_v201))) := by
  unfold val6
  simp only [ops_part5]
  after_results_simp
  rfl

theorem out_u_of (X : Vals) (h9 : Sage.InRange 50000 (aRm X))
    (e134 : val3 X (Proc.devRef .tc main_v134) = Sage.hu1 (aG X) (aU X) (aMW X) (aMb X) (aWn X) (aWs X) (aBs X) (aRu X) (aRm X))
    (e135 : val3 X (Proc.devRef .tc main_v135) = Sage.hm1 (aG X) (aU X) (aT X) (aMW X) (aMb X) (aWn X) (aWs X) (aBs X) (aRu X) (aRm X) (aTm X) (aTt X)) :
    after ops X (Proc.devRef .tc main_v266) = Sage.outU (aG X) (aU X) (aT X) (aMW X) (aMb X) (aWn X) (aWs X) (aBs X) (aRu X) (aRm X) (aTm X) (aTt X) := by
  rw [after_ops]
  refine (val6_main_v266 X).trans ?_
  rw [val5_main_v233 X h9, e134, e135]
  exact (RefFn.leaky_eq bcast_S_S200000x128 _).trans rfl

theorem out_m_of (X : Vals) (h8 : Sage.InRange 200000 (aRu X)) (h11 : Sage.InRange 20000 (aTt X))
    (e134 : val3 X (Proc.devRef .tc main_v134) = Sage.hu1 (aG X) (aU X) (aMW X) (aMb X) (aWn X) (aWs X) (aBs X) (aRu X) (aRm X))
    (e135 : val3 X (Proc.devRef .tc main_v135) = Sage.hm1 (aG X) (aU X) (aT X) (aMW X) (aMb X) (aWn X) (aWs X) (aBs X) (aRu X) (aRm X) (aTm X) (aTt X))
    (e136 : val3 X (Proc.devRef .tc main_v136) = Sage.ht1 (aG X) (aT X) (aMW X) (aMb X) (aWn X) (aWs X) (aBs X) (aTm X) (aTt X)) :
    after ops X (Proc.devRef .tc main_v267) = Sage.outM (aG X) (aU X) (aT X) (aMW X) (aMb X) (aWn X) (aWs X) (aBs X) (aRu X) (aRm X) (aTm X) (aTt X) := by
  rw [after_ops]
  refine (val6_main_v267 X).trans ?_
  rw [val5_main_v201, val4_main_v168 X h8, val4_main_v200 X h11, e134, e135, e136]
  exact (RefFn.leaky_eq bcast_S_S50000x128 _).trans rfl

theorem out_u (X : Vals) (h8 : Sage.InRange 200000 (aRu X)) (h9 : Sage.InRange 50000 (aRm X))
    (h10 : Sage.InRange 50000 (aTm X)) (h11 : Sage.InRange 20000 (aTt X)) :
    after ops X (Proc.devRef .tc main_v266) = Sage.outU (aG X) (aU X) (aT X) (aMW X) (aMb X) (aWn X) (aWs X) (aBs X) (aRu X) (aRm X) (aTm X) (aTt X) :=
  out_u_of X h9 (val3_hu1 X h8 h9 h10 h11) (val3_hm1 X h8 h9 h10 h11)

theorem out_m (X : Vals) (h8 : Sage.InRange 200000 (aRu X)) (h9 : Sage.InRange 50000 (aRm X))
    (h10 : Sage.InRange 50000 (aTm X)) (h11 : Sage.InRange 20000 (aTt X)) :
    after ops X (Proc.devRef .tc main_v267) = Sage.outM (aG X) (aU X) (aT X) (aMW X) (aMb X) (aWn X) (aWs X) (aBs X) (aRu X) (aRm X) (aTm X) (aTt X) :=
  out_m_of X h8 h11 (val3_hu1 X h8 h9 h10 h11) (val3_hm1 X h8 h9 h10 h11) (val3_ht1 X h8 h9 h10 h11)

end Cert.ReferenceIdeal.RefVal

end
-- ==== Proof.lean ====
/-
  A two-layer GraphSAGE encoder on users, movies and tags: the tiled program and the plain reference leave the same user
  and movie features over the extended reals, whenever the four index inputs name nodes that exist.  Both results are
  stated as the specification's `Sage.outU` and `Sage.outM` of the launch arrays.
-/
import proofs.«428332_j82145544503775_2_alg».proof.Defs
import proofs.«428332_j82145544503775_2_alg».proof.Proof.Gen.Kernel
import proofs.«428332_j82145544503775_2_alg».proof.Proof.Gen.Kernel.Frame
import proofs.«428332_j82145544503775_2_alg».proof.Proof.Gen.KernelIdeal
import proofs.«428332_j82145544503775_2_alg».proof.Proof.Gen.KernelIdeal.Frame
import proofs.«428332_j82145544503775_2_alg».proof.Proof.Gen.ReferenceIdeal
import proofs.«428332_j82145544503775_2_alg».proof.Proof.Gen.Pre_finite_inputs
import proofs.«428332_j82145544503775_2_alg».proof.Proof.Spec
import proofs.«428332_j82145544503775_2_alg».proof.Proof.Range
import proofs.«428332_j82145544503775_2_alg».proof.Proof.KRun
import proofs.«428332_j82145544503775_2_alg».proof.Proof.KChainC
import proofs.«428332_j82145544503775_2_alg».proof.Proof.RefOps
import proofs.«428332_j82145544503775_2_alg».proof.Proof.RefVals

set_option maxRecDepth 16384

noncomputable section

namespace Cert.Proof

open Idealize.ShloMosaic Idealize.ShloMosaic.TcCoe Idealize.SL.Sem Idealize.ShloMosaic.StableHlo
open Cert.ReferenceIdeal Cert.KernelIdeal.Chain

theorem frame_kernel : Cert.frame_Kernel := fun m ρ _ => Cert.Kernel.Gen.frame m ρ

theorem frame_kernelIdeal : Cert.frame_KernelIdeal := fun m ρ _ => Cert.KernelIdeal.Gen.frame m ρ

-- The reference's run leaves every buffer at the fold of its operations, and no operation writes an argument.
theorem frame_referenceIdeal : Cert.frame_ReferenceIdeal := fun m ρ _ =>
  (θ_run Cert.ReferenceIdeal.defs _ _).mono (fun r h c =>
    have k : ∀ b ∈ RefRun.argRefs, r.2.mem ((c.tc : Thread nD τ).loc b) = m ((c.tc : Thread nD τ).loc b) :=
      fun b hb => (h c b).trans (RefRun.arg_keep _ hb)
    ⟨k main_arg0 (by decide), k main_arg1 (by decide), k main_arg2 (by decide), k main_arg3 (by decide),
     k main_arg4 (by decide), k main_arg5 (by decide), k main_arg6 (by decide), k main_arg7 (by decide),
     k main_arg8 (by decide), k main_arg9 (by decide), k main_arg10 (by decide), k main_arg11 (by decide)⟩)
    (RefRun.run_main (F := Ideal) m ρ)

theorem preserves : Cert.preserves_Kernel_KernelIdeal := trivial

-- Both runs end at the specification's features of the kernel program's launch arrays; the reference's launch arrays are the same.
theorem algebraic : Cert.algebraic_KernelIdeal_ReferenceIdeal := by
  intro m ρ m' ρ' hpre hagree
  have hR : ∀ c, Ranges m c := fun c => by
    obtain ⟨h8, h9, h10, h11⟩ := Cert.Range.ranges_of_pre _ _ _ _ _ _ _ _ _ _ _ _ (hpre c)
    exact ⟨h8, h9, h10, h11⟩
  refine ⟨fun c => OutU m c, fun c => OutM m c, ?_, ?_⟩
  · exact (θ_run Cert.KernelIdeal.defs _ _).mono (fun r h c =>
      ⟨(h c).1.trans (kernel_u m ρ c (hR c)), (h c).2.1.trans (kernel_m m ρ c (hR c)), (h c).2.2⟩)
      (Cert.KernelIdeal.Run.run_values m ρ)
  · refine (θ_run Cert.ReferenceIdeal.defs _ _).mono (fun r h c => ?_) (RefRun.run_main (F := Ideal) m' ρ')
    obtain ⟨e0, e1, e2, e3, e4, e5, e6, e7, e8, e9, e10, e11⟩ := hagree c
    have E0 : RefRun.aG (launchContents m' c) = aG m c := e0
    have E1 : RefRun.aU (launchContents m' c) = aU m c := e1
    have E2 : RefRun.aT (launchContents m' c) = aT m c := e2
    have E3 : RefRun.aMW (launchContents m' c) = aMW m c := e3
    have E4 : RefRun.aMb (launchContents m' c) = aMb m c := e4
    have E5 : RefRun.aWn (launchContents m' c) = aWn m c := e5
    have E6 : RefRun.aWs (launchContents m' c) = aWs m c := e6
    have E7 : RefRun.aBs (launchContents m' c) = aBs m c := e7
    have E8 : RefRun.aRu (launchContents m' c) = aRu m c := e8
    have E9 : RefRun.aRm (launchContents m' c) = aRm m c := e9
    have E10 : RefRun.aTm (launchContents m' c) = aTm m c := e10
    have E11 : RefRun.aTt (launchContents m' c) = aTt m c := e11
    have k8 : Sage.InRange 200000 (RefRun.aRu (launchContents m' c)) := E8 ▸ (hR c).ru
    have k9 : Sage.InRange 50000 (RefRun.aRm (launchContents m' c)) := E9 ▸ (hR c).rm
    have k10 : Sage.InRange 50000 (RefRun.aTm (launchContents m' c)) := E10 ▸ (hR c).tm
    have k11 : Sage.InRange 20000 (RefRun.aTt (launchContents m' c)) := E11 ▸ (hR c).tt
    have k : ∀ b ∈ RefRun.argRefs, r.2.mem ((c.tc : Thread nD τ).loc b) = m' ((c.tc : Thread nD τ).loc b) :=
      fun b hb => (h c b).trans (RefRun.arg_keep _ hb)
    refine ⟨(h c main_v266).trans ((RefVal.out_u (launchContents m' c) k8 k9 k10 k11).trans ?_),
      (h c main_v267).trans ((RefVal.out_m (launchContents m' c) k8 k9 k10 k11).trans ?_),
      k main_arg0 (by decide), k main_arg1 (by decide), k main_arg2 (by decide), k main_arg3 (by decide),
      k main_arg4 (by decide), k main_arg5 (by decide), k main_arg6 (by decide), k main_arg7 (by decide),
      k main_arg8 (by decide), k main_arg9 (by decide), k main_arg10 (by decide), k main_arg11 (by decide)⟩ <;>
      rw [E0, E1, E2, E3, E4, E5, E6, E7, E8, E9, E10, E11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
